-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![3072, 3072]⟩ ⟨2, ![6144, 6144]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![3072, 3072]⟩ ⟨2, ![6144, 6144]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S3072x3072 : Shape := ⟨2, ![3072, 3072]⟩
abbrev S_ : Shape := ⟨0, ![]⟩

class Facts : Prop where
  bcast_S_S3072x3072 : S_.BroadcastsInDim S3072x3072 (![] : Fin 0 → Fin S3072x3072.rank)
  reducesTo_S3072x3072_S_d0_1 : S3072x3072.ReducesTo [0, 1] S_
  h_S_ : 0 < S_.numel

variable [Facts]

def fn {F : FTy → Type} [FloatOps F] (main_arg0 : FVec F S3072x3072 .f32) : IVec S_ 1 :=
  let main_v0 : FVec F S3072x3072 .f32 := Host.absf main_arg0
  let main_cst : FVec F S_ .f32 := constant S_ .f32 0x7F800000#32
  let main_v1 : FVec F S3072x3072 .f32 := broadcastInDim S3072x3072 ![] bcast_S_S3072x3072 main_cst
  let main_v2 : IVec S3072x3072 1 := cmpf .olt main_v0 main_v1
  let main_c : IVec S_ 1 := constantI S_ 1 1#1
  let main_v3 : IVec S_ 1 := (fun x v => Host.reduce IntOp.andi x v reducesTo_S3072x3072_S_d0_1 h_S_) main_v2 main_c
  main_v3
-- ==== Pre_finite_inputs_ReferenceIdeal.lean ====
abbrev S6144x6144 : Shape := ⟨2, ![6144, 6144]⟩
abbrev S_ : Shape := ⟨0, ![]⟩

class Facts : Prop where
  bcast_S_S6144x6144 : S_.BroadcastsInDim S6144x6144 (![] : Fin 0 → Fin S6144x6144.rank)
  reducesTo_S6144x6144_S_d0_1 : S6144x6144.ReducesTo [0, 1] S_
  h_S_ : 0 < S_.numel

variable [Facts]

def fn {F : FTy → Type} [FloatOps F] (main_arg0 : FVec F S6144x6144 .f32) : IVec S_ 1 :=
  let main_v0 : FVec F S6144x6144 .f32 := Host.absf main_arg0
  let main_cst : FVec F S_ .f32 := constant S_ .f32 0x7F800000#32
  let main_v1 : FVec F S6144x6144 .f32 := broadcastInDim S6144x6144 ![] bcast_S_S6144x6144 main_cst
  let main_v2 : IVec S6144x6144 1 := cmpf .olt main_v0 main_v1
  let main_c : IVec S_ 1 := constantI S_ 1 1#1
  let main_v3 : IVec S_ 1 := (fun x v => Host.reduce IntOp.andi x v reducesTo_S6144x6144_S_d0_1 h_S_) main_v2 main_c
  main_v3
-- ==== Kernel.lean ====
abbrev S3072x3072 : Shape := ⟨2, ![3072, 3072]⟩
abbrev S2x528x3072 : Shape := ⟨3, ![2, 528, 3072]⟩
abbrev S2x512x3072 : Shape := ⟨3, ![2, 512, 3072]⟩
abbrev S8x3072 : Shape := ⟨2, ![8, 3072]⟩
abbrev S3072x128 : Shape := ⟨2, ![3072, 128]⟩
abbrev S3072x256 : Shape := ⟨2, ![3072, 256]⟩
abbrev S2 : Shape := ⟨1, ![2]⟩
abbrev S1 : Shape := ⟨1, ![1]⟩
abbrev S_ : Shape := ⟨0, ![]⟩
abbrev S1x520x3072 : Shape := ⟨3, ![1, 520, 3072]⟩
abbrev S520x3072 : Shape := ⟨2, ![520, 3072]⟩
abbrev S1x528x3072 : Shape := ⟨3, ![1, 528, 3072]⟩
abbrev S528x3072 : Shape := ⟨2, ![528, 3072]⟩
abbrev S1x512x3072 : Shape := ⟨3, ![1, 512, 3072]⟩
abbrev S512x3072 : Shape := ⟨2, ![512, 3072]⟩
abbrev S1x3072 : Shape := ⟨2, ![1, 3072]⟩
abbrev S1x511x3072 : Shape := ⟨3, ![1, 511, 3072]⟩
abbrev S511x3072 : Shape := ⟨2, ![511, 3072]⟩
abbrev S512x1 : Shape := ⟨2, ![512, 1]⟩
abbrev S512x3071 : Shape := ⟨2, ![512, 3071]⟩
abbrev S1x512x256 : Shape := ⟨3, ![1, 512, 256]⟩
abbrev S512x256 : Shape := ⟨2, ![512, 256]⟩
abbrev S1x1x3072 : Shape := ⟨3, ![1, 1, 3072]⟩
abbrev S3072x1 : Shape := ⟨2, ![3072, 1]⟩
abbrev S3072x127 : Shape := ⟨2, ![3072, 127]⟩
abbrev S1x128 : Shape := ⟨2, ![1, 128]⟩
abbrev S3071x128 : Shape := ⟨2, ![3071, 128]⟩

abbrev nBuf : Space → Nat
  | .hbm => 2
  | .vmem => 8
  | .smem => 0
  | _ => 0

abbrev bufTy : (tb : Table) → Fin (tcTables nBuf tb) → BufTy
  | .hbm, ⟨0, _⟩ => ⟨S3072x3072, .f32⟩
  | .hbm, ⟨1, _⟩ => ⟨S3072x3072, .f32⟩
  | .local _ .vmem, ⟨0, _⟩ => ⟨S2x528x3072, .f32⟩
  | .local _ .vmem, ⟨1, _⟩ => ⟨S2x512x3072, .f32⟩
  | .local _ .vmem, ⟨2, _⟩ => ⟨S8x3072, .f32⟩
  | .local _ .vmem, ⟨3, _⟩ => ⟨S3072x128, .f32⟩
  | .local _ .vmem, ⟨4, _⟩ => ⟨S3072x256, .f32⟩
  | .local _ .vmem, ⟨5, _⟩ => ⟨S3072x256, .f32⟩
  | .local _ .vmem, ⟨6, _⟩ => ⟨S3072x128, .f32⟩
  | .local _ .vmem, ⟨7, _⟩ => ⟨S3072x128, .f32⟩
  | _, _ => ⟨S3072x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_11 : BitVec 32 := 0#32
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_7 v2
  let c2_i32_10 : BitVec 32 := 2#32
  let v14 : BitVec 32 := Scalar.muli v12 c2_i32_10
  let v15 : BitVec 32 := Scalar.addi c0_i32_11 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v16 : BitVec 32 := Scalar.muli v5 c1_i32_12
  let v17 : BitVec 32 := Scalar.addi v15 v16
  v17.toNat
def k0_dev2 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v18 : BitVec 32 := Scalar.muli v2 c2_i32_14
  let v19 : BitVec 32 := Scalar.addi c0_i32_15 v18
  let c1_i32_8 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_8 v5
  let c1_i32_16 : BitVec 32 := 1#32
  let v20 : BitVec 32 := Scalar.muli v13 c1_i32_16
  let v21 : BitVec 32 := Scalar.addi v19 v20
  v21.toNat
def k0_mult1 (d0 : Dev nD) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v22 : BitVec 1 := Scalar.cmpi .eq v2 c0_i32_18
  let c3064_i32 : BitVec 32 := 3064#32
  let c0_i32_19 : BitVec 32 := 0#32
  let v23 : BitVec 32 := Scalar.select v22 c3064_i32 c0_i32_19
  v23
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v22 : BitVec 1 := Scalar.cmpi .eq v2 c0_i32_18
  let c3064_i32 : BitVec 32 := 3064#32
  let c0_i32_19 : BitVec 32 := 0#32
  let v23 : BitVec 32 := Scalar.select v22 c3064_i32 c0_i32_19
  let v24 : BitVec 32 := v23
  let c0_i32_26 : BitVec 32 := 0#32
  ![v24.toNat, 0]
def k0_dev3 (d0 : Dev nD) : Nat :=
  let c0_i32_24 : BitVec 32 := 0#32
  let c1_i32_20 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v25 : BitVec 32 := Scalar.subi c1_i32_20 v2
  let c2_i32_23 : BitVec 32 := 2#32
  let v26 : BitVec 32 := Scalar.muli v25 c2_i32_23
  let v27 : BitVec 32 := Scalar.addi c0_i32_24 v26
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v28 : BitVec 32 := Scalar.muli v5 c1_i32_25
  let v29 : BitVec 32 := Scalar.addi v27 v28
  v29.toNat
def k0_mult2 (d0 : Dev nD) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_27 : BitVec 32 := 0#32
  let v35 : BitVec 1 := Scalar.cmpi .eq v5 c0_i32_27
  let c2944_i32 : BitVec 32 := 2944#32
  let c0_i32_28 : BitVec 32 := 0#32
  let v36 : BitVec 32 := Scalar.select v35 c2944_i32 c0_i32_28
  v36
def k0_off2 (d0 : Dev nD) : Fin 2 → Nat :=
  let c0_i32_35 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_27 : BitVec 32 := 0#32
  let v35 : BitVec 1 := Scalar.cmpi .eq v5 c0_i32_27
  let c2944_i32 : BitVec 32 := 2944#32
  let c0_i32_28 : BitVec 32 := 0#32
  let v36 : BitVec 32 := Scalar.select v35 c2944_i32 c0_i32_28
  let v37 : BitVec 32 := v36
  ![0, v37.toNat]
def k0_dev4 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v39 : BitVec 32 := Scalar.muli v2 c2_i32_32
  let v40 : BitVec 32 := Scalar.addi c0_i32_33 v39
  let c1_i32_29 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v38 : BitVec 32 := Scalar.subi c1_i32_29 v5
  let c1_i32_34 : BitVec 32 := 1#32
  let v41 : BitVec 32 := Scalar.muli v38 c1_i32_34
  let v42 : BitVec 32 := Scalar.addi v40 v41
  v42.toNat

class Facts₀ : Prop where
  inb_S2_S1_0 : ∀ a, (![0] : Fin 1 → Nat) a + S1.size a ≤ S2.size a
  squeezes_S1_S_ : S1.Squeezes S_
  inb_S2x528x3072_S1x520x3072_0_0_0 : ∀ a, (![0, 0, 0] : Fin 3 → Nat) a + S1x520x3072.size a ≤ S2x528x3072.size a
  squeezes_S1x520x3072_S520x3072 : S1x520x3072.Squeezes S520x3072
  inb_S3072x3072_S520x3072_0_0 : ∀ a, (![0, 0] : Fin 2 → Nat) a + S520x3072.size a ≤ S3072x3072.size a
  hamt_1 : (1#32 : BitVec 32).msb = false
  hamt_2 : (2#32 : BitVec 32).msb = false
  inb_S2_S1_1 : ∀ a, (![1] : Fin 1 → Nat) a + S1.size a ≤ S2.size a
  inb_S2x528x3072_S1x528x3072_1_0_0 : ∀ a, (![1, 0, 0] : Fin 3 → Nat) a + S1x528x3072.size a ≤ S2x528x3072.size a
  squeezes_S1x528x3072_S528x3072 : S1x528x3072.Squeezes S528x3072
  inb_S3072x3072_S528x3072_504_0 : ∀ a, (![504, 0] : Fin 2 → Nat) a + S528x3072.size a ≤ S3072x3072.size a
  inb_S2x528x3072_S1x512x3072_0_0_0 : ∀ a, (![0, 0, 0] : Fin 3 → Nat) a + S1x512x3072.size a ≤ S2x528x3072.size a
  h_S1x512x3072 : 0 < S1x512x3072.numel
  shapeCasts_S1x512x3072_S512x3072 : S1x512x3072.ShapeCasts S512x3072
  inb_S8x3072_S1x3072_7_0 : ∀ a, (![7, 0] : Fin 2 → Nat) a + S1x3072.size a ≤ S8x3072.size a
  h_S1x3072 : 0 < S1x3072.numel
  inb_S2x528x3072_S1x511x3072_0_0_0 : ∀ a, (![0, 0, 0] : Fin 3 → Nat) a + S1x511x3072.size a ≤ S2x528x3072.size a
  h_S1x511x3072 : 0 < S1x511x3072.numel
  shapeCasts_S1x511x3072_S511x3072 : S1x511x3072.ShapeCasts S511x3072
  concatenates_S1x3072_S511x3072_S512x3072_d0 : Shape.Concatenates [S1x3072, S511x3072] S512x3072 0
  inb_S2x528x3072_S1x512x3072_0_1_0 : ∀ a, (![0, 1, 0] : Fin 3 → Nat) a + S1x512x3072.size a ≤ S2x528x3072.size a
  slices_S512x3072_o0_0_S512x1 : S512x3072.Slices ![0, 0] S512x1
  slices_S512x3072_o0_0_S512x3071 : S512x3072.Slices ![0, 0] S512x3071
  concatenates_S512x1_S512x3071_S512x3072_d1 : Shape.Concatenates [S512x1, S512x3071] S512x3072 1
  slices_S512x3072_o0_1_S512x3071 : S512x3072.Slices ![0, 1] S512x3071
  slices_S512x3072_o0_3071_S512x1 : S512x3072.Slices ![0, 3071] S512x1
  concatenates_S512x3071_S512x1_S512x3072_d1 : Shape.Concatenates [S512x3071, S512x1] S512x3072 1
  inb_S2x512x3072_S1x512x3072_0_0_0 : ∀ a, (![0, 0, 0] : Fin 3 → Nat) a + S1x512x3072.size a ≤ S2x512x3072.size a
  shapeCasts_S512x3072_S1x512x3072 : S512x3072.ShapeCasts S1x512x3072
  inb_S2x528x3072_S1x512x256_0_0_0 : ∀ a, (![0, 0, 0] : Fin 3 → Nat) a + S1x512x256.size a ≤ S2x528x3072.size a
  h_S1x512x256 : 0 < S1x512x256.numel
  shapeCasts_S1x512x256_S512x256 : S1x512x256.ShapeCasts S512x256
  inb_S3072x256_S512x256_0_0 : ∀ a, (![0, 0] : Fin 2 → Nat) a + S512x256.size a ≤ S3072x256.size a
  h_S512x256 : 0 < S512x256.numel
  shapeCasts_S512x256_S512x256 : S512x256.ShapeCasts S512x256
  inb_S2x528x3072_S1x512x256_0_0_2816 : ∀ a, (![0, 0, 2816] : Fin 3 → Nat) a + S1x512x256.size a ≤ S2x528x3072.size a
  inb_S2x528x3072_S1x1x3072_0_0_0 : ∀ a, (![0, 0, 0] : Fin 3 → Nat) a + S1x1x3072.size a ≤ S2x528x3072.size a
  h_S1x1x3072 : 0 < S1x1x3072.numel
  shapeCasts_S1x1x3072_S1x3072 : S1x1x3072.ShapeCasts S1x3072
  inb_S2x512x3072_S1x1x3072_0_0_0 : ∀ a, (![0, 0, 0] : Fin 3 → Nat) a + S1x1x3072.size a ≤ S2x512x3072.size a
  shapeCasts_S1x3072_S1x1x3072 : S1x3072.ShapeCasts S1x1x3072
  inb_S3072x3072_S512x3072_0_0 : ∀ a, (![0, 0] : Fin 2 → Nat) a + S512x3072.size a ≤ S3072x3072.size a
  squeezes_S1x512x3072_S512x3072 : S1x512x3072.Squeezes S512x3072
  inb_S2x528x3072_S1x528x3072_0_0_0 : ∀ a, (![0, 0, 0] : Fin 3 → Nat) a + S1x528x3072.size a ≤ S2x528x3072.size a
  inb_S3072x3072_S528x3072_1016_0 : ∀ a, (![1016, 0] : Fin 2 → Nat) a + S528x3072.size a ≤ S3072x3072.size a
  inb_S2x528x3072_S1x512x3072_1_8_0 : ∀ a, (![1, 8, 0] : Fin 3 → Nat) a + S1x512x3072.size a ≤ S2x528x3072.size a
  inb_S2x528x3072_S1x512x3072_1_7_0 : ∀ a, (![1, 7, 0] : Fin 3 → Nat) a + S1x512x3072.size a ≤ S2x528x3072.size a
  inb_S2x528x3072_S1x512x3072_1_9_0 : ∀ a, (![1, 9, 0] : Fin 3 → Nat) a + S1x512x3072.size a ≤ S2x528x3072.size a
  inb_S2x512x3072_S1x512x3072_1_0_0 : ∀ a, (![1, 0, 0] : Fin 3 → Nat) a + S1x512x3072.size a ≤ S2x512x3072.size a
  inb_S2x528x3072_S1x512x256_1_8_0 : ∀ a, (![1, 8, 0] : Fin 3 → Nat) a + S1x512x256.size a ≤ S2x528x3072.size a
  inb_S3072x256_S512x256_512_0 : ∀ a, (![512, 0] : Fin 2 → Nat) a + S512x256.size a ≤ S3072x256.size a
  inb_S2x528x3072_S1x512x256_1_8_2816 : ∀ a, (![1, 8, 2816] : Fin 3 → Nat) a + S1x512x256.size a ≤ S2x528x3072.size a
  inb_S3072x3072_S512x3072_512_0 : ∀ a, (![512, 0] : Fin 2 → Nat) a + S512x3072.size a ≤ S3072x3072.size a
  inb_S3072x3072_S528x3072_1528_0 : ∀ a, (![1528, 0] : Fin 2 → Nat) a + S528x3072.size a ≤ S3072x3072.size a
  inb_S2x528x3072_S1x512x3072_0_8_0 : ∀ a, (![0, 8, 0] : Fin 3 → Nat) a + S1x512x3072.size a ≤ S2x528x3072.size a
  inb_S2x528x3072_S1x512x3072_0_7_0 : ∀ a, (![0, 7, 0] : Fin 3 → Nat) a + S1x512x3072.size a ≤ S2x528x3072.size a
  inb_S2x528x3072_S1x512x3072_0_9_0 : ∀ a, (![0, 9, 0] : Fin 3 → Nat) a + S1x512x3072.size a ≤ S2x528x3072.size a
  inb_S2x528x3072_S1x512x256_0_8_0 : ∀ a, (![0, 8, 0] : Fin 3 → Nat) a + S1x512x256.size a ≤ S2x528x3072.size a
  inb_S3072x256_S512x256_1024_0 : ∀ a, (![1024, 0] : Fin 2 → Nat) a + S512x256.size a ≤ S3072x256.size a
  inb_S2x528x3072_S1x512x256_0_8_2816 : ∀ a, (![0, 8, 2816] : Fin 3 → Nat) a + S1x512x256.size a ≤ S2x528x3072.size a
  inb_S3072x3072_S512x3072_1024_0 : ∀ a, (![1024, 0] : Fin 2 → Nat) a + S512x3072.size a ≤ S3072x3072.size a
  inb_S3072x3072_S528x3072_2040_0 : ∀ a, (![2040, 0] : Fin 2 → Nat) a + S528x3072.size a ≤ S3072x3072.size a
  inb_S3072x256_S512x256_1536_0 : ∀ a, (![1536, 0] : Fin 2 → Nat) a + S512x256.size a ≤ S3072x256.size a
  inb_S3072x3072_S512x3072_1536_0 : ∀ a, (![1536, 0] : Fin 2 → Nat) a + S512x3072.size a ≤ S3072x3072.size a
  inb_S2x528x3072_S1x520x3072_1_0_0 : ∀ a, (![1, 0, 0] : Fin 3 → Nat) a + S1x520x3072.size a ≤ S2x528x3072.size a
  inb_S3072x3072_S520x3072_2552_0 : ∀ a, (![2552, 0] : Fin 2 → Nat) a + S520x3072.size a ≤ S3072x3072.size a
  inb_S3072x256_S512x256_2048_0 : ∀ a, (![2048, 0] : Fin 2 → Nat) a + S512x256.size a ≤ S3072x256.size a
  inb_S3072x3072_S512x3072_2048_0 : ∀ a, (![2048, 0] : Fin 2 → Nat) a + S512x3072.size a ≤ S3072x3072.size a
  inb_S2x528x3072_S1x511x3072_1_9_0 : ∀ a, (![1, 9, 0] : Fin 3 → Nat) a + S1x511x3072.size a ≤ S2x528x3072.size a
  inb_S8x3072_S1x3072_0_0 : ∀ a, (![0, 0] : Fin 2 → Nat) a + S1x3072.size a ≤ S8x3072.size a
  concatenates_S511x3072_S1x3072_S512x3072_d0 : Shape.Concatenates [S511x3072, S1x3072] S512x3072 0
  inb_S3072x256_S512x256_2560_0 : ∀ a, (![2560, 0] : Fin 2 → Nat) a + S512x256.size a ≤ S3072x256.size a
  inb_S2x528x3072_S1x1x3072_1_519_0 : ∀ a, (![1, 519, 0] : Fin 3 → Nat) a + S1x1x3072.size a ≤ S2x528x3072.size a
  inb_S2x512x3072_S1x1x3072_1_511_0 : ∀ a, (![1, 511, 0] : Fin 3 → Nat) a + S1x1x3072.size a ≤ S2x512x3072.size a
  inb_S3072x3072_S512x3072_2560_0 : ∀ a, (![2560, 0] : Fin 2 → Nat) a + S512x3072.size a ≤ S3072x3072.size a
  inb_S3072x256_S3072x128_0_0 : ∀ a, (![0, 0] : Fin 2 → Nat) a + S3072x128.size a ≤ S3072x256.size a
  h_S3072x128 : 0 < S3072x128.numel
  inb_S3072x128_S3072x1_0_127 : ∀ a, (![0, 127] : Fin 2 → Nat) a + S3072x1.size a ≤ S3072x128.size a
  h_S3072x1 : 0 < S3072x1.numel
  inb_S3072x256_S3072x127_0_0 : ∀ a, (![0, 0] : Fin 2 → Nat) a + S3072x127.size a ≤ S3072x256.size a
  h_S3072x127 : 0 < S3072x127.numel
  concatenates_S3072x1_S3072x127_S3072x128_d1 : Shape.Concatenates [S3072x1, S3072x127] S3072x128 1
  inb_S3072x256_S3072x128_0_1 : ∀ a, (![0, 1] : Fin 2 → Nat) a + S3072x128.size a ≤ S3072x256.size a
  inb_S8x3072_S1x128_7_0 : ∀ a, (![7, 0] : Fin 2 → Nat) a + S1x128.size a ≤ S8x3072.size a
  h_S1x128 : 0 < S1x128.numel
  inb_S3072x256_S3071x128_0_0 : ∀ a, (![0, 0] : Fin 2 → Nat) a + S3071x128.size a ≤ S3072x256.size a
  h_S3071x128 : 0 < S3071x128.numel
  concatenates_S1x128_S3071x128_S3072x128_d0 : Shape.Concatenates [S1x128, S3071x128] S3072x128 0
  inb_S3072x256_S3071x128_1_0 : ∀ a, (![1, 0] : Fin 2 → Nat) a + S3071x128.size a ≤ S3072x256.size a
  inb_S8x3072_S1x128_0_0 : ∀ a, (![0, 0] : Fin 2 → Nat) a + S1x128.size a ≤ S8x3072.size a
  concatenates_S3071x128_S1x128_S3072x128_d0 : Shape.Concatenates [S3071x128, S1x128] S3072x128 0
  inb_S3072x128_S3072x128_0_0 : ∀ a, (![0, 0] : Fin 2 → Nat) a + S3072x128.size a ≤ S3072x128.size a
  shapeCasts_S3072x128_S3072x128 : S3072x128.ShapeCasts S3072x128
  inb_S3072x256_S3072x1_0_0 : ∀ a, (![0, 0] : Fin 2 → Nat) a + S3072x1.size a ≤ S3072x256.size a
  inb_S3072x128_S3072x1_0_0 : ∀ a, (![0, 0] : Fin 2 → Nat) a + S3072x1.size a ≤ S3072x128.size a
  shapeCasts_S3072x1_S3072x1 : S3072x1.ShapeCasts S3072x1
  inb_S3072x256_S1x128_0_0 : ∀ a, (![0, 0] : Fin 2 → Nat) a + S1x128.size a ≤ S3072x256.size a
  inb_S3072x128_S1x128_0_0 : ∀ a, (![0, 0] : Fin 2 → Nat) a + S1x128.size a ≤ S3072x128.size a
  shapeCasts_S1x128_S1x128 : S1x128.ShapeCasts S1x128
  inb_S3072x256_S1x128_3071_0 : ∀ a, (![3071, 0] : Fin 2 → Nat) a + S1x128.size a ≤ S3072x256.size a
  inb_S3072x128_S1x128_3071_0 : ∀ a, (![3071, 0] : Fin 2 → Nat) a + S1x128.size a ≤ S3072x128.size a
  inb_S3072x256_S3072x128_0_128 : ∀ a, (![0, 128] : Fin 2 → Nat) a + S3072x128.size a ≤ S3072x256.size a
  inb_S3072x256_S3072x128_0_127 : ∀ a, (![0, 127] : Fin 2 → Nat) a + S3072x128.size a ≤ S3072x256.size a
  inb_S3072x256_S3072x127_0_129 : ∀ a, (![0, 129] : Fin 2 → Nat) a + S3072x127.size a ≤ S3072x256.size a
  concatenates_S3072x127_S3072x1_S3072x128_d1 : Shape.Concatenates [S3072x127, S3072x1] S3072x128 1
  inb_S8x3072_S1x128_7_2944 : ∀ a, (![7, 2944] : Fin 2 → Nat) a + S1x128.size a ≤ S8x3072.size a
  inb_S3072x256_S3071x128_0_128 : ∀ a, (![0, 128] : Fin 2 → Nat) a + S3071x128.size a ≤ S3072x256.size a
  inb_S3072x256_S3071x128_1_128 : ∀ a, (![1, 128] : Fin 2 → Nat) a + S3071x128.size a ≤ S3072x256.size a
  inb_S8x3072_S1x128_0_2944 : ∀ a, (![0, 2944] : Fin 2 → Nat) a + S1x128.size a ≤ S8x3072.size a
  inb_S3072x256_S3072x1_0_255 : ∀ a, (![0, 255] : Fin 2 → Nat) a + S3072x1.size a ≤ S3072x256.size a
  inb_S3072x256_S1x128_0_128 : ∀ a, (![0, 128] : Fin 2 → Nat) a + S1x128.size a ≤ S3072x256.size a
  inb_S3072x256_S1x128_3071_128 : ∀ a, (![3071, 128] : Fin 2 → Nat) a + S1x128.size a ≤ S3072x256.size a
  inb_S3072x3072_S3072x128_0_0 : ∀ a, (![0, 0] : Fin 2 → Nat) a + S3072x128.size a ≤ S3072x3072.size a
  inb_S3072x3072_S3072x128_0_2944 : ∀ a, (![0, 2944] : Fin 2 → Nat) a + S3072x128.size a ≤ S3072x3072.size a
  hcc0_scratch8 : 0 + S2.numel ≤ 10
  hcc0_scratch9 : 2 + S2.numel ≤ 10
  hcc0_scratch10 : 4 + S2.numel ≤ 10
  hcc0_scratch11 : 6 + S2.numel ≤ 10
  hcc0_scratch12 : 8 + S2.numel ≤ 10
  k0_dev1_lt : ∀ d0 : Dev nD, (k0_dev1 d0) < nD
  k0_dev2_lt : ∀ d0 : Dev nD, (k0_dev2 d0) < nD
  k0_mult1_dvd : ∀ d0 : Dev nD, 8 ∣ (k0_mult1 d0).toNat
  k0_off1_inb : ∀ d0 : Dev nD, ∀ a, (k0_off1 d0) a + S8x3072.size a ≤ S3072x3072.size a
  k0_dev3_lt : ∀ d0 : Dev nD, (k0_dev3 d0) < nD
  k0_mult2_dvd : ∀ d0 : Dev nD, 128 ∣ (k0_mult2 d0).toNat
  k0_off2_inb : ∀ d0 : Dev nD, ∀ a, (k0_off2 d0) a + S3072x128.size a ≤ S3072x3072.size a
  k0_dev4_lt : ∀ d0 : Dev nD, (k0_dev4 d0) < nD

variable [Facts₀]

abbrev cc0_scratch8 : DmaSems sig S2 := SemArray.consecutive 0 S2 hcc0_scratch8
abbrev cc0_scratch9 : DmaSems sig S2 := SemArray.consecutive 2 S2 hcc0_scratch9
abbrev cc0_scratch10 : DmaSems sig S2 := SemArray.consecutive 4 S2 hcc0_scratch10
abbrev cc0_scratch11 : DmaSems sig S2 := SemArray.consecutive 6 S2 hcc0_scratch11
abbrev cc0_scratch12 : DmaSems sig S2 := SemArray.consecutive 8 S2 hcc0_scratch12

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S6144x6144 : Shape := ⟨2, ![6144, 6144]⟩
abbrev S6142x6142 : Shape := ⟨2, ![6142, 6142]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S6144x6144, .f32⟩
  | .hbm, ⟨1, _⟩ => ⟨S6142x6142, .f32⟩
  | .hbm, ⟨2, _⟩ => ⟨S_, .f32⟩
  | .hbm, ⟨3, _⟩ => ⟨S6142x6142, .f32⟩
  | .hbm, ⟨4, _⟩ => ⟨S6142x6142, .f32⟩
  | .hbm, ⟨5, _⟩ => ⟨S6142x6142, .f32⟩
  | .hbm, ⟨6, _⟩ => ⟨S_, .f32⟩
  | .hbm, ⟨7, _⟩ => ⟨S6142x6142, .f32⟩
  | .hbm, ⟨8, _⟩ => ⟨S6142x6142, .f32⟩
  | .hbm, ⟨9, _⟩ => ⟨S6142x6142, .f32⟩
  | .hbm, ⟨10, _⟩ => ⟨S6142x6142, .f32⟩
  | .hbm, ⟨11, _⟩ => ⟨S_, .f32⟩
  | .hbm, ⟨12, _⟩ => ⟨S6142x6142, .f32⟩
  | .hbm, ⟨13, _⟩ => ⟨S6142x6142, .f32⟩
  | .hbm, ⟨14, _⟩ => ⟨S6142x6142, .f32⟩
  | .hbm, ⟨15, _⟩ => ⟨S6142x6142, .f32⟩
  | .hbm, ⟨16, _⟩ => ⟨S_, .f32⟩
  | .hbm, ⟨17, _⟩ => ⟨S6142x6142, .f32⟩
  | .hbm, ⟨18, _⟩ => ⟨S6142x6142, .f32⟩
  | .hbm, ⟨19, _⟩ => ⟨S6142x6142, .f32⟩
  | .hbm, ⟨20, _⟩ => ⟨S6142x6142, .f32⟩
  | .hbm, ⟨21, _⟩ => ⟨S_, .f32⟩
  | .hbm, ⟨22, _⟩ => ⟨S6142x6142, .f32⟩
  | .hbm, ⟨23, _⟩ => ⟨S6142x6142, .f32⟩
  | .hbm, ⟨24, _⟩ => ⟨S6142x6142, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S6144x6144, .f32⟩
  | _, _ => ⟨S6144x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  slices_S6144x6144_S6142x6142_1_1 : S6144x6144.Slices ![1, 1] S6142x6142
  bcast_S_S6142x6142 : S_.BroadcastsInDim S6142x6142 (![] : Fin 0 → Fin S6142x6142.rank)
  slices_S6144x6144_S6142x6142_0_1 : S6144x6144.Slices ![0, 1] S6142x6142
  slices_S6144x6144_S6142x6142_2_1 : S6144x6144.Slices ![2, 1] S6142x6142
  slices_S6144x6144_S6142x6142_1_0 : S6144x6144.Slices ![1, 0] S6142x6142
  slices_S6144x6144_S6142x6142_1_2 : S6144x6144.Slices ![1, 2] S6142x6142
  bcast_S_S1 : S_.BroadcastsInDim S1 (![] : Fin 0 → Fin S1.rank)
  concatenates_S1_S1_S2_d0 : Shape.Concatenates [S1, S1] S2 0
  scatter_S6144x6144_S2_S6142x6142_01_n_01_0_wf : ScatterDims.WF S6144x6144 S2 S6142x6142 [0, 1] [] [0, 1] 0

variable [Facts₀]

def scatter_S6144x6144_S2_S6142x6142_01_n_01_0 : ScatterDims S6144x6144 S2 S6142x6142 where
  updateWindowDims := [0, 1]
  insertedWindowDims := []
  scatterDimsToOperandDims := [0, 1]
  indexVectorDim := 0
  wf := scatter_S6144x6144_S2_S6142x6142_01_n_01_0_wf

class Facts : Prop extends Facts₀ where

variable [Facts]
-- ==== Proof.ProtoKernel.lean ====
import proofs.«900195_g7700000000000196_dist_halo2d_stencil_xy_m3072_n3072_v7x_xy2x2_f32_1_alg».proof.Proof.Gen.Kernel
import proofs.«900195_g7700000000000196_dist_halo2d_stencil_xy_m3072_n3072_v7x_xy2x2_f32_1_alg».proof.Proof.Gen.Kernel.Skeleton
import proofs.«900195_g7700000000000196_dist_halo2d_stencil_xy_m3072_n3072_v7x_xy2x2_f32_1_alg».proof.Proof.Gen.Kernel.Launch
import proofs.«900195_g7700000000000196_dist_halo2d_stencil_xy_m3072_n3072_v7x_xy2x2_f32_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans (embR : Emb (UB × Counters) (MT nD τ sig Unit (Elt F) ℕ UU ℕ))

omit [FloatOps F] in
instance ER_landsIn : (ER : Emb UB (MT nD τ sig Unit (Elt F) ℕ UU ℕ)).LandsIn (upEmb : UEmb _ (MT nD τ sig Unit (Elt F) ℕ UU ℕ)) := by
  unfold ER embR; infer_instance

variable (m : (ℓ : Loc nD τ sig) → Buf (Elt F) ℓ) (ρ : Dev nD → PrngReg)

def vn (c : Dev nD) : Dev nD := ⟨((c.val % 2) + 2) - 2 * (c.val / 2), by have h : c.val < 4 := c.isLt; show _ < 4; omega⟩
def hn (c : Dev nD) : Dev nD := ⟨(2 * (c.val / 2) + 1) - (c.val % 2), by have h : c.val < 4 := c.isLt; show _ < 4; omega⟩

@[sl_rounds] theorem vn_vn (c : Dev nD) : vn (vn c) = c := by revert c; decide
@[sl_rounds] theorem hn_hn (c : Dev nD) : hn (hn c) = c := by revert c; decide

@[sl_canon] theorem dev1_eq (c : Dev nD) : (⟨k0_dev1 c, k0_dev1_lt c⟩ : Dev nD) = vn c := Fin.ext (k0_dev1_eq c)
@[sl_canon] theorem dev2_eq (c : Dev nD) : (⟨k0_dev2 c, k0_dev2_lt c⟩ : Dev nD) = hn c := Fin.ext (k0_dev2_eq c)
@[sl_canon] theorem dev3_eq (c : Dev nD) : (⟨k0_dev3 c, k0_dev3_lt c⟩ : Dev nD) = vn c := Fin.ext (k0_dev3_eq c)
@[sl_canon] theorem dev4_eq (c : Dev nD) : (⟨k0_dev4 c, k0_dev4_lt c⟩ : Dev nD) = hn c := Fin.ext (k0_dev4_eq c)

def vring : Dev nD ≃ Dev nD := ⟨vn, vn, vn_vn, vn_vn⟩
def hring : Dev nD ≃ Dev nD := ⟨hn, hn, hn_hn, hn_hn⟩

abbrev xM : Memref sig .tc .hbm S3072x3072 .f32 := Memref.whole main_arg0
abbrev rhM : Memref sig .tc .vmem S8x3072 .f32 := Memref.whole cc0_scratch2
abbrev chM : Memref sig .tc .vmem S3072x128 .f32 := Memref.whole cc0_scratch3

abbrev rowSrc (c : Dev nD) : Memref sig .tc .hbm S8x3072 .f32 :=
  xM.slice (Rect.unit (s := S3072x3072) (k0_off1 c) S8x3072.size (k0_off1_inb c)) (fun _ => rfl)
abbrev colSrc (c : Dev nD) : Memref sig .tc .hbm S3072x128 .f32 :=
  xM.slice (Rect.unit (s := S3072x3072) (k0_off2 c) S3072x128.size (k0_off2_inb c)) (fun _ => rfl)

abbrev barS : Sem sig := (SemArray.scalar (sig.barrier 0 rfl) : Sems sig S_).sem
abbrev rowSendS : DmaSem sig := ((cc0_scratch10.slice (Rect.unit (s := S2) ![0] S1.size inb_S2_S1_0)).squeeze S_ squeezes_S1_S_).sem
abbrev rowRecvS : DmaSem sig := ((cc0_scratch10.slice (Rect.unit (s := S2) ![1] S1.size inb_S2_S1_1)).squeeze S_ squeezes_S1_S_).sem
abbrev colSendS : DmaSem sig := ((cc0_scratch11.slice (Rect.unit (s := S2) ![0] S1.size inb_S2_S1_0)).squeeze S_ squeezes_S1_S_).sem
abbrev colRecvS : DmaSem sig := ((cc0_scratch11.slice (Rect.unit (s := S2) ![1] S1.size inb_S2_S1_1)).squeeze S_ squeezes_S1_S_).sem

abbrev barCell (c : Dev nD) : GSem nD τ sig := ((c : Thread nD τ), .reg barS)
abbrev rowSendCell (c : Dev nD) : GSem nD τ sig := ((c : Thread nD τ), .dma rowSendS)
abbrev rowRecvCell (c : Dev nD) : GSem nD τ sig := ((c : Thread nD τ), .dma rowRecvS)
abbrev colSendCell (c : Dev nD) : GSem nD τ sig := ((c : Thread nD τ), .dma colSendS)
abbrev colRecvCell (c : Dev nD) : GSem nD τ sig := ((c : Thread nD τ), .dma colRecvS)

abbrev csem : Fin 5 → SemLoc sig := fun
  | 0 => .reg barS | 1 => .dma rowSendS | 2 => .dma rowRecvS | 3 => .dma colSendS | 4 => .dma colRecvS
abbrev kcell (ck : Dev nD × Fin 5) : GSem nD τ sig := ((ck.1 : Thread nD τ), csem ck.2)

abbrev NR : ℕ := (rhM : Memref sig .tc .vmem S8x3072 .f32).view.dmaCredit
abbrev NC : ℕ := (chM : Memref sig .tc .vmem S3072x128 .f32).view.dmaCredit
theorem NR_pos : 0 < NR := View.dmaCredit_pos _ (by decide)
theorem NC_pos : 0 < NC := View.dmaCredit_pos _ (by decide)

def X (c : Dev nD) : Buf (Elt F) ((c : Thread nD τ).loc main_arg0) := m ((c : Thread nD τ).loc main_arg0)

def sentRows (d : Dev nD) : (cc0_scratch2 : Ref sig .tc).ty.Contents (Elt F) := (rowSrc d).view.read (Elt F) (X m d)
def sentCols (d : Dev nD) : (cc0_scratch3 : Ref sig .tc).ty.Contents (Elt F) := (colSrc d).view.read (Elt F) (X m d)
def rowLanded (c : Dev nD) : Buf (Elt F) ((rhM : Memref sig .tc .vmem S8x3072 .f32).view.loc (c : Thread nD τ)) := sentRows m (vn c)
def colLanded (c : Dev nD) : Buf (Elt F) ((chM : Memref sig .tc .vmem S3072x128 .f32).view.loc (c : Thread nD τ)) := sentCols m (hn c)

def rhPts (c : Dev nD) (f : Buf (Elt F) ((rhM : Memref sig .tc .vmem S8x3072 .f32).view.loc (c : Thread nD τ))) : sProp 𝕄 :=
  (rhM : Memref sig .tc .vmem S8x3072 .f32).view.loc (c : Thread nD τ) ↦[(rhM : Memref sig .tc .vmem S8x3072 .f32).view.set]{fullShare} f
def chPts (c : Dev nD) (f : Buf (Elt F) ((chM : Memref sig .tc .vmem S3072x128 .f32).view.loc (c : Thread nD τ))) : sProp 𝕄 :=
  (chM : Memref sig .tc .vmem S3072x128 .f32).view.loc (c : Thread nD τ) ↦[(chM : Memref sig .tc .vmem S3072x128 .f32).view.set]{fullShare} f

abbrev qRow : PosShare TreeShare := Transfers.shareTokN fullShare 4
abbrev qCol : PosShare TreeShare := Transfers.shareTokN fullShare 6

def rowSrcPts (c : Dev nD) : sProp 𝕄 :=
  (rowSrc c).view.loc (c : Thread nD τ) ↦[(rowSrc c).view.set]{qRow} X m c
def colSrcPts (c : Dev nD) : sProp 𝕄 :=
  (colSrc c).view.loc (c : Thread nD τ) ↦[(colSrc c).view.set]{qCol} X m c

omit [FloatOps F] in
instance rhPts_storable (c : Dev nD) (f) : BI.Storable (upEmb : UEmb _ 𝕄) (rhPts (F := F) c f) := by unfold rhPts; infer_instance
omit [FloatOps F] in
instance chPts_storable (c : Dev nD) (f) : BI.Storable (upEmb : UEmb _ 𝕄) (chPts (F := F) c f) := by unfold chPts; infer_instance
omit [FloatOps F] in
instance rowSrcPts_storable (c : Dev nD) : BI.Storable (upEmb : UEmb _ 𝕄) (rowSrcPts (F := F) m c) := by unfold rowSrcPts; infer_instance
omit [FloatOps F] in
instance colSrcPts_storable (c : Dev nD) : BI.Storable (upEmb : UEmb _ 𝕄) (colSrcPts (F := F) m c) := by unfold colSrcPts; infer_instance

def giveV (d : Dev nD) : sProp 𝕄 := iprop((∃ f, rhPts d f) ∗ reached ER (rowRecvCell d) 0)
def giveH (d : Dev nD) : sProp 𝕄 := iprop((∃ f, chPts d f) ∗ reached ER (colRecvCell d) 0)
def barPayV (c : Dev nD) : sProp 𝕄 := giveV (vn c)
def barPayH (c : Dev nD) : sProp 𝕄 := giveH (hn c)
def rowRecvPay (c : Dev nD) : sProp 𝕄 :=
  iprop(∃ fd : Buf (Elt F) ((rhM : Memref sig .tc .vmem S8x3072 .f32).view.loc (c : Thread nD τ)),
    (rhM : Memref sig .tc .vmem S8x3072 .f32).view.loc (c : Thread nD τ) ↦[(rhM : Memref sig .tc .vmem S8x3072 .f32).view.set]{fullShare}
      (rhM : Memref sig .tc .vmem S8x3072 .f32).view.write (Elt F) fd (sentRows m (vn c)) Finset.univ)
def colRecvPay (c : Dev nD) : sProp 𝕄 :=
  iprop(∃ fd : Buf (Elt F) ((chM : Memref sig .tc .vmem S3072x128 .f32).view.loc (c : Thread nD τ)),
    (chM : Memref sig .tc .vmem S3072x128 .f32).view.loc (c : Thread nD τ) ↦[(chM : Memref sig .tc .vmem S3072x128 .f32).view.set]{fullShare}
      (chM : Memref sig .tc .vmem S3072x128 .f32).view.write (Elt F) fd (sentCols m (hn c)) Finset.univ)

omit [FloatOps F] in
@[sl_rounds] theorem barPayV_eq (c : Dev nD) : (barPayV c : sProp 𝕄) = giveV (vn c) := rfl
omit [FloatOps F] in
@[sl_rounds] theorem barPayH_eq (c : Dev nD) : (barPayH c : sProp 𝕄) = giveH (hn c) := rfl
omit [FloatOps F] in
@[sl_rounds] theorem giveV_eq (d : Dev nD) : (giveV d : sProp 𝕄) = iprop((∃ f : Buf (Elt F) ((rhM : Memref sig .tc .vmem S8x3072 .f32).view.loc (d : Thread nD τ)),
    (rhM : Memref sig .tc .vmem S8x3072 .f32).view.loc (d : Thread nD τ) ↦[(rhM : Memref sig .tc .vmem S8x3072 .f32).view.set]{fullShare} f) ∗ reached ER (rowRecvCell d) 0) := rfl
omit [FloatOps F] in
@[sl_rounds] theorem giveH_eq (d : Dev nD) : (giveH d : sProp 𝕄) = iprop((∃ f : Buf (Elt F) ((chM : Memref sig .tc .vmem S3072x128 .f32).view.loc (d : Thread nD τ)),
    (chM : Memref sig .tc .vmem S3072x128 .f32).view.loc (d : Thread nD τ) ↦[(chM : Memref sig .tc .vmem S3072x128 .f32).view.set]{fullShare} f) ∗ reached ER (colRecvCell d) 0) := rfl
omit [FloatOps F] in
@[sl_rounds] theorem rowRecvPay_eq (c : Dev nD) : (rowRecvPay m c : sProp 𝕄) =
    iprop(∃ fd : Buf (Elt F) ((rhM : Memref sig .tc .vmem S8x3072 .f32).view.loc (c : Thread nD τ)),
      (rhM : Memref sig .tc .vmem S8x3072 .f32).view.loc (c : Thread nD τ) ↦[(rhM : Memref sig .tc .vmem S8x3072 .f32).view.set]{fullShare}
        (rhM : Memref sig .tc .vmem S8x3072 .f32).view.write (Elt F) fd (sentRows m (vn c)) Finset.univ) := rfl
omit [FloatOps F] in
@[sl_rounds] theorem colRecvPay_eq (c : Dev nD) : (colRecvPay m c : sProp 𝕄) =
    iprop(∃ fd : Buf (Elt F) ((chM : Memref sig .tc .vmem S3072x128 .f32).view.loc (c : Thread nD τ)),
      (chM : Memref sig .tc .vmem S3072x128 .f32).view.loc (c : Thread nD τ) ↦[(chM : Memref sig .tc .vmem S3072x128 .f32).view.set]{fullShare}
        (chM : Memref sig .tc .vmem S3072x128 .f32).view.write (Elt F) fd (sentCols m (hn c)) Finset.univ) := rfl
omit [FloatOps F] in
@[sl_rounds] theorem sentRows_eq (d : Dev nD) : sentRows m d = (rowSrc d).view.read (Elt F) (X m d) := rfl
omit [FloatOps F] in
@[sl_rounds] theorem sentCols_eq (d : Dev nD) : sentCols m d = (colSrc d).view.read (Elt F) (X m d) := rfl
def rowSendPay (c : Dev nD) : sProp 𝕄 := rowSrcPts m c
def colSendPay (c : Dev nD) : sProp 𝕄 := colSrcPts m c
omit [FloatOps F] in
@[sl_rounds] theorem rowSendPay_eq (c : Dev nD) : (rowSendPay m c : sProp 𝕄) =
    ((rowSrc c).view.loc (c : Thread nD τ) ↦[(rowSrc c).view.set]{qRow} X m c) := rfl
omit [FloatOps F] in
@[sl_rounds] theorem colSendPay_eq (c : Dev nD) : (colSendPay m c : sProp 𝕄) =
    ((colSrc c).view.loc (c : Thread nD τ) ↦[(colSrc c).view.set]{qCol} X m c) := rfl

abbrev IsBar (g : GSem nD τ sig) : Prop := g.1.2 = .tc ∧ g.2 = .reg barS
abbrev IsXfer (g : GSem nD τ sig) : Prop :=
  g.1.2 = .tc ∧ (g.2 = .dma rowSendS ∨ g.2 = .dma rowRecvS ∨ g.2 = .dma colSendS ∨ g.2 = .dma colRecvS)

-- One round: a barrier cell takes one unit from either neighbour; each transfer cell one duty of its strip's credit.
def sched : Rounds.Schedule (GSem nD τ sig) Bool 𝕄 where
  duties g r := if r = 0 ∧ IsBar g then Finset.univ else if r = 0 ∧ IsXfer g then {false} else ∅
  unitless _ := False
  amount g _ _ := if g.2 = .reg barS then 1 else if (g.2 = .dma rowSendS ∨ g.2 = .dma rowRecvS) then NR else NC
  payload g _ d :=
    if g.2 = .reg barS then (if d then barPayH g.1.1 else barPayV g.1.1)
    else if g.2 = .dma rowRecvS then rowRecvPay m g.1.1
    else if g.2 = .dma rowSendS then rowSendPay m g.1.1
    else if g.2 = .dma colRecvS then colRecvPay m g.1.1
    else if g.2 = .dma colSendS then colSendPay m g.1.1
    else iprop(emp)
  amount_pos g _ _ _ := by
    by_cases h : g.2 = .reg barS
    · rw [if_pos h]; exact Nat.one_pos
    · rw [if_neg h]; split
      · exact NR_pos
      · exact NC_pos

instance sched_payload_storable (g : GSem nD τ sig) (r : ℕ) (d : Bool) :
    BI.Storable (upEmb : UEmb _ 𝕄) ((sched (F := F) m).payload g r d) := by
  show BI.Storable upEmb (if g.2 = .reg barS then (if d then barPayH g.1.1 else barPayV g.1.1)
    else if g.2 = .dma rowRecvS then rowRecvPay m g.1.1
    else if g.2 = .dma rowSendS then rowSendPay m g.1.1
    else if g.2 = .dma colRecvS then colRecvPay m g.1.1
    else if g.2 = .dma colSendS then colSendPay m g.1.1
    else iprop(emp))
  unfold barPayH barPayV giveH giveV rowRecvPay rowSendPay colRecvPay colSendPay
  (repeat' split) <;> infer_instance

section Sched
variable (c : Dev nD)

theorem rs_ne_bar : (SemLoc.dma rowSendS : SemLoc sig) ≠ .reg barS := fun h => by cases h
theorem rr_ne_bar : (SemLoc.dma rowRecvS : SemLoc sig) ≠ .reg barS := fun h => by cases h
theorem cs_ne_bar : (SemLoc.dma colSendS : SemLoc sig) ≠ .reg barS := fun h => by cases h
theorem cr_ne_bar : (SemLoc.dma colRecvS : SemLoc sig) ≠ .reg barS := fun h => by cases h
theorem rs_ne_rr : (SemLoc.dma rowSendS : SemLoc sig) ≠ .dma rowRecvS := by decide
theorem cs_ne_rr : (SemLoc.dma colSendS : SemLoc sig) ≠ .dma rowRecvS := by decide
theorem cr_ne_rr : (SemLoc.dma colRecvS : SemLoc sig) ≠ .dma rowRecvS := by decide
theorem cs_ne_rs : (SemLoc.dma colSendS : SemLoc sig) ≠ .dma rowSendS := by decide
theorem cr_ne_rs : (SemLoc.dma colRecvS : SemLoc sig) ≠ .dma rowSendS := by decide
theorem cs_ne_cr : (SemLoc.dma colSendS : SemLoc sig) ≠ .dma colRecvS := by decide

omit [FloatOps F] in
@[sl_rounds] theorem duties_bar : (sched (F := F) m).duties (barCell c) 0 = Finset.univ := by dsimp only [sched]; exact if_pos ⟨rfl, rfl, rfl⟩
omit [FloatOps F] in
@[sl_rounds] theorem duties_rs : (sched (F := F) m).duties (rowSendCell c) 0 = {false} := by
  dsimp only [sched]; rw [if_neg (fun h => rs_ne_bar h.2.2)]; exact if_pos ⟨rfl, rfl, .inl rfl⟩
omit [FloatOps F] in
@[sl_rounds] theorem duties_rr : (sched (F := F) m).duties (rowRecvCell c) 0 = {false} := by
  dsimp only [sched]; rw [if_neg (fun h => rr_ne_bar h.2.2)]; exact if_pos ⟨rfl, rfl, .inr (.inl rfl)⟩
omit [FloatOps F] in
@[sl_rounds] theorem duties_cs : (sched (F := F) m).duties (colSendCell c) 0 = {false} := by
  dsimp only [sched]; rw [if_neg (fun h => cs_ne_bar h.2.2)]; exact if_pos ⟨rfl, rfl, .inr (.inr (.inl rfl))⟩
omit [FloatOps F] in
@[sl_rounds] theorem duties_cr : (sched (F := F) m).duties (colRecvCell c) 0 = {false} := by
  dsimp only [sched]; rw [if_neg (fun h => cr_ne_bar h.2.2)]; exact if_pos ⟨rfl, rfl, .inr (.inr (.inr rfl))⟩
omit [FloatOps F] in
theorem duties_later (g : GSem nD τ sig) : ∀ r, 1 ≤ r → (sched (F := F) m).duties g r = ∅ :=
  fun r hr => by dsimp only [sched]; rw [if_neg fun h => by omega, if_neg fun h => by omega]

omit [FloatOps F] in
@[sl_rounds] theorem amount_bar (d : Bool) : (sched (F := F) m).amount (barCell c) 0 d = 1 := by dsimp only [sched]; exact if_pos rfl
omit [FloatOps F] in
@[sl_rounds] theorem amount_rs (d : Bool) : (sched (F := F) m).amount (rowSendCell c) 0 d = NR := by
  dsimp only [sched]; rw [if_neg rs_ne_bar]; exact if_pos (.inl rfl)
omit [FloatOps F] in
@[sl_rounds] theorem amount_rr (d : Bool) : (sched (F := F) m).amount (rowRecvCell c) 0 d = NR := by
  dsimp only [sched]; rw [if_neg rr_ne_bar]; exact if_pos (.inr rfl)
omit [FloatOps F] in
@[sl_rounds] theorem amount_cs (d : Bool) : (sched (F := F) m).amount (colSendCell c) 0 d = NC := by
  dsimp only [sched]; rw [if_neg cs_ne_bar]; exact if_neg (fun h => h.elim cs_ne_rs cs_ne_rr)
omit [FloatOps F] in
@[sl_rounds] theorem amount_cr (d : Bool) : (sched (F := F) m).amount (colRecvCell c) 0 d = NC := by
  dsimp only [sched]; rw [if_neg cr_ne_bar]; exact if_neg (fun h => h.elim cr_ne_rs cr_ne_rr)

omit [FloatOps F] in
@[sl_rounds] theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
@[sl_rounds] theorem expect_rs : (sched (F := F) m).expect (rowSendCell c) 0 = NR := by
  unfold Schedule.expect Schedule.amountOf; rw [duties_rs, Finset.sum_singleton, amount_rs]
omit [FloatOps F] in
@[sl_rounds] theorem expect_rr : (sched (F := F) m).expect (rowRecvCell c) 0 = NR := by
  unfold Schedule.expect Schedule.amountOf; rw [duties_rr, Finset.sum_singleton, amount_rr]
omit [FloatOps F] in
@[sl_rounds] theorem expect_cs : (sched (F := F) m).expect (colSendCell c) 0 = NC := by
  unfold Schedule.expect Schedule.amountOf; rw [duties_cs, Finset.sum_singleton, amount_cs]
omit [FloatOps F] in
@[sl_rounds] theorem expect_cr : (sched (F := F) m).expect (colRecvCell c) 0 = NC := by
  unfold Schedule.expect Schedule.amountOf; rw [duties_cr, Finset.sum_singleton, amount_cr]

omit [FloatOps F] in
@[sl_rounds] theorem payload_bar_true : (sched (F := F) m).payload (barCell c) 0 true = barPayH c := by dsimp only [sched]; rw [if_pos rfl, if_pos rfl]
omit [FloatOps F] in
@[sl_rounds] theorem payload_bar_false : (sched (F := F) m).payload (barCell c) 0 false = barPayV c := by
  dsimp only [sched]; rw [if_pos rfl]; exact if_neg Bool.false_ne_true
omit [FloatOps F] in
@[sl_rounds] theorem payload_rr (d : Bool) : (sched (F := F) m).payload (rowRecvCell c) 0 d = rowRecvPay m c := by
  dsimp only [sched]; rw [if_neg rr_ne_bar, if_pos rfl]
omit [FloatOps F] in
@[sl_rounds] theorem payload_rs (d : Bool) : (sched (F := F) m).payload (rowSendCell c) 0 d = rowSendPay m c := by
  dsimp only [sched]; rw [if_neg rs_ne_bar, if_neg rs_ne_rr, if_pos rfl]
omit [FloatOps F] in
@[sl_rounds] theorem payload_cr (d : Bool) : (sched (F := F) m).payload (colRecvCell c) 0 d = colRecvPay m c := by
  dsimp only [sched]; rw [if_neg cr_ne_bar, if_neg cr_ne_rr, if_neg cr_ne_rs, if_pos rfl]
omit [FloatOps F] in
@[sl_rounds] theorem payload_cs (d : Bool) : (sched (F := F) m).payload (colSendCell c) 0 d = colSendPay m c := by
  dsimp only [sched]; rw [if_neg cs_ne_bar, if_neg cs_ne_rr, if_neg cs_ne_rs, if_neg cs_ne_cr, if_pos rfl]

end Sched

def O₃ (c : Dev nD) : CellTallies nD τ sig Unit := tallyAt (colRecvCell (hn c)) () NC
def O₂ (c : Dev nD) : CellTallies nD τ sig Unit := O₃ c + tallyAt (rowRecvCell (vn c)) () NR
def O₁ (c : Dev nD) : CellTallies nD τ sig Unit := O₂ c + tallyAt (barCell (hn c)) () 1
def O₀ (c : Dev nD) : CellTallies nD τ sig Unit := O₁ c + tallyAt (barCell (vn c)) () 1

def L (g : GSem nD τ sig) : Finset Unit := if g.1.2 = .tc then {()} else ∅
def lv (g : GSem nD τ sig) (_ : Unit) : ℕ :=
  if g.2 = .reg barS then 1 else if (g.2 = .dma rowRecvS ∨ g.2 = .dma colRecvS) then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelProof

end
-- ==== Proof.StateKernel.lean ====
import proofs.«900195_g7700000000000196_dist_halo2d_stencil_xy_m3072_n3072_v7x_xy2x2_f32_1_alg».proof.Proof.ProtoKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev loadS0 : DmaSem sig := ((cc0_scratch8.slice (Rect.unit (s := S2) ![0] S1.size inb_S2_S1_0)).squeeze S_ squeezes_S1_S_).sem
abbrev loadS1 : DmaSem sig := ((cc0_scratch8.slice (Rect.unit (s := S2) ![1] S1.size inb_S2_S1_1)).squeeze S_ squeezes_S1_S_).sem
abbrev storeS0 : DmaSem sig := ((cc0_scratch9.slice (Rect.unit (s := S2) ![0] S1.size inb_S2_S1_0)).squeeze S_ squeezes_S1_S_).sem
abbrev storeS1 : DmaSem sig := ((cc0_scratch9.slice (Rect.unit (s := S2) ![1] S1.size inb_S2_S1_1)).squeeze S_ squeezes_S1_S_).sem
abbrev fixS0 : DmaSem sig := ((cc0_scratch12.slice (Rect.unit (s := S2) ![0] S1.size inb_S2_S1_0)).squeeze S_ squeezes_S1_S_).sem
abbrev fixS1 : DmaSem sig := ((cc0_scratch12.slice (Rect.unit (s := S2) ![1] S1.size inb_S2_S1_1)).squeeze S_ squeezes_S1_S_).sem

abbrev osem : Fin 10 → SemLoc sig := fun
  | 0 => .dma loadS0 | 1 => .dma loadS1 | 2 => .dma storeS0 | 3 => .dma storeS1 | 4 => .dma rowSendS
  | 5 => .dma rowRecvS | 6 => .dma colSendS | 7 => .dma colRecvS | 8 => .dma fixS0 | 9 => .dma fixS1

def locals0 (c : Dev nD) : sProp 𝕄 :=
  iprop(semVal ((c : Thread nD τ), .dma loadS0) 0 ∗ semVal ((c : Thread nD τ), .dma loadS1) 0
    ∗ semVal ((c : Thread nD τ), .dma storeS0) 0 ∗ semVal ((c : Thread nD τ), .dma storeS1) 0
    ∗ semVal ((c : Thread nD τ), .dma fixS0) 0 ∗ semVal ((c : Thread nD τ), .dma fixS1) 0)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))

def invs (K : Dev nD × Fin 5 → ℕ) (c : Dev nD) : sProp 𝕄 :=
  iprop(cellInv ER (sched m) (K (c, 0)) (barCell c) ∗ cellInv ER (sched m) (K (c, 1)) (rowSendCell c)
    ∗ cellInv ER (sched m) (K (c, 2)) (rowRecvCell c) ∗ cellInv ER (sched m) (K (c, 3)) (colSendCell c)
    ∗ cellInv ER (sched m) (K (c, 4)) (colRecvCell c)
    ∗ cellInv ER (sched m) (K (vn c, 0)) (barCell (vn c)) ∗ cellInv ER (sched m) (K (hn c, 0)) (barCell (hn c))
    ∗ cellInv ER (sched m) (K (vn c, 2)) (rowRecvCell (vn c)) ∗ cellInv ER (sched m) (K (hn c, 4)) (colRecvCell (hn c)))

instance invs_persistent (K : Dev nD × Fin 5 → ℕ) (c : Dev nD) : BI.Persistent (invs m K c) := by unfold invs; infer_instance

def ghost (K : Dev nD × Fin 5 → ℕ) (c : Dev nD) : sProp 𝕄 :=
  iprop(invs m K c
    ∗ atPos ER (barCell c) 0 ∅ 0 ∗ atPos ER (rowSendCell c) 0 ∅ 0 ∗ atPos ER (rowRecvCell c) 0 ∅ 0
    ∗ atPos ER (colSendCell c) 0 ∅ 0 ∗ atPos ER (colRecvCell c) 0 ∅ 0
    ∗ reached ER (barCell (vn c)) 0 ∗ reached ER (barCell (hn c)) 0
    ∗ reached ER (rowRecvCell (vn c)) 0 ∗ reached ER (colRecvCell (hn c)) 0
    ∗ reached ER (rowSendCell c) 0 ∗ reached ER (rowRecvCell c) 0 ∗ reached ER (colSendCell c) 0 ∗ reached ER (colRecvCell c) 0
    ∗ dutyTok ER (barCell (vn c)) 0 false ∗ dutyTok ER (barCell (hn c)) 0 true
    ∗ dutyTok ER (rowRecvCell (vn c)) 0 false ∗ dutyTok ER (colRecvCell (hn c)) 0 false
    ∗ dutyTok ER (rowSendCell c) 0 false ∗ dutyTok ER (colSendCell c) 0 false)

def start (c : Dev nD) : sProp 𝕄 :=
  iprop((∃ K, ghost m K c) ∗ cred (tallyAt (barCell c) () 2) ∗ cred (tallyAt (rowRecvCell c) () NR)
    ∗ cred (tallyAt (colRecvCell c) () NC) ∗ levAts L lv)

def arrays0 (c : Dev nD) : sProp 𝕄 :=
  iprop((((c : Thread nD τ).loc main_arg0) ↦{fullShare} X m c)
    ∗ ∃ o : Buf (Elt F) ((c : Thread nD τ).loc main_v1), ((c : Thread nD τ).loc main_v1) ↦{fullShare} o)

def Φ₀ (c : Dev nD) : sProp 𝕄 := iprop(start m c ∗ locals0 c ∗ arrays0 m c ∗ scratch c)
def Φ₁ (c : Dev nD) : sProp 𝕄 :=
  iprop(arrays0 m c ∗ scratch c ∗ locals0 c
    ∗ semVal (rowSendCell c) 0 ∗ semVal (rowRecvCell c) 0 ∗ semVal (colSendCell c) 0 ∗ semVal (colRecvCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (K : Dev nD × Fin 5 → ℕ) (c : Dev nD) : sProp 𝕄 :=
  iprop((ghost m K c ∗ cred (tallyAt (barCell c) () 2) ∗ cred (tallyAt (rowRecvCell c) () NR)
      ∗ cred (tallyAt (colRecvCell c) () NC) ∗ levAts L lv)
    ∗ locals0 c ∗ arrays0 m c ∗ scratch c ∗ (dats m 0 c).owesAt () t₀.castSucc)

def bodyPost (c : Dev nD) : sProp 𝕄 := iprop(Φ₁ m c ∗ (dats m 0 c).owesAt () t₀.succ)

end Cert.KernelProof

end
-- ==== Proof.BodyCommonKernel.lean ====
import proofs.«900195_g7700000000000196_dist_halo2d_stencil_xy_m3072_n3072_v7x_xy2x2_f32_1_alg».proof.Proof.StateKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev held (c : Dev nD) (b : Ref sig .tc) (q : PosShare TreeShare) (f : Buf (Elt F) ((c : Thread nD τ).loc b)) : sProp 𝕄 :=
  (Memref.whole b : Memref sig .tc b.space b.ty.shape b.ty.elt).view.loc (c : Thread nD τ) ↦[(Memref.whole b : Memref sig .tc b.space b.ty.shape b.ty.elt).view.set]{q} f

omit [FloatOps F] in
theorem held_eq (c : Dev nD) (b : Ref sig .tc) (q : PosShare TreeShare) (f : Buf (Elt F) ((c : Thread nD τ).loc b)) :
    held c b q f = (((c : Thread nD τ).loc b) ↦{q} f : sProp 𝕄) := by unfold held; rw [View.set_whole]

omit [FloatOps F] in
theorem O₂_pos {c : Dev nD} {g : GSem nD τ sig} {u : Unit} (h : 0 < O₂ c g u) :
    g = colRecvCell (hn c) ∨ g = rowRecvCell (vn c) := by
  unfold O₂ O₃ at h
  rw [Pi.add_apply, Finsupp.add_apply, tallyAt_apply, tallyAt_apply] at h
  by_contra hn'
  rw [not_or] at hn'
  rw [if_neg (fun h' => hn'.1 h'.1), if_neg (fun h' => hn'.2 h'.1)] at h
  exact Nat.lt_irrefl 0 h

omit [FloatOps F] in
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; dsimp only [lv]; rw [if_pos rfl])
    (fun g u hg => by
      rcases O₂_pos hg with rfl | rfl
      · dsimp only [lv]; rw [if_neg cr_ne_bar, if_pos (Or.inr rfl)]; decide
      · dsimp only [lv]; rw [if_neg rr_ne_bar, if_pos (Or.inl rfl)]; decide)

omit [FloatOps F] in
theorem bigSep_range7 (Φ : ℕ → sProp 𝕄) :
    bigSep (Finset.range 7) Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]; rfl

abbrev xAt (c : Dev nD) (q : PosShare TreeShare) (f : Buf (Elt F) ((c : Thread nD τ).loc main_arg0)) : sProp 𝕄 :=
  (xM : Memref sig .tc .hbm S3072x3072 .f32).view.loc (c : Thread nD τ) ↦[(xM : Memref sig .tc .hbm S3072x3072 .f32).view.set]{q} f

omit [FloatOps F] in
theorem carve_row (c : Dev nD) (q : PosShare TreeShare) (f : Buf (Elt F) ((c : Thread nD τ).loc main_arg0)) :
    (xAt c q f : sProp 𝕄) ⊣⊢ iprop(((rowSrc c).view.loc (c : Thread nD τ) ↦[(rowSrc c).view.set]{q} f)
      ∗ ((xM : Memref sig .tc .hbm S3072x3072 .f32).view.loc (c : Thread nD τ) ↦[(xM : Memref sig .tc .hbm S3072x3072 .f32).view.set \ (rowSrc c).view.set]{q} f)) :=
  pointsTo_split_subset (by rw [View.set_whole]; exact Finset.subset_univ _)
omit [FloatOps F] in
theorem carve_col (c : Dev nD) (q : PosShare TreeShare) (f : Buf (Elt F) ((c : Thread nD τ).loc main_arg0)) :
    (xAt c q f : sProp 𝕄) ⊣⊢ iprop(((colSrc c).view.loc (c : Thread nD τ) ↦[(colSrc c).view.set]{q} f)
      ∗ ((xM : Memref sig .tc .hbm S3072x3072 .f32).view.loc (c : Thread nD τ) ↦[(xM : Memref sig .tc .hbm S3072x3072 .f32).view.set \ (colSrc c).view.set]{q} f)) :=
  pointsTo_split_subset (by rw [View.set_whole]; exact Finset.subset_univ _)

def xAside (c : Dev nD) (f : Buf (Elt F) ((c : Thread nD τ).loc main_arg0)) : sProp 𝕄 :=
  iprop(xAt c (Transfers.shareDrop fullShare 7) f ∗ xAt c (Transfers.shareTokN fullShare 2) f ∗ xAt c (Transfers.shareTokN fullShare 3) f
    ∗ xAt c (Transfers.shareTokN fullShare 5) f
    ∗ ((xM : Memref sig .tc .hbm S3072x3072 .f32).view.loc (c : Thread nD τ) ↦[(xM : Memref sig .tc .hbm S3072x3072 .f32).view.set \ (rowSrc c).view.set]{qRow} f)
    ∗ ((xM : Memref sig .tc .hbm S3072x3072 .f32).view.loc (c : Thread nD τ) ↦[(xM : Memref sig .tc .hbm S3072x3072 .f32).view.set \ (colSrc c).view.set]{qCol} f))

omit [FloatOps F] in
theorem bar_round (c : Dev nD) :
    bigSep Finset.univ (fun d : Bool => (sched (F := F) m).payload (barCell c) 0 d) = iprop(barPayV c ∗ barPayH c) := by
  rw [bigSep_univ_eq_bigSepL [false, true] (by decide) (by decide), bigSepL_cons_cons, bigSepL_singleton,
    payload_bar_false, payload_bar_true]
  rfl

omit [FloatOps F] in
theorem close_whole (c : Dev nD) (b : Ref sig .tc) (f g : Buf (Elt F) ((c : Thread nD τ).loc b)) (h : f = g) :
    (held c b fullShare f : sProp 𝕄) ⊢ (((c : Thread nD τ).loc b) ↦{fullShare} g) := by
  subst h; exact Entails.of_eq (held_eq c b fullShare _)

omit [FloatOps F] in
theorem close_some (c : Dev nD) (b : Ref sig .tc) (f : Buf (Elt F) ((c : Thread nD τ).loc b)) :
    (held c b fullShare f : sProp 𝕄) ⊢ iprop(∃ f' : Buf (Elt F) ((c : Thread nD τ).loc b), ((c : Thread nD τ).loc b) ↦{fullShare} f') := by
  rw [held_eq]; iintro H; iexists f; iexact H

omit [FloatOps F] in
theorem x_rejoin (c : Dev nD) (f : Buf (Elt F) ((c : Thread nD τ).loc main_arg0)) :
    iprop(((rowSrc c).view.loc (c : Thread nD τ) ↦[(rowSrc c).view.set]{qRow} f)
      ∗ ((colSrc c).view.loc (c : Thread nD τ) ↦[(colSrc c).view.set]{qCol} f)
      ∗ xAt c (Transfers.shareTokN fullShare 0) f ∗ xAt c (Transfers.shareTokN fullShare 1) f ∗ xAside c f)
    ⊢ (((c : Thread nD τ).loc main_arg0) ↦{fullShare} f : sProp 𝕄) := by
  unfold xAside
  iintro ⟨HR, HC, H0, H1, Hd, H2, H3, H5, HRr, HCr⟩
  ihave H4 := (carve_row c (Transfers.shareTokN fullShare 4) f).2 $$ [HR HRr]
  · isplitl [HR]; · iexact HR
    iexact HRr
  ihave H6 := (carve_col c (Transfers.shareTokN fullShare 6) f).2 $$ [HC HCr]
  · isplitl [HC]; · iexact HC
    iexact HCr
  rw [← held_eq c main_arg0 fullShare f]; unfold held
  iapply (Transfers.pointsTo_toks_range (Ix := Unit) (Name := ℕ) (U := UU) (Lvl := ℕ) fullShare 7).2
  rw [bigSep_range7]
  isplitl [Hd]; · iexact Hd
  isplitl [H0]; · iexact H0
  isplitl [H1]; · iexact H1
  isplitl [H2]; · iexact H2
  isplitl [H3]; · iexact H3
  isplitl [H4]; · iexact H4
  isplitl [H5]; · iexact H5
  iexact H6

-- The buffers restated through their memrefs, the argument block split into the shares its copies lend.
omit [FloatOps F] in
theorem body_open (c : Dev nD) (o : Buf (Elt F) ((c : Thread nD τ).loc main_v1))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (f7 : Buf (Elt F) ((c : Thread nD τ).loc cc0_scratch7)) :
    (((c : Thread nD τ).loc main_arg0) ↦{fullShare} X m c : sProp 𝕄) ⊢ iprop((((c : Thread nD τ).loc main_v1) ↦{fullShare} o)
      -∗ (((c : Thread nD τ).loc cc0_scratch0) ↦{fullShare} f0) -∗ (((c : Thread nD τ).loc cc0_scratch1) ↦{fullShare} f1)
      -∗ (((c : Thread nD τ).loc cc0_scratch2) ↦{fullShare} f2) -∗ (((c : Thread nD τ).loc cc0_scratch3) ↦{fullShare} f3)
      -∗ (((c : Thread nD τ).loc cc0_scratch4) ↦{fullShare} f4) -∗ (((c : Thread nD τ).loc cc0_scratch5) ↦{fullShare} f5)
      -∗ (((c : Thread nD τ).loc cc0_scratch6) ↦{fullShare} f6) -∗ (((c : Thread nD τ).loc cc0_scratch7) ↦{fullShare} f7)
      -∗ (held c main_v1 fullShare o ∗ held c cc0_scratch0 fullShare f0 ∗ held c cc0_scratch1 fullShare f1 ∗ held c cc0_scratch2 fullShare f2
        ∗ held c cc0_scratch3 fullShare f3 ∗ held c cc0_scratch4 fullShare f4 ∗ held c cc0_scratch5 fullShare f5
        ∗ held c cc0_scratch6 fullShare f6 ∗ held c cc0_scratch7 fullShare f7
        ∗ xAt c (Transfers.shareTokN fullShare 0) (X m c) ∗ xAt c (Transfers.shareTokN fullShare 1) (X m c)
        ∗ ((rowSrc c).view.loc (c : Thread nD τ) ↦[(rowSrc c).view.set]{qRow} X m c)
        ∗ ((colSrc c).view.loc (c : Thread nD τ) ↦[(colSrc c).view.set]{qCol} X m c) ∗ xAside c (X m c))) := by
  iintro Hx Hout H0 H1 H2 H3 H4 H5 H6 H7
  ihave Hx := (Entails.of_eq (held_eq c main_arg0 fullShare _).symm) $$ Hx
  ihave Hout := (Entails.of_eq (held_eq c main_v1 fullShare _).symm) $$ Hout
  ihave H0 := (Entails.of_eq (held_eq c cc0_scratch0 fullShare _).symm) $$ H0
  ihave H1 := (Entails.of_eq (held_eq c cc0_scratch1 fullShare _).symm) $$ H1
  ihave H2 := (Entails.of_eq (held_eq c cc0_scratch2 fullShare _).symm) $$ H2
  ihave H3 := (Entails.of_eq (held_eq c cc0_scratch3 fullShare _).symm) $$ H3
  ihave H4 := (Entails.of_eq (held_eq c cc0_scratch4 fullShare _).symm) $$ H4
  ihave H5 := (Entails.of_eq (held_eq c cc0_scratch5 fullShare _).symm) $$ H5
  ihave H6 := (Entails.of_eq (held_eq c cc0_scratch6 fullShare _).symm) $$ H6
  ihave H7 := (Entails.of_eq (held_eq c cc0_scratch7 fullShare _).symm) $$ H7
  ihave Hx := (Transfers.pointsTo_toks_range (Ix := Unit) (Name := ℕ) (U := UU) (Lvl := ℕ) fullShare 7).1 $$ Hx
  rw [bigSep_range7]
  icases Hx with ⟨Hxd, Hx0, Hx1, Hx2, Hx3, Hx4, Hx5, Hx6⟩
  ihave Hx4 := (carve_row c (Transfers.shareTokN fullShare 4) (X m c)).1 $$ Hx4
  icases Hx4 with ⟨HxR, HxRr⟩
  ihave Hx6 := (carve_col c (Transfers.shareTokN fullShare 6) (X m c)).1 $$ Hx6
  icases Hx6 with ⟨HxC, HxCr⟩
  unfold xAside
  isplitl [Hout]; · iexact Hout
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx0]; · iexact Hx0
  isplitl [Hx1]; · iexact Hx1
  isplitl [HxR]; · iexact HxR
  isplitl [HxC]; · iexact HxC
  isplitl [Hxd]; · iexact Hxd
  isplitl [Hx2]; · iexact Hx2
  isplitl [Hx3]; · iexact Hx3
  isplitl [Hx5]; · iexact Hx5
  isplitl [HxRr]; · iexact HxRr
  iexact HxCr

-- The shares put together again and every buffer handed back.
omit [FloatOps F] in
theorem body_close (c : Dev nD) (R : sProp 𝕄)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (f7 : Buf (Elt F) ((c : Thread nD τ).loc cc0_scratch7)) :
    ((rowSrc c).view.loc (c : Thread nD τ) ↦[(rowSrc c).view.set]{qRow} X m c : sProp 𝕄) ⊢ iprop(
      ((colSrc c).view.loc (c : Thread nD τ) ↦[(colSrc c).view.set]{qCol} X m c)
      -∗ xAt c (Transfers.shareTokN fullShare 0) (X m c) -∗ xAt c (Transfers.shareTokN fullShare 1) (X m c) -∗ xAside c (X m c) -∗ R
      -∗ held c cc0_scratch0 fullShare f0 -∗ held c cc0_scratch1 fullShare f1 -∗ held c cc0_scratch2 fullShare f2
      -∗ held c cc0_scratch3 fullShare f3 -∗ held c cc0_scratch4 fullShare f4 -∗ held c cc0_scratch5 fullShare f5
      -∗ held c cc0_scratch6 fullShare f6 -∗ held c cc0_scratch7 fullShare f7
      -∗ semVal ((c : Thread nD τ), .dma (⟨0, by decide⟩ : DmaSem sig)) 0 -∗ semVal ((c : Thread nD τ), .dma (⟨1, by decide⟩ : DmaSem sig)) 0 -∗ semVal ((c : Thread nD τ), .dma (⟨2, by decide⟩ : DmaSem sig)) 0
      -∗ semVal ((c : Thread nD τ), .dma (⟨3, by decide⟩ : DmaSem sig)) 0 -∗ semVal ((c : Thread nD τ), .dma (⟨8, by decide⟩ : DmaSem sig)) 0 -∗ semVal ((c : Thread nD τ), .dma (⟨9, by decide⟩ : DmaSem sig)) 0
      -∗ semVal (rowSendCell c) 0 -∗ semVal (rowRecvCell c) 0 -∗ semVal (colSendCell c) 0 -∗ semVal (colRecvCell c) 0
      -∗ (((((c : Thread nD τ).loc main_arg0) ↦{fullShare} X m c) ∗ R) ∗ scratch c ∗ locals0 c
        ∗ semVal (rowSendCell c) 0 ∗ semVal (rowRecvCell c) 0 ∗ semVal (colSendCell c) 0 ∗ semVal (colRecvCell c) 0)) := by
  unfold scratch locals0
  iintro HxR HxC Hx0 Hx1 Ha HR H0 H1 H2 H3 H4 H5 H6 H7 HsL0 HsL1 HsS0 HsS1 HsF0 HsF1 HzRS HzRR HzCS HzCR
  ihave Hx := (x_rejoin c (X m c)) $$ [HxR HxC Hx0 Hx1 Ha]
  · isplitl [HxR]; · iexact HxR
    isplitl [HxC]; · iexact HxC
    isplitl [Hx0]; · iexact Hx0
    isplitl [Hx1]; · iexact Hx1
    iexact Ha
  ihave H0 := (close_some c cc0_scratch0 _) $$ H0
  ihave H1 := (close_some c cc0_scratch1 _) $$ H1
  ihave H2 := (close_some c cc0_scratch2 _) $$ H2
  ihave H3 := (close_some c cc0_scratch3 _) $$ H3
  ihave H4 := (close_some c cc0_scratch4 _) $$ H4
  ihave H5 := (close_some c cc0_scratch5 _) $$ H5
  ihave H6 := (close_some c cc0_scratch6 _) $$ H6
  ihave H7 := (close_some c cc0_scratch7 _) $$ H7
  isplitl [Hx HR]
  · isplitl [Hx]; · iexact Hx
    iexact HR
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HsL0 HsL1 HsS0 HsS1 HsF0 HsF1]
  · isplitl [HsL0]; · iexact HsL0
    isplitl [HsL1]; · iexact HsL1
    isplitl [HsS0]; · iexact HsS0
    isplitl [HsS1]; · iexact HsS1
    isplitl [HsF0]; · iexact HsF0
    iexact HsF1
  isplitl [HzRS]; · iexact HzRS
  isplitl [HzRR]; · iexact HzRR
  isplitl [HzCS]; · iexact HzCS
  iexact HzCR

end Cert.KernelProof

end
-- ==== Proof.Body00Kernel.lean ====
import proofs.«900195_g7700000000000196_dist_halo2d_stencil_xy_m3072_n3072_v7x_xy2x2_f32_1_alg».proof.Proof.BodyCommonKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 4000000 in
theorem sound_body_00 (K : Dev nD × Fin 5 → ℕ) (c : Dev nD) (ha : c.val / 2 = 0) (hb : c.val % 2 = 0) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyPre ghost invs locals0 arrays0 scratch
  iintro ⟨⟨⟨⟨⟨#HIbar, #HIrs, #HIrr, #HIcs, #HIcr, #HIbarV, #HIbarH, #HIrrV, #HIcrH⟩, HatB, HatRS, HatRR, HatCS, HatCR,
      #HrBV, #HrBH, #HrRRV, #HrCRH, #HrRS, #HrRR, #HrCS, #HrCR, HtBV, HtBH, HtRRV, HtCRH, HtRS, HtCS⟩, HcB, HcRR, HcCR, #Hlev⟩,
    ⟨HsL0, HsL1, HsS0, HsS1, HsF0, HsF1⟩, ⟨Hx, ⟨%o0, Hout⟩⟩,
    ⟨⟨%f0, H0⟩, ⟨%f1, H1⟩, ⟨%f2, H2⟩, ⟨%f3, H3⟩, ⟨%f4, H4⟩, ⟨%f5, H5⟩, ⟨%f6, H6⟩, ⟨%f7, H7⟩⟩, Ho⟩, Hk⟩
  unfold Dat.owesAt Pipeline.owesWithin
  icases Ho with ⟨%W, %hW, HO⟩
  rw [show (dats m 0 c).owed t₀.castSucc = O₀ c from rfl]
  unfold O₀ O₁ O₂ O₃
  ihave Hb := (body_open m c _ _ _ _ _ _ _ _ _) $$ Hx Hout H0 H1 H2 H3 H4 H5 H6 H7
  icases Hb with ⟨Hout, H0, H1, H2, H3, H4, H5, H6, H7, Hx0, Hx1, HxR, HxC, Haside⟩
  unfold held
  have hmw : (levAts L lv : sProp 𝕄) ⊢ MayWait (c : Thread nD τ) (.reg barS) ()
      (tallyAt (colRecvCell (hn c)) () NC + tallyAt (rowRecvCell (vn c)) () NR) := mayWait_bar c
  sl_exec_parts (disch := first | simp only [dev1_eq, dev2_eq, dev3_eq, dev4_eq] | (clear * - ha hb; decide +kernel +revert))
  ihave Hbp := (Entails.of_eq (bar_round m c)) $$ HatB_pay1
  unfold barPayV barPayH giveV giveH rhPts chPts
  icases Hbp with ⟨⟨⟨%fv, HrhV⟩, #HrV'⟩, ⟨⟨%fh, HchH⟩, #HrH'⟩⟩
  sl_exec_parts (disch := first | simp only [dev1_eq, dev2_eq, dev3_eq, dev4_eq] | (clear * - ha hb; decide +kernel +revert))
  have hcrR : (rowSrc c).view.dmaCredit = 3072 := by rfl
  have hcrC : (colSrc c).view.dmaCredit = 49152 := by rfl
  ihave HxR_cred : cred (tallyAt (rowSendCell c) default ((rowSrc c).view.dmaCredit)) $$ [HxR_cred]
  · rw [hcrR]; iexact HxR_cred
  ihave HxC_cred : cred (tallyAt (colSendCell c) default ((colSrc c).view.dmaCredit)) $$ [HxC_cred]
  · rw [hcrC]; iexact HxC_cred
  sl_exec_parts (disch := first | simp only [dev1_eq, dev2_eq, dev3_eq, dev4_eq] | (clear * - ha hb; decide +kernel +revert))
  imod (Rounds.cell_close ER (sched m) (Set.mem_univ (K (c, 1))) (fun h => h) (R := 0 + 1) (duties_later m (rowSendCell c))) $$ [HatRS] with HzRS
  · isplitr; · iexact HIrs
    iexact HatRS
  imod (Rounds.cell_close ER (sched m) (Set.mem_univ (K (c, 2))) (fun h => h) (R := 0 + 1) (duties_later m (rowRecvCell c))) $$ [HatRR] with HzRR
  · isplitr; · iexact HIrr
    iexact HatRR
  imod (Rounds.cell_close ER (sched m) (Set.mem_univ (K (c, 3))) (fun h => h) (R := 0 + 1) (duties_later m (colSendCell c))) $$ [HatCS] with HzCS
  · isplitr; · iexact HIcs
    iexact HatCS
  imod (Rounds.cell_close ER (sched m) (Set.mem_univ (K (c, 4))) (fun h => h) (R := 0 + 1) (duties_later m (colRecvCell c))) $$ [HatCR] with HzCR
  · isplitr; · iexact HIcr
    iexact HatCR
  rw [wp_ret]; imodintro
  iapply Hk
  unfold bodyPost Φ₁ arrays0 Dat.owesAt Pipeline.owesWithin
  rw [show (dats m 0 c).owed t₀.succ = 0 from rfl]
  ihave Hout := (close_some c main_v1 _) $$ Hout
  isplitr [HO]
  · iapply (body_close m c _ _ _ _ _ _ _ _ _) $$ HatRS_pay1 HatCS_pay1 Hx0 Hx1 Haside Hout H0 H1 HatRR_pay1 HatCR_pay1 H4 H5 H6 H7
      HsL0 HsL1 HsS0 HsS1 HsF0 HsF1 HzRS HzRR HzCS HzCR
  · iexists _
    isplitr; swap
    · iexact HO
    · ipureintro; exact fun _ _ => Or.inl trivial

end Cert.KernelProof

end
-- ==== Proof.Body01Kernel.lean ====
import proofs.«900195_g7700000000000196_dist_halo2d_stencil_xy_m3072_n3072_v7x_xy2x2_f32_1_alg».proof.Proof.BodyCommonKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 4000000 in
theorem sound_body_01 (K : Dev nD × Fin 5 → ℕ) (c : Dev nD) (ha : c.val / 2 = 0) (hb : c.val % 2 = 1) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyPre ghost invs locals0 arrays0 scratch
  iintro ⟨⟨⟨⟨⟨#HIbar, #HIrs, #HIrr, #HIcs, #HIcr, #HIbarV, #HIbarH, #HIrrV, #HIcrH⟩, HatB, HatRS, HatRR, HatCS, HatCR,
      #HrBV, #HrBH, #HrRRV, #HrCRH, #HrRS, #HrRR, #HrCS, #HrCR, HtBV, HtBH, HtRRV, HtCRH, HtRS, HtCS⟩, HcB, HcRR, HcCR, #Hlev⟩,
    ⟨HsL0, HsL1, HsS0, HsS1, HsF0, HsF1⟩, ⟨Hx, ⟨%o0, Hout⟩⟩,
    ⟨⟨%f0, H0⟩, ⟨%f1, H1⟩, ⟨%f2, H2⟩, ⟨%f3, H3⟩, ⟨%f4, H4⟩, ⟨%f5, H5⟩, ⟨%f6, H6⟩, ⟨%f7, H7⟩⟩, Ho⟩, Hk⟩
  unfold Dat.owesAt Pipeline.owesWithin
  icases Ho with ⟨%W, %hW, HO⟩
  rw [show (dats m 0 c).owed t₀.castSucc = O₀ c from rfl]
  unfold O₀ O₁ O₂ O₃
  ihave Hb := (body_open m c _ _ _ _ _ _ _ _ _) $$ Hx Hout H0 H1 H2 H3 H4 H5 H6 H7
  icases Hb with ⟨Hout, H0, H1, H2, H3, H4, H5, H6, H7, Hx0, Hx1, HxR, HxC, Haside⟩
  unfold held
  have hmw : (levAts L lv : sProp 𝕄) ⊢ MayWait (c : Thread nD τ) (.reg barS) ()
      (tallyAt (colRecvCell (hn c)) () NC + tallyAt (rowRecvCell (vn c)) () NR) := mayWait_bar c
  sl_exec_parts (disch := first | simp only [dev1_eq, dev2_eq, dev3_eq, dev4_eq] | (clear * - ha hb; decide +kernel +revert))
  ihave Hbp := (Entails.of_eq (bar_round m c)) $$ HatB_pay1
  unfold barPayV barPayH giveV giveH rhPts chPts
  icases Hbp with ⟨⟨⟨%fv, HrhV⟩, #HrV'⟩, ⟨⟨%fh, HchH⟩, #HrH'⟩⟩
  sl_exec_parts (disch := first | simp only [dev1_eq, dev2_eq, dev3_eq, dev4_eq] | (clear * - ha hb; decide +kernel +revert))
  have hcrR : (rowSrc c).view.dmaCredit = 3072 := by rfl
  have hcrC : (colSrc c).view.dmaCredit = 49152 := by rfl
  ihave HxR_cred : cred (tallyAt (rowSendCell c) default ((rowSrc c).view.dmaCredit)) $$ [HxR_cred]
  · rw [hcrR]; iexact HxR_cred
  ihave HxC_cred : cred (tallyAt (colSendCell c) default ((colSrc c).view.dmaCredit)) $$ [HxC_cred]
  · rw [hcrC]; iexact HxC_cred
  sl_exec_parts (disch := first | simp only [dev1_eq, dev2_eq, dev3_eq, dev4_eq] | (clear * - ha hb; decide +kernel +revert))
  imod (Rounds.cell_close ER (sched m) (Set.mem_univ (K (c, 1))) (fun h => h) (R := 0 + 1) (duties_later m (rowSendCell c))) $$ [HatRS] with HzRS
  · isplitr; · iexact HIrs
    iexact HatRS
  imod (Rounds.cell_close ER (sched m) (Set.mem_univ (K (c, 2))) (fun h => h) (R := 0 + 1) (duties_later m (rowRecvCell c))) $$ [HatRR] with HzRR
  · isplitr; · iexact HIrr
    iexact HatRR
  imod (Rounds.cell_close ER (sched m) (Set.mem_univ (K (c, 3))) (fun h => h) (R := 0 + 1) (duties_later m (colSendCell c))) $$ [HatCS] with HzCS
  · isplitr; · iexact HIcs
    iexact HatCS
  imod (Rounds.cell_close ER (sched m) (Set.mem_univ (K (c, 4))) (fun h => h) (R := 0 + 1) (duties_later m (colRecvCell c))) $$ [HatCR] with HzCR
  · isplitr; · iexact HIcr
    iexact HatCR
  rw [wp_ret]; imodintro
  iapply Hk
  unfold bodyPost Φ₁ arrays0 Dat.owesAt Pipeline.owesWithin
  rw [show (dats m 0 c).owed t₀.succ = 0 from rfl]
  ihave Hout := (close_some c main_v1 _) $$ Hout
  isplitr [HO]
  · iapply (body_close m c _ _ _ _ _ _ _ _ _) $$ HatRS_pay1 HatCS_pay1 Hx0 Hx1 Haside Hout H0 H1 HatRR_pay1 HatCR_pay1 H4 H5 H6 H7
      HsL0 HsL1 HsS0 HsS1 HsF0 HsF1 HzRS HzRR HzCS HzCR
  · iexists _
    isplitr; swap
    · iexact HO
    · ipureintro; exact fun _ _ => Or.inl trivial

end Cert.KernelProof

end
-- ==== Proof.Body10Kernel.lean ====
import proofs.«900195_g7700000000000196_dist_halo2d_stencil_xy_m3072_n3072_v7x_xy2x2_f32_1_alg».proof.Proof.BodyCommonKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 4000000 in
theorem sound_body_10 (K : Dev nD × Fin 5 → ℕ) (c : Dev nD) (ha : c.val / 2 = 1) (hb : c.val % 2 = 0) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyPre ghost invs locals0 arrays0 scratch
  iintro ⟨⟨⟨⟨⟨#HIbar, #HIrs, #HIrr, #HIcs, #HIcr, #HIbarV, #HIbarH, #HIrrV, #HIcrH⟩, HatB, HatRS, HatRR, HatCS, HatCR,
      #HrBV, #HrBH, #HrRRV, #HrCRH, #HrRS, #HrRR, #HrCS, #HrCR, HtBV, HtBH, HtRRV, HtCRH, HtRS, HtCS⟩, HcB, HcRR, HcCR, #Hlev⟩,
    ⟨HsL0, HsL1, HsS0, HsS1, HsF0, HsF1⟩, ⟨Hx, ⟨%o0, Hout⟩⟩,
    ⟨⟨%f0, H0⟩, ⟨%f1, H1⟩, ⟨%f2, H2⟩, ⟨%f3, H3⟩, ⟨%f4, H4⟩, ⟨%f5, H5⟩, ⟨%f6, H6⟩, ⟨%f7, H7⟩⟩, Ho⟩, Hk⟩
  unfold Dat.owesAt Pipeline.owesWithin
  icases Ho with ⟨%W, %hW, HO⟩
  rw [show (dats m 0 c).owed t₀.castSucc = O₀ c from rfl]
  unfold O₀ O₁ O₂ O₃
  ihave Hb := (body_open m c _ _ _ _ _ _ _ _ _) $$ Hx Hout H0 H1 H2 H3 H4 H5 H6 H7
  icases Hb with ⟨Hout, H0, H1, H2, H3, H4, H5, H6, H7, Hx0, Hx1, HxR, HxC, Haside⟩
  unfold held
  have hmw : (levAts L lv : sProp 𝕄) ⊢ MayWait (c : Thread nD τ) (.reg barS) ()
      (tallyAt (colRecvCell (hn c)) () NC + tallyAt (rowRecvCell (vn c)) () NR) := mayWait_bar c
  sl_exec_parts (disch := first | simp only [dev1_eq, dev2_eq, dev3_eq, dev4_eq] | (clear * - ha hb; decide +kernel +revert))
  ihave Hbp := (Entails.of_eq (bar_round m c)) $$ HatB_pay1
  unfold barPayV barPayH giveV giveH rhPts chPts
  icases Hbp with ⟨⟨⟨%fv, HrhV⟩, #HrV'⟩, ⟨⟨%fh, HchH⟩, #HrH'⟩⟩
  sl_exec_parts (disch := first | simp only [dev1_eq, dev2_eq, dev3_eq, dev4_eq] | (clear * - ha hb; decide +kernel +revert))
  have hcrR : (rowSrc c).view.dmaCredit = 3072 := by rfl
  have hcrC : (colSrc c).view.dmaCredit = 49152 := by rfl
  ihave HxR_cred : cred (tallyAt (rowSendCell c) default ((rowSrc c).view.dmaCredit)) $$ [HxR_cred]
  · rw [hcrR]; iexact HxR_cred
  ihave HxC_cred : cred (tallyAt (colSendCell c) default ((colSrc c).view.dmaCredit)) $$ [HxC_cred]
  · rw [hcrC]; iexact HxC_cred
  sl_exec_parts (disch := first | simp only [dev1_eq, dev2_eq, dev3_eq, dev4_eq] | (clear * - ha hb; decide +kernel +revert))
  imod (Rounds.cell_close ER (sched m) (Set.mem_univ (K (c, 1))) (fun h => h) (R := 0 + 1) (duties_later m (rowSendCell c))) $$ [HatRS] with HzRS
  · isplitr; · iexact HIrs
    iexact HatRS
  imod (Rounds.cell_close ER (sched m) (Set.mem_univ (K (c, 2))) (fun h => h) (R := 0 + 1) (duties_later m (rowRecvCell c))) $$ [HatRR] with HzRR
  · isplitr; · iexact HIrr
    iexact HatRR
  imod (Rounds.cell_close ER (sched m) (Set.mem_univ (K (c, 3))) (fun h => h) (R := 0 + 1) (duties_later m (colSendCell c))) $$ [HatCS] with HzCS
  · isplitr; · iexact HIcs
    iexact HatCS
  imod (Rounds.cell_close ER (sched m) (Set.mem_univ (K (c, 4))) (fun h => h) (R := 0 + 1) (duties_later m (colRecvCell c))) $$ [HatCR] with HzCR
  · isplitr; · iexact HIcr
    iexact HatCR
  rw [wp_ret]; imodintro
  iapply Hk
  unfold bodyPost Φ₁ arrays0 Dat.owesAt Pipeline.owesWithin
  rw [show (dats m 0 c).owed t₀.succ = 0 from rfl]
  ihave Hout := (close_some c main_v1 _) $$ Hout
  isplitr [HO]
  · iapply (body_close m c _ _ _ _ _ _ _ _ _) $$ HatRS_pay1 HatCS_pay1 Hx0 Hx1 Haside Hout H0 H1 HatRR_pay1 HatCR_pay1 H4 H5 H6 H7
      HsL0 HsL1 HsS0 HsS1 HsF0 HsF1 HzRS HzRR HzCS HzCR
  · iexists _
    isplitr; swap
    · iexact HO
    · ipureintro; exact fun _ _ => Or.inl trivial

end Cert.KernelProof

end
-- ==== Proof.Body11Kernel.lean ====
import proofs.«900195_g7700000000000196_dist_halo2d_stencil_xy_m3072_n3072_v7x_xy2x2_f32_1_alg».proof.Proof.BodyCommonKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 4000000 in
theorem sound_body_11 (K : Dev nD × Fin 5 → ℕ) (c : Dev nD) (ha : c.val / 2 = 1) (hb : c.val % 2 = 1) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyPre ghost invs locals0 arrays0 scratch
  iintro ⟨⟨⟨⟨⟨#HIbar, #HIrs, #HIrr, #HIcs, #HIcr, #HIbarV, #HIbarH, #HIrrV, #HIcrH⟩, HatB, HatRS, HatRR, HatCS, HatCR,
      #HrBV, #HrBH, #HrRRV, #HrCRH, #HrRS, #HrRR, #HrCS, #HrCR, HtBV, HtBH, HtRRV, HtCRH, HtRS, HtCS⟩, HcB, HcRR, HcCR, #Hlev⟩,
    ⟨HsL0, HsL1, HsS0, HsS1, HsF0, HsF1⟩, ⟨Hx, ⟨%o0, Hout⟩⟩,
    ⟨⟨%f0, H0⟩, ⟨%f1, H1⟩, ⟨%f2, H2⟩, ⟨%f3, H3⟩, ⟨%f4, H4⟩, ⟨%f5, H5⟩, ⟨%f6, H6⟩, ⟨%f7, H7⟩⟩, Ho⟩, Hk⟩
  unfold Dat.owesAt Pipeline.owesWithin
  icases Ho with ⟨%W, %hW, HO⟩
  rw [show (dats m 0 c).owed t₀.castSucc = O₀ c from rfl]
  unfold O₀ O₁ O₂ O₃
  ihave Hb := (body_open m c _ _ _ _ _ _ _ _ _) $$ Hx Hout H0 H1 H2 H3 H4 H5 H6 H7
  icases Hb with ⟨Hout, H0, H1, H2, H3, H4, H5, H6, H7, Hx0, Hx1, HxR, HxC, Haside⟩
  unfold held
  have hmw : (levAts L lv : sProp 𝕄) ⊢ MayWait (c : Thread nD τ) (.reg barS) ()
      (tallyAt (colRecvCell (hn c)) () NC + tallyAt (rowRecvCell (vn c)) () NR) := mayWait_bar c
  sl_exec_parts (disch := first | simp only [dev1_eq, dev2_eq, dev3_eq, dev4_eq] | (clear * - ha hb; decide +kernel +revert))
  ihave Hbp := (Entails.of_eq (bar_round m c)) $$ HatB_pay1
  unfold barPayV barPayH giveV giveH rhPts chPts
  icases Hbp with ⟨⟨⟨%fv, HrhV⟩, #HrV'⟩, ⟨⟨%fh, HchH⟩, #HrH'⟩⟩
  sl_exec_parts (disch := first | simp only [dev1_eq, dev2_eq, dev3_eq, dev4_eq] | (clear * - ha hb; decide +kernel +revert))
  have hcrR : (rowSrc c).view.dmaCredit = 3072 := by rfl
  have hcrC : (colSrc c).view.dmaCredit = 49152 := by rfl
  ihave HxR_cred : cred (tallyAt (rowSendCell c) default ((rowSrc c).view.dmaCredit)) $$ [HxR_cred]
  · rw [hcrR]; iexact HxR_cred
  ihave HxC_cred : cred (tallyAt (colSendCell c) default ((colSrc c).view.dmaCredit)) $$ [HxC_cred]
  · rw [hcrC]; iexact HxC_cred
  sl_exec_parts (disch := first | simp only [dev1_eq, dev2_eq, dev3_eq, dev4_eq] | (clear * - ha hb; decide +kernel +revert))
  imod (Rounds.cell_close ER (sched m) (Set.mem_univ (K (c, 1))) (fun h => h) (R := 0 + 1) (duties_later m (rowSendCell c))) $$ [HatRS] with HzRS
  · isplitr; · iexact HIrs
    iexact HatRS
  imod (Rounds.cell_close ER (sched m) (Set.mem_univ (K (c, 2))) (fun h => h) (R := 0 + 1) (duties_later m (rowRecvCell c))) $$ [HatRR] with HzRR
  · isplitr; · iexact HIrr
    iexact HatRR
  imod (Rounds.cell_close ER (sched m) (Set.mem_univ (K (c, 3))) (fun h => h) (R := 0 + 1) (duties_later m (colSendCell c))) $$ [HatCS] with HzCS
  · isplitr; · iexact HIcs
    iexact HatCS
  imod (Rounds.cell_close ER (sched m) (Set.mem_univ (K (c, 4))) (fun h => h) (R := 0 + 1) (duties_later m (colRecvCell c))) $$ [HatCR] with HzCR
  · isplitr; · iexact HIcr
    iexact HatCR
  rw [wp_ret]; imodintro
  iapply Hk
  unfold bodyPost Φ₁ arrays0 Dat.owesAt Pipeline.owesWithin
  rw [show (dats m 0 c).owed t₀.succ = 0 from rfl]
  ihave Hout := (close_some c main_v1 _) $$ Hout
  isplitr [HO]
  · iapply (body_close m c _ _ _ _ _ _ _ _ _) $$ HatRS_pay1 HatCS_pay1 Hx0 Hx1 Haside Hout H0 H1 HatRR_pay1 HatCR_pay1 H4 H5 H6 H7
      HsL0 HsL1 HsS0 HsS1 HsF0 HsF1 HzRS HzRR HzCS HzCR
  · iexists _
    isplitr; swap
    · iexact HO
    · ipureintro; exact fun _ _ => Or.inl trivial

end Cert.KernelProof

end
-- ==== Proof.BodyAllKernel.lean ====
import proofs.«900195_g7700000000000196_dist_halo2d_stencil_xy_m3072_n3072_v7x_xy2x2_f32_1_alg».proof.Proof.Body00Kernel
import proofs.«900195_g7700000000000196_dist_halo2d_stencil_xy_m3072_n3072_v7x_xy2x2_f32_1_alg».proof.Proof.Body01Kernel
import proofs.«900195_g7700000000000196_dist_halo2d_stencil_xy_m3072_n3072_v7x_xy2x2_f32_1_alg».proof.Proof.Body10Kernel
import proofs.«900195_g7700000000000196_dist_halo2d_stencil_xy_m3072_n3072_v7x_xy2x2_f32_1_alg».proof.Proof.Body11Kernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem sound_body (K : Dev nD × Fin 5 → ℕ) (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  have hc : c.val < 4 := c.isLt
  have h1 : c.val / 2 = 0 ∨ c.val / 2 = 1 := by omega
  have h2 : c.val % 2 = 0 ∨ c.val % 2 = 1 := by omega
  rcases h1 with ha | ha <;> rcases h2 with hb | hb
  · exact sound_body_00 m K c ha hb Kt
  · exact sound_body_01 m K c ha hb Kt
  · exact sound_body_10 m K c ha hb Kt
  · exact sound_body_11 m K c ha hb Kt

end Cert.KernelProof

end
-- ==== Proof.LaunchKernel.lean ====
import proofs.«900195_g7700000000000196_dist_halo2d_stencil_xy_m3072_n3072_v7x_xy2x2_f32_1_alg».proof.Proof.StateKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def QC : PUnit × MemSt nD τ sig (Elt F) → Prop := fun r =>
  ∀ c : Dev nD, r.2.mem ((c : Thread nD τ).loc main_arg0) = m ((c : Thread nD τ).loc main_arg0)

theorem bigSep_W0 (Φ : Fin cfg0.W → sProp 𝕄) : bigSep Finset.univ Φ = iprop(emp) := by
  show bigSep (Finset.univ : Finset (Fin 0)) Φ = _
  rw [Finset.univ_eq_empty]; rfl

theorem body_obligation
    (hbody : ∀ (K : Dev nD × Fin 5 → ℕ) (c : Dev nD) (Kt : PUnit → sProp 𝕄),
      iprop(bodyPre m K c ∗ (bodyPost m c -∗ Kt ⟨⟩))
        ⊢ wp frame (wpE (defs₀ (F := F)) 𝒱₀ c none) Set.univ (bodyAt0 (F := F) t₀) Kt)
    (c : Dev nD) : BodyObligation (dats (F := F) m 0 c) (defs₀ (F := F)) 𝒱₀ () Set.univ := fun t => by
  rw [fin_N t]
  rw [bigSep_W0, bigSep_W0]
  show iprop(Φ₀ m c ∗ (dats m 0 c).owesAt () t₀.castSucc ∗ emp)
    ⊢ wp frame (wpE (defs₀ (F := F)) 𝒱₀ c none) Set.univ (bodyAt0 (F := F) t₀)
        (fun _ => iprop(Φ₁ m c ∗ (dats m 0 c).owesAt () t₀.succ ∗ emp))
  unfold Φ₀ start
  iintro ⟨⟨⟨⟨%K, Hg⟩, Hrest⟩, Hloc, Harr, Hscr⟩, Ho, -⟩
  iapply (hbody K c fun _ => iprop(Φ₁ m c ∗ (dats m 0 c).owesAt () t₀.succ ∗ emp))
  unfold bodyPre bodyPost
  isplitr []
  · isplitl [Hg Hrest]
    · isplitl [Hg]; · iexact Hg
      iexact Hrest
    isplitl [Hloc]; · iexact Hloc
    isplitl [Harr]; · iexact Harr
    isplitl [Hscr]; · iexact Hscr
    iexact Ho
  · iintro ⟨H1, H2⟩
    isplitl [H1]; · iexact H1
    isplitl [H2]; · iexact H2
    iempintro

theorem ownSemFacts : Pipeline.OwnSemFacts cfg0.spec osem := by decide

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

abbrev tokOf (cj : Dev nD × Fin 6) : GSem nD τ sig × ℕ × Bool := match cj.2 with
  | 0 => (barCell cj.1, 0, false) | 1 => (barCell cj.1, 0, true) | 2 => (rowSendCell cj.1, 0, false)
  | 3 => (rowRecvCell cj.1, 0, false) | 4 => (colSendCell cj.1, 0, false) | 5 => (colRecvCell cj.1, 0, false)
theorem tokOf_injective : Function.Injective (tokOf : Dev nD × Fin 6 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have key : ∀ (j j' : Fin 6) (c : Dev nD),
      ((tokOf (c, j)).1.2, (tokOf (c, j)).2.2) = ((tokOf (c, j')).1.2, (tokOf (c, j')).2.2) → j = j' := by decide
  have : j = j' := key j j' c (by rw [h])
  subst this; rfl
def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop(dutyTok ER (barCell c) 0 false ∗ dutyTok ER (barCell c) 0 true ∗ dutyTok ER (rowSendCell c) 0 false
    ∗ dutyTok ER (rowRecvCell c) 0 false ∗ dutyTok ER (colSendCell c) 0 false ∗ dutyTok ER (colRecvCell c) 0 false)

def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

def G' (c : Dev nD) : sProp 𝕄 := iprop((∃ K, ghost m K c) ∗ locals0 c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 5 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin6]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), .dma loadS0) 0 ∗ semVal ((c : Thread nD τ), .dma loadS1) 0
        ∗ semVal ((c : Thread nD τ), .dma storeS0) 0 ∗ semVal ((c : Thread nD τ), .dma storeS1) 0
        ∗ semVal (rowSendCell c) 0 ∗ semVal (rowRecvCell c) 0 ∗ semVal (colSendCell c) 0 ∗ semVal (colRecvCell c) 0
        ∗ semVal ((c : Thread nD τ), .dma fixS0) 0 ∗ semVal ((c : Thread nD τ), .dma fixS1) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) ∗ locals0 c) := by
  unfold G
  rw [ownSems0_eq, unscopedSems0_eq]
  iintro ⟨⟨Hl0, Hl1, Hs0, Hs1, HvRS, HvRR, HvCS, HvCR, Hf0, Hf1⟩, HvB, Hst, Hat, Htok⟩
  ihave Hv := (show iprop(semVal (barCell c) 0 ∗ semVal (rowSendCell c) 0 ∗ semVal (rowRecvCell c) 0 ∗ semVal (colSendCell c) 0 ∗ semVal (colRecvCell c) 0)
      ⊢ (bigSep Finset.univ fun k : Fin 5 => semVal (kcell (c, k)) 0 : sProp 𝕄) from by rw [bigSep_fin5]) $$ [HvB HvRS HvRR HvCS HvCR]
  · isplitl [HvB]; · iexact HvB
    isplitl [HvRS]; · iexact HvRS
    isplitl [HvRR]; · iexact HvRR
    isplitl [HvCS]; · iexact HvCS
    iexact HvCR
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  unfold locals0
  isplitr [Hl0 Hl1 Hs0 Hs1 Hf0 Hf1]
  · isplitl [Hinv]; · iexact Hinv
    isplitl [Hat]; · iexact Hat
    iexact Htok
  · isplitl [Hl0]; · iexact Hl0
    isplitl [Hl1]; · iexact Hl1
    isplitl [Hs0]; · iexact Hs0
    isplitl [Hs1]; · iexact Hs1
    isplitl [Hf0]; · iexact Hf0
    iexact Hf1

def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

def payToks (c : Dev nD) : sProp 𝕄 :=
  iprop(dutyTok ER (barCell (vn c)) 0 false ∗ dutyTok ER (barCell (hn c)) 0 true
    ∗ dutyTok ER (rowRecvCell (vn c)) 0 false ∗ dutyTok ER (colRecvCell (hn c)) 0 false
    ∗ dutyTok ER (rowSendCell c) 0 false ∗ dutyTok ER (colSendCell c) 0 false)
def linear (c : Dev nD) : sProp 𝕄 :=
  iprop((atPos ER (barCell c) 0 ∅ 0 ∗ atPos ER (rowSendCell c) 0 ∅ 0 ∗ atPos ER (rowRecvCell c) 0 ∅ 0
      ∗ atPos ER (colSendCell c) 0 ∅ 0 ∗ atPos ER (colRecvCell c) 0 ∅ 0) ∗ payToks c)

theorem ghost_intro (K : Dev nD × Fin 5 → ℕ) (c : Dev nD) : iprop(records m K ∗ linear c) ⊢ iprop(∃ K, ghost m K c) := by
  unfold records linear payToks ghost invs
  iintro ⟨⟨#HI, #HR⟩, ⟨HaB, HaRS, HaRR, HaCS, HaCR⟩, HtBV, HtBH, HtRR, HtCR, HtRS, HtCS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (vn c, 0)); iexact HI
    isplitr; · iapply (inv_at m K (hn c, 0)); iexact HI
    isplitr; · iapply (inv_at m K (vn c, 2)); iexact HI
    iapply (inv_at m K (hn c, 4)); iexact HI
  isplitl [HaB]; · iexact HaB
  isplitl [HaRS]; · iexact HaRS
  isplitl [HaRR]; · iexact HaRR
  isplitl [HaCS]; · iexact HaCS
  isplitl [HaCR]; · iexact HaCR
  isplitr; · iapply (reached_at (F := F) (vn c, 0)); iexact HR
  isplitr; · iapply (reached_at (F := F) (hn c, 0)); iexact HR
  isplitr; · iapply (reached_at (F := F) (vn c, 2)); iexact HR
  isplitr; · iapply (reached_at (F := F) (hn c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtBV]; · iexact HtBV
  isplitl [HtBH]; · iexact HtBH
  isplitl [HtRR]; · iexact HtRR
  isplitl [HtCR]; · iexact HtCR
  isplitl [HtRS]; · iexact HtRS
  iexact HtCS

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv vring (fun c : Dev nD => (dutyTok ER (barCell c) 0 false : sProp 𝕄)),
    bigSep_univ_equiv hring (fun c : Dev nD => (dutyTok ER (barCell c) 0 true : sProp 𝕄)),
    bigSep_univ_equiv vring (fun c : Dev nD => (dutyTok ER (rowRecvCell c) 0 false : sProp 𝕄)),
    bigSep_univ_equiv hring (fun c : Dev nD => (dutyTok ER (colRecvCell c) 0 false : sProp 𝕄))]
  iintro ⟨H1, H2, H3, H4, H5, H6⟩
  isplitl [H1]; · iexact H1
  isplitl [H2]; · iexact H2
  isplitl [H4]; · iexact H4
  isplitl [H6]; · iexact H6
  isplitl [H3]; · iexact H3
  iexact H5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ fun c : Dev nD => iprop(∃ K, ghost m K c) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

theorem regroup_locals :
    (bigSep Finset.univ fun c : Dev nD => iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) ∗ locals0 c) : sProp 𝕄)
      ⊢ bigSep Finset.univ (G' m) := by
  rw [bigSep_sep']
  refine (sep_mono_left (regroup m)).trans ?_
  exact Entails.of_eq (bigSep_sep' Finset.univ (fun c : Dev nD => iprop(∃ K, ghost m K c)) (fun c : Dev nD => locals0 c)).symm

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup_locals m))

theorem bar_eq_iff {a b : Dev nD} : Iff (barCell a = barCell b) (a = b) :=
  ⟨fun h => Fin.ext (congrArg (fun g : GSem nD τ sig => g.1.1.val) h), fun h => h ▸ rfl⟩
theorem rr_eq_iff {a b : Dev nD} : Iff (rowRecvCell a = rowRecvCell b) (a = b) :=
  ⟨fun h => Fin.ext (congrArg (fun g : GSem nD τ sig => g.1.1.val) h), fun h => h ▸ rfl⟩
theorem cr_eq_iff {a b : Dev nD} : Iff (colRecvCell a = colRecvCell b) (a = b) :=
  ⟨fun h => Fin.ext (congrArg (fun g : GSem nD τ sig => g.1.1.val) h), fun h => h ▸ rfl⟩

theorem owed_bar (d c : Dev nD) : O₀ d (barCell c) () = (if d = hn c then 1 else 0) + (if d = vn c then 1 else 0) := by
  unfold O₀ O₁ O₂ O₃
  rw [Pi.add_apply, Finsupp.add_apply, Pi.add_apply, Finsupp.add_apply, Pi.add_apply, Finsupp.add_apply,
    tallyAt_ne_cell (g := colRecvCell (hn d)) (g' := barCell c) (fun h => cr_ne_bar (congrArg Prod.snd h).symm),
    tallyAt_ne_cell (g := rowRecvCell (vn d)) (g' := barCell c) (fun h => rr_ne_bar (congrArg Prod.snd h).symm),
    tallyAt_apply, tallyAt_apply, Finsupp.zero_apply, Nat.zero_add, Nat.zero_add]
  congr 1
  · by_cases h : d = hn c
    · subst h; rw [hn_hn, if_pos ⟨rfl, rfl⟩, if_pos rfl]
    · rw [if_neg (fun ⟨h1, _⟩ => h (by rw [← hn_hn d]; exact congrArg hn (bar_eq_iff.mp h1).symm)), if_neg h]
  · by_cases h : d = vn c
    · subst h; rw [vn_vn, if_pos ⟨rfl, rfl⟩, if_pos rfl]
    · rw [if_neg (fun ⟨h1, _⟩ => h (by rw [← vn_vn d]; exact congrArg vn (bar_eq_iff.mp h1).symm)), if_neg h]

theorem owed_rr (d c : Dev nD) : O₀ d (rowRecvCell c) () = if d = vn c then NR else 0 := by
  unfold O₀ O₁ O₂ O₃
  rw [Pi.add_apply, Finsupp.add_apply, Pi.add_apply, Finsupp.add_apply, Pi.add_apply, Finsupp.add_apply,
    tallyAt_ne_cell (g := colRecvCell (hn d)) (g' := rowRecvCell c) (fun h => cr_ne_rr (congrArg Prod.snd h).symm),
    tallyAt_apply,
    tallyAt_ne_cell (g := barCell (hn d)) (g' := rowRecvCell c) (fun h => rr_ne_bar (congrArg Prod.snd h)),
    tallyAt_ne_cell (g := barCell (vn d)) (g' := rowRecvCell c) (fun h => rr_ne_bar (congrArg Prod.snd h)),
    Finsupp.zero_apply, Nat.zero_add, Nat.add_zero, Nat.add_zero]
  by_cases h : d = vn c
  · subst h; rw [vn_vn, if_pos ⟨rfl, rfl⟩, if_pos rfl]
  · rw [if_neg (fun ⟨h1, _⟩ => h (by rw [← vn_vn d]; exact congrArg vn (rr_eq_iff.mp h1).symm)), if_neg h]

theorem owed_cr (d c : Dev nD) : O₀ d (colRecvCell c) () = if d = hn c then NC else 0 := by
  unfold O₀ O₁ O₂ O₃
  rw [Pi.add_apply, Finsupp.add_apply, Pi.add_apply, Finsupp.add_apply, Pi.add_apply, Finsupp.add_apply,
    tallyAt_apply,
    tallyAt_ne_cell (g := rowRecvCell (vn d)) (g' := colRecvCell c) (fun h => cr_ne_rr (congrArg Prod.snd h)),
    tallyAt_ne_cell (g := barCell (hn d)) (g' := colRecvCell c) (fun h => cr_ne_bar (congrArg Prod.snd h)),
    tallyAt_ne_cell (g := barCell (vn d)) (g' := colRecvCell c) (fun h => cr_ne_bar (congrArg Prod.snd h)),
    Finsupp.zero_apply, Nat.add_zero, Nat.add_zero, Nat.add_zero]
  by_cases h : d = hn c
  · subst h; rw [hn_hn, if_pos ⟨rfl, rfl⟩, if_pos rfl]
  · rw [if_neg (fun ⟨h1, _⟩ => h (by rw [← hn_hn d]; exact congrArg hn (cr_eq_iff.mp h1).symm)), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (hn c) fun _ => 1, Finset.sum_ite_eq' Finset.univ (vn c) fun _ => 1, if_pos (Finset.mem_univ _), if_pos (Finset.mem_univ _)]

theorem launch_rr (c : Dev nD) :
    tallyOn (rowRecvCell c) (launchCredit (Pipeline.owing O₀) 0 (rowRecvCell c)) = (tallyAt (rowRecvCell c) () NR : CellTallies nD τ sig Unit) := by
  unfold tallyAt; refine congrArg _ (Finsupp.ext fun u => ?_); cases u
  rw [Pipeline.launchCredit_owing, Finsupp.single_eq_same, Finset.sum_congr rfl fun d _ => owed_rr d c, Finset.sum_ite_eq' Finset.univ (vn c) fun _ => NR,
    if_pos (Finset.mem_univ _)]

theorem launch_cr (c : Dev nD) :
    tallyOn (colRecvCell c) (launchCredit (Pipeline.owing O₀) 0 (colRecvCell c)) = (tallyAt (colRecvCell c) () NC : CellTallies nD τ sig Unit) := by
  unfold tallyAt; refine congrArg _ (Finsupp.ext fun u => ?_); cases u
  rw [Pipeline.launchCredit_owing, Finsupp.single_eq_same, Finset.sum_congr rfl fun d _ => owed_cr d c, Finset.sum_ite_eq' Finset.univ (hn c) fun _ => NC,
    if_pos (Finset.mem_univ _)]

theorem creds (c : Dev nD) :
    (Pipeline.launchCred O₀ c : sProp 𝕄)
      ⊢ iprop(cred (tallyAt (barCell c) () 2) ∗ cred (tallyAt (rowRecvCell c) () NR) ∗ cred (tallyAt (colRecvCell c) () NC)) := by
  unfold Pipeline.launchCred
  rw [bigSep_univ_at _ (SemLoc.reg barS), launch_bar]
  refine sep_mono_right ?_
  rw [bigSep_erase (i := SemLoc.dma rowRecvS) (Finset.mem_erase.mpr ⟨rr_ne_bar, Finset.mem_univ _⟩), launch_rr]
  refine sep_mono_right ?_
  rw [← launch_cr]
  exact bigSep_elim (Finset.mem_erase.mpr ⟨cr_ne_rr, Finset.mem_erase.mpr ⟨cr_ne_bar, Finset.mem_univ _⟩⟩)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ locals0 c ∗ arrays0 m c) ∗ emp) := by
  rw [Pipeline.unscopedRestP_none, unscopedRest0_eq]
  iintro ⟨⟨Harg, Hout⟩, Hlev, Hcr, -, HG⟩
  ihave Hc := (creds (F := F) c) $$ Hcr
  icases Hc with ⟨H1, HR, HC⟩
  imodintro
  unfold start G' arrays0 X
  icases HG with ⟨HG, Hloc⟩
  isplitl
  · isplitl [HG H1 HR HC Hlev]
    · isplitl [HG]; · iexact HG
      isplitl [H1]; · iexact H1
      isplitl [HR]; · iexact HR
      isplitl [HC]; · iexact HC
      iexact Hlev
    isplitl [Hloc]; · iexact Hloc
    isplitl [Harg]; · iexact Harg
    iexists _; iexact Hout
  · iempintro

theorem phi0_intro (c : Dev nD) :
    iprop((start m c ∗ locals0 c ∗ arrays0 m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, Hl, Ha⟩, -, Hr⟩
  isplitl [Hs]; · iexact Hs
  isplitl [Hl]; · iexact Hl
  isplitl [Ha]; · iexact Ha
  iexact Hr

theorem phi1_exit (c : Dev nD) :
    (dats m 0 c).Φ (Fin.last cfg0.N) ⊢ iprop(arrays0 m c ∗ Pipeline.ownSems0 osem c ∗ Pipeline.scopedRest cfg0.spec c) := by
  rw [show (dats m 0 c).Φ (Fin.last cfg0.N) = Φ₁ m c from rfl, scopedRest0_eq, ownSems0_eq]
  unfold Φ₁ scratch locals0
  iintro ⟨Ha, Hscr, ⟨Hl0, Hl1, Hs0, Hs1, Hf0, Hf1⟩, HvRS, HvRR, HvCS, HvCR⟩
  isplitl [Ha]; · iexact Ha
  isplitr [Hscr]
  · isplitl [Hl0]; · iexact Hl0
    isplitl [Hl1]; · iexact Hl1
    isplitl [Hs0]; · iexact Hs0
    isplitl [Hs1]; · iexact Hs1
    isplitl [HvRS]; · iexact HvRS
    isplitl [HvRR]; · iexact HvRR
    isplitl [HvCS]; · iexact HvCS
    isplitl [HvCR]; · iexact HvCR
    isplitl [Hf0]; · iexact Hf0
    iexact Hf1
  · iexact Hscr

theorem waits (c : Dev nD) : (levAts L lv : sProp 𝕄) ⊢ Pipeline.cellsWaits cfgs (dats m) () 0 c :=
  Pipeline.cellsWaits_intro cfgs (dats m) () 0 c fun w => w.elim0

theorem final_read (c : Dev nD) (s' : Phys nD τ sig (Elt F)) :
    iprop(arrays0 m c ∗ emp ∗ SI s')
      ⊢ (|={Set.univ}=> iprop(⌜s'.mem.mem ((c : Thread nD τ).loc main_arg0) = m ((c : Thread nD τ).loc main_arg0)⌝ ∗ SI s') : sProp 𝕄) := by
  unfold arrays0
  iintro ⟨⟨Hx, Ho⟩, -, HSI⟩
  icombine HSI Hx gives %hx
  imodintro
  isplitr; · ipureintro; exact Buf.eq_of_forall_mem_univ hx
  iexact HSI

-- From the body's proof: every fair interleaving of the four devices ends with each argument block unchanged.
set_option maxRecDepth 8000 in
theorem run_main_of
    (hbody : ∀ (K : Dev nD × Fin 5 → ℕ) (c : Dev nD) (Kt : PUnit → sProp 𝕄),
      iprop(bodyPre m K c ∗ (bodyPost m c -∗ Kt ⟨⟩))
        ⊢ wp frame (wpE (defs₀ (F := F)) 𝒱₀ c none) Set.univ (bodyAt0 (F := F) t₀) Kt) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m hbody) (hne := fun w => w.elim0) (harr := arr_whole0) (hstage := stage_whole0) (hshare := fun _ w => w.elim0)
    (hdistinct := fun w => w.elim0)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_proto m) $$ HR with HG
      imodintro
      isplitl [HP] <;> iassumption)
    (hglob := glob m)
    (hA := fun _ w => w.elim0) (hpf := fun _ k => k.elim0)
    (X := fun c => iprop(start m c ∗ locals0 c ∗ arrays0 m c)) (Y := arrays0 m) (Z := fun _ => iprop(emp))
    (hX := start_intro m ρ) (hin := phi0_intro m) (hout := phi1_exit m)
    (QY := fun c s => s.mem ((c : Thread nD τ).loc main_arg0) = m ((c : Thread nD τ).loc main_arg0))
    (hY := final_read m)
    (hQ := fun _ h c => (h c).2.2)

/-- info: 'Cert.KernelProof.run_main_of' depends on axioms: [propext, Classical.choice, Quot.sound] -/
#guard_msgs in #print axioms run_main_of

end Cert.KernelProof

end
-- ==== Proof.ProtoKernelIdeal.lean ====
import proofs.«900195_g7700000000000196_dist_halo2d_stencil_xy_m3072_n3072_v7x_xy2x2_f32_1_alg».proof.Proof.Gen.KernelIdeal
import proofs.«900195_g7700000000000196_dist_halo2d_stencil_xy_m3072_n3072_v7x_xy2x2_f32_1_alg».proof.Proof.Gen.KernelIdeal.Skeleton
import proofs.«900195_g7700000000000196_dist_halo2d_stencil_xy_m3072_n3072_v7x_xy2x2_f32_1_alg».proof.Proof.Gen.KernelIdeal.Launch
import proofs.«900195_g7700000000000196_dist_halo2d_stencil_xy_m3072_n3072_v7x_xy2x2_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans (embR : Emb (UB × Counters) (MT nD τ sig Unit (Elt F) ℕ UU ℕ))

omit [FloatOps F] in
instance ER_landsIn : (ER : Emb UB (MT nD τ sig Unit (Elt F) ℕ UU ℕ)).LandsIn (upEmb : UEmb _ (MT nD τ sig Unit (Elt F) ℕ UU ℕ)) := by
  unfold ER embR; infer_instance

variable (m : (ℓ : Loc nD τ sig) → Buf (Elt F) ℓ) (ρ : Dev nD → PrngReg)

def vn (c : Dev nD) : Dev nD := ⟨((c.val % 2) + 2) - 2 * (c.val / 2), by have h : c.val < 4 := c.isLt; show _ < 4; omega⟩
def hn (c : Dev nD) : Dev nD := ⟨(2 * (c.val / 2) + 1) - (c.val % 2), by have h : c.val < 4 := c.isLt; show _ < 4; omega⟩

@[sl_rounds] theorem vn_vn (c : Dev nD) : vn (vn c) = c := by revert c; decide
@[sl_rounds] theorem hn_hn (c : Dev nD) : hn (hn c) = c := by revert c; decide

@[sl_canon] theorem dev1_eq (c : Dev nD) : (⟨k0_dev1 c, k0_dev1_lt c⟩ : Dev nD) = vn c := Fin.ext (k0_dev1_eq c)
@[sl_canon] theorem dev2_eq (c : Dev nD) : (⟨k0_dev2 c, k0_dev2_lt c⟩ : Dev nD) = hn c := Fin.ext (k0_dev2_eq c)
@[sl_canon] theorem dev3_eq (c : Dev nD) : (⟨k0_dev3 c, k0_dev3_lt c⟩ : Dev nD) = vn c := Fin.ext (k0_dev3_eq c)
@[sl_canon] theorem dev4_eq (c : Dev nD) : (⟨k0_dev4 c, k0_dev4_lt c⟩ : Dev nD) = hn c := Fin.ext (k0_dev4_eq c)

def vring : Dev nD ≃ Dev nD := ⟨vn, vn, vn_vn, vn_vn⟩
def hring : Dev nD ≃ Dev nD := ⟨hn, hn, hn_hn, hn_hn⟩

abbrev xM : Memref sig .tc .hbm S3072x3072 .f32 := Memref.whole main_arg0
abbrev rhM : Memref sig .tc .vmem S8x3072 .f32 := Memref.whole cc0_scratch2
abbrev chM : Memref sig .tc .vmem S3072x128 .f32 := Memref.whole cc0_scratch3

abbrev rowSrc (c : Dev nD) : Memref sig .tc .hbm S8x3072 .f32 :=
  xM.slice (Rect.unit (s := S3072x3072) (k0_off1 c) S8x3072.size (k0_off1_inb c)) (fun _ => rfl)
abbrev colSrc (c : Dev nD) : Memref sig .tc .hbm S3072x128 .f32 :=
  xM.slice (Rect.unit (s := S3072x3072) (k0_off2 c) S3072x128.size (k0_off2_inb c)) (fun _ => rfl)

abbrev barS : Sem sig := (SemArray.scalar (sig.barrier 0 rfl) : Sems sig S_).sem
abbrev rowSendS : DmaSem sig := ((cc0_scratch10.slice (Rect.unit (s := S2) ![0] S1.size inb_S2_S1_0)).squeeze S_ squeezes_S1_S_).sem
abbrev rowRecvS : DmaSem sig := ((cc0_scratch10.slice (Rect.unit (s := S2) ![1] S1.size inb_S2_S1_1)).squeeze S_ squeezes_S1_S_).sem
abbrev colSendS : DmaSem sig := ((cc0_scratch11.slice (Rect.unit (s := S2) ![0] S1.size inb_S2_S1_0)).squeeze S_ squeezes_S1_S_).sem
abbrev colRecvS : DmaSem sig := ((cc0_scratch11.slice (Rect.unit (s := S2) ![1] S1.size inb_S2_S1_1)).squeeze S_ squeezes_S1_S_).sem

abbrev barCell (c : Dev nD) : GSem nD τ sig := ((c : Thread nD τ), .reg barS)
abbrev rowSendCell (c : Dev nD) : GSem nD τ sig := ((c : Thread nD τ), .dma rowSendS)
abbrev rowRecvCell (c : Dev nD) : GSem nD τ sig := ((c : Thread nD τ), .dma rowRecvS)
abbrev colSendCell (c : Dev nD) : GSem nD τ sig := ((c : Thread nD τ), .dma colSendS)
abbrev colRecvCell (c : Dev nD) : GSem nD τ sig := ((c : Thread nD τ), .dma colRecvS)

abbrev csem : Fin 5 → SemLoc sig := fun
  | 0 => .reg barS | 1 => .dma rowSendS | 2 => .dma rowRecvS | 3 => .dma colSendS | 4 => .dma colRecvS
abbrev kcell (ck : Dev nD × Fin 5) : GSem nD τ sig := ((ck.1 : Thread nD τ), csem ck.2)

abbrev NR : ℕ := (rhM : Memref sig .tc .vmem S8x3072 .f32).view.dmaCredit
abbrev NC : ℕ := (chM : Memref sig .tc .vmem S3072x128 .f32).view.dmaCredit
theorem NR_pos : 0 < NR := View.dmaCredit_pos _ (by decide)
theorem NC_pos : 0 < NC := View.dmaCredit_pos _ (by decide)

def X (c : Dev nD) : Buf (Elt F) ((c : Thread nD τ).loc main_arg0) := m ((c : Thread nD τ).loc main_arg0)

def sentRows (d : Dev nD) : (cc0_scratch2 : Ref sig .tc).ty.Contents (Elt F) := (rowSrc d).view.read (Elt F) (X m d)
def sentCols (d : Dev nD) : (cc0_scratch3 : Ref sig .tc).ty.Contents (Elt F) := (colSrc d).view.read (Elt F) (X m d)
def rowLanded (c : Dev nD) : Buf (Elt F) ((rhM : Memref sig .tc .vmem S8x3072 .f32).view.loc (c : Thread nD τ)) := sentRows m (vn c)
def colLanded (c : Dev nD) : Buf (Elt F) ((chM : Memref sig .tc .vmem S3072x128 .f32).view.loc (c : Thread nD τ)) := sentCols m (hn c)

def rhPts (c : Dev nD) (f : Buf (Elt F) ((rhM : Memref sig .tc .vmem S8x3072 .f32).view.loc (c : Thread nD τ))) : sProp 𝕄 :=
  (rhM : Memref sig .tc .vmem S8x3072 .f32).view.loc (c : Thread nD τ) ↦[(rhM : Memref sig .tc .vmem S8x3072 .f32).view.set]{fullShare} f
def chPts (c : Dev nD) (f : Buf (Elt F) ((chM : Memref sig .tc .vmem S3072x128 .f32).view.loc (c : Thread nD τ))) : sProp 𝕄 :=
  (chM : Memref sig .tc .vmem S3072x128 .f32).view.loc (c : Thread nD τ) ↦[(chM : Memref sig .tc .vmem S3072x128 .f32).view.set]{fullShare} f

abbrev qRow : PosShare TreeShare := Transfers.shareTokN fullShare 4
abbrev qCol : PosShare TreeShare := Transfers.shareTokN fullShare 6

def rowSrcPts (c : Dev nD) : sProp 𝕄 :=
  (rowSrc c).view.loc (c : Thread nD τ) ↦[(rowSrc c).view.set]{qRow} X m c
def colSrcPts (c : Dev nD) : sProp 𝕄 :=
  (colSrc c).view.loc (c : Thread nD τ) ↦[(colSrc c).view.set]{qCol} X m c

omit [FloatOps F] in
instance rhPts_storable (c : Dev nD) (f) : BI.Storable (upEmb : UEmb _ 𝕄) (rhPts (F := F) c f) := by unfold rhPts; infer_instance
omit [FloatOps F] in
instance chPts_storable (c : Dev nD) (f) : BI.Storable (upEmb : UEmb _ 𝕄) (chPts (F := F) c f) := by unfold chPts; infer_instance
omit [FloatOps F] in
instance rowSrcPts_storable (c : Dev nD) : BI.Storable (upEmb : UEmb _ 𝕄) (rowSrcPts (F := F) m c) := by unfold rowSrcPts; infer_instance
omit [FloatOps F] in
instance colSrcPts_storable (c : Dev nD) : BI.Storable (upEmb : UEmb _ 𝕄) (colSrcPts (F := F) m c) := by unfold colSrcPts; infer_instance

def giveV (d : Dev nD) : sProp 𝕄 := iprop((∃ f, rhPts d f) ∗ reached ER (rowRecvCell d) 0)
def giveH (d : Dev nD) : sProp 𝕄 := iprop((∃ f, chPts d f) ∗ reached ER (colRecvCell d) 0)
def barPayV (c : Dev nD) : sProp 𝕄 := giveV (vn c)
def barPayH (c : Dev nD) : sProp 𝕄 := giveH (hn c)
def rowRecvPay (c : Dev nD) : sProp 𝕄 :=
  iprop(∃ fd : Buf (Elt F) ((rhM : Memref sig .tc .vmem S8x3072 .f32).view.loc (c : Thread nD τ)),
    (rhM : Memref sig .tc .vmem S8x3072 .f32).view.loc (c : Thread nD τ) ↦[(rhM : Memref sig .tc .vmem S8x3072 .f32).view.set]{fullShare}
      (rhM : Memref sig .tc .vmem S8x3072 .f32).view.write (Elt F) fd (sentRows m (vn c)) Finset.univ)
def colRecvPay (c : Dev nD) : sProp 𝕄 :=
  iprop(∃ fd : Buf (Elt F) ((chM : Memref sig .tc .vmem S3072x128 .f32).view.loc (c : Thread nD τ)),
    (chM : Memref sig .tc .vmem S3072x128 .f32).view.loc (c : Thread nD τ) ↦[(chM : Memref sig .tc .vmem S3072x128 .f32).view.set]{fullShare}
      (chM : Memref sig .tc .vmem S3072x128 .f32).view.write (Elt F) fd (sentCols m (hn c)) Finset.univ)

omit [FloatOps F] in
@[sl_rounds] theorem barPayV_eq (c : Dev nD) : (barPayV c : sProp 𝕄) = giveV (vn c) := rfl
omit [FloatOps F] in
@[sl_rounds] theorem barPayH_eq (c : Dev nD) : (barPayH c : sProp 𝕄) = giveH (hn c) := rfl
omit [FloatOps F] in
@[sl_rounds] theorem giveV_eq (d : Dev nD) : (giveV d : sProp 𝕄) = iprop((∃ f : Buf (Elt F) ((rhM : Memref sig .tc .vmem S8x3072 .f32).view.loc (d : Thread nD τ)),
    (rhM : Memref sig .tc .vmem S8x3072 .f32).view.loc (d : Thread nD τ) ↦[(rhM : Memref sig .tc .vmem S8x3072 .f32).view.set]{fullShare} f) ∗ reached ER (rowRecvCell d) 0) := rfl
omit [FloatOps F] in
@[sl_rounds] theorem giveH_eq (d : Dev nD) : (giveH d : sProp 𝕄) = iprop((∃ f : Buf (Elt F) ((chM : Memref sig .tc .vmem S3072x128 .f32).view.loc (d : Thread nD τ)),
    (chM : Memref sig .tc .vmem S3072x128 .f32).view.loc (d : Thread nD τ) ↦[(chM : Memref sig .tc .vmem S3072x128 .f32).view.set]{fullShare} f) ∗ reached ER (colRecvCell d) 0) := rfl
omit [FloatOps F] in
@[sl_rounds] theorem rowRecvPay_eq (c : Dev nD) : (rowRecvPay m c : sProp 𝕄) =
    iprop(∃ fd : Buf (Elt F) ((rhM : Memref sig .tc .vmem S8x3072 .f32).view.loc (c : Thread nD τ)),
      (rhM : Memref sig .tc .vmem S8x3072 .f32).view.loc (c : Thread nD τ) ↦[(rhM : Memref sig .tc .vmem S8x3072 .f32).view.set]{fullShare}
        (rhM : Memref sig .tc .vmem S8x3072 .f32).view.write (Elt F) fd (sentRows m (vn c)) Finset.univ) := rfl
omit [FloatOps F] in
@[sl_rounds] theorem colRecvPay_eq (c : Dev nD) : (colRecvPay m c : sProp 𝕄) =
    iprop(∃ fd : Buf (Elt F) ((chM : Memref sig .tc .vmem S3072x128 .f32).view.loc (c : Thread nD τ)),
      (chM : Memref sig .tc .vmem S3072x128 .f32).view.loc (c : Thread nD τ) ↦[(chM : Memref sig .tc .vmem S3072x128 .f32).view.set]{fullShare}
        (chM : Memref sig .tc .vmem S3072x128 .f32).view.write (Elt F) fd (sentCols m (hn c)) Finset.univ) := rfl
omit [FloatOps F] in
@[sl_rounds] theorem sentRows_eq (d : Dev nD) : sentRows m d = (rowSrc d).view.read (Elt F) (X m d) := rfl
omit [FloatOps F] in
@[sl_rounds] theorem sentCols_eq (d : Dev nD) : sentCols m d = (colSrc d).view.read (Elt F) (X m d) := rfl
def rowSendPay (c : Dev nD) : sProp 𝕄 := rowSrcPts m c
def colSendPay (c : Dev nD) : sProp 𝕄 := colSrcPts m c
omit [FloatOps F] in
@[sl_rounds] theorem rowSendPay_eq (c : Dev nD) : (rowSendPay m c : sProp 𝕄) =
    ((rowSrc c).view.loc (c : Thread nD τ) ↦[(rowSrc c).view.set]{qRow} X m c) := rfl
omit [FloatOps F] in
@[sl_rounds] theorem colSendPay_eq (c : Dev nD) : (colSendPay m c : sProp 𝕄) =
    ((colSrc c).view.loc (c : Thread nD τ) ↦[(colSrc c).view.set]{qCol} X m c) := rfl

abbrev IsBar (g : GSem nD τ sig) : Prop := g.1.2 = .tc ∧ g.2 = .reg barS
abbrev IsXfer (g : GSem nD τ sig) : Prop :=
  g.1.2 = .tc ∧ (g.2 = .dma rowSendS ∨ g.2 = .dma rowRecvS ∨ g.2 = .dma colSendS ∨ g.2 = .dma colRecvS)

-- One round: a barrier cell takes one unit from either neighbour; each transfer cell one duty of its strip's credit.
def sched : Rounds.Schedule (GSem nD τ sig) Bool 𝕄 where
  duties g r := if r = 0 ∧ IsBar g then Finset.univ else if r = 0 ∧ IsXfer g then {false} else ∅
  unitless _ := False
  amount g _ _ := if g.2 = .reg barS then 1 else if (g.2 = .dma rowSendS ∨ g.2 = .dma rowRecvS) then NR else NC
  payload g _ d :=
    if g.2 = .reg barS then (if d then barPayH g.1.1 else barPayV g.1.1)
    else if g.2 = .dma rowRecvS then rowRecvPay m g.1.1
    else if g.2 = .dma rowSendS then rowSendPay m g.1.1
    else if g.2 = .dma colRecvS then colRecvPay m g.1.1
    else if g.2 = .dma colSendS then colSendPay m g.1.1
    else iprop(emp)
  amount_pos g _ _ _ := by
    by_cases h : g.2 = .reg barS
    · rw [if_pos h]; exact Nat.one_pos
    · rw [if_neg h]; split
      · exact NR_pos
      · exact NC_pos

instance sched_payload_storable (g : GSem nD τ sig) (r : ℕ) (d : Bool) :
    BI.Storable (upEmb : UEmb _ 𝕄) ((sched (F := F) m).payload g r d) := by
  show BI.Storable upEmb (if g.2 = .reg barS then (if d then barPayH g.1.1 else barPayV g.1.1)
    else if g.2 = .dma rowRecvS then rowRecvPay m g.1.1
    else if g.2 = .dma rowSendS then rowSendPay m g.1.1
    else if g.2 = .dma colRecvS then colRecvPay m g.1.1
    else if g.2 = .dma colSendS then colSendPay m g.1.1
    else iprop(emp))
  unfold barPayH barPayV giveH giveV rowRecvPay rowSendPay colRecvPay colSendPay
  (repeat' split) <;> infer_instance

section Sched
variable (c : Dev nD)

theorem rs_ne_bar : (SemLoc.dma rowSendS : SemLoc sig) ≠ .reg barS := fun h => by cases h
theorem rr_ne_bar : (SemLoc.dma rowRecvS : SemLoc sig) ≠ .reg barS := fun h => by cases h
theorem cs_ne_bar : (SemLoc.dma colSendS : SemLoc sig) ≠ .reg barS := fun h => by cases h
theorem cr_ne_bar : (SemLoc.dma colRecvS : SemLoc sig) ≠ .reg barS := fun h => by cases h
theorem rs_ne_rr : (SemLoc.dma rowSendS : SemLoc sig) ≠ .dma rowRecvS := by decide
theorem cs_ne_rr : (SemLoc.dma colSendS : SemLoc sig) ≠ .dma rowRecvS := by decide
theorem cr_ne_rr : (SemLoc.dma colRecvS : SemLoc sig) ≠ .dma rowRecvS := by decide
theorem cs_ne_rs : (SemLoc.dma colSendS : SemLoc sig) ≠ .dma rowSendS := by decide
theorem cr_ne_rs : (SemLoc.dma colRecvS : SemLoc sig) ≠ .dma rowSendS := by decide
theorem cs_ne_cr : (SemLoc.dma colSendS : SemLoc sig) ≠ .dma colRecvS := by decide

omit [FloatOps F] in
@[sl_rounds] theorem duties_bar : (sched (F := F) m).duties (barCell c) 0 = Finset.univ := by dsimp only [sched]; exact if_pos ⟨rfl, rfl, rfl⟩
omit [FloatOps F] in
@[sl_rounds] theorem duties_rs : (sched (F := F) m).duties (rowSendCell c) 0 = {false} := by
  dsimp only [sched]; rw [if_neg (fun h => rs_ne_bar h.2.2)]; exact if_pos ⟨rfl, rfl, .inl rfl⟩
omit [FloatOps F] in
@[sl_rounds] theorem duties_rr : (sched (F := F) m).duties (rowRecvCell c) 0 = {false} := by
  dsimp only [sched]; rw [if_neg (fun h => rr_ne_bar h.2.2)]; exact if_pos ⟨rfl, rfl, .inr (.inl rfl)⟩
omit [FloatOps F] in
@[sl_rounds] theorem duties_cs : (sched (F := F) m).duties (colSendCell c) 0 = {false} := by
  dsimp only [sched]; rw [if_neg (fun h => cs_ne_bar h.2.2)]; exact if_pos ⟨rfl, rfl, .inr (.inr (.inl rfl))⟩
omit [FloatOps F] in
@[sl_rounds] theorem duties_cr : (sched (F := F) m).duties (colRecvCell c) 0 = {false} := by
  dsimp only [sched]; rw [if_neg (fun h => cr_ne_bar h.2.2)]; exact if_pos ⟨rfl, rfl, .inr (.inr (.inr rfl))⟩
omit [FloatOps F] in
theorem duties_later (g : GSem nD τ sig) : ∀ r, 1 ≤ r → (sched (F := F) m).duties g r = ∅ :=
  fun r hr => by dsimp only [sched]; rw [if_neg fun h => by omega, if_neg fun h => by omega]

omit [FloatOps F] in
@[sl_rounds] theorem amount_bar (d : Bool) : (sched (F := F) m).amount (barCell c) 0 d = 1 := by dsimp only [sched]; exact if_pos rfl
omit [FloatOps F] in
@[sl_rounds] theorem amount_rs (d : Bool) : (sched (F := F) m).amount (rowSendCell c) 0 d = NR := by
  dsimp only [sched]; rw [if_neg rs_ne_bar]; exact if_pos (.inl rfl)
omit [FloatOps F] in
@[sl_rounds] theorem amount_rr (d : Bool) : (sched (F := F) m).amount (rowRecvCell c) 0 d = NR := by
  dsimp only [sched]; rw [if_neg rr_ne_bar]; exact if_pos (.inr rfl)
omit [FloatOps F] in
@[sl_rounds] theorem amount_cs (d : Bool) : (sched (F := F) m).amount (colSendCell c) 0 d = NC := by
  dsimp only [sched]; rw [if_neg cs_ne_bar]; exact if_neg (fun h => h.elim cs_ne_rs cs_ne_rr)
omit [FloatOps F] in
@[sl_rounds] theorem amount_cr (d : Bool) : (sched (F := F) m).amount (colRecvCell c) 0 d = NC := by
  dsimp only [sched]; rw [if_neg cr_ne_bar]; exact if_neg (fun h => h.elim cr_ne_rs cr_ne_rr)

omit [FloatOps F] in
@[sl_rounds] theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
@[sl_rounds] theorem expect_rs : (sched (F := F) m).expect (rowSendCell c) 0 = NR := by
  unfold Schedule.expect Schedule.amountOf; rw [duties_rs, Finset.sum_singleton, amount_rs]
omit [FloatOps F] in
@[sl_rounds] theorem expect_rr : (sched (F := F) m).expect (rowRecvCell c) 0 = NR := by
  unfold Schedule.expect Schedule.amountOf; rw [duties_rr, Finset.sum_singleton, amount_rr]
omit [FloatOps F] in
@[sl_rounds] theorem expect_cs : (sched (F := F) m).expect (colSendCell c) 0 = NC := by
  unfold Schedule.expect Schedule.amountOf; rw [duties_cs, Finset.sum_singleton, amount_cs]
omit [FloatOps F] in
@[sl_rounds] theorem expect_cr : (sched (F := F) m).expect (colRecvCell c) 0 = NC := by
  unfold Schedule.expect Schedule.amountOf; rw [duties_cr, Finset.sum_singleton, amount_cr]

omit [FloatOps F] in
@[sl_rounds] theorem payload_bar_true : (sched (F := F) m).payload (barCell c) 0 true = barPayH c := by dsimp only [sched]; rw [if_pos rfl, if_pos rfl]
omit [FloatOps F] in
@[sl_rounds] theorem payload_bar_false : (sched (F := F) m).payload (barCell c) 0 false = barPayV c := by
  dsimp only [sched]; rw [if_pos rfl]; exact if_neg Bool.false_ne_true
omit [FloatOps F] in
@[sl_rounds] theorem payload_rr (d : Bool) : (sched (F := F) m).payload (rowRecvCell c) 0 d = rowRecvPay m c := by
  dsimp only [sched]; rw [if_neg rr_ne_bar, if_pos rfl]
omit [FloatOps F] in
@[sl_rounds] theorem payload_rs (d : Bool) : (sched (F := F) m).payload (rowSendCell c) 0 d = rowSendPay m c := by
  dsimp only [sched]; rw [if_neg rs_ne_bar, if_neg rs_ne_rr, if_pos rfl]
omit [FloatOps F] in
@[sl_rounds] theorem payload_cr (d : Bool) : (sched (F := F) m).payload (colRecvCell c) 0 d = colRecvPay m c := by
  dsimp only [sched]; rw [if_neg cr_ne_bar, if_neg cr_ne_rr, if_neg cr_ne_rs, if_pos rfl]
omit [FloatOps F] in
@[sl_rounds] theorem payload_cs (d : Bool) : (sched (F := F) m).payload (colSendCell c) 0 d = colSendPay m c := by
  dsimp only [sched]; rw [if_neg cs_ne_bar, if_neg cs_ne_rr, if_neg cs_ne_rs, if_neg cs_ne_cr, if_pos rfl]

end Sched

def O₃ (c : Dev nD) : CellTallies nD τ sig Unit := tallyAt (colRecvCell (hn c)) () NC
def O₂ (c : Dev nD) : CellTallies nD τ sig Unit := O₃ c + tallyAt (rowRecvCell (vn c)) () NR
def O₁ (c : Dev nD) : CellTallies nD τ sig Unit := O₂ c + tallyAt (barCell (hn c)) () 1
def O₀ (c : Dev nD) : CellTallies nD τ sig Unit := O₁ c + tallyAt (barCell (vn c)) () 1

def L (g : GSem nD τ sig) : Finset Unit := if g.1.2 = .tc then {()} else ∅
def lv (g : GSem nD τ sig) (_ : Unit) : ℕ :=
  if g.2 = .reg barS then 1 else if (g.2 = .dma rowRecvS ∨ g.2 = .dma colRecvS) then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdealProof

end
-- ==== Proof.StateKernelIdeal.lean ====
import proofs.«900195_g7700000000000196_dist_halo2d_stencil_xy_m3072_n3072_v7x_xy2x2_f32_1_alg».proof.Proof.ProtoKernelIdeal
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev loadS0 : DmaSem sig := ((cc0_scratch8.slice (Rect.unit (s := S2) ![0] S1.size inb_S2_S1_0)).squeeze S_ squeezes_S1_S_).sem
abbrev loadS1 : DmaSem sig := ((cc0_scratch8.slice (Rect.unit (s := S2) ![1] S1.size inb_S2_S1_1)).squeeze S_ squeezes_S1_S_).sem
abbrev storeS0 : DmaSem sig := ((cc0_scratch9.slice (Rect.unit (s := S2) ![0] S1.size inb_S2_S1_0)).squeeze S_ squeezes_S1_S_).sem
abbrev storeS1 : DmaSem sig := ((cc0_scratch9.slice (Rect.unit (s := S2) ![1] S1.size inb_S2_S1_1)).squeeze S_ squeezes_S1_S_).sem
abbrev fixS0 : DmaSem sig := ((cc0_scratch12.slice (Rect.unit (s := S2) ![0] S1.size inb_S2_S1_0)).squeeze S_ squeezes_S1_S_).sem
abbrev fixS1 : DmaSem sig := ((cc0_scratch12.slice (Rect.unit (s := S2) ![1] S1.size inb_S2_S1_1)).squeeze S_ squeezes_S1_S_).sem

abbrev osem : Fin 10 → SemLoc sig := fun
  | 0 => .dma loadS0 | 1 => .dma loadS1 | 2 => .dma storeS0 | 3 => .dma storeS1 | 4 => .dma rowSendS
  | 5 => .dma rowRecvS | 6 => .dma colSendS | 7 => .dma colRecvS | 8 => .dma fixS0 | 9 => .dma fixS1

def locals0 (c : Dev nD) : sProp 𝕄 :=
  iprop(semVal ((c : Thread nD τ), .dma loadS0) 0 ∗ semVal ((c : Thread nD τ), .dma loadS1) 0
    ∗ semVal ((c : Thread nD τ), .dma storeS0) 0 ∗ semVal ((c : Thread nD τ), .dma storeS1) 0
    ∗ semVal ((c : Thread nD τ), .dma fixS0) 0 ∗ semVal ((c : Thread nD τ), .dma fixS1) 0)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))

def wHalf : F .f32 := Scalar.ofBits .f32 0x3F000000#32
def wEighth : F .f32 := Scalar.ofBits .f32 0x3E000000#32

def entry {n0 n1 : ℕ} (A : (⟨2, ![n0, n1]⟩ : Shape).Idx → F .f32) (d : F .f32) (r k : ℕ) : F .f32 :=
  if hb : r < n0 ∧ k < n1 then A (ValueIdx.ix2 ⟨r, hb.1⟩ ⟨k, hb.2⟩) else d

-- What a device leaves in its result array, from its block and the two strips that land: `blockResult`, over any float instance.
def outOf (c : Dev nD) (x : Buf (Elt F) ((c : Thread nD τ).loc main_arg0))
    (rh : Buf (Elt F) ((c : Thread nD τ).loc cc0_scratch2)) (ch : Buf (Elt F) ((c : Thread nD τ).loc cc0_scratch3)) :
    Buf (Elt F) ((c : Thread nD τ).loc main_v1) :=
  fun (i : S3072x3072.Idx) =>
    let xs : S3072x3072.Idx → F .f32 := x
    let rs : S8x3072.Idx → F .f32 := rh
    let cs : S3072x128.Idx → F .f32 := ch
    let r := (i 0).val
    let k := (i 1).val
    if (c.val / 2 = 0 ∧ r = 0) ∨ (c.val / 2 = 1 ∧ r = 3071) ∨ (c.val % 2 = 0 ∧ k = 0) ∨ (c.val % 2 = 1 ∧ k = 3071) then xs i
    else
      FloatOps.addf (FloatOps.mulf wHalf (xs i))
        (FloatOps.mulf wEighth
          (FloatOps.addf
            (FloatOps.addf
              (FloatOps.addf (if r = 0 then entry rs (xs i) 7 k else entry xs (xs i) (r - 1) k)
                (if r = 3071 then entry rs (xs i) 0 k else entry xs (xs i) (r + 1) k))
              (if k = 0 then entry cs (xs i) r 127 else entry xs (xs i) r (k - 1)))
            (if k = 3071 then entry cs (xs i) r 0 else entry xs (xs i) r (k + 1))))

def OUT (c : Dev nD) : Buf (Elt F) ((c : Thread nD τ).loc main_v1) := outOf c (X m c) (rowLanded m c) (colLanded m c)

def invs (K : Dev nD × Fin 5 → ℕ) (c : Dev nD) : sProp 𝕄 :=
  iprop(cellInv ER (sched m) (K (c, 0)) (barCell c) ∗ cellInv ER (sched m) (K (c, 1)) (rowSendCell c)
    ∗ cellInv ER (sched m) (K (c, 2)) (rowRecvCell c) ∗ cellInv ER (sched m) (K (c, 3)) (colSendCell c)
    ∗ cellInv ER (sched m) (K (c, 4)) (colRecvCell c)
    ∗ cellInv ER (sched m) (K (vn c, 0)) (barCell (vn c)) ∗ cellInv ER (sched m) (K (hn c, 0)) (barCell (hn c))
    ∗ cellInv ER (sched m) (K (vn c, 2)) (rowRecvCell (vn c)) ∗ cellInv ER (sched m) (K (hn c, 4)) (colRecvCell (hn c)))

instance invs_persistent (K : Dev nD × Fin 5 → ℕ) (c : Dev nD) : BI.Persistent (invs m K c) := by unfold invs; infer_instance

def ghost (K : Dev nD × Fin 5 → ℕ) (c : Dev nD) : sProp 𝕄 :=
  iprop(invs m K c
    ∗ atPos ER (barCell c) 0 ∅ 0 ∗ atPos ER (rowSendCell c) 0 ∅ 0 ∗ atPos ER (rowRecvCell c) 0 ∅ 0
    ∗ atPos ER (colSendCell c) 0 ∅ 0 ∗ atPos ER (colRecvCell c) 0 ∅ 0
    ∗ reached ER (barCell (vn c)) 0 ∗ reached ER (barCell (hn c)) 0
    ∗ reached ER (rowRecvCell (vn c)) 0 ∗ reached ER (colRecvCell (hn c)) 0
    ∗ reached ER (rowSendCell c) 0 ∗ reached ER (rowRecvCell c) 0 ∗ reached ER (colSendCell c) 0 ∗ reached ER (colRecvCell c) 0
    ∗ dutyTok ER (barCell (vn c)) 0 false ∗ dutyTok ER (barCell (hn c)) 0 true
    ∗ dutyTok ER (rowRecvCell (vn c)) 0 false ∗ dutyTok ER (colRecvCell (hn c)) 0 false
    ∗ dutyTok ER (rowSendCell c) 0 false ∗ dutyTok ER (colSendCell c) 0 false)

def start (c : Dev nD) : sProp 𝕄 :=
  iprop((∃ K, ghost m K c) ∗ cred (tallyAt (barCell c) () 2) ∗ cred (tallyAt (rowRecvCell c) () NR)
    ∗ cred (tallyAt (colRecvCell c) () NC) ∗ levAts L lv)

def arrays0 (c : Dev nD) : sProp 𝕄 :=
  iprop((((c : Thread nD τ).loc main_arg0) ↦{fullShare} X m c)
    ∗ ∃ o : Buf (Elt F) ((c : Thread nD τ).loc main_v1), ((c : Thread nD τ).loc main_v1) ↦{fullShare} o)
def arrays1 (c : Dev nD) : sProp 𝕄 :=
  iprop((((c : Thread nD τ).loc main_arg0) ↦{fullShare} X m c) ∗ (((c : Thread nD τ).loc main_v1) ↦{fullShare} OUT m c))

def Φ₀ (c : Dev nD) : sProp 𝕄 := iprop(start m c ∗ locals0 c ∗ arrays0 m c ∗ scratch c)
def Φ₁ (c : Dev nD) : sProp 𝕄 :=
  iprop(arrays1 m c ∗ scratch c ∗ locals0 c
    ∗ semVal (rowSendCell c) 0 ∗ semVal (rowRecvCell c) 0 ∗ semVal (colSendCell c) 0 ∗ semVal (colRecvCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (K : Dev nD × Fin 5 → ℕ) (c : Dev nD) : sProp 𝕄 :=
  iprop((ghost m K c ∗ cred (tallyAt (barCell c) () 2) ∗ cred (tallyAt (rowRecvCell c) () NR)
      ∗ cred (tallyAt (colRecvCell c) () NC) ∗ levAts L lv)
    ∗ locals0 c ∗ arrays0 m c ∗ scratch c ∗ (dats m 0 c).owesAt () t₀.castSucc)

def bodyPost (c : Dev nD) : sProp 𝕄 := iprop(Φ₁ m c ∗ (dats m 0 c).owesAt () t₀.succ)

end Cert.KernelIdealProof

end
-- ==== Proof.BodyCommonKernelIdeal.lean ====
import proofs.«900195_g7700000000000196_dist_halo2d_stencil_xy_m3072_n3072_v7x_xy2x2_f32_1_alg».proof.Proof.StateKernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev held (c : Dev nD) (b : Ref sig .tc) (q : PosShare TreeShare) (f : Buf (Elt F) ((c : Thread nD τ).loc b)) : sProp 𝕄 :=
  (Memref.whole b : Memref sig .tc b.space b.ty.shape b.ty.elt).view.loc (c : Thread nD τ) ↦[(Memref.whole b : Memref sig .tc b.space b.ty.shape b.ty.elt).view.set]{q} f

omit [FloatOps F] in
theorem held_eq (c : Dev nD) (b : Ref sig .tc) (q : PosShare TreeShare) (f : Buf (Elt F) ((c : Thread nD τ).loc b)) :
    held c b q f = (((c : Thread nD τ).loc b) ↦{q} f : sProp 𝕄) := by unfold held; rw [View.set_whole]

omit [FloatOps F] in
theorem O₂_pos {c : Dev nD} {g : GSem nD τ sig} {u : Unit} (h : 0 < O₂ c g u) :
    g = colRecvCell (hn c) ∨ g = rowRecvCell (vn c) := by
  unfold O₂ O₃ at h
  rw [Pi.add_apply, Finsupp.add_apply, tallyAt_apply, tallyAt_apply] at h
  by_contra hn'
  rw [not_or] at hn'
  rw [if_neg (fun h' => hn'.1 h'.1), if_neg (fun h' => hn'.2 h'.1)] at h
  exact Nat.lt_irrefl 0 h

omit [FloatOps F] in
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; dsimp only [lv]; rw [if_pos rfl])
    (fun g u hg => by
      rcases O₂_pos hg with rfl | rfl
      · dsimp only [lv]; rw [if_neg cr_ne_bar, if_pos (Or.inr rfl)]; decide
      · dsimp only [lv]; rw [if_neg rr_ne_bar, if_pos (Or.inl rfl)]; decide)

omit [FloatOps F] in
theorem bigSep_range7 (Φ : ℕ → sProp 𝕄) :
    bigSep (Finset.range 7) Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]; rfl

abbrev xAt (c : Dev nD) (q : PosShare TreeShare) (f : Buf (Elt F) ((c : Thread nD τ).loc main_arg0)) : sProp 𝕄 :=
  (xM : Memref sig .tc .hbm S3072x3072 .f32).view.loc (c : Thread nD τ) ↦[(xM : Memref sig .tc .hbm S3072x3072 .f32).view.set]{q} f

omit [FloatOps F] in
theorem carve_row (c : Dev nD) (q : PosShare TreeShare) (f : Buf (Elt F) ((c : Thread nD τ).loc main_arg0)) :
    (xAt c q f : sProp 𝕄) ⊣⊢ iprop(((rowSrc c).view.loc (c : Thread nD τ) ↦[(rowSrc c).view.set]{q} f)
      ∗ ((xM : Memref sig .tc .hbm S3072x3072 .f32).view.loc (c : Thread nD τ) ↦[(xM : Memref sig .tc .hbm S3072x3072 .f32).view.set \ (rowSrc c).view.set]{q} f)) :=
  pointsTo_split_subset (by rw [View.set_whole]; exact Finset.subset_univ _)
omit [FloatOps F] in
theorem carve_col (c : Dev nD) (q : PosShare TreeShare) (f : Buf (Elt F) ((c : Thread nD τ).loc main_arg0)) :
    (xAt c q f : sProp 𝕄) ⊣⊢ iprop(((colSrc c).view.loc (c : Thread nD τ) ↦[(colSrc c).view.set]{q} f)
      ∗ ((xM : Memref sig .tc .hbm S3072x3072 .f32).view.loc (c : Thread nD τ) ↦[(xM : Memref sig .tc .hbm S3072x3072 .f32).view.set \ (colSrc c).view.set]{q} f)) :=
  pointsTo_split_subset (by rw [View.set_whole]; exact Finset.subset_univ _)

def xAside (c : Dev nD) (f : Buf (Elt F) ((c : Thread nD τ).loc main_arg0)) : sProp 𝕄 :=
  iprop(xAt c (Transfers.shareDrop fullShare 7) f ∗ xAt c (Transfers.shareTokN fullShare 2) f ∗ xAt c (Transfers.shareTokN fullShare 3) f
    ∗ xAt c (Transfers.shareTokN fullShare 5) f
    ∗ ((xM : Memref sig .tc .hbm S3072x3072 .f32).view.loc (c : Thread nD τ) ↦[(xM : Memref sig .tc .hbm S3072x3072 .f32).view.set \ (rowSrc c).view.set]{qRow} f)
    ∗ ((xM : Memref sig .tc .hbm S3072x3072 .f32).view.loc (c : Thread nD τ) ↦[(xM : Memref sig .tc .hbm S3072x3072 .f32).view.set \ (colSrc c).view.set]{qCol} f))

omit [FloatOps F] in
theorem bar_round (c : Dev nD) :
    bigSep Finset.univ (fun d : Bool => (sched (F := F) m).payload (barCell c) 0 d) = iprop(barPayV c ∗ barPayH c) := by
  rw [bigSep_univ_eq_bigSepL [false, true] (by decide) (by decide), bigSepL_cons_cons, bigSepL_singleton,
    payload_bar_false, payload_bar_true]
  rfl

omit [FloatOps F] in
theorem close_whole (c : Dev nD) (b : Ref sig .tc) (f g : Buf (Elt F) ((c : Thread nD τ).loc b)) (h : f = g) :
    (held c b fullShare f : sProp 𝕄) ⊢ (((c : Thread nD τ).loc b) ↦{fullShare} g) := by
  subst h; exact Entails.of_eq (held_eq c b fullShare _)

omit [FloatOps F] in
theorem close_some (c : Dev nD) (b : Ref sig .tc) (f : Buf (Elt F) ((c : Thread nD τ).loc b)) :
    (held c b fullShare f : sProp 𝕄) ⊢ iprop(∃ f' : Buf (Elt F) ((c : Thread nD τ).loc b), ((c : Thread nD τ).loc b) ↦{fullShare} f') := by
  rw [held_eq]; iintro H; iexists f; iexact H

omit [FloatOps F] in
theorem x_rejoin (c : Dev nD) (f : Buf (Elt F) ((c : Thread nD τ).loc main_arg0)) :
    iprop(((rowSrc c).view.loc (c : Thread nD τ) ↦[(rowSrc c).view.set]{qRow} f)
      ∗ ((colSrc c).view.loc (c : Thread nD τ) ↦[(colSrc c).view.set]{qCol} f)
      ∗ xAt c (Transfers.shareTokN fullShare 0) f ∗ xAt c (Transfers.shareTokN fullShare 1) f ∗ xAside c f)
    ⊢ (((c : Thread nD τ).loc main_arg0) ↦{fullShare} f : sProp 𝕄) := by
  unfold xAside
  iintro ⟨HR, HC, H0, H1, Hd, H2, H3, H5, HRr, HCr⟩
  ihave H4 := (carve_row c (Transfers.shareTokN fullShare 4) f).2 $$ [HR HRr]
  · isplitl [HR]; · iexact HR
    iexact HRr
  ihave H6 := (carve_col c (Transfers.shareTokN fullShare 6) f).2 $$ [HC HCr]
  · isplitl [HC]; · iexact HC
    iexact HCr
  rw [← held_eq c main_arg0 fullShare f]; unfold held
  iapply (Transfers.pointsTo_toks_range (Ix := Unit) (Name := ℕ) (U := UU) (Lvl := ℕ) fullShare 7).2
  rw [bigSep_range7]
  isplitl [Hd]; · iexact Hd
  isplitl [H0]; · iexact H0
  isplitl [H1]; · iexact H1
  isplitl [H2]; · iexact H2
  isplitl [H3]; · iexact H3
  isplitl [H4]; · iexact H4
  isplitl [H5]; · iexact H5
  iexact H6

-- The buffers restated through their memrefs, the argument block split into the shares its copies lend.
omit [FloatOps F] in
theorem body_open (c : Dev nD) (o : Buf (Elt F) ((c : Thread nD τ).loc main_v1))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (f7 : Buf (Elt F) ((c : Thread nD τ).loc cc0_scratch7)) :
    (((c : Thread nD τ).loc main_arg0) ↦{fullShare} X m c : sProp 𝕄) ⊢ iprop((((c : Thread nD τ).loc main_v1) ↦{fullShare} o)
      -∗ (((c : Thread nD τ).loc cc0_scratch0) ↦{fullShare} f0) -∗ (((c : Thread nD τ).loc cc0_scratch1) ↦{fullShare} f1)
      -∗ (((c : Thread nD τ).loc cc0_scratch2) ↦{fullShare} f2) -∗ (((c : Thread nD τ).loc cc0_scratch3) ↦{fullShare} f3)
      -∗ (((c : Thread nD τ).loc cc0_scratch4) ↦{fullShare} f4) -∗ (((c : Thread nD τ).loc cc0_scratch5) ↦{fullShare} f5)
      -∗ (((c : Thread nD τ).loc cc0_scratch6) ↦{fullShare} f6) -∗ (((c : Thread nD τ).loc cc0_scratch7) ↦{fullShare} f7)
      -∗ (held c main_v1 fullShare o ∗ held c cc0_scratch0 fullShare f0 ∗ held c cc0_scratch1 fullShare f1 ∗ held c cc0_scratch2 fullShare f2
        ∗ held c cc0_scratch3 fullShare f3 ∗ held c cc0_scratch4 fullShare f4 ∗ held c cc0_scratch5 fullShare f5
        ∗ held c cc0_scratch6 fullShare f6 ∗ held c cc0_scratch7 fullShare f7
        ∗ xAt c (Transfers.shareTokN fullShare 0) (X m c) ∗ xAt c (Transfers.shareTokN fullShare 1) (X m c)
        ∗ ((rowSrc c).view.loc (c : Thread nD τ) ↦[(rowSrc c).view.set]{qRow} X m c)
        ∗ ((colSrc c).view.loc (c : Thread nD τ) ↦[(colSrc c).view.set]{qCol} X m c) ∗ xAside c (X m c))) := by
  iintro Hx Hout H0 H1 H2 H3 H4 H5 H6 H7
  ihave Hx := (Entails.of_eq (held_eq c main_arg0 fullShare _).symm) $$ Hx
  ihave Hout := (Entails.of_eq (held_eq c main_v1 fullShare _).symm) $$ Hout
  ihave H0 := (Entails.of_eq (held_eq c cc0_scratch0 fullShare _).symm) $$ H0
  ihave H1 := (Entails.of_eq (held_eq c cc0_scratch1 fullShare _).symm) $$ H1
  ihave H2 := (Entails.of_eq (held_eq c cc0_scratch2 fullShare _).symm) $$ H2
  ihave H3 := (Entails.of_eq (held_eq c cc0_scratch3 fullShare _).symm) $$ H3
  ihave H4 := (Entails.of_eq (held_eq c cc0_scratch4 fullShare _).symm) $$ H4
  ihave H5 := (Entails.of_eq (held_eq c cc0_scratch5 fullShare _).symm) $$ H5
  ihave H6 := (Entails.of_eq (held_eq c cc0_scratch6 fullShare _).symm) $$ H6
  ihave H7 := (Entails.of_eq (held_eq c cc0_scratch7 fullShare _).symm) $$ H7
  ihave Hx := (Transfers.pointsTo_toks_range (Ix := Unit) (Name := ℕ) (U := UU) (Lvl := ℕ) fullShare 7).1 $$ Hx
  rw [bigSep_range7]
  icases Hx with ⟨Hxd, Hx0, Hx1, Hx2, Hx3, Hx4, Hx5, Hx6⟩
  ihave Hx4 := (carve_row c (Transfers.shareTokN fullShare 4) (X m c)).1 $$ Hx4
  icases Hx4 with ⟨HxR, HxRr⟩
  ihave Hx6 := (carve_col c (Transfers.shareTokN fullShare 6) (X m c)).1 $$ Hx6
  icases Hx6 with ⟨HxC, HxCr⟩
  unfold xAside
  isplitl [Hout]; · iexact Hout
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx0]; · iexact Hx0
  isplitl [Hx1]; · iexact Hx1
  isplitl [HxR]; · iexact HxR
  isplitl [HxC]; · iexact HxC
  isplitl [Hxd]; · iexact Hxd
  isplitl [Hx2]; · iexact Hx2
  isplitl [Hx3]; · iexact Hx3
  isplitl [Hx5]; · iexact Hx5
  isplitl [HxRr]; · iexact HxRr
  iexact HxCr

-- The shares put together again and every buffer handed back.
omit [FloatOps F] in
theorem body_close (c : Dev nD) (R : sProp 𝕄)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (f7 : Buf (Elt F) ((c : Thread nD τ).loc cc0_scratch7)) :
    ((rowSrc c).view.loc (c : Thread nD τ) ↦[(rowSrc c).view.set]{qRow} X m c : sProp 𝕄) ⊢ iprop(
      ((colSrc c).view.loc (c : Thread nD τ) ↦[(colSrc c).view.set]{qCol} X m c)
      -∗ xAt c (Transfers.shareTokN fullShare 0) (X m c) -∗ xAt c (Transfers.shareTokN fullShare 1) (X m c) -∗ xAside c (X m c) -∗ R
      -∗ held c cc0_scratch0 fullShare f0 -∗ held c cc0_scratch1 fullShare f1 -∗ held c cc0_scratch2 fullShare f2
      -∗ held c cc0_scratch3 fullShare f3 -∗ held c cc0_scratch4 fullShare f4 -∗ held c cc0_scratch5 fullShare f5
      -∗ held c cc0_scratch6 fullShare f6 -∗ held c cc0_scratch7 fullShare f7
      -∗ semVal ((c : Thread nD τ), .dma (⟨0, by decide⟩ : DmaSem sig)) 0 -∗ semVal ((c : Thread nD τ), .dma (⟨1, by decide⟩ : DmaSem sig)) 0 -∗ semVal ((c : Thread nD τ), .dma (⟨2, by decide⟩ : DmaSem sig)) 0
      -∗ semVal ((c : Thread nD τ), .dma (⟨3, by decide⟩ : DmaSem sig)) 0 -∗ semVal ((c : Thread nD τ), .dma (⟨8, by decide⟩ : DmaSem sig)) 0 -∗ semVal ((c : Thread nD τ), .dma (⟨9, by decide⟩ : DmaSem sig)) 0
      -∗ semVal (rowSendCell c) 0 -∗ semVal (rowRecvCell c) 0 -∗ semVal (colSendCell c) 0 -∗ semVal (colRecvCell c) 0
      -∗ (((((c : Thread nD τ).loc main_arg0) ↦{fullShare} X m c) ∗ R) ∗ scratch c ∗ locals0 c
        ∗ semVal (rowSendCell c) 0 ∗ semVal (rowRecvCell c) 0 ∗ semVal (colSendCell c) 0 ∗ semVal (colRecvCell c) 0)) := by
  unfold scratch locals0
  iintro HxR HxC Hx0 Hx1 Ha HR H0 H1 H2 H3 H4 H5 H6 H7 HsL0 HsL1 HsS0 HsS1 HsF0 HsF1 HzRS HzRR HzCS HzCR
  ihave Hx := (x_rejoin c (X m c)) $$ [HxR HxC Hx0 Hx1 Ha]
  · isplitl [HxR]; · iexact HxR
    isplitl [HxC]; · iexact HxC
    isplitl [Hx0]; · iexact Hx0
    isplitl [Hx1]; · iexact Hx1
    iexact Ha
  ihave H0 := (close_some c cc0_scratch0 _) $$ H0
  ihave H1 := (close_some c cc0_scratch1 _) $$ H1
  ihave H2 := (close_some c cc0_scratch2 _) $$ H2
  ihave H3 := (close_some c cc0_scratch3 _) $$ H3
  ihave H4 := (close_some c cc0_scratch4 _) $$ H4
  ihave H5 := (close_some c cc0_scratch5 _) $$ H5
  ihave H6 := (close_some c cc0_scratch6 _) $$ H6
  ihave H7 := (close_some c cc0_scratch7 _) $$ H7
  isplitl [Hx HR]
  · isplitl [Hx]; · iexact Hx
    iexact HR
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HsL0 HsL1 HsS0 HsS1 HsF0 HsF1]
  · isplitl [HsL0]; · iexact HsL0
    isplitl [HsL1]; · iexact HsL1
    isplitl [HsS0]; · iexact HsS0
    isplitl [HsS1]; · iexact HsS1
    isplitl [HsF0]; · iexact HsF0
    iexact HsF1
  isplitl [HzRS]; · iexact HzRS
  isplitl [HzRR]; · iexact HzRR
  isplitl [HzCS]; · iexact HzCS
  iexact HzCR

end Cert.KernelIdealProof

end
-- ==== Proof.ValLemAKernelIdeal.lean ====
import proofs.«900195_g7700000000000196_dist_halo2d_stencil_xy_m3072_n3072_v7x_xy2x2_f32_1_alg».proof.Proof.StateKernelIdeal
import Idealize.ShloMosaic.Lib.ValueIdx
import Idealize.ShloMosaic.Lib.Pipeline.Value
import Idealize.ShloMosaic.Lib.ValueLayout
import Idealize.ShloMosaic.Lib.WritesUnit

noncomputable section

namespace Cert.KernelIdealProof

open Cert.KernelIdeal Cert.KernelIdeal.Gen
open Idealize.ShloMosaic Idealize.ShloMosaic.TcCoe

variable {F : FTy → Type} [FloatOps F]
variable (m : (ℓ : Loc nD τ sig) → Buf (Elt F) ℓ)

open ValueIdx

def chunkOf (cv nv sv : FVec F S512x3072 .f32) : FVec F S1x512x3072 .f32 :=
  shapeCast S1x512x3072
    (addf (mulf (broadcast S512x3072 (Scalar.ofBits .f32 0x3F000000#32 : F .f32)) cv)
      (mulf (broadcast S512x3072 (Scalar.ofBits .f32 0x3E000000#32 : F .f32))
        (addf (addf (addf nv sv)
          (concatenate S512x3072 1 [⟨S512x1, extractStridedSlice S512x1 ![0, 0] cv slices_S512x3072_o0_0_S512x1⟩,
            ⟨S512x3071, extractStridedSlice S512x3071 ![0, 0] cv slices_S512x3072_o0_0_S512x3071⟩]
            concatenates_S512x1_S512x3071_S512x3072_d1))
          (concatenate S512x3072 1 [⟨S512x3071, extractStridedSlice S512x3071 ![0, 1] cv slices_S512x3072_o0_1_S512x3071⟩,
            ⟨S512x1, extractStridedSlice S512x1 ![0, 3071] cv slices_S512x3072_o0_3071_S512x1⟩]
            concatenates_S512x3071_S512x1_S512x3072_d1))))
    shapeCasts_S512x3072_S1x512x3072

theorem chunkOf_at (cv nv sv : FVec F S512x3072 .f32) (r : Fin 512) (k : Fin 3072) (hk1 : 0 < k.val) (hk2 : k.val < 3071) :
    chunkOf cv nv sv (ix3 (0 : Fin 1) r k)
      = FloatOps.addf (FloatOps.mulf (wHalf : F .f32) (cv (ix2 r k)))
          (FloatOps.mulf (wEighth : F .f32)
            (FloatOps.addf (FloatOps.addf (FloatOps.addf (nv (ix2 r k)) (sv (ix2 r k)))
              (cv (ix2 r (⟨k.val - 1, by omega⟩ : Fin 3072)))) (cv (ix2 r (⟨k.val + 1, by omega⟩ : Fin 3072))))) := by
  unfold chunkOf
  rw [shapeCast_ab_1ab_apply]
  have hw : concatenate S512x3072 1 [⟨S512x1, extractStridedSlice S512x1 ![0, 0] cv slices_S512x3072_o0_0_S512x1⟩,
        ⟨S512x3071, extractStridedSlice S512x3071 ![0, 0] cv slices_S512x3072_o0_0_S512x3071⟩]
        concatenates_S512x1_S512x3071_S512x3072_d1 (ix2 r k) = cv (ix2 r (⟨k.val - 1, by omega⟩ : Fin 3072)) := by
    refine (concatenate_pair_apply_right (t := S512x3072) (s₁ := S512x1) (s₂ := S512x3071) (1 : Fin 2) _ _
      concatenates_S512x1_S512x3071_S512x3072_d1 (ix2 r k) rfl rfl (ix2 r (⟨k.val - 1, by omega⟩ : Fin 3071)) ?_ ?_).trans ?_
    · intro b hb
      match b with
      | ⟨0, _⟩ => rfl
      | ⟨1, _⟩ => exact absurd rfl hb
    · show k.val - 1 + 1 = k.val
      omega
    · exact slice2_axis1_apply 0 cv slices_S512x3072_o0_0_S512x3071 r _ _ (by show k.val - 1 = 0 + (k.val - 1); omega)
  have he : concatenate S512x3072 1 [⟨S512x3071, extractStridedSlice S512x3071 ![0, 1] cv slices_S512x3072_o0_1_S512x3071⟩,
        ⟨S512x1, extractStridedSlice S512x1 ![0, 3071] cv slices_S512x3072_o0_3071_S512x1⟩]
        concatenates_S512x3071_S512x1_S512x3072_d1 (ix2 r k) = cv (ix2 r (⟨k.val + 1, by omega⟩ : Fin 3072)) := by
    refine (concatenate_pair_apply_left (t := S512x3072) (s₁ := S512x3071) (s₂ := S512x1) (1 : Fin 2) _ _
      concatenates_S512x3071_S512x1_S512x3072_d1 (ix2 r k) rfl (ix2 r (⟨k.val, hk2⟩ : Fin 3071)) ?_).trans ?_
    · intro b
      match b with
      | ⟨0, _⟩ => rfl
      | ⟨1, _⟩ => rfl
    · exact slice2_axis1_apply 1 cv slices_S512x3072_o0_1_S512x3071 r _ _ (by show k.val + 1 = 1 + k.val; omega)
  show FloatOps.addf (FloatOps.mulf _ (cv (ix2 r k))) (FloatOps.mulf _ (FloatOps.addf (FloatOps.addf (FloatOps.addf (nv (ix2 r k)) (sv (ix2 r k))) _) _)) = _
  rw [hw, he]
  rfl

abbrev DBuf (F : FTy → Type) : Type := (cc0_scratch0 : Ref sig .tc).ty.Contents (Elt F)

abbrev win (σ : Fin 2) (n : ℕ)
    (inb : ∀ a, (![σ.val, 0, 0] : Fin 3 → ℕ) a + (⟨3, ![1, n, 3072]⟩ : Shape).size a ≤ S2x528x3072.size a)
    (hq : (Rect.unit (s := S2x528x3072) ![σ.val, 0, 0] (⟨3, ![1, n, 3072]⟩ : Shape).size inb).shape.Squeezes ⟨2, ![n, 3072]⟩) :
    View sig .tc .vmem ⟨2, ![n, 3072]⟩ .f32 :=
  (((Memref.whole cc0_scratch0 : Memref sig .tc .vmem S2x528x3072 .f32).slice
    (Rect.unit (s := S2x528x3072) ![σ.val, 0, 0] (⟨3, ![1, n, 3072]⟩ : Shape).size inb) (fun _ => rfl)).squeeze ⟨2, ![n, 3072]⟩ hq).view

theorem win_emb (σ : Fin 2) (n : ℕ) (inb) (hq) (ρ : Fin n) (k : Fin 3072) (hρ : ρ.val < 528) :
    (win σ n inb hq).emb (ix2 ρ k) = (ix3 σ (⟨ρ.val, hρ⟩ : Fin 528) k : S2x528x3072.Idx) := by
  show (Rect.unit (s := S2x528x3072) ![σ.val, 0, 0] (⟨3, ![1, n, 3072]⟩ : Shape).size inb).emb
    (Shape.reshapeEquiv hq.numel_eq (ix2 ρ k)) = _
  rw [reshapeEquiv_ix2_1ab]
  funext a
  match a with
  | ⟨0, _⟩ => exact Fin.ext (by show σ.val + 1 * 0 = σ.val; omega)
  | ⟨1, _⟩ => exact Fin.ext (by show 0 + 1 * ρ.val = ρ.val; omega)
  | ⟨2, _⟩ => exact Fin.ext (by show 0 + 1 * k.val = k.val; omega)

theorem win_hit (σ : Fin 2) (n : ℕ) (inb) (hq) (G : DBuf F) (w : (⟨2, ![n, 3072]⟩ : Shape).Idx → Elt F .f32)
    (ρ : Fin 528) (k : Fin 3072) (hρ : ρ.val < n) :
    View.write (Elt F) (win σ n inb hq) G w Finset.univ (ix3 σ ρ k : S2x528x3072.Idx) = w (ix2 (⟨ρ.val, hρ⟩ : Fin n) k) := by
  have e := win_emb σ n inb hq (⟨ρ.val, hρ⟩ : Fin n) k ρ.isLt
  rw [← e]
  exact View.write_emb_of_mem (v := win σ n inb hq) G w (Finset.mem_univ _)

theorem win_miss (σ' σ : Fin 2) (hne : σ' ≠ σ) (n : ℕ) (inb) (hq) (G : DBuf F) (w : (⟨2, ![n, 3072]⟩ : Shape).Idx → Elt F .f32)
    (ρ : Fin 528) (k : Fin 3072) :
    View.write (Elt F) (win σ' n inb hq) G w Finset.univ (ix3 σ ρ k : S2x528x3072.Idx) = G (ix3 σ ρ k : S2x528x3072.Idx) := by
  refine View.write_of_not_mem (v := win σ' n inb hq) G w Finset.univ (fun hmem => ?_)
  obtain ⟨j, -, hj⟩ := Finset.mem_map.mp hmem
  obtain ⟨a, b, rfl⟩ : ∃ (a : Fin n) (b : Fin 3072), j = ix2 a b := ⟨j 0, j 1, eq_ix2 j⟩
  have hb : a.val < 528 := by
    have := inb 1
    have h2 : (0 : ℕ) + n ≤ 528 := this
    have := a.isLt
    omega
  rw [win_emb σ' n inb hq a b hb] at hj
  have h0 : σ'.val = σ.val := congrArg (fun i : S2x528x3072.Idx => (i 0).val) hj
  exact hne (Fin.ext h0)

def SlotHolds (G : DBuf F) (σ : Fin 2) (n B : ℕ) (x : S3072x3072.Idx → F .f32) : Prop :=
  ∀ (ρ : Fin 528) (k : Fin 3072) (hρ : ρ.val < n) (hB : B + ρ.val < 3072),
    G (ix3 σ ρ k : S2x528x3072.Idx) = x (ix2 (⟨B + ρ.val, hB⟩ : Fin 3072) k)

theorem slotHolds_write (σ : Fin 2) (n B : ℕ) (inb) (hq) (G : DBuf F) (x : S3072x3072.Idx → F .f32)
    (w : (⟨2, ![n, 3072]⟩ : Shape).Idx → Elt F .f32)
    (hw : ∀ (ρ : Fin n) (k : Fin 3072) (hB : B + ρ.val < 3072), w (ix2 ρ k) = x (ix2 (⟨B + ρ.val, hB⟩ : Fin 3072) k)) :
    SlotHolds (View.write (Elt F) (win σ n inb hq) G w Finset.univ) σ n B x := by
  intro ρ k hρ hB
  rw [win_hit σ n inb hq G w ρ k hρ]
  exact hw ⟨ρ.val, hρ⟩ k hB

theorem slotHolds_other (σ' σ : Fin 2) (hne : σ' ≠ σ) (n' : ℕ) (inb) (hq) (G : DBuf F) (x : S3072x3072.Idx → F .f32)
    (w : (⟨2, ![n', 3072]⟩ : Shape).Idx → Elt F .f32) (n B : ℕ) (hG : SlotHolds G σ n B x) :
    SlotHolds (View.write (Elt F) (win σ' n' inb hq) G w Finset.univ) σ n B x := by
  intro ρ k hρ hB
  rw [win_miss σ' σ hne n' inb hq G w ρ k]
  exact hG ρ k hρ hB

theorem xrows_at (x : (main_arg0 : Ref sig .tc).ty.Contents (Elt F)) (n B : ℕ)
    (inb : ∀ a, (![B, 0] : Fin 2 → ℕ) a + (⟨2, ![n, 3072]⟩ : Shape).size a ≤ S3072x3072.size a)
    (ρ : Fin n) (k : Fin 3072) (hB : B + ρ.val < 3072) :
    (ReadAs.same : ReadAs (Elt F) ⟨2, ![n, 3072]⟩ .f32 ⟨2, ![n, 3072]⟩ .f32).apply
      (View.read (Elt F) ((Memref.whole main_arg0 : Memref sig .tc .hbm S3072x3072 .f32).slice
        (Rect.unit (s := S3072x3072) ![B, 0] (⟨2, ![n, 3072]⟩ : Shape).size inb) (fun _ => rfl)).view x) (ix2 ρ k)
      = x (ix2 (⟨B + ρ.val, hB⟩ : Fin 3072) k : S3072x3072.Idx) := by
  show x ((Rect.unit (s := S3072x3072) ![B, 0] (⟨2, ![n, 3072]⟩ : Shape).size inb).emb (ix2 ρ k)) = _
  refine congrArg x (funext fun a => ?_)
  match a with
  | ⟨0, _⟩ => exact Fin.ext (by show B + 1 * ρ.val = B + ρ.val; omega)
  | ⟨1, _⟩ => exact Fin.ext (by show 0 + 1 * k.val = k.val; omega)

theorem slotHolds_loaded (σ : Fin 2) (n B : ℕ) (inb) (hq) (G : DBuf F) (x : (main_arg0 : Ref sig .tc).ty.Contents (Elt F))
    (dinb : ∀ a, (![B, 0] : Fin 2 → ℕ) a + (⟨2, ![n, 3072]⟩ : Shape).size a ≤ S3072x3072.size a) :
    SlotHolds (View.write (Elt F) (win σ n inb hq) G
      ((ReadAs.same : ReadAs (Elt F) ⟨2, ![n, 3072]⟩ .f32 ⟨2, ![n, 3072]⟩ .f32).apply
        (View.read (Elt F) ((Memref.whole main_arg0 : Memref sig .tc .hbm S3072x3072 .f32).slice
          (Rect.unit (s := S3072x3072) ![B, 0] (⟨2, ![n, 3072]⟩ : Shape).size dinb) (fun _ => rfl)).view x)) Finset.univ) σ n B x :=
  slotHolds_write σ n B inb hq G x _ (fun ρ k hB => xrows_at x n B dinb ρ k hB)

theorem load_at (σ : Fin 2) (b h : ℕ)
    (inb : ∀ a, (![σ.val, b, 0] : Fin 3 → ℕ) a + (⟨3, ![1, h, 3072]⟩ : Shape).size a ≤ S2x528x3072.size a)
    (G : DBuf F) (r : Fin h) (k : Fin 3072) (hb : b + r.val < 528) :
    View.readAt (Elt F) (Memref.whole cc0_scratch0 : Memref sig .tc .vmem S2x528x3072 .f32).view
      (Rect.unit (s := S2x528x3072) ![σ.val, b, 0] (⟨3, ![1, h, 3072]⟩ : Shape).size inb).toLoadRect G (ix3 (0 : Fin 1) r k)
      = G (ix3 σ (⟨b + r.val, hb⟩ : Fin 528) k : S2x528x3072.Idx) := by
  show G ((Rect.unit (s := S2x528x3072) ![σ.val, b, 0] (⟨3, ![1, h, 3072]⟩ : Shape).size inb).toLoadRect.idx (ix3 (0 : Fin 1) r k)) = _
  refine congrArg G (funext fun a => ?_)
  match a with
  | ⟨0, _⟩ => exact Fin.ext (by show σ.val + 1 * 0 = σ.val; omega)
  | ⟨1, _⟩ => exact Fin.ext (by show b + 1 * r.val = b + r.val; omega)
  | ⟨2, _⟩ => exact Fin.ext (by show 0 + 1 * k.val = k.val; omega)

theorem load_slot (σ : Fin 2) (b h : ℕ) (inb) (G : DBuf F) (n B : ℕ) (x : S3072x3072.Idx → F .f32)
    (hG : SlotHolds G σ n B x) (r : Fin h) (k : Fin 3072) (hn : b + r.val < n) (hB : B + (b + r.val) < 3072) :
    View.readAt (Elt F) (Memref.whole cc0_scratch0 : Memref sig .tc .vmem S2x528x3072 .f32).view
      (Rect.unit (s := S2x528x3072) ![σ.val, b, 0] (⟨3, ![1, h, 3072]⟩ : Shape).size inb).toLoadRect G (ix3 (0 : Fin 1) r k)
      = x (ix2 (⟨B + (b + r.val), hB⟩ : Fin 3072) k) := by
  have h1 : b + h ≤ 528 := inb 1
  have hr := r.isLt
  rw [load_at σ b h inb G r k (by omega)]
  exact hG ⟨b + r.val, by omega⟩ k hn hB

def stencilAt (x : S3072x3072.Idx → F .f32) (N S : F .f32) (R k : Fin 3072) (hk1 : 0 < k.val) (hk2 : k.val < 3071) : F .f32 :=
  FloatOps.addf (FloatOps.mulf (wHalf : F .f32) (x (ix2 R k)))
    (FloatOps.mulf (wEighth : F .f32)
      (FloatOps.addf (FloatOps.addf (FloatOps.addf N S) (x (ix2 R (⟨k.val - 1, by omega⟩ : Fin 3072))))
        (x (ix2 R (⟨k.val + 1, by omega⟩ : Fin 3072)))))

theorem chunk_value (cv nv sv : FVec F S512x3072 .f32) (x : S3072x3072.Idx → F .f32) (R : Fin 3072) (r : Fin 512) (k : Fin 3072)
    (hk1 : 0 < k.val) (hk2 : k.val < 3071) (hc : ∀ k' : Fin 3072, cv (ix2 r k') = x (ix2 R k')) (N S : F .f32)
    (hn : nv (ix2 r k) = N) (hs : sv (ix2 r k) = S) :
    chunkOf cv nv sv (ix3 (0 : Fin 1) r k) = stencilAt x N S R k hk1 hk2 := by
  rw [chunkOf_at cv nv sv r k hk1 hk2, hc, hc, hc, hn, hs]
  rfl

theorem entry_of_lt {n0 n1 : ℕ} (A : (⟨2, ![n0, n1]⟩ : Shape).Idx → F .f32) (d : F .f32) (r k : ℕ) (hr : r < n0) (hk : k < n1) :
    entry A d r k = A (ix2 ⟨r, hr⟩ ⟨k, hk⟩) := dif_pos ⟨hr, hk⟩

theorem OUT_apply (c : Dev nD) (R k : Fin 3072) :
    OUT m c (ix2 R k : S3072x3072.Idx)
      = if (c.val / 2 = 0 ∧ R.val = 0) ∨ (c.val / 2 = 1 ∧ R.val = 3071) ∨ (c.val % 2 = 0 ∧ k.val = 0) ∨ (c.val % 2 = 1 ∧ k.val = 3071)
        then X m c (ix2 R k : S3072x3072.Idx)
        else
          FloatOps.addf (FloatOps.mulf (wHalf : F .f32) (X m c (ix2 R k : S3072x3072.Idx)))
            (FloatOps.mulf (wEighth : F .f32)
              (FloatOps.addf
                (FloatOps.addf
                  (FloatOps.addf
                    (if R.val = 0 then entry (rowLanded m c) (X m c (ix2 R k : S3072x3072.Idx)) 7 k.val
                      else entry (X m c) (X m c (ix2 R k : S3072x3072.Idx)) (R.val - 1) k.val)
                    (if R.val = 3071 then entry (rowLanded m c) (X m c (ix2 R k : S3072x3072.Idx)) 0 k.val
                      else entry (X m c) (X m c (ix2 R k : S3072x3072.Idx)) (R.val + 1) k.val))
                  (if k.val = 0 then entry (colLanded m c) (X m c (ix2 R k : S3072x3072.Idx)) R.val 127
                    else entry (X m c) (X m c (ix2 R k : S3072x3072.Idx)) R.val (k.val - 1)))
                (if k.val = 3071 then entry (colLanded m c) (X m c (ix2 R k : S3072x3072.Idx)) R.val 0
                  else entry (X m c) (X m c (ix2 R k : S3072x3072.Idx)) R.val (k.val + 1)))) := rfl

theorem OUT_mid (c : Dev nD) (R k : Fin 3072) (hR0 : 0 < R.val) (hR1 : R.val < 3071) (hk1 : 0 < k.val) (hk2 : k.val < 3071) :
    OUT m c (ix2 R k : S3072x3072.Idx)
      = stencilAt (X m c) (X m c (ix2 (⟨R.val - 1, by omega⟩ : Fin 3072) k : S3072x3072.Idx))
          (X m c (ix2 (⟨R.val + 1, by omega⟩ : Fin 3072) k : S3072x3072.Idx)) R k hk1 hk2 := by
  rw [OUT_apply, if_neg (by omega), if_neg (by omega), if_neg (by omega), if_neg (by omega), if_neg (by omega),
    entry_of_lt (X m c) _ (R.val - 1) k.val (by omega) k.isLt, entry_of_lt (X m c) _ (R.val + 1) k.val (by omega) k.isLt,
    entry_of_lt (X m c) _ R.val (k.val - 1) R.isLt (by omega), entry_of_lt (X m c) _ R.val (k.val + 1) R.isLt (by omega)]
  rfl

theorem OUT_top_kept (c : Dev nD) (hc : c.val / 2 = 0) (k : Fin 3072) :
    OUT m c (ix2 (⟨0, by norm_num⟩ : Fin 3072) k : S3072x3072.Idx) = X m c (ix2 (⟨0, by norm_num⟩ : Fin 3072) k : S3072x3072.Idx) := by
  rw [OUT_apply, if_pos (Or.inl ⟨hc, rfl⟩)]

theorem OUT_bot_kept (c : Dev nD) (hc : c.val / 2 = 1) (k : Fin 3072) :
    OUT m c (ix2 (⟨3071, by norm_num⟩ : Fin 3072) k : S3072x3072.Idx) = X m c (ix2 (⟨3071, by norm_num⟩ : Fin 3072) k : S3072x3072.Idx) := by
  rw [OUT_apply, if_pos (Or.inr (Or.inl ⟨hc, rfl⟩))]

theorem OUT_top_halo (c : Dev nD) (hc : c.val / 2 = 1) (k : Fin 3072) (hk1 : 0 < k.val) (hk2 : k.val < 3071) :
    OUT m c (ix2 (⟨0, by norm_num⟩ : Fin 3072) k : S3072x3072.Idx)
      = stencilAt (X m c) (rowLanded m c (ix2 (⟨7, by norm_num⟩ : Fin 8) k : S8x3072.Idx))
          (X m c (ix2 (⟨1, by norm_num⟩ : Fin 3072) k : S3072x3072.Idx)) ⟨0, by norm_num⟩ k hk1 hk2 := by
  rw [OUT_apply, if_neg (by show ¬((c.val / 2 = 0 ∧ (0 : ℕ) = 0) ∨ (c.val / 2 = 1 ∧ (0 : ℕ) = 3071) ∨ (c.val % 2 = 0 ∧ k.val = 0) ∨ (c.val % 2 = 1 ∧ k.val = 3071)); omega),
    if_pos rfl, if_neg (by show ¬((0 : ℕ) = 3071); omega), if_neg (by omega), if_neg (by omega),
    entry_of_lt (rowLanded m c) _ 7 k.val (by norm_num) k.isLt, entry_of_lt (X m c) _ (0 + 1) k.val (by norm_num) k.isLt,
    entry_of_lt (X m c) _ 0 (k.val - 1) (by norm_num) (by omega), entry_of_lt (X m c) _ 0 (k.val + 1) (by norm_num) (by omega)]
  rfl

theorem OUT_bot_halo (c : Dev nD) (hc : c.val / 2 = 0) (k : Fin 3072) (hk1 : 0 < k.val) (hk2 : k.val < 3071) :
    OUT m c (ix2 (⟨3071, by norm_num⟩ : Fin 3072) k : S3072x3072.Idx)
      = stencilAt (X m c) (X m c (ix2 (⟨3070, by norm_num⟩ : Fin 3072) k : S3072x3072.Idx))
          (rowLanded m c (ix2 (⟨0, by norm_num⟩ : Fin 8) k : S8x3072.Idx)) ⟨3071, by norm_num⟩ k hk1 hk2 := by
  rw [OUT_apply, if_neg (by show ¬((c.val / 2 = 0 ∧ (3071 : ℕ) = 0) ∨ (c.val / 2 = 1 ∧ (3071 : ℕ) = 3071) ∨ (c.val % 2 = 0 ∧ k.val = 0) ∨ (c.val % 2 = 1 ∧ k.val = 3071)); omega),
    if_neg (by show ¬((3071 : ℕ) = 0); omega), if_pos rfl, if_neg (by omega), if_neg (by omega),
    entry_of_lt (X m c) _ (3071 - 1) k.val (by norm_num) k.isLt, entry_of_lt (rowLanded m c) _ 0 k.val (by norm_num) k.isLt,
    entry_of_lt (X m c) _ 3071 (k.val - 1) (by norm_num) (by omega), entry_of_lt (X m c) _ 3071 (k.val + 1) (by norm_num) (by omega)]
  rfl

abbrev SBuf (F : FTy → Type) : Type := (cc0_scratch1 : Ref sig .tc).ty.Contents (Elt F)

abbrev stageView (σ : Fin 2) (inb : ∀ a, (![σ.val, 0, 0] : Fin 3 → ℕ) a + S1x512x3072.size a ≤ S2x512x3072.size a)
    (hq : (Rect.unit (s := S2x512x3072) ![σ.val, 0, 0] S1x512x3072.size inb).shape.Squeezes S512x3072) :
    View sig .tc .vmem S512x3072 .f32 :=
  (((Memref.whole cc0_scratch1 : Memref sig .tc .vmem S2x512x3072 .f32).slice
    (Rect.unit (s := S2x512x3072) ![σ.val, 0, 0] S1x512x3072.size inb) (fun _ => rfl)).squeeze S512x3072 hq).view

theorem stageView_emb (σ : Fin 2) (inb) (hq) (r : Fin 512) (k : Fin 3072) :
    (stageView σ inb hq).emb (ix2 r k) = (ix3 σ r k : S2x512x3072.Idx) := by
  show (Rect.unit (s := S2x512x3072) ![σ.val, 0, 0] S1x512x3072.size inb).emb (Shape.reshapeEquiv hq.numel_eq (ix2 r k)) = _
  rw [reshapeEquiv_ix2_1ab]
  funext a
  match a with
  | ⟨0, _⟩ => exact Fin.ext (by show σ.val + 1 * 0 = σ.val; omega)
  | ⟨1, _⟩ => exact Fin.ext (by show 0 + 1 * r.val = r.val; omega)
  | ⟨2, _⟩ => exact Fin.ext (by show 0 + 1 * k.val = k.val; omega)

theorem stage_top (σ : Fin 2) (inb) (hq) (f1 : SBuf F)
    (w : (Rect.unit (s := S2x512x3072) ![σ.val, 0, 0] S1x512x3072.size inb).shape.Idx → Elt F .f32)
    (L : List (View.Piece (Elt F) S2x512x3072 .f32)) (r : Fin 512) (k : Fin 3072) :
    (ReadAs.same : ReadAs (Elt F) S512x3072 .f32 S512x3072 .f32).apply
      (View.read (Elt F) (stageView σ inb hq)
        ((Memref.whole cc0_scratch1 : Memref sig .tc .vmem S2x512x3072 .f32).view.writes (Elt F) f1
          (⟨Rect.unit (s := S2x512x3072) ![σ.val, 0, 0] S1x512x3072.size inb, w⟩ :: L))) (ix2 r k)
      = w (ix3 (0 : Fin 1) r k) := by
  show (View.whole cc0_scratch1).read (Elt F) ((View.whole cc0_scratch1).writes (Elt F) f1
      (⟨Rect.unit (s := S2x512x3072) ![σ.val, 0, 0] S1x512x3072.size inb, w⟩ :: L)) ((stageView σ inb hq).emb (ix2 r k)) = _
  rw [stageView_emb]
  refine View.read_writes_cons_unit_of_mem (View.whole cc0_scratch1) f1 inb w L (ix3 σ r k : S2x512x3072.Idx) (ix3 (0 : Fin 1) r k) rfl (fun a => ?_)
  match a with
  | ⟨0, _⟩ => show σ.val = σ.val + 0; omega
  | ⟨1, _⟩ => show r.val = 0 + r.val; omega
  | ⟨2, _⟩ => show k.val = 0 + k.val; omega

theorem stage_kept (σ : Fin 2) (ρ0 : ℕ) (inb1 : ∀ a, (![σ.val, ρ0, 0] : Fin 3 → ℕ) a + S1x1x3072.size a ≤ S2x512x3072.size a)
    (w1 : (Rect.unit (s := S2x512x3072) ![σ.val, ρ0, 0] S1x1x3072.size inb1).shape.Idx → Elt F .f32) (inb) (hq) (f1 : SBuf F)
    (w : (Rect.unit (s := S2x512x3072) ![σ.val, 0, 0] S1x512x3072.size inb).shape.Idx → Elt F .f32)
    (L : List (View.Piece (Elt F) S2x512x3072 .f32)) (r : Fin 512) (k : Fin 3072) :
    (ReadAs.same : ReadAs (Elt F) S512x3072 .f32 S512x3072 .f32).apply
      (View.read (Elt F) (stageView σ inb hq)
        ((Memref.whole cc0_scratch1 : Memref sig .tc .vmem S2x512x3072 .f32).view.writes (Elt F) f1
          (⟨Rect.unit (s := S2x512x3072) ![σ.val, ρ0, 0] S1x1x3072.size inb1, w1⟩
            :: ⟨Rect.unit (s := S2x512x3072) ![σ.val, 0, 0] S1x512x3072.size inb, w⟩ :: L))) (ix2 r k)
      = if r.val = ρ0 then w1 (ix3 (0 : Fin 1) (0 : Fin 1) k) else w (ix3 (0 : Fin 1) r k) := by
  show (View.whole cc0_scratch1).read (Elt F) ((View.whole cc0_scratch1).writes (Elt F) f1
      (⟨Rect.unit (s := S2x512x3072) ![σ.val, ρ0, 0] S1x1x3072.size inb1, w1⟩
        :: ⟨Rect.unit (s := S2x512x3072) ![σ.val, 0, 0] S1x512x3072.size inb, w⟩ :: L)) ((stageView σ inb hq).emb (ix2 r k)) = _
  rw [stageView_emb]
  by_cases hr : r.val = ρ0
  · rw [if_pos hr]
    refine View.read_writes_cons_unit_of_mem (View.whole cc0_scratch1) f1 inb1 w1 _ (ix3 σ r k : S2x512x3072.Idx)
      (ix3 (0 : Fin 1) (0 : Fin 1) k) rfl (fun a => ?_)
    match a with
    | ⟨0, _⟩ => show σ.val = σ.val + 0; omega
    | ⟨1, _⟩ => show r.val = ρ0 + 0; omega
    | ⟨2, _⟩ => show k.val = 0 + k.val; omega
  · rw [if_neg hr, View.read_writes_cons_unit_of_not_mem (View.whole cc0_scratch1) f1 inb1 w1 _ (ix3 σ r k : S2x512x3072.Idx) rfl
      (1 : Fin 3) (by show r.val < ρ0 ∨ ρ0 + 1 ≤ r.val; omega)]
    refine View.read_writes_cons_unit_of_mem (View.whole cc0_scratch1) f1 inb w L (ix3 σ r k : S2x512x3072.Idx) (ix3 (0 : Fin 1) r k) rfl (fun a => ?_)
    match a with
    | ⟨0, _⟩ => show σ.val = σ.val + 0; omega
    | ⟨1, _⟩ => show r.val = 0 + r.val; omega
    | ⟨2, _⟩ => show k.val = 0 + k.val; omega

theorem rh_at (ρ : Fin 8) (inb : ∀ a, (![ρ.val, 0] : Fin 2 → ℕ) a + S1x3072.size a ≤ S8x3072.size a)
    (rv W : (cc0_scratch2 : Ref sig .tc).ty.Contents (Elt F)) (k : Fin 3072) :
    View.readAt (Elt F) (rhM : Memref sig .tc .vmem S8x3072 .f32).view (Rect.unit (s := S8x3072) ![ρ.val, 0] S1x3072.size inb).toLoadRect
      (View.write (Elt F) (rhM : Memref sig .tc .vmem S8x3072 .f32).view rv W Finset.univ) (ix2 (0 : Fin 1) k)
      = W (ix2 ρ k : S8x3072.Idx) := by
  show ((View.whole cc0_scratch2).write (Elt F) rv W Finset.univ)
    ((Rect.unit (s := S8x3072) ![ρ.val, 0] S1x3072.size inb).toLoadRect.idx (ix2 (0 : Fin 1) k)) = _
  rw [View.write_whole_univ]
  refine congrArg W (funext fun a => ?_)
  match a with
  | ⟨0, _⟩ => exact Fin.ext (by show ρ.val + 1 * 0 = ρ.val; omega)
  | ⟨1, _⟩ => exact Fin.ext (by show 0 + 1 * k.val = k.val; omega)

theorem plain_chunk (c : Dev nD) (G : DBuf F) (σ : Fin 2) (n B : ℕ) (hG : SlotHolds G σ n B (X m c))
    (bc bn bs : ℕ) (hbn : bn + 1 = bc) (hbs : bs = bc + 1)
    (inbC : ∀ a, (![σ.val, bc, 0] : Fin 3 → ℕ) a + S1x512x3072.size a ≤ S2x528x3072.size a)
    (inbN : ∀ a, (![σ.val, bn, 0] : Fin 3 → ℕ) a + S1x512x3072.size a ≤ S2x528x3072.size a)
    (inbS : ∀ a, (![σ.val, bs, 0] : Fin 3 → ℕ) a + S1x512x3072.size a ≤ S2x528x3072.size a)
    (R0 : ℕ) (hR : B + bc = R0) (hn : bs + 512 ≤ n) (hlo : 0 < R0) (hhi : R0 + 512 < 3072)
    (r : Fin 512) (k : Fin 3072) (hk1 : 0 < k.val) (hk2 : k.val < 3071) :
    chunkOf
      (shapeCast S512x3072 (View.readAt (Elt F) (Memref.whole cc0_scratch0 : Memref sig .tc .vmem S2x528x3072 .f32).view
        (Rect.unit (s := S2x528x3072) ![σ.val, bc, 0] S1x512x3072.size inbC).toLoadRect G) shapeCasts_S1x512x3072_S512x3072)
      (shapeCast S512x3072 (View.readAt (Elt F) (Memref.whole cc0_scratch0 : Memref sig .tc .vmem S2x528x3072 .f32).view
        (Rect.unit (s := S2x528x3072) ![σ.val, bn, 0] S1x512x3072.size inbN).toLoadRect G) shapeCasts_S1x512x3072_S512x3072)
      (shapeCast S512x3072 (View.readAt (Elt F) (Memref.whole cc0_scratch0 : Memref sig .tc .vmem S2x528x3072 .f32).view
        (Rect.unit (s := S2x528x3072) ![σ.val, bs, 0] S1x512x3072.size inbS).toLoadRect G) shapeCasts_S1x512x3072_S512x3072)
      (ix3 (0 : Fin 1) r k)
      = OUT m c (ix2 (⟨R0 + r.val, by have := r.isLt; omega⟩ : Fin 3072) k : S3072x3072.Idx) := by
  have hr := r.isLt
  rw [OUT_mid m c ⟨R0 + r.val, by omega⟩ k (by show 0 < R0 + r.val; omega) (by show R0 + r.val < 3071; omega) hk1 hk2]
  refine chunk_value _ _ _ (X m c) ⟨R0 + r.val, by omega⟩ r k hk1 hk2 (fun k' => ?_) _ _ ?_ ?_
  · rw [shapeCast_1ab_ab_apply, load_slot σ bc 512 inbC G n B (X m c) hG r k' (by omega) (by omega)]
    exact congrArg (fun R : Fin 3072 => X m c (ix2 R k' : S3072x3072.Idx)) (Fin.ext (by show B + (bc + r.val) = R0 + r.val; omega))
  · rw [shapeCast_1ab_ab_apply, load_slot σ bn 512 inbN G n B (X m c) hG r k (by omega) (by omega)]
    exact congrArg (fun R : Fin 3072 => X m c (ix2 R k : S3072x3072.Idx)) (Fin.ext (by show B + (bn + r.val) = R0 + r.val - 1; omega))
  · rw [shapeCast_1ab_ab_apply, load_slot σ bs 512 inbS G n B (X m c) hG r k (by omega) (by omega)]
    exact congrArg (fun R : Fin 3072 => X m c (ix2 R k : S3072x3072.Idx)) (Fin.ext (by show B + (bs + r.val) = R0 + r.val + 1; omega))

theorem pay5_eq (v118 v120 v122 : Vec F S1x512x3072 .f32) :
    k0_pay5 v118 v120 v122 = chunkOf (shapeCast S512x3072 v118 shapeCasts_S1x512x3072_S512x3072)
      (shapeCast S512x3072 v120 shapeCasts_S1x512x3072_S512x3072) (shapeCast S512x3072 v122 shapeCasts_S1x512x3072_S512x3072) := rfl

theorem pay10_eq (v172 v174 : FVec F S512x3072 .f32) (v175 : Vec F S1x512x3072 .f32) :
    k0_pay10 v172 v174 v175 = chunkOf v172 v174 (shapeCast S512x3072 v175 shapeCasts_S1x512x3072_S512x3072) := rfl

theorem pay19_eq (v224 v226 v228 : Vec F S1x512x3072 .f32) :
    k0_pay19 (k0_pay13 v224) (k0_pay14 v226) (k0_pay15 v228) (k0_pay16 v224) (k0_pay17 v224) k0_pay18
      = chunkOf (shapeCast S512x3072 v224 shapeCasts_S1x512x3072_S512x3072)
          (shapeCast S512x3072 v226 shapeCasts_S1x512x3072_S512x3072) (shapeCast S512x3072 v228 shapeCasts_S1x512x3072_S512x3072) := rfl

theorem pay23_eq (v277 v279 v281 : Vec F S1x512x3072 .f32) :
    k0_pay23 (k0_pay22 v277 v279 v281) = chunkOf (shapeCast S512x3072 v277 shapeCasts_S1x512x3072_S512x3072)
      (shapeCast S512x3072 v279 shapeCasts_S1x512x3072_S512x3072) (shapeCast S512x3072 v281 shapeCasts_S1x512x3072_S512x3072) := rfl

end Cert.KernelIdealProof

end
-- ==== Proof.ValLemBKernelIdeal.lean ====
import proofs.«900195_g7700000000000196_dist_halo2d_stencil_xy_m3072_n3072_v7x_xy2x2_f32_1_alg».proof.Proof.ValLemAKernelIdeal

noncomputable section

namespace Cert.KernelIdealProof

open Cert.KernelIdeal Cert.KernelIdeal.Gen
open Idealize.ShloMosaic Idealize.ShloMosaic.TcCoe

variable {F : FTy → Type} [FloatOps F]
variable (m : (ℓ : Loc nD τ sig) → Buf (Elt F) ℓ)

open ValueIdx

theorem north_first (t : FVec F S1x3072 .f32) (u : FVec F S511x3072 .f32) (r : Fin 512) (k : Fin 3072) (hr : r.val = 0) :
    concatenate S512x3072 0 [⟨S1x3072, t⟩, ⟨S511x3072, u⟩] concatenates_S1x3072_S511x3072_S512x3072_d0 (ix2 r k)
      = t (ix2 (0 : Fin 1) k) := by
  refine concatenate_pair_apply_left (t := S512x3072) (s₁ := S1x3072) (s₂ := S511x3072) (0 : Fin 2) t u
    concatenates_S1x3072_S511x3072_S512x3072_d0 (ix2 r k) rfl (ix2 (0 : Fin 1) k) ?_
  intro b
  match b with
  | ⟨0, _⟩ => exact hr.symm
  | ⟨1, _⟩ => rfl

theorem north_rest (t : FVec F S1x3072 .f32) (u : FVec F S511x3072 .f32) (r : Fin 512) (k : Fin 3072) (hr : 0 < r.val) :
    concatenate S512x3072 0 [⟨S1x3072, t⟩, ⟨S511x3072, u⟩] concatenates_S1x3072_S511x3072_S512x3072_d0 (ix2 r k)
      = u (ix2 (⟨r.val - 1, by have := r.isLt; omega⟩ : Fin 511) k) := by
  refine concatenate_pair_apply_right (t := S512x3072) (s₁ := S1x3072) (s₂ := S511x3072) (0 : Fin 2) t u
    concatenates_S1x3072_S511x3072_S512x3072_d0 (ix2 r k) rfl rfl (ix2 (⟨r.val - 1, by have := r.isLt; omega⟩ : Fin 511) k) ?_ ?_
  · intro b hb
    match b with
    | ⟨0, _⟩ => exact absurd rfl hb
    | ⟨1, _⟩ => rfl
  · show r.val - 1 + 1 = r.val
    omega

theorem south_rest (u : FVec F S511x3072 .f32) (t : FVec F S1x3072 .f32) (r : Fin 512) (k : Fin 3072) (hr : r.val < 511) :
    concatenate S512x3072 0 [⟨S511x3072, u⟩, ⟨S1x3072, t⟩] concatenates_S511x3072_S1x3072_S512x3072_d0 (ix2 r k)
      = u (ix2 (⟨r.val, hr⟩ : Fin 511) k) := by
  refine concatenate_pair_apply_left (t := S512x3072) (s₁ := S511x3072) (s₂ := S1x3072) (0 : Fin 2) u t
    concatenates_S511x3072_S1x3072_S512x3072_d0 (ix2 r k) rfl (ix2 (⟨r.val, hr⟩ : Fin 511) k) ?_
  intro b
  match b with
  | ⟨0, _⟩ => rfl
  | ⟨1, _⟩ => rfl

theorem south_last (u : FVec F S511x3072 .f32) (t : FVec F S1x3072 .f32) (r : Fin 512) (k : Fin 3072) (hr : r.val = 511) :
    concatenate S512x3072 0 [⟨S511x3072, u⟩, ⟨S1x3072, t⟩] concatenates_S511x3072_S1x3072_S512x3072_d0 (ix2 r k)
      = t (ix2 (0 : Fin 1) k) := by
  refine concatenate_pair_apply_right (t := S512x3072) (s₁ := S511x3072) (s₂ := S1x3072) (0 : Fin 2) u t
    concatenates_S511x3072_S1x3072_S512x3072_d0 (ix2 r k) rfl rfl (ix2 (0 : Fin 1) k) ?_ ?_
  · intro b hb
    match b with
    | ⟨0, _⟩ => exact absurd rfl hb
    | ⟨1, _⟩ => rfl
  · show 0 + 511 = r.val
    omega

theorem pay1_eq_chunkOf (v65 : Vec F S1x512x3072 .f32) (v67 : Vec F S1x3072 .f32) (v68 : Vec F S1x511x3072 .f32)
    (v71 : Vec F S1x512x3072 .f32) :
    k0_pay1 v65 v67 v68 v71
      = chunkOf (shapeCast S512x3072 v65 shapeCasts_S1x512x3072_S512x3072)
          (concatenate S512x3072 0 [⟨S1x3072, v67⟩, ⟨S511x3072, shapeCast S511x3072 v68 shapeCasts_S1x511x3072_S511x3072⟩]
            concatenates_S1x3072_S511x3072_S512x3072_d0)
          (shapeCast S512x3072 v71 shapeCasts_S1x512x3072_S512x3072) := rfl

theorem pay26_eq_chunkOf (v325 v327 : Vec F S1x512x3072 .f32) (v329 : Vec F S1x511x3072 .f32) (v331 : Vec F S1x3072 .f32) :
    k0_pay26 v325 v327 v329 v331
      = chunkOf (shapeCast S512x3072 v325 shapeCasts_S1x512x3072_S512x3072)
          (shapeCast S512x3072 v327 shapeCasts_S1x512x3072_S512x3072)
          (concatenate S512x3072 0 [⟨S511x3072, shapeCast S511x3072 v329 shapeCasts_S1x511x3072_S511x3072⟩, ⟨S1x3072, v331⟩]
            concatenates_S511x3072_S1x3072_S512x3072_d0) := rfl

theorem pay1_rest (v65 : Vec F S1x512x3072 .f32) (v67 : Vec F S1x3072 .f32) (v68 : Vec F S1x511x3072 .f32)
    (v71 : Vec F S1x512x3072 .f32) (x : S3072x3072.Idx → F .f32) (R : Fin 3072) (r : Fin 512) (k : Fin 3072)
    (hk1 : 0 < k.val) (hk2 : k.val < 3071) (hr : 0 < r.val)
    (hc : ∀ k' : Fin 3072, v65 (ix3 (0 : Fin 1) r k') = x (ix2 R k')) (N S : F .f32)
    (hn : v68 (ix3 (0 : Fin 1) (⟨r.val - 1, by have := r.isLt; omega⟩ : Fin 511) k) = N)
    (hs : v71 (ix3 (0 : Fin 1) r k) = S) :
    k0_pay1 v65 v67 v68 v71 (ix3 (0 : Fin 1) r k) = stencilAt x N S R k hk1 hk2 := by
  rw [pay1_eq_chunkOf]
  refine chunk_value _ _ _ x R r k hk1 hk2 (fun k' => ?_) N S ?_ ?_
  · rw [shapeCast_1ab_ab_apply]; exact hc k'
  · rw [north_rest _ _ r k hr, shapeCast_1ab_ab_apply]; exact hn
  · rw [shapeCast_1ab_ab_apply]; exact hs

theorem pay1_first (v65 : Vec F S1x512x3072 .f32) (v67 : Vec F S1x3072 .f32) (v68 : Vec F S1x511x3072 .f32)
    (v71 : Vec F S1x512x3072 .f32) (x : S3072x3072.Idx → F .f32) (R : Fin 3072) (r : Fin 512) (k : Fin 3072)
    (hk1 : 0 < k.val) (hk2 : k.val < 3071) (hr : r.val = 0)
    (hc : ∀ k' : Fin 3072, v65 (ix3 (0 : Fin 1) r k') = x (ix2 R k')) (N S : F .f32)
    (hn : v67 (ix2 (0 : Fin 1) k) = N) (hs : v71 (ix3 (0 : Fin 1) r k) = S) :
    k0_pay1 v65 v67 v68 v71 (ix3 (0 : Fin 1) r k) = stencilAt x N S R k hk1 hk2 := by
  rw [pay1_eq_chunkOf]
  refine chunk_value _ _ _ x R r k hk1 hk2 (fun k' => ?_) N S ?_ ?_
  · rw [shapeCast_1ab_ab_apply]; exact hc k'
  · rw [north_first _ _ r k hr]; exact hn
  · rw [shapeCast_1ab_ab_apply]; exact hs

theorem pay26_rest (v325 v327 : Vec F S1x512x3072 .f32) (v329 : Vec F S1x511x3072 .f32) (v331 : Vec F S1x3072 .f32)
    (x : S3072x3072.Idx → F .f32) (R : Fin 3072) (r : Fin 512) (k : Fin 3072)
    (hk1 : 0 < k.val) (hk2 : k.val < 3071) (hr : r.val < 511)
    (hc : ∀ k' : Fin 3072, v325 (ix3 (0 : Fin 1) r k') = x (ix2 R k')) (N S : F .f32)
    (hn : v327 (ix3 (0 : Fin 1) r k) = N) (hs : v329 (ix3 (0 : Fin 1) (⟨r.val, hr⟩ : Fin 511) k) = S) :
    k0_pay26 v325 v327 v329 v331 (ix3 (0 : Fin 1) r k) = stencilAt x N S R k hk1 hk2 := by
  rw [pay26_eq_chunkOf]
  refine chunk_value _ _ _ x R r k hk1 hk2 (fun k' => ?_) N S ?_ ?_
  · rw [shapeCast_1ab_ab_apply]; exact hc k'
  · rw [shapeCast_1ab_ab_apply]; exact hn
  · rw [south_rest _ _ r k hr, shapeCast_1ab_ab_apply]; exact hs

theorem pay26_last (v325 v327 : Vec F S1x512x3072 .f32) (v329 : Vec F S1x511x3072 .f32) (v331 : Vec F S1x3072 .f32)
    (x : S3072x3072.Idx → F .f32) (R : Fin 3072) (r : Fin 512) (k : Fin 3072)
    (hk1 : 0 < k.val) (hk2 : k.val < 3071) (hr : r.val = 511)
    (hc : ∀ k' : Fin 3072, v325 (ix3 (0 : Fin 1) r k') = x (ix2 R k')) (N S : F .f32)
    (hn : v327 (ix3 (0 : Fin 1) r k) = N) (hs : v331 (ix2 (0 : Fin 1) k) = S) :
    k0_pay26 v325 v327 v329 v331 (ix3 (0 : Fin 1) r k) = stencilAt x N S R k hk1 hk2 := by
  rw [pay26_eq_chunkOf]
  refine chunk_value _ _ _ x R r k hk1 hk2 (fun k' => ?_) N S ?_ ?_
  · rw [shapeCast_1ab_ab_apply]; exact hc k'
  · rw [shapeCast_1ab_ab_apply]; exact hn
  · rw [south_last _ _ r k hr]; exact hs

theorem first_chunk_rest (c : Dev nD) (G : DBuf F) (σ : Fin 2) (n B : ℕ) (hG : SlotHolds G σ n B (X m c))
    (bc bs : ℕ) (hbs : bs = bc + 1)
    (inbC : ∀ a, (![σ.val, bc, 0] : Fin 3 → ℕ) a + S1x512x3072.size a ≤ S2x528x3072.size a)
    (inbN : ∀ a, (![σ.val, bc, 0] : Fin 3 → ℕ) a + S1x511x3072.size a ≤ S2x528x3072.size a)
    (inbS : ∀ a, (![σ.val, bs, 0] : Fin 3 → ℕ) a + S1x512x3072.size a ≤ S2x528x3072.size a)
    (R0 : ℕ) (hR : B + bc = R0) (hn : bs + 512 ≤ n) (hhi : R0 + 512 < 3072)
    (v67 : Vec F S1x3072 .f32) (r : Fin 512) (k : Fin 3072) (hk1 : 0 < k.val) (hk2 : k.val < 3071) (hr : 0 < r.val) :
    k0_pay1
      (View.readAt (Elt F) (Memref.whole cc0_scratch0 : Memref sig .tc .vmem S2x528x3072 .f32).view
        (Rect.unit (s := S2x528x3072) ![σ.val, bc, 0] S1x512x3072.size inbC).toLoadRect G)
      v67
      (View.readAt (Elt F) (Memref.whole cc0_scratch0 : Memref sig .tc .vmem S2x528x3072 .f32).view
        (Rect.unit (s := S2x528x3072) ![σ.val, bc, 0] S1x511x3072.size inbN).toLoadRect G)
      (View.readAt (Elt F) (Memref.whole cc0_scratch0 : Memref sig .tc .vmem S2x528x3072 .f32).view
        (Rect.unit (s := S2x528x3072) ![σ.val, bs, 0] S1x512x3072.size inbS).toLoadRect G)
      (ix3 (0 : Fin 1) r k)
      = OUT m c (ix2 (⟨R0 + r.val, by have := r.isLt; omega⟩ : Fin 3072) k : S3072x3072.Idx) := by
  have hrlt := r.isLt
  rw [OUT_mid m c ⟨R0 + r.val, by omega⟩ k (by show 0 < R0 + r.val; omega) (by show R0 + r.val < 3071; omega) hk1 hk2]
  refine pay1_rest _ v67 _ _ (X m c) ⟨R0 + r.val, by omega⟩ r k hk1 hk2 hr (fun k' => ?_) _ _ ?_ ?_
  · rw [load_slot σ bc 512 inbC G n B (X m c) hG r k' (by omega) (by omega)]
    exact congrArg (fun R : Fin 3072 => X m c (ix2 R k' : S3072x3072.Idx)) (Fin.ext (by show B + (bc + r.val) = R0 + r.val; omega))
  · rw [load_slot σ bc 511 inbN G n B (X m c) hG ⟨r.val - 1, by omega⟩ k (by show bc + (r.val - 1) < n; omega)
      (by show B + (bc + (r.val - 1)) < 3072; omega)]
    exact congrArg (fun R : Fin 3072 => X m c (ix2 R k : S3072x3072.Idx)) (Fin.ext (by show B + (bc + (r.val - 1)) = R0 + r.val - 1; omega))
  · rw [load_slot σ bs 512 inbS G n B (X m c) hG r k (by omega) (by omega)]
    exact congrArg (fun R : Fin 3072 => X m c (ix2 R k : S3072x3072.Idx)) (Fin.ext (by show B + (bs + r.val) = R0 + r.val + 1; omega))

theorem first_chunk_halo (c : Dev nD) (hc : c.val / 2 = 1) (G : DBuf F) (σ : Fin 2) (n : ℕ) (hG : SlotHolds G σ n 0 (X m c))
    (bs : ℕ) (hbs : bs = 1)
    (inbC : ∀ a, (![σ.val, 0, 0] : Fin 3 → ℕ) a + S1x512x3072.size a ≤ S2x528x3072.size a)
    (inbN : ∀ a, (![σ.val, 0, 0] : Fin 3 → ℕ) a + S1x511x3072.size a ≤ S2x528x3072.size a)
    (inbS : ∀ a, (![σ.val, bs, 0] : Fin 3 → ℕ) a + S1x512x3072.size a ≤ S2x528x3072.size a)
    (hn : 513 ≤ n) (v67 : Vec F S1x3072 .f32) (r : Fin 512) (k : Fin 3072) (hk1 : 0 < k.val) (hk2 : k.val < 3071)
    (hr : r.val = 0) (hv : v67 (ix2 (0 : Fin 1) k) = rowLanded m c (ix2 (⟨7, by norm_num⟩ : Fin 8) k : S8x3072.Idx)) :
    k0_pay1
      (View.readAt (Elt F) (Memref.whole cc0_scratch0 : Memref sig .tc .vmem S2x528x3072 .f32).view
        (Rect.unit (s := S2x528x3072) ![σ.val, 0, 0] S1x512x3072.size inbC).toLoadRect G)
      v67
      (View.readAt (Elt F) (Memref.whole cc0_scratch0 : Memref sig .tc .vmem S2x528x3072 .f32).view
        (Rect.unit (s := S2x528x3072) ![σ.val, 0, 0] S1x511x3072.size inbN).toLoadRect G)
      (View.readAt (Elt F) (Memref.whole cc0_scratch0 : Memref sig .tc .vmem S2x528x3072 .f32).view
        (Rect.unit (s := S2x528x3072) ![σ.val, bs, 0] S1x512x3072.size inbS).toLoadRect G)
      (ix3 (0 : Fin 1) r k)
      = OUT m c (ix2 (⟨0 + r.val, by have := r.isLt; omega⟩ : Fin 3072) k : S3072x3072.Idx) := by
  have hR : (⟨0 + r.val, by have := r.isLt; omega⟩ : Fin 3072) = ⟨0, by norm_num⟩ := Fin.ext (by show 0 + r.val = 0; omega)
  rw [hR, OUT_top_halo m c hc k hk1 hk2]
  refine pay1_first _ v67 _ _ (X m c) ⟨0, by norm_num⟩ r k hk1 hk2 hr (fun k' => ?_) _ _ hv ?_
  · rw [load_slot σ 0 512 inbC G n 0 (X m c) hG r k' (by omega) (by omega)]
    exact congrArg (fun R : Fin 3072 => X m c (ix2 R k' : S3072x3072.Idx)) (Fin.ext (by show 0 + (0 + r.val) = 0; omega))
  · rw [load_slot σ bs 512 inbS G n 0 (X m c) hG r k (by omega) (by omega)]
    exact congrArg (fun R : Fin 3072 => X m c (ix2 R k : S3072x3072.Idx)) (Fin.ext (by show 0 + (bs + r.val) = 1; omega))

theorem last_chunk_rest (c : Dev nD) (G : DBuf F) (σ : Fin 2) (n B : ℕ) (hG : SlotHolds G σ n B (X m c))
    (bc bn bs : ℕ) (hbn : bn + 1 = bc) (hbs : bs = bc + 1)
    (inbC : ∀ a, (![σ.val, bc, 0] : Fin 3 → ℕ) a + S1x512x3072.size a ≤ S2x528x3072.size a)
    (inbN : ∀ a, (![σ.val, bn, 0] : Fin 3 → ℕ) a + S1x512x3072.size a ≤ S2x528x3072.size a)
    (inbS : ∀ a, (![σ.val, bs, 0] : Fin 3 → ℕ) a + S1x511x3072.size a ≤ S2x528x3072.size a)
    (R0 : ℕ) (hR : B + bc = R0) (hn : bs + 511 ≤ n) (hlo : 0 < R0) (hhi : R0 + 512 ≤ 3072)
    (v331 : Vec F S1x3072 .f32) (r : Fin 512) (k : Fin 3072) (hk1 : 0 < k.val) (hk2 : k.val < 3071) (hr : r.val < 511) :
    k0_pay26
      (View.readAt (Elt F) (Memref.whole cc0_scratch0 : Memref sig .tc .vmem S2x528x3072 .f32).view
        (Rect.unit (s := S2x528x3072) ![σ.val, bc, 0] S1x512x3072.size inbC).toLoadRect G)
      (View.readAt (Elt F) (Memref.whole cc0_scratch0 : Memref sig .tc .vmem S2x528x3072 .f32).view
        (Rect.unit (s := S2x528x3072) ![σ.val, bn, 0] S1x512x3072.size inbN).toLoadRect G)
      (View.readAt (Elt F) (Memref.whole cc0_scratch0 : Memref sig .tc .vmem S2x528x3072 .f32).view
        (Rect.unit (s := S2x528x3072) ![σ.val, bs, 0] S1x511x3072.size inbS).toLoadRect G)
      v331
      (ix3 (0 : Fin 1) r k)
      = OUT m c (ix2 (⟨R0 + r.val, by have := r.isLt; omega⟩ : Fin 3072) k : S3072x3072.Idx) := by
  have hrlt := r.isLt
  rw [OUT_mid m c ⟨R0 + r.val, by omega⟩ k (by show 0 < R0 + r.val; omega) (by show R0 + r.val < 3071; omega) hk1 hk2]
  refine pay26_rest _ _ _ v331 (X m c) ⟨R0 + r.val, by omega⟩ r k hk1 hk2 hr (fun k' => ?_) _ _ ?_ ?_
  · rw [load_slot σ bc 512 inbC G n B (X m c) hG r k' (by omega) (by omega)]
    exact congrArg (fun R : Fin 3072 => X m c (ix2 R k' : S3072x3072.Idx)) (Fin.ext (by show B + (bc + r.val) = R0 + r.val; omega))
  · rw [load_slot σ bn 512 inbN G n B (X m c) hG r k (by omega) (by omega)]
    exact congrArg (fun R : Fin 3072 => X m c (ix2 R k : S3072x3072.Idx)) (Fin.ext (by show B + (bn + r.val) = R0 + r.val - 1; omega))
  · rw [load_slot σ bs 511 inbS G n B (X m c) hG ⟨r.val, hr⟩ k (by show bs + r.val < n; omega) (by show B + (bs + r.val) < 3072; omega)]
    exact congrArg (fun R : Fin 3072 => X m c (ix2 R k : S3072x3072.Idx)) (Fin.ext (by show B + (bs + r.val) = R0 + r.val + 1; omega))

theorem last_chunk_halo (c : Dev nD) (hc : c.val / 2 = 0) (G : DBuf F) (σ : Fin 2) (n B : ℕ) (hG : SlotHolds G σ n B (X m c))
    (bc bn bs : ℕ) (hbn : bn + 1 = bc) (hbs : bs = bc + 1)
    (inbC : ∀ a, (![σ.val, bc, 0] : Fin 3 → ℕ) a + S1x512x3072.size a ≤ S2x528x3072.size a)
    (inbN : ∀ a, (![σ.val, bn, 0] : Fin 3 → ℕ) a + S1x512x3072.size a ≤ S2x528x3072.size a)
    (inbS : ∀ a, (![σ.val, bs, 0] : Fin 3 → ℕ) a + S1x511x3072.size a ≤ S2x528x3072.size a)
    (hR : B + bc = 2560) (hn : bc + 512 ≤ n)
    (v331 : Vec F S1x3072 .f32) (r : Fin 512) (k : Fin 3072) (hk1 : 0 < k.val) (hk2 : k.val < 3071) (hr : r.val = 511)
    (hv : v331 (ix2 (0 : Fin 1) k) = rowLanded m c (ix2 (⟨0, by norm_num⟩ : Fin 8) k : S8x3072.Idx)) :
    k0_pay26
      (View.readAt (Elt F) (Memref.whole cc0_scratch0 : Memref sig .tc .vmem S2x528x3072 .f32).view
        (Rect.unit (s := S2x528x3072) ![σ.val, bc, 0] S1x512x3072.size inbC).toLoadRect G)
      (View.readAt (Elt F) (Memref.whole cc0_scratch0 : Memref sig .tc .vmem S2x528x3072 .f32).view
        (Rect.unit (s := S2x528x3072) ![σ.val, bn, 0] S1x512x3072.size inbN).toLoadRect G)
      (View.readAt (Elt F) (Memref.whole cc0_scratch0 : Memref sig .tc .vmem S2x528x3072 .f32).view
        (Rect.unit (s := S2x528x3072) ![σ.val, bs, 0] S1x511x3072.size inbS).toLoadRect G)
      v331
      (ix3 (0 : Fin 1) r k)
      = OUT m c (ix2 (⟨2560 + r.val, by have := r.isLt; omega⟩ : Fin 3072) k : S3072x3072.Idx) := by
  have hRR : (⟨2560 + r.val, by have := r.isLt; omega⟩ : Fin 3072) = ⟨3071, by norm_num⟩ := Fin.ext (by show 2560 + r.val = 3071; omega)
  rw [hRR, OUT_bot_halo m c hc k hk1 hk2]
  refine pay26_last _ _ _ v331 (X m c) ⟨3071, by norm_num⟩ r k hk1 hk2 hr (fun k' => ?_) _ _ ?_ hv
  · rw [load_slot σ bc 512 inbC G n B (X m c) hG r k' (by omega) (by omega)]
    exact congrArg (fun R : Fin 3072 => X m c (ix2 R k' : S3072x3072.Idx)) (Fin.ext (by show B + (bc + r.val) = 3071; omega))
  · rw [load_slot σ bn 512 inbN G n B (X m c) hG r k (by omega) (by omega)]
    exact congrArg (fun R : Fin 3072 => X m c (ix2 R k : S3072x3072.Idx)) (Fin.ext (by show B + (bn + r.val) = 3070; omega))

theorem kept_top (c : Dev nD) (hc : c.val / 2 = 0) (G : DBuf F) (σ : Fin 2) (n : ℕ) (hG : SlotHolds G σ n 0 (X m c)) (hn : 0 < n)
    (inb : ∀ a, (![σ.val, 0, 0] : Fin 3 → ℕ) a + S1x1x3072.size a ≤ S2x528x3072.size a) (r : Fin 512) (k : Fin 3072) (hr : r.val = 0) :
    shapeCast S1x1x3072 (shapeCast S1x3072
        (View.readAt (Elt F) (Memref.whole cc0_scratch0 : Memref sig .tc .vmem S2x528x3072 .f32).view
          (Rect.unit (s := S2x528x3072) ![σ.val, 0, 0] S1x1x3072.size inb).toLoadRect G)
        shapeCasts_S1x1x3072_S1x3072) shapeCasts_S1x3072_S1x1x3072 (ix3 (0 : Fin 1) (0 : Fin 1) k)
      = OUT m c (ix2 (⟨0 + r.val, by have := r.isLt; omega⟩ : Fin 3072) k : S3072x3072.Idx) := by
  have hR : (⟨0 + r.val, by have := r.isLt; omega⟩ : Fin 3072) = ⟨0, by norm_num⟩ := Fin.ext (by show 0 + r.val = 0; omega)
  rw [hR, OUT_top_kept m c hc k, shapeCast_ab_1ab_apply, shapeCast_1ab_ab_apply,
    load_slot σ 0 1 inb G n 0 (X m c) hG (0 : Fin 1) k (by show 0 + 0 < n; omega) (by show 0 + (0 + 0) < 3072; omega)]
  exact congrArg (fun R : Fin 3072 => X m c (ix2 R k : S3072x3072.Idx)) (Fin.ext (by show 0 + (0 + 0) = 0; omega))

theorem kept_bot (c : Dev nD) (hc : c.val / 2 = 1) (G : DBuf F) (σ : Fin 2) (n B b : ℕ) (hG : SlotHolds G σ n B (X m c))
    (hb : b < n) (hB : B + b = 3071)
    (inb : ∀ a, (![σ.val, b, 0] : Fin 3 → ℕ) a + S1x1x3072.size a ≤ S2x528x3072.size a) (r : Fin 512) (k : Fin 3072) (hr : r.val = 511) :
    shapeCast S1x1x3072 (shapeCast S1x3072
        (View.readAt (Elt F) (Memref.whole cc0_scratch0 : Memref sig .tc .vmem S2x528x3072 .f32).view
          (Rect.unit (s := S2x528x3072) ![σ.val, b, 0] S1x1x3072.size inb).toLoadRect G)
        shapeCasts_S1x1x3072_S1x3072) shapeCasts_S1x3072_S1x1x3072 (ix3 (0 : Fin 1) (0 : Fin 1) k)
      = OUT m c (ix2 (⟨2560 + r.val, by have := r.isLt; omega⟩ : Fin 3072) k : S3072x3072.Idx) := by
  have hR : (⟨2560 + r.val, by have := r.isLt; omega⟩ : Fin 3072) = ⟨3071, by norm_num⟩ := Fin.ext (by show 2560 + r.val = 3071; omega)
  rw [hR, OUT_bot_kept m c hc k, shapeCast_ab_1ab_apply, shapeCast_1ab_ab_apply,
    load_slot σ b 1 inb G n B (X m c) hG (0 : Fin 1) k (by show b + 0 < n; omega) (by show B + (b + 0) < 3072; omega)]
  exact congrArg (fun R : Fin 3072 => X m c (ix2 R k : S3072x3072.Idx)) (Fin.ext (by show B + (b + 0) = 3071; omega))

section WholeWrites

variable {sig' : RefSig} {κ : Kind} {Val : EltTy → Type}

theorem writes_whole_cons_out (b : Ref sig' κ) (f : b.ty.Contents Val)
    (off size : Fin b.ty.shape.rank → Nat) (inb : ∀ a, off a + size a ≤ b.ty.shape.size a)
    (w : (Rect.unit off size inb).shape.Idx → Val b.ty.elt) (L : List (View.Piece Val b.ty.shape b.ty.elt))
    (i : b.ty.shape.Idx) (a : Fin b.ty.shape.rank) (ha : (i a).val < off a ∨ off a + size a ≤ (i a).val) :
    (View.whole b).writes Val f (⟨Rect.unit off size inb, w⟩ :: L) i = (View.whole b).writes Val f L i := by
  rw [View.writes_cons, View.write_whole_slice_unit]
  unfold updateSlice
  rw [dif_neg]
  intro hin
  have h2 : off a ≤ (i a).val ∧ (i a).val < off a + size a := hin a
  omega

theorem writes_whole_cons_in (b : Ref sig' κ) (f : b.ty.Contents Val)
    (off size : Fin b.ty.shape.rank → Nat) (inb : ∀ a, off a + size a ≤ b.ty.shape.size a)
    (w : (Rect.unit off size inb).shape.Idx → Val b.ty.elt) (L : List (View.Piece Val b.ty.shape b.ty.elt))
    (i : b.ty.shape.Idx) (j : (Rect.unit off size inb).shape.Idx) (hj : ∀ a, (i a).val = off a + (j a).val) :
    (View.whole b).writes Val f (⟨Rect.unit off size inb, w⟩ :: L) i = w j := by
  rw [View.writes_cons, View.write_whole_slice_unit]
  unfold updateSlice
  split
  · refine congrArg w (funext fun a => Fin.ext ?_)
    have h1 := hj a
    show (i a).val - off a = (j a).val
    omega
  · next hout =>
    refine absurd (fun a => ?_) hout
    have h1 := hj a
    have h2 : (j a).val < size a := (j a).isLt
    show off a ≤ (i a).val ∧ (i a).val < off a + size a
    omega

end WholeWrites

local macro "rows_miss " r:ident n:num : tactic =>
  `(tactic| refine (writes_whole_cons_out main_v1 _ _ _ _ _ _ _ 0
      (by show Fin.val $r < $n ∨ $n + 512 ≤ Fin.val $r; omega)).trans ?_)

local macro "rows_hit " r:ident k:ident n:num : tactic =>
  `(tactic| exact writes_whole_cons_in main_v1 _ _ _ _ _ _ _ (ValueIdx.ix2 ⟨Fin.val $r % 512, Nat.mod_lt _ (by decide)⟩ $k)
      (Fin.forall_fin_two.mpr ⟨by show Fin.val $r = $n + Fin.val $r % 512; omega, by show Fin.val $k = 0 + Fin.val $k; omega⟩))

theorem val00_rows (c : Dev nD)
    (o0 : Buf (Elt F) ((c : Thread nD τ).loc main_v1))
    (p5 p4 p3 p2 p1 p0 : S512x3072.Idx → Elt F .f32)
    (r k : Fin 3072) :
    (Memref.whole main_v1 : Memref sig .tc .hbm S3072x3072 .f32).view.writes (Elt F) o0
      [⟨Rect.unit ![2560, 0] S512x3072.size inb_S3072x3072_S512x3072_2560_0, p5⟩,
        ⟨Rect.unit ![2048, 0] S512x3072.size inb_S3072x3072_S512x3072_2048_0, p4⟩,
        ⟨Rect.unit ![1536, 0] S512x3072.size inb_S3072x3072_S512x3072_1536_0, p3⟩,
        ⟨Rect.unit ![1024, 0] S512x3072.size inb_S3072x3072_S512x3072_1024_0, p2⟩,
        ⟨Rect.unit ![512, 0] S512x3072.size inb_S3072x3072_S512x3072_512_0, p1⟩,
        ⟨Rect.unit ![0, 0] S512x3072.size inb_S3072x3072_S512x3072_0_0, p0⟩] (ValueIdx.ix2 r k)
    = if r.val / 512 = 0 then p0 (ValueIdx.ix2 (⟨r.val % 512, Nat.mod_lt _ (by decide)⟩ : Fin 512) k)
      else if r.val / 512 = 1 then p1 (ValueIdx.ix2 (⟨r.val % 512, Nat.mod_lt _ (by decide)⟩ : Fin 512) k)
      else if r.val / 512 = 2 then p2 (ValueIdx.ix2 (⟨r.val % 512, Nat.mod_lt _ (by decide)⟩ : Fin 512) k)
      else if r.val / 512 = 3 then p3 (ValueIdx.ix2 (⟨r.val % 512, Nat.mod_lt _ (by decide)⟩ : Fin 512) k)
      else if r.val / 512 = 4 then p4 (ValueIdx.ix2 (⟨r.val % 512, Nat.mod_lt _ (by decide)⟩ : Fin 512) k)
      else p5 (ValueIdx.ix2 (⟨r.val % 512, Nat.mod_lt _ (by decide)⟩ : Fin 512) k) := by
  have hr : r.val < 3072 := r.isLt
  have hk : k.val < 3072 := k.isLt
  split_ifs with h0 h1 h2 h3 h4
  · rows_miss r 2560; rows_miss r 2048; rows_miss r 1536; rows_miss r 1024; rows_miss r 512; rows_hit r k 0
  · rows_miss r 2560; rows_miss r 2048; rows_miss r 1536; rows_miss r 1024; rows_hit r k 512
  · rows_miss r 2560; rows_miss r 2048; rows_miss r 1536; rows_hit r k 1024
  · rows_miss r 2560; rows_miss r 2048; rows_hit r k 1536
  · rows_miss r 2560; rows_hit r k 2048
  · rows_hit r k 2560

theorem val00_outer (c : Dev nD)
    (o0 : Buf (Elt F) ((c : Thread nD τ).loc main_v1))
    (pE pW : S3072x128.Idx → Elt F .f32) (p5 p4 p3 p2 p1 p0 : S512x3072.Idx → Elt F .f32)
    (r k : Fin 3072) :
    (Memref.whole main_v1 : Memref sig .tc .hbm S3072x3072 .f32).view.writes (Elt F) o0
      [⟨Rect.unit ![0, 2944] S3072x128.size inb_S3072x3072_S3072x128_0_2944, pE⟩,
        ⟨Rect.unit ![0, 0] S3072x128.size inb_S3072x3072_S3072x128_0_0, pW⟩,
        ⟨Rect.unit ![2560, 0] S512x3072.size inb_S3072x3072_S512x3072_2560_0, p5⟩,
        ⟨Rect.unit ![2048, 0] S512x3072.size inb_S3072x3072_S512x3072_2048_0, p4⟩,
        ⟨Rect.unit ![1536, 0] S512x3072.size inb_S3072x3072_S512x3072_1536_0, p3⟩,
        ⟨Rect.unit ![1024, 0] S512x3072.size inb_S3072x3072_S512x3072_1024_0, p2⟩,
        ⟨Rect.unit ![512, 0] S512x3072.size inb_S3072x3072_S512x3072_512_0, p1⟩,
        ⟨Rect.unit ![0, 0] S512x3072.size inb_S3072x3072_S512x3072_0_0, p0⟩] (ValueIdx.ix2 r k)
    = if h : 2944 ≤ k.val then pE (ValueIdx.ix2 r (⟨k.val - 2944, by have := k.isLt; omega⟩ : Fin 128))
      else if h' : k.val < 128 then pW (ValueIdx.ix2 r (⟨k.val, h'⟩ : Fin 128))
      else
        let q : Fin 512 := ⟨r.val % 512, Nat.mod_lt _ (by decide)⟩
        if r.val / 512 = 0 then p0 (ValueIdx.ix2 q k) else if r.val / 512 = 1 then p1 (ValueIdx.ix2 q k)
        else if r.val / 512 = 2 then p2 (ValueIdx.ix2 q k) else if r.val / 512 = 3 then p3 (ValueIdx.ix2 q k)
        else if r.val / 512 = 4 then p4 (ValueIdx.ix2 q k) else p5 (ValueIdx.ix2 q k) := by
  have hr : r.val < 3072 := r.isLt
  have hk : k.val < 3072 := k.isLt
  by_cases h : 2944 ≤ k.val
  · rw [dif_pos h]
    exact writes_whole_cons_in main_v1 _ _ _ _ _ _ _ (ValueIdx.ix2 r ⟨k.val - 2944, by omega⟩)
      (Fin.forall_fin_two.mpr ⟨by show r.val = 0 + r.val; omega, by show k.val = 2944 + (k.val - 2944); omega⟩)
  · rw [dif_neg h]
    refine (writes_whole_cons_out main_v1 _ _ _ _ _ _ _ 1 (by show k.val < 2944 ∨ 2944 + 128 ≤ k.val; omega)).trans ?_
    by_cases h' : k.val < 128
    · rw [dif_pos h']
      exact writes_whole_cons_in main_v1 _ _ _ _ _ _ _ (ValueIdx.ix2 r ⟨k.val, h'⟩)
        (Fin.forall_fin_two.mpr ⟨by show r.val = 0 + r.val; omega, by show k.val = 0 + k.val; omega⟩)
    · rw [dif_neg h']
      refine (writes_whole_cons_out main_v1 _ _ _ _ _ _ _ 1 (by show k.val < 0 ∨ 0 + 128 ≤ k.val; omega)).trans ?_
      exact val00_rows c o0 p5 p4 p3 p2 p1 p0 r k

-- Six row chunks, then the two column strips over their 128 columns, fill the result array.
theorem out_assemble (c : Dev nD) (o0 O : Buf (Elt F) ((c : Thread nD τ).loc main_v1))
    (pE pW : S3072x128.Idx → Elt F .f32) (p5 p4 p3 p2 p1 p0 : S512x3072.Idx → Elt F .f32)
    (hE : ∀ (r : Fin 3072) (k : Fin 128), pE (ValueIdx.ix2 r k) = O (ValueIdx.ix2 r (⟨2944 + k.val, by have := k.isLt; omega⟩ : Fin 3072)))
    (hW : ∀ (r : Fin 3072) (k : Fin 128), pW (ValueIdx.ix2 r k) = O (ValueIdx.ix2 r (⟨k.val, by have := k.isLt; omega⟩ : Fin 3072)))
    (h0 : ∀ (r : Fin 512) (k : Fin 3072), 0 < k.val → k.val < 3071 → p0 (ValueIdx.ix2 r k) = O (ValueIdx.ix2 (⟨0 + r.val, by have := r.isLt; omega⟩ : Fin 3072) k))
    (h1 : ∀ (r : Fin 512) (k : Fin 3072), 0 < k.val → k.val < 3071 → p1 (ValueIdx.ix2 r k) = O (ValueIdx.ix2 (⟨512 + r.val, by have := r.isLt; omega⟩ : Fin 3072) k))
    (h2 : ∀ (r : Fin 512) (k : Fin 3072), 0 < k.val → k.val < 3071 → p2 (ValueIdx.ix2 r k) = O (ValueIdx.ix2 (⟨1024 + r.val, by have := r.isLt; omega⟩ : Fin 3072) k))
    (h3 : ∀ (r : Fin 512) (k : Fin 3072), 0 < k.val → k.val < 3071 → p3 (ValueIdx.ix2 r k) = O (ValueIdx.ix2 (⟨1536 + r.val, by have := r.isLt; omega⟩ : Fin 3072) k))
    (h4 : ∀ (r : Fin 512) (k : Fin 3072), 0 < k.val → k.val < 3071 → p4 (ValueIdx.ix2 r k) = O (ValueIdx.ix2 (⟨2048 + r.val, by have := r.isLt; omega⟩ : Fin 3072) k))
    (h5 : ∀ (r : Fin 512) (k : Fin 3072), 0 < k.val → k.val < 3071 → p5 (ValueIdx.ix2 r k) = O (ValueIdx.ix2 (⟨2560 + r.val, by have := r.isLt; omega⟩ : Fin 3072) k)) :
    (Memref.whole main_v1 : Memref sig .tc .hbm S3072x3072 .f32).view.writes (Elt F) o0
      [⟨Rect.unit ![0, 2944] S3072x128.size inb_S3072x3072_S3072x128_0_2944, pE⟩,
        ⟨Rect.unit ![0, 0] S3072x128.size inb_S3072x3072_S3072x128_0_0, pW⟩,
        ⟨Rect.unit ![2560, 0] S512x3072.size inb_S3072x3072_S512x3072_2560_0, p5⟩,
        ⟨Rect.unit ![2048, 0] S512x3072.size inb_S3072x3072_S512x3072_2048_0, p4⟩,
        ⟨Rect.unit ![1536, 0] S512x3072.size inb_S3072x3072_S512x3072_1536_0, p3⟩,
        ⟨Rect.unit ![1024, 0] S512x3072.size inb_S3072x3072_S512x3072_1024_0, p2⟩,
        ⟨Rect.unit ![512, 0] S512x3072.size inb_S3072x3072_S512x3072_512_0, p1⟩,
        ⟨Rect.unit ![0, 0] S512x3072.size inb_S3072x3072_S512x3072_0_0, p0⟩] = O := by
  funext i
  obtain ⟨r, k, rfl⟩ : ∃ (r : Fin 3072) (k : Fin 3072), i = ValueIdx.ix2 r k := ⟨i 0, i 1, ValueIdx.eq_ix2 i⟩
  rw [val00_outer]
  have hr : r.val < 3072 := r.isLt
  have hk : k.val < 3072 := k.isLt
  by_cases hE' : 2944 ≤ k.val
  · rw [dif_pos hE']
    exact (hE r ⟨k.val - 2944, by omega⟩).trans (congrArg O (congrArg (ValueIdx.ix2 r) (Fin.ext (by show 2944 + (k.val - 2944) = k.val; omega))))
  rw [dif_neg hE']
  by_cases hW' : k.val < 128
  · rw [dif_pos hW']
    exact (hW r ⟨k.val, hW'⟩).trans (congrArg O (congrArg (ValueIdx.ix2 r) (Fin.ext rfl)))
  rw [dif_neg hW']
  have hq : r.val % 512 < 512 := Nat.mod_lt _ (by decide)
  have row {p : S512x3072.Idx → Elt F .f32} (o : ℕ) (hb : o + 512 ≤ 3072) (ho : o + r.val % 512 = r.val)
      (hp : ∀ (r' : Fin 512) (k : Fin 3072), 0 < k.val → k.val < 3071 → p (ValueIdx.ix2 r' k) = O (ValueIdx.ix2 (⟨o + r'.val, by have := r'.isLt; omega⟩ : Fin 3072) k)) :
      p (ValueIdx.ix2 ⟨r.val % 512, hq⟩ k) = O (ValueIdx.ix2 r k) :=
    (hp ⟨r.val % 512, hq⟩ k (by omega) (by omega)).trans (congrArg O (congrArg (fun x => ValueIdx.ix2 x k) (Fin.ext ho)))
  dsimp only
  rcases (show r.val / 512 = 0 ∨ r.val / 512 = 1 ∨ r.val / 512 = 2 ∨ r.val / 512 = 3 ∨ r.val / 512 = 4 ∨ r.val / 512 = 5 by omega)
    with h' | h' | h' | h' | h' | h'
  · rw [if_pos h']; exact row 0 (by omega) (by omega) h0
  · rw [if_neg (by omega), if_pos h']; exact row 512 (by omega) (by omega) h1
  · rw [if_neg (by omega), if_neg (by omega), if_pos h']; exact row 1024 (by omega) (by omega) h2
  · rw [if_neg (by omega), if_neg (by omega), if_neg (by omega), if_pos h']; exact row 1536 (by omega) (by omega) h3
  · rw [if_neg (by omega), if_neg (by omega), if_neg (by omega), if_neg (by omega), if_pos h']; exact row 2048 (by omega) (by omega) h4
  · rw [if_neg (by omega), if_neg (by omega), if_neg (by omega), if_neg (by omega), if_neg (by omega)]; exact row 2560 (by omega) (by omega) h5

end Cert.KernelIdealProof

end
-- ==== Proof.ValLemCKernelIdeal.lean ====
import proofs.«900195_g7700000000000196_dist_halo2d_stencil_xy_m3072_n3072_v7x_xy2x2_f32_1_alg».proof.Proof.StateKernelIdeal
import Idealize.ShloMosaic.Lib.ValueIdx
import Idealize.ShloMosaic.Lib.Pipeline.Value
import Idealize.ShloMosaic.Lib.ValueLayout
import Idealize.ShloMosaic.Lib.WritesUnit

noncomputable section

namespace Cert.KernelIdealProof

open Cert.KernelIdeal Cert.KernelIdeal.Gen
open Idealize.ShloMosaic Idealize.ShloMosaic.TcCoe
open Idealize.ShloMosaic.ValueIdx

variable {F : FTy → Type} [FloatOps F]

theorem read_slice_unit_apply {κ : Kind} (b : Ref sig κ) (off size : Fin b.ty.shape.rank → ℕ)
    (inb : ∀ a, off a + size a ≤ b.ty.shape.size a) (hr : ∀ a, (Rect.unit (s := b.ty.shape) off size inb).stride a = 1)
    (f : b.ty.Contents (Elt F)) (x : (Rect.unit (s := b.ty.shape) off size inb).shape.Idx) (i : b.ty.shape.Idx)
    (hi : ∀ a, (i a).val = off a + (x a).val) :
    ((Memref.whole b : Memref sig κ b.space b.ty.shape b.ty.elt).slice (Rect.unit off size inb) hr).view.read (Elt F) f x = f i := by
  have he : (Rect.unit (s := b.ty.shape) off size inb).emb x = i := funext fun a => Fin.ext (by
    rw [hi a]; show off a + 1 * (x a).val = _; rw [Nat.one_mul])
  rw [← he]; rfl

theorem write_window_apply {κ : Kind} (b : Ref sig κ) {s' : Shape} (off size : Fin b.ty.shape.rank → ℕ)
    (inb : ∀ a, off a + size a ≤ b.ty.shape.size a) (hr : ∀ a, (Rect.unit (s := b.ty.shape) off size inb).stride a = 1)
    (hq : (Rect.unit (s := b.ty.shape) off size inb).shape.Squeezes s')
    (g : b.ty.Contents (Elt F)) (w : s'.Idx → Elt F b.ty.elt) (i : b.ty.shape.Idx) (x : s'.Idx)
    (y : (Rect.unit (s := b.ty.shape) off size inb).shape.Idx)
    (hxy : ((Rect.unit (s := b.ty.shape) off size inb).shape.rowMajor y : ℕ) = s'.rowMajor x)
    (hi : ∀ a, (i a).val = off a + (y a).val) :
    View.write (Elt F) (((Memref.whole b : Memref sig κ b.space b.ty.shape b.ty.elt).slice (Rect.unit off size inb) hr).squeeze s' hq).view g w Finset.univ i = w x := by
  have hy : Shape.reshapeEquiv hq.numel_eq x = y := Shape.reshapeEquiv_eq_of_rowMajor _ hxy
  have he : (((Memref.whole b : Memref sig κ b.space b.ty.shape b.ty.elt).slice (Rect.unit off size inb) hr).squeeze s' hq).view.emb x = i := by
    show (Rect.unit (s := b.ty.shape) off size inb).emb (Shape.reshapeEquiv hq.numel_eq x) = i
    rw [hy]
    exact funext fun a => Fin.ext (by rw [hi a]; show off a + 1 * (y a).val = _; rw [Nat.one_mul])
  rw [← he, View.write_emb_of_mem _ _ (Finset.mem_univ _)]; rfl

theorem idx2_eq {n0 n1 : ℕ} {i j : (⟨2, ![n0, n1]⟩ : Shape).Idx} (h0 : (i 0).val = (j 0).val) (h1 : (i 1).val = (j 1).val) : i = j :=
  funext fun a => Fin.ext (match a with | ⟨0, _⟩ => h0 | ⟨1, _⟩ => h1)

theorem xt_hit (x : (main_arg0 : Ref sig .tc).ty.Contents (Elt F)) (g : (cc0_scratch0 : Ref sig .tc).ty.Contents (Elt F))
    (s n R : ℕ)
    (winb : ∀ a, (![s, 0, 0] : Fin 3 → ℕ) a + (![1, n, 3072] : Fin 3 → ℕ) a ≤ S2x528x3072.size a)
    (whr : ∀ a, (Rect.unit (s := S2x528x3072) ![s, 0, 0] ![1, n, 3072] winb).stride a = 1)
    (whq : (Rect.unit (s := S2x528x3072) ![s, 0, 0] ![1, n, 3072] winb).shape.Squeezes ⟨2, ![n, 3072]⟩)
    (dinb : ∀ a, (![R, 0] : Fin 2 → ℕ) a + (![n, 3072] : Fin 2 → ℕ) a ≤ S3072x3072.size a)
    (dhr : ∀ a, (Rect.unit (s := S3072x3072) ![R, 0] ![n, 3072] dinb).stride a = 1)
    (idx : S2x528x3072.Idx) (i : S3072x3072.Idx)
    (hs : (idx 0).val = s) (hr : (idx 1).val < n) (h0 : (i 0).val = R + (idx 1).val) (h1 : (i 1).val = (idx 2).val) :
    View.write (Elt F)
        (((Memref.whole cc0_scratch0 : Memref sig .tc .vmem S2x528x3072 .f32).slice (Rect.unit ![s, 0, 0] ![1, n, 3072] winb) whr).squeeze
          ⟨2, ![n, 3072]⟩ whq).view g
        (ReadAs.same.apply (View.read (Elt F)
          ((Memref.whole main_arg0 : Memref sig .tc .hbm S3072x3072 .f32).slice (Rect.unit ![R, 0] ![n, 3072] dinb) dhr).view x))
        Finset.univ idx
      = x i := by
  have h2 : (idx 2).val < 3072 := (idx 2).isLt
  refine (write_window_apply cc0_scratch0 ![s, 0, 0] ![1, n, 3072] winb whr whq g _ idx
    (ix2 (⟨(idx 1).val, hr⟩ : Fin n) (⟨(idx 2).val, h2⟩ : Fin 3072))
    (ix3 (⟨0, Nat.one_pos⟩ : Fin 1) (⟨(idx 1).val, hr⟩ : Fin n) (⟨(idx 2).val, h2⟩ : Fin 3072))
    ?_ ?_).trans ?_
  · refine (Shape.rowMajor_val_three (d := ![1, n, 3072]) _).trans (Eq.trans ?_ (Shape.rowMajor_val_two (d := ![n, 3072]) _).symm)
    show (0 * n + (idx 1).val) * 3072 + (idx 2).val = (idx 1).val * 3072 + (idx 2).val
    rw [Nat.zero_mul, Nat.zero_add]
  · intro a'
    match a' with
    | ⟨0, _⟩ => show (idx 0).val = s + 0; omega
    | ⟨1, _⟩ => show (idx 1).val = 0 + (idx 1).val; omega
    | ⟨2, _⟩ => show (idx 2).val = 0 + (idx 2).val; omega
  · rw [ReadAs.apply_same]
    refine read_slice_unit_apply main_arg0 ![R, 0] ![n, 3072] dinb dhr x _ i ?_
    intro a'
    match a' with
    | ⟨0, _⟩ => show (i 0).val = R + (idx 1).val; omega
    | ⟨1, _⟩ => show (i 1).val = 0 + (idx 2).val; omega

theorem xt_miss {s' : Shape} (g : (cc0_scratch0 : Ref sig .tc).ty.Contents (Elt F)) (w : s'.Idx → Elt F .f32)
    (woff wsize : Fin 3 → ℕ) (winb : ∀ a, woff a + wsize a ≤ S2x528x3072.size a)
    (whr : ∀ a, (Rect.unit (s := S2x528x3072) woff wsize winb).stride a = 1)
    (whq : (Rect.unit (s := S2x528x3072) woff wsize winb).shape.Squeezes s')
    (idx : S2x528x3072.Idx) (hne : (idx 0).val < woff 0 ∨ woff 0 + wsize 0 ≤ (idx 0).val) :
    View.write (Elt F)
        (((Memref.whole cc0_scratch0 : Memref sig .tc .vmem S2x528x3072 .f32).slice (Rect.unit woff wsize winb) whr).squeeze s' whq).view g w
        Finset.univ idx
      = g idx := by
  refine View.write_of_not_mem _ _ _ fun hm => ?_
  rw [View.setOn_univ] at hm
  obtain ⟨x, hx⟩ := View.exists_emb_of_mem_set _ hm
  have h0 : woff 0 + 1 * ((Shape.reshapeEquiv whq.numel_eq x) 0).val = (idx 0).val := congrArg (fun i : S2x528x3072.Idx => (i 0).val) hx
  have hlt : ((Shape.reshapeEquiv whq.numel_eq x) 0).val < wsize 0 := ((Shape.reshapeEquiv whq.numel_eq x) 0).isLt
  omega

theorem xt_load_hit (x : (main_arg0 : Ref sig .tc).ty.Contents (Elt F)) (g : (cc0_scratch0 : Ref sig .tc).ty.Contents (Elt F))
    (s n base c0 R hh ww : ℕ)
    (binb : ∀ a, (![s, base, c0] : Fin 3 → ℕ) a + (![1, hh, ww] : Fin 3 → ℕ) a ≤ S2x528x3072.size a)
    (winb : ∀ a, (![s, 0, 0] : Fin 3 → ℕ) a + (![1, n, 3072] : Fin 3 → ℕ) a ≤ S2x528x3072.size a)
    (whr : ∀ a, (Rect.unit (s := S2x528x3072) ![s, 0, 0] ![1, n, 3072] winb).stride a = 1)
    (whq : (Rect.unit (s := S2x528x3072) ![s, 0, 0] ![1, n, 3072] winb).shape.Squeezes ⟨2, ![n, 3072]⟩)
    (dinb : ∀ a, (![R, 0] : Fin 2 → ℕ) a + (![n, 3072] : Fin 2 → ℕ) a ≤ S3072x3072.size a)
    (dhr : ∀ a, (Rect.unit (s := S3072x3072) ![R, 0] ![n, 3072] dinb).stride a = 1)
    (a : Fin hh) (b : Fin ww) (hb : base + hh ≤ n)
    (i : S3072x3072.Idx) (h0 : (i 0).val = R + base + a.val) (h1 : (i 1).val = c0 + b.val) :
    View.readAt (Elt F) (Memref.whole cc0_scratch0 : Memref sig .tc .vmem S2x528x3072 .f32).view
        (Rect.unit (s := S2x528x3072) ![s, base, c0] ![1, hh, ww] binb).toLoadRect
        (View.write (Elt F)
          (((Memref.whole cc0_scratch0 : Memref sig .tc .vmem S2x528x3072 .f32).slice (Rect.unit ![s, 0, 0] ![1, n, 3072] winb) whr).squeeze
            ⟨2, ![n, 3072]⟩ whq).view g
          (ReadAs.same.apply (View.read (Elt F)
            ((Memref.whole main_arg0 : Memref sig .tc .hbm S3072x3072 .f32).slice (Rect.unit ![R, 0] ![n, 3072] dinb) dhr).view x))
          Finset.univ)
        (ix3 (⟨0, Nat.one_pos⟩ : Fin 1) a b)
      = x i := by
  have ha := a.isLt
  rw [View.readAt_apply]
  show View.write (Elt F) _ _ _ Finset.univ _ = _
  refine xt_hit x g s n R winb whr whq dinb dhr _ i ?_ ?_ ?_ ?_
  · show s + 1 * 0 = s; omega
  · show base + 1 * a.val < n; omega
  · show (i 0).val = R + (base + 1 * a.val); omega
  · show (i 1).val = c0 + 1 * b.val; omega

theorem xt_load_miss {s' : Shape} (x : (main_arg0 : Ref sig .tc).ty.Contents (Elt F)) (g : (cc0_scratch0 : Ref sig .tc).ty.Contents (Elt F))
    (w1 : s'.Idx → Elt F .f32) (s1 n1 : ℕ)
    (w1inb : ∀ a, (![s1, 0, 0] : Fin 3 → ℕ) a + (![1, n1, 3072] : Fin 3 → ℕ) a ≤ S2x528x3072.size a)
    (w1hr : ∀ a, (Rect.unit (s := S2x528x3072) ![s1, 0, 0] ![1, n1, 3072] w1inb).stride a = 1)
    (w1hq : (Rect.unit (s := S2x528x3072) ![s1, 0, 0] ![1, n1, 3072] w1inb).shape.Squeezes s')
    (s n base c0 R hh ww : ℕ) (hss : s ≠ s1)
    (binb : ∀ a, (![s, base, c0] : Fin 3 → ℕ) a + (![1, hh, ww] : Fin 3 → ℕ) a ≤ S2x528x3072.size a)
    (winb : ∀ a, (![s, 0, 0] : Fin 3 → ℕ) a + (![1, n, 3072] : Fin 3 → ℕ) a ≤ S2x528x3072.size a)
    (whr : ∀ a, (Rect.unit (s := S2x528x3072) ![s, 0, 0] ![1, n, 3072] winb).stride a = 1)
    (whq : (Rect.unit (s := S2x528x3072) ![s, 0, 0] ![1, n, 3072] winb).shape.Squeezes ⟨2, ![n, 3072]⟩)
    (dinb : ∀ a, (![R, 0] : Fin 2 → ℕ) a + (![n, 3072] : Fin 2 → ℕ) a ≤ S3072x3072.size a)
    (dhr : ∀ a, (Rect.unit (s := S3072x3072) ![R, 0] ![n, 3072] dinb).stride a = 1)
    (a : Fin hh) (b : Fin ww) (hb : base + hh ≤ n)
    (i : S3072x3072.Idx) (h0 : (i 0).val = R + base + a.val) (h1 : (i 1).val = c0 + b.val) :
    View.readAt (Elt F) (Memref.whole cc0_scratch0 : Memref sig .tc .vmem S2x528x3072 .f32).view
        (Rect.unit (s := S2x528x3072) ![s, base, c0] ![1, hh, ww] binb).toLoadRect
        (View.write (Elt F)
          (((Memref.whole cc0_scratch0 : Memref sig .tc .vmem S2x528x3072 .f32).slice (Rect.unit ![s1, 0, 0] ![1, n1, 3072] w1inb) w1hr).squeeze
            s' w1hq).view
          (View.write (Elt F)
            (((Memref.whole cc0_scratch0 : Memref sig .tc .vmem S2x528x3072 .f32).slice (Rect.unit ![s, 0, 0] ![1, n, 3072] winb) whr).squeeze
              ⟨2, ![n, 3072]⟩ whq).view g
            (ReadAs.same.apply (View.read (Elt F)
              ((Memref.whole main_arg0 : Memref sig .tc .hbm S3072x3072 .f32).slice (Rect.unit ![R, 0] ![n, 3072] dinb) dhr).view x))
            Finset.univ)
          w1 Finset.univ)
        (ix3 (⟨0, Nat.one_pos⟩ : Fin 1) a b)
      = x i := by
  have ha := a.isLt
  rw [View.readAt_apply]
  show View.write (Elt F) _ _ _ Finset.univ _ = _
  rw [xt_miss _ w1 ![s1, 0, 0] ![1, n1, 3072] w1inb w1hr w1hq _ (by
    show s + 1 * 0 < s1 ∨ s1 + 1 ≤ s + 1 * 0
    omega)]
  refine xt_hit x g s n R winb whr whq dinb dhr _ i ?_ ?_ ?_ ?_
  · show s + 1 * 0 = s; omega
  · show base + 1 * a.val < n; omega
  · show (i 0).val = R + (base + 1 * a.val); omega
  · show (i 1).val = c0 + 1 * b.val; omega

theorem cast2_apply {hh ww : ℕ} (v : (⟨3, ![1, hh, ww]⟩ : Shape).Idx → Elt F .f32)
    (h1 : (⟨3, ![1, hh, ww]⟩ : Shape).ShapeCasts ⟨2, ![hh, ww]⟩) (h2 : (⟨2, ![hh, ww]⟩ : Shape).ShapeCasts ⟨2, ![hh, ww]⟩)
    (a : Fin hh) (b : Fin ww) :
    shapeCast (⟨2, ![hh, ww]⟩ : Shape) (shapeCast (⟨2, ![hh, ww]⟩ : Shape) v h1) h2 (ix2 a b) = v (ix3 (⟨0, Nat.one_pos⟩ : Fin 1) a b) := by
  rw [shapeCast_self]
  refine shapeCast_apply v h1 _ _ ?_
  refine (Shape.rowMajor_val_three (d := ![1, hh, ww]) _).trans (Eq.trans ?_ (Shape.rowMajor_val_two (d := ![hh, ww]) _).symm)
  show (0 * hh + a.val) * ww + b.val = a.val * ww + b.val
  rw [Nat.zero_mul, Nat.zero_add]

theorem canon_cons_rows {n0 n1 : ℕ} (o W : ℕ)
    (inb : ∀ a, (![o, 0] : Fin 2 → ℕ) a + (![W, n1] : Fin 2 → ℕ) a ≤ (⟨2, ![n0, n1]⟩ : Shape).size a)
    (w : (⟨2, ![W, n1]⟩ : Shape).Idx → Elt F .f32) (L : List (View.Piece (Elt F) (⟨2, ![n0, n1]⟩ : Shape) .f32))
    (y : (⟨2, ![n0, n1]⟩ : Shape).Idx) :
    View.canon ((⟨Rect.unit (s := ⟨2, ![n0, n1]⟩) ![o, 0] ![W, n1] inb, w⟩ : View.Piece (Elt F) (⟨2, ![n0, n1]⟩ : Shape) .f32) :: L) y
      = if h : o ≤ (y 0).val ∧ (y 0).val < o + W then w (ix2 (⟨(y 0).val - o, by omega⟩ : Fin W) (y 1)) else View.canon L y := by
  by_cases h : o ≤ (y 0).val ∧ (y 0).val < o + W
  · rw [dif_pos h]
    have he : (Rect.unit (s := ⟨2, ![n0, n1]⟩) ![o, 0] ![W, n1] inb).emb (ix2 (⟨(y 0).val - o, by omega⟩ : Fin W) (y 1)) = y :=
      idx2_eq (by show o + 1 * ((y 0).val - o) = (y 0).val; omega) (by show 0 + 1 * (y 1).val = (y 1).val; omega)
    conv_lhs => rw [← he]
    exact View.canon_cons_emb (Rect.unit (s := ⟨2, ![n0, n1]⟩) ![o, 0] ![W, n1] inb) w L _
  · rw [dif_neg h]
    refine View.canon_cons_of_not_mem _ L fun hm => h ?_
    exact ((Rect.mem_set_unit (inb := inb)).mp hm) (0 : Fin 2)

theorem save_canon (x : S3072x3072.Idx → Elt F .f32) (c0 : ℕ)
    (P0 P1 P2 P3 P4 P5 : (⟨2, ![512, 256]⟩ : Shape).Idx → Elt F .f32)
    (i0 : ∀ a, (![0, 0] : Fin 2 → ℕ) a + (![512, 256] : Fin 2 → ℕ) a ≤ S3072x256.size a)
    (i1 : ∀ a, (![512, 0] : Fin 2 → ℕ) a + (![512, 256] : Fin 2 → ℕ) a ≤ S3072x256.size a)
    (i2 : ∀ a, (![1024, 0] : Fin 2 → ℕ) a + (![512, 256] : Fin 2 → ℕ) a ≤ S3072x256.size a)
    (i3 : ∀ a, (![1536, 0] : Fin 2 → ℕ) a + (![512, 256] : Fin 2 → ℕ) a ≤ S3072x256.size a)
    (i4 : ∀ a, (![2048, 0] : Fin 2 → ℕ) a + (![512, 256] : Fin 2 → ℕ) a ≤ S3072x256.size a)
    (i5 : ∀ a, (![2560, 0] : Fin 2 → ℕ) a + (![512, 256] : Fin 2 → ℕ) a ≤ S3072x256.size a)
    (hP0 : ∀ (a : Fin 512) (b : Fin 256) (i : S3072x3072.Idx), (i 0).val = 0 + a.val → (i 1).val = c0 + b.val → P0 (ix2 a b) = x i)
    (hP1 : ∀ (a : Fin 512) (b : Fin 256) (i : S3072x3072.Idx), (i 0).val = 512 + a.val → (i 1).val = c0 + b.val → P1 (ix2 a b) = x i)
    (hP2 : ∀ (a : Fin 512) (b : Fin 256) (i : S3072x3072.Idx), (i 0).val = 1024 + a.val → (i 1).val = c0 + b.val → P2 (ix2 a b) = x i)
    (hP3 : ∀ (a : Fin 512) (b : Fin 256) (i : S3072x3072.Idx), (i 0).val = 1536 + a.val → (i 1).val = c0 + b.val → P3 (ix2 a b) = x i)
    (hP4 : ∀ (a : Fin 512) (b : Fin 256) (i : S3072x3072.Idx), (i 0).val = 2048 + a.val → (i 1).val = c0 + b.val → P4 (ix2 a b) = x i)
    (hP5 : ∀ (a : Fin 512) (b : Fin 256) (i : S3072x3072.Idx), (i 0).val = 2560 + a.val → (i 1).val = c0 + b.val → P5 (ix2 a b) = x i)
    (y : S3072x256.Idx) (i : S3072x3072.Idx) (h0 : (i 0).val = (y 0).val) (h1 : (i 1).val = c0 + (y 1).val) :
    View.canon [(⟨Rect.unit (s := S3072x256) ![2560, 0] ![512, 256] i5, P5⟩ : View.Piece (Elt F) S3072x256 .f32),
        ⟨Rect.unit (s := S3072x256) ![2048, 0] ![512, 256] i4, P4⟩, ⟨Rect.unit (s := S3072x256) ![1536, 0] ![512, 256] i3, P3⟩,
        ⟨Rect.unit (s := S3072x256) ![1024, 0] ![512, 256] i2, P2⟩, ⟨Rect.unit (s := S3072x256) ![512, 0] ![512, 256] i1, P1⟩,
        ⟨Rect.unit (s := S3072x256) ![0, 0] ![512, 256] i0, P0⟩] y = x i := by
  have hy : (y 0).val < 3072 := (y 0).isLt
  rw [canon_cons_rows (n0 := 3072) (n1 := 256) 2560 512]
  split
  · next h => exact hP5 _ _ i (by show (i 0).val = 2560 + ((y 0).val - 2560); omega) h1
  rw [canon_cons_rows (n0 := 3072) (n1 := 256) 2048 512]
  split
  · next h => exact hP4 _ _ i (by show (i 0).val = 2048 + ((y 0).val - 2048); omega) h1
  rw [canon_cons_rows (n0 := 3072) (n1 := 256) 1536 512]
  split
  · next h => exact hP3 _ _ i (by show (i 0).val = 1536 + ((y 0).val - 1536); omega) h1
  rw [canon_cons_rows (n0 := 3072) (n1 := 256) 1024 512]
  split
  · next h => exact hP2 _ _ i (by show (i 0).val = 1024 + ((y 0).val - 1024); omega) h1
  rw [canon_cons_rows (n0 := 3072) (n1 := 256) 512 512]
  split
  · next h => exact hP1 _ _ i (by show (i 0).val = 512 + ((y 0).val - 512); omega) h1
  rw [canon_cons_rows (n0 := 3072) (n1 := 256) 0 512]
  split
  · next h => exact hP0 _ _ i (by show (i 0).val = 0 + ((y 0).val - 0); omega) h1
  · next h5 h4 h3 h2 h1' h0' => omega

theorem readCov_unit_apply {κ : Kind} {sp : Space} {n0 n1 : ℕ} (v : View sig κ sp (⟨2, ![n0, n1]⟩ : Shape) .f32)
    (L : List (View.Piece (Elt F) (⟨2, ![n0, n1]⟩ : Shape) .f32)) (boff bsize : Fin 2 → ℕ)
    (binb : ∀ a, boff a + bsize a ≤ (⟨2, ![n0, n1]⟩ : Shape).size a)
    (j : (Rect.unit (s := ⟨2, ![n0, n1]⟩) boff bsize binb).shape.Idx) (y : (⟨2, ![n0, n1]⟩ : Shape).Idx)
    (h0 : (y 0).val = boff 0 + (j 0).val) (h1 : (y 1).val = boff 1 + (j 1).val) :
    v.readCov L (Rect.unit (s := ⟨2, ![n0, n1]⟩) boff bsize binb).toLoadRect j = View.canon L y := by
  rw [View.readCov_eq_canon']
  refine congrArg (View.canon L) (idx2_eq ?_ ?_)
  · show boff 0 + 1 * (j 0).val = (y 0).val; omega
  · show boff 1 + 1 * (j 1).val = (y 1).val; omega

theorem whole_written_load {κ : Kind} (b : Ref sig κ) (g w : b.ty.Contents (Elt F)) (boff bsize : Fin b.ty.shape.rank → ℕ)
    (binb : ∀ a, boff a + bsize a ≤ b.ty.shape.size a) (j : (Rect.unit (s := b.ty.shape) boff bsize binb).shape.Idx)
    (i : b.ty.shape.Idx) (hi : ∀ a, (i a).val = boff a + (j a).val) :
    View.readAt (Elt F) (Memref.whole b : Memref sig κ b.space b.ty.shape b.ty.elt).view (Rect.unit (s := b.ty.shape) boff bsize binb).toLoadRect
      (View.write (Elt F) (Memref.whole b : Memref sig κ b.space b.ty.shape b.ty.elt).view g w Finset.univ) j = w i := by
  rw [View.readAt_apply]
  show View.write (Elt F) (View.whole b) g w Finset.univ _ = w i
  rw [View.write_whole_univ]
  exact congrArg w (funext fun a => Fin.ext (by rw [hi a]; show boff a + 1 * (j a).val = _; rw [Nat.one_mul]))

theorem concat_rows_apply {α : Type} {n1 n2 N w : ℕ} (A : (⟨2, ![n1, w]⟩ : Shape).Idx → α) (B : (⟨2, ![n2, w]⟩ : Shape).Idx → α)
    (h : Shape.Concatenates [(⟨2, ![n1, w]⟩ : Shape), ⟨2, ![n2, w]⟩] (⟨2, ![N, w]⟩ : Shape) (0 : Fin 2)) (hN : N = n1 + n2)
    (r : Fin N) (k : Fin w) :
    concatenate (⟨2, ![N, w]⟩ : Shape) (0 : Fin 2) [⟨⟨2, ![n1, w]⟩, A⟩, ⟨⟨2, ![n2, w]⟩, B⟩] h (ix2 r k)
      = if hr : r.val < n1 then A (ix2 (⟨r.val, hr⟩ : Fin n1) k) else B (ix2 (⟨r.val - n1, by have := r.isLt; omega⟩ : Fin n2) k) := by
  by_cases hr : r.val < n1
  · rw [dif_pos hr]
    exact concatenate_pair_apply_left (0 : Fin 2) A B h (ix2 r k) rfl (ix2 (⟨r.val, hr⟩ : Fin n1) k)
      (fun b => match b with | ⟨0, _⟩ => rfl | ⟨1, _⟩ => rfl)
  · rw [dif_neg hr]
    exact concatenate_pair_apply_right (0 : Fin 2) A B h (ix2 r k) rfl rfl (ix2 (⟨r.val - n1, by have := r.isLt; omega⟩ : Fin n2) k)
      (fun b hb => match b, hb with | ⟨0, _⟩, hb => absurd rfl hb | ⟨1, _⟩, _ => rfl)
      (by show (r.val - n1) + n1 = r.val; omega)

theorem concat_cols_apply {α : Type} {w1 w2 W n : ℕ} (A : (⟨2, ![n, w1]⟩ : Shape).Idx → α) (B : (⟨2, ![n, w2]⟩ : Shape).Idx → α)
    (h : Shape.Concatenates [(⟨2, ![n, w1]⟩ : Shape), ⟨2, ![n, w2]⟩] (⟨2, ![n, W]⟩ : Shape) (1 : Fin 2)) (hW : W = w1 + w2)
    (r : Fin n) (k : Fin W) :
    concatenate (⟨2, ![n, W]⟩ : Shape) (1 : Fin 2) [⟨⟨2, ![n, w1]⟩, A⟩, ⟨⟨2, ![n, w2]⟩, B⟩] h (ix2 r k)
      = if hk : k.val < w1 then A (ix2 r (⟨k.val, hk⟩ : Fin w1)) else B (ix2 r (⟨k.val - w1, by have := k.isLt; omega⟩ : Fin w2)) := by
  by_cases hk : k.val < w1
  · rw [dif_pos hk]
    exact concatenate_pair_apply_left (1 : Fin 2) A B h (ix2 r k) rfl (ix2 r (⟨k.val, hk⟩ : Fin w1))
      (fun b => match b with | ⟨0, _⟩ => rfl | ⟨1, _⟩ => rfl)
  · rw [dif_neg hk]
    exact concatenate_pair_apply_right (1 : Fin 2) A B h (ix2 r k) rfl rfl (ix2 r (⟨k.val - w1, by have := k.isLt; omega⟩ : Fin w2))
      (fun b hb => match b, hb with | ⟨0, _⟩, _ => rfl | ⟨1, _⟩, hb => absurd rfl hb)
      (by show (k.val - w1) + w1 = k.val; omega)

def stencil5 (xc nn ss ww ee : F .f32) : F .f32 :=
  FloatOps.addf (FloatOps.mulf wHalf xc) (FloatOps.mulf wEighth (FloatOps.addf (FloatOps.addf (FloatOps.addf nn ss) ww) ee))

theorem pay33_apply (v375 : Vec F S3072x128 .f32) (v378 : FVec F S3072x128 .f32) (v379 : Vec F S3072x128 .f32)
    (v382 : FVec F S3072x128 .f32) (v383 : Vec F S3071x128 .f32) (v384 : Vec F S1x128 .f32) (r : Fin 3072) (k : Fin 128) :
    k0_pay33 v375 v378 v379 v382 v383 v384 (ix2 r k)
      = stencil5 (v375 (ix2 r k)) (v382 (ix2 r k))
          (if hr : r.val < 3071 then v383 (ix2 (⟨r.val, hr⟩ : Fin 3071) k) else v384 (ix2 (⟨r.val - 3071, by have := r.isLt; omega⟩ : Fin 1) k))
          (v378 (ix2 r k)) (v379 (ix2 r k)) := by
  unfold k0_pay33 stencil5
  simp only [shapeCast_self]
  rw [← concat_rows_apply (n1 := 3071) (n2 := 1) (N := 3072) (w := 128) v383 v384 concatenates_S3071x128_S1x128_S3072x128_d0 rfl r k]
  rfl

theorem pay39_apply (v406 : Vec F S3072x128 .f32) (v407 : Vec F S3072x128 .f32) (v410 : FVec F S3072x128 .f32)
    (v413 : FVec F S3072x128 .f32) (v414 : Vec F S3071x128 .f32) (v415 : Vec F S1x128 .f32) (r : Fin 3072) (k : Fin 128) :
    k0_pay39 v406 v407 v410 v413 v414 v415 (ix2 r k)
      = stencil5 (v406 (ix2 r k)) (v413 (ix2 r k))
          (if hr : r.val < 3071 then v414 (ix2 (⟨r.val, hr⟩ : Fin 3071) k) else v415 (ix2 (⟨r.val - 3071, by have := r.isLt; omega⟩ : Fin 1) k))
          (v407 (ix2 r k)) (v410 (ix2 r k)) := by
  unfold k0_pay39 stencil5
  simp only [shapeCast_self]
  rw [← concat_rows_apply (n1 := 3071) (n2 := 1) (N := 3072) (w := 128) v414 v415 concatenates_S3071x128_S1x128_S3072x128_d0 rfl r k]
  rfl

theorem entry_eq {n0 n1 : ℕ} (A : (⟨2, ![n0, n1]⟩ : Shape).Idx → F .f32) (d : F .f32) (r k : ℕ) (i : (⟨2, ![n0, n1]⟩ : Shape).Idx)
    (h0 : (i 0).val = r) (h1 : (i 1).val = k) : entry A d r k = A i := by
  have hr : r < n0 := by rw [← h0]; exact (i 0).isLt
  have hk : k < n1 := by rw [← h1]; exact (i 1).isLt
  unfold entry
  rw [dif_pos ⟨hr, hk⟩]
  exact congrArg A (idx2_eq h0.symm h1.symm)

def stencilEntry (x : S3072x3072.Idx → F .f32) (rs : S8x3072.Idx → F .f32) (cs : S3072x128.Idx → F .f32) (i : S3072x3072.Idx) : F .f32 :=
  FloatOps.addf (FloatOps.mulf wHalf (x i))
    (FloatOps.mulf wEighth
      (FloatOps.addf
        (FloatOps.addf
          (FloatOps.addf (if (i 0).val = 0 then entry rs (x i) 7 (i 1).val else entry x (x i) ((i 0).val - 1) (i 1).val)
            (if (i 0).val = 3071 then entry rs (x i) 0 (i 1).val else entry x (x i) ((i 0).val + 1) (i 1).val))
          (if (i 1).val = 0 then entry cs (x i) (i 0).val 127 else entry x (x i) (i 0).val ((i 1).val - 1)))
        (if (i 1).val = 3071 then entry cs (x i) (i 0).val 0 else entry x (x i) (i 0).val ((i 1).val + 1))))

theorem outOf_eq (c : Dev nD) (x : Buf (Elt F) ((c : Thread nD τ).loc main_arg0))
    (rh : Buf (Elt F) ((c : Thread nD τ).loc cc0_scratch2)) (ch : Buf (Elt F) ((c : Thread nD τ).loc cc0_scratch3)) (i : S3072x3072.Idx) :
    outOf c x rh ch i
      = if (c.val / 2 = 0 ∧ (i 0).val = 0) ∨ (c.val / 2 = 1 ∧ (i 0).val = 3071) ∨ (c.val % 2 = 0 ∧ (i 1).val = 0) ∨ (c.val % 2 = 1 ∧ (i 1).val = 3071)
        then (x : S3072x3072.Idx → F .f32) i else stencilEntry (x : S3072x3072.Idx → F .f32) rh ch i := rfl

theorem strip_base_apply (x : S3072x3072.Idx → F .f32) (rs : S8x3072.Idx → F .f32) (cs : S3072x128.Idx → F .f32)
    (P : F .f32) (cw wv ev nv : F .f32) (r : Fin 3072) (kk : Fin 3072)
    (sv : r.val < 3071 → F .f32) (sl : ¬ r.val < 3071 → F .f32)
    (hP : P = stencil5 cw nv (if h : r.val < 3071 then sv h else sl h) wv ev)
    (hcw : cw = x (ix2 r kk))
    (hnv : nv = if r.val = 0 then entry rs (x (ix2 r kk)) 7 kk.val else entry x (x (ix2 r kk)) (r.val - 1) kk.val)
    (hsv : ∀ h : r.val < 3071, sv h = entry x (x (ix2 r kk)) (r.val + 1) kk.val)
    (hsl : ∀ h : ¬ r.val < 3071, sl h = entry rs (x (ix2 r kk)) 0 kk.val)
    (hwv : wv = if kk.val = 0 then entry cs (x (ix2 r kk)) r.val 127 else entry x (x (ix2 r kk)) r.val (kk.val - 1))
    (hev : ev = if kk.val = 3071 then entry cs (x (ix2 r kk)) r.val 0 else entry x (x (ix2 r kk)) r.val (kk.val + 1)) :
    P = stencilEntry x rs cs (ix2 r kk) := by
  have hr := r.isLt
  subst hP
  unfold stencil5 stencilEntry
  show FloatOps.addf (FloatOps.mulf wHalf cw)
      (FloatOps.mulf wEighth (FloatOps.addf (FloatOps.addf (FloatOps.addf nv (if h : r.val < 3071 then sv h else sl h)) wv) ev))
    = FloatOps.addf (FloatOps.mulf wHalf (x (ix2 r kk)))
      (FloatOps.mulf wEighth
        (FloatOps.addf
          (FloatOps.addf
            (FloatOps.addf (if r.val = 0 then entry rs (x (ix2 r kk)) 7 kk.val else entry x (x (ix2 r kk)) (r.val - 1) kk.val)
              (if r.val = 3071 then entry rs (x (ix2 r kk)) 0 kk.val else entry x (x (ix2 r kk)) (r.val + 1) kk.val))
            (if kk.val = 0 then entry cs (x (ix2 r kk)) r.val 127 else entry x (x (ix2 r kk)) r.val (kk.val - 1)))
          (if kk.val = 3071 then entry cs (x (ix2 r kk)) r.val 0 else entry x (x (ix2 r kk)) r.val (kk.val + 1))))
  rw [hcw, hnv, hwv, hev]
  by_cases h : r.val < 3071
  · rw [dif_pos h, if_neg (show ¬ r.val = 3071 by omega), hsv h]
  · rw [dif_neg h, if_pos (show r.val = 3071 by omega), hsl h]

-- The west strip before its kept edges are written: the stencil on the block's first 128 columns, at every mesh position.
theorem west_strip (x : S3072x3072.Idx → F .f32) (L : List (View.Piece (Elt F) S3072x256 .f32))
    (hL : ∀ (y : S3072x256.Idx) (i : S3072x3072.Idx), (i 0).val = (y 0).val → (i 1).val = 0 + (y 1).val → View.canon L y = x i)
    (rg : (cc0_scratch2 : Ref sig .tc).ty.Contents (Elt F)) (rs : S8x3072.Idx → F .f32)
    (cg : (cc0_scratch3 : Ref sig .tc).ty.Contents (Elt F)) (cs : S3072x128.Idx → F .f32)
    (i1 : ∀ a, (![0, 0] : Fin 2 → ℕ) a + S3072x128.size a ≤ S3072x256.size a)
    (i2 : ∀ a, (![0, 0] : Fin 2 → ℕ) a + S3072x127.size a ≤ S3072x256.size a)
    (i3 : ∀ a, (![0, 1] : Fin 2 → ℕ) a + S3072x128.size a ≤ S3072x256.size a)
    (i4 : ∀ a, (![0, 0] : Fin 2 → ℕ) a + S3071x128.size a ≤ S3072x256.size a)
    (i5 : ∀ a, (![1, 0] : Fin 2 → ℕ) a + S3071x128.size a ≤ S3072x256.size a)
    (j1 : ∀ a, (![0, 127] : Fin 2 → ℕ) a + S3072x1.size a ≤ S3072x128.size a)
    (j2 : ∀ a, (![7, 0] : Fin 2 → ℕ) a + S1x128.size a ≤ S8x3072.size a)
    (j3 : ∀ a, (![0, 0] : Fin 2 → ℕ) a + S1x128.size a ≤ S8x3072.size a)
    (hc1 : Shape.Concatenates [S3072x1, S3072x127] S3072x128 (1 : Fin 2))
    (hc0 : Shape.Concatenates [S1x128, S3071x128] S3072x128 (0 : Fin 2))
    (r : Fin 3072) (k : Fin 128) :
    k0_pay33
        ((Memref.whole cc0_scratch4 : Memref sig .tc .vmem S3072x256 .f32).view.readCov L (Rect.unit (s := S3072x256) ![0, 0] S3072x128.size i1).toLoadRect)
        (concatenate S3072x128 1
          [⟨S3072x1, View.readAt (Elt F) (chM : Memref sig .tc .vmem S3072x128 .f32).view (Rect.unit (s := S3072x128) ![0, 127] S3072x1.size j1).toLoadRect
              (View.write (Elt F) (chM : Memref sig .tc .vmem S3072x128 .f32).view cg cs Finset.univ)⟩,
            ⟨S3072x127, (Memref.whole cc0_scratch4 : Memref sig .tc .vmem S3072x256 .f32).view.readCov L (Rect.unit (s := S3072x256) ![0, 0] S3072x127.size i2).toLoadRect⟩] hc1)
        ((Memref.whole cc0_scratch4 : Memref sig .tc .vmem S3072x256 .f32).view.readCov L (Rect.unit (s := S3072x256) ![0, 1] S3072x128.size i3).toLoadRect)
        (concatenate S3072x128 0
          [⟨S1x128, View.readAt (Elt F) (rhM : Memref sig .tc .vmem S8x3072 .f32).view (Rect.unit (s := S8x3072) ![7, 0] S1x128.size j2).toLoadRect
              (View.write (Elt F) (rhM : Memref sig .tc .vmem S8x3072 .f32).view rg rs Finset.univ)⟩,
            ⟨S3071x128, (Memref.whole cc0_scratch4 : Memref sig .tc .vmem S3072x256 .f32).view.readCov L (Rect.unit (s := S3072x256) ![0, 0] S3071x128.size i4).toLoadRect⟩] hc0)
        ((Memref.whole cc0_scratch4 : Memref sig .tc .vmem S3072x256 .f32).view.readCov L (Rect.unit (s := S3072x256) ![1, 0] S3071x128.size i5).toLoadRect)
        (View.readAt (Elt F) (rhM : Memref sig .tc .vmem S8x3072 .f32).view (Rect.unit (s := S8x3072) ![0, 0] S1x128.size j3).toLoadRect
          (View.write (Elt F) (rhM : Memref sig .tc .vmem S8x3072 .f32).view rg rs Finset.univ))
        (ix2 r k)
      = stencilEntry x rs cs (ix2 r (⟨k.val, by have := k.isLt; omega⟩ : Fin 3072)) := by
  have hk := k.isLt
  have hr := r.isLt
  refine strip_base_apply x rs cs _ _ _ _ _ r (⟨k.val, by omega⟩ : Fin 3072) _ _ (pay33_apply _ _ _ _ _ _ r k) ?_ ?_ ?_ ?_ ?_ ?_
  · rw [readCov_unit_apply _ _ _ _ _ _ (ix2 r (⟨k.val, by omega⟩ : Fin 256)) (by show r.val = 0 + r.val; omega) (by show k.val = 0 + k.val; omega)]
    exact hL _ _ rfl (by show k.val = 0 + k.val; omega)
  · rw [concat_rows_apply (n1 := 1) (n2 := 3071) (N := 3072) (w := 128) _ _ _ rfl r k]
    by_cases hr0 : r.val = 0
    · rw [dif_pos (show r.val < 1 by omega), if_pos hr0,
        whole_written_load cc0_scratch2 _ _ _ _ _ _ (ix2 (⟨7, by omega⟩ : Fin 8) (⟨k.val, by omega⟩ : Fin 3072)) (fun a => by
          match a with
          | ⟨0, _⟩ => show 7 = 7 + r.val; omega
          | ⟨1, _⟩ => show k.val = 0 + k.val; omega)]
      exact (entry_eq rs _ 7 k.val _ rfl rfl).symm
    · rw [dif_neg (show ¬ r.val < 1 by omega), if_neg hr0,
        readCov_unit_apply _ _ _ _ _ _ (ix2 (⟨r.val - 1, by omega⟩ : Fin 3072) (⟨k.val, by omega⟩ : Fin 256))
          (by show r.val - 1 = 0 + (r.val - 1); omega) (by show k.val = 0 + k.val; omega),
        hL _ (ix2 (⟨r.val - 1, by omega⟩ : Fin 3072) (⟨k.val, by omega⟩ : Fin 3072)) rfl (by show k.val = 0 + k.val; omega)]
      exact (entry_eq x _ (r.val - 1) k.val _ rfl rfl).symm
  · intro h
    rw [readCov_unit_apply _ _ _ _ _ _ (ix2 (⟨r.val + 1, by omega⟩ : Fin 3072) (⟨k.val, by omega⟩ : Fin 256))
        (by show r.val + 1 = 1 + r.val; omega) (by show k.val = 0 + k.val; omega),
      hL _ (ix2 (⟨r.val + 1, by omega⟩ : Fin 3072) (⟨k.val, by omega⟩ : Fin 3072)) rfl (by show k.val = 0 + k.val; omega)]
    exact (entry_eq x _ (r.val + 1) k.val _ rfl rfl).symm
  · intro h
    rw [whole_written_load cc0_scratch2 _ _ _ _ _ _ (ix2 (⟨0, by omega⟩ : Fin 8) (⟨k.val, by omega⟩ : Fin 3072)) (fun a => by
      match a with
      | ⟨0, _⟩ => show 0 = 0 + (r.val - 3071); omega
      | ⟨1, _⟩ => show k.val = 0 + k.val; omega)]
    exact (entry_eq rs _ 0 k.val _ rfl rfl).symm
  · rw [concat_cols_apply (w1 := 1) (w2 := 127) (W := 128) (n := 3072) _ _ _ rfl r k]
    by_cases hk0 : k.val = 0
    · rw [dif_pos (show k.val < 1 by omega), if_pos (show (⟨k.val, by omega⟩ : Fin 3072).val = 0 from hk0),
        whole_written_load cc0_scratch3 _ _ _ _ _ _ (ix2 r (⟨127, by omega⟩ : Fin 128)) (fun a => by
          match a with
          | ⟨0, _⟩ => show r.val = 0 + r.val; omega
          | ⟨1, _⟩ => show 127 = 127 + k.val; omega)]
      exact (entry_eq cs _ r.val 127 _ rfl rfl).symm
    · rw [dif_neg (show ¬ k.val < 1 by omega), if_neg (show ¬ (⟨k.val, by omega⟩ : Fin 3072).val = 0 from hk0),
        readCov_unit_apply _ _ _ _ _ _ (ix2 r (⟨k.val - 1, by omega⟩ : Fin 256))
          (by show r.val = 0 + r.val; omega) (by show k.val - 1 = 0 + (k.val - 1); omega),
        hL _ (ix2 r (⟨k.val - 1, by omega⟩ : Fin 3072)) rfl (by show k.val - 1 = 0 + (k.val - 1); omega)]
      exact (entry_eq x _ r.val (k.val - 1) _ rfl rfl).symm
  · rw [if_neg (show ¬ (⟨k.val, by omega⟩ : Fin 3072).val = 3071 by show ¬ k.val = 3071; omega),
      readCov_unit_apply _ _ _ _ _ _ (ix2 r (⟨k.val + 1, by omega⟩ : Fin 256))
        (by show r.val = 0 + r.val; omega) (by show k.val + 1 = 1 + k.val; omega),
      hL _ (ix2 r (⟨k.val + 1, by omega⟩ : Fin 3072)) rfl (by show k.val + 1 = 0 + (k.val + 1); omega)]
    exact (entry_eq x _ r.val (k.val + 1) _ rfl rfl).symm

-- The east strip likewise, on the block's last 128 columns.
theorem east_strip (x : S3072x3072.Idx → F .f32) (L : List (View.Piece (Elt F) S3072x256 .f32))
    (hL : ∀ (y : S3072x256.Idx) (i : S3072x3072.Idx), (i 0).val = (y 0).val → (i 1).val = 2816 + (y 1).val → View.canon L y = x i)
    (rg : (cc0_scratch2 : Ref sig .tc).ty.Contents (Elt F)) (rs : S8x3072.Idx → F .f32)
    (cg : (cc0_scratch3 : Ref sig .tc).ty.Contents (Elt F)) (cs : S3072x128.Idx → F .f32)
    (i1 : ∀ a, (![0, 128] : Fin 2 → ℕ) a + S3072x128.size a ≤ S3072x256.size a)
    (i2 : ∀ a, (![0, 127] : Fin 2 → ℕ) a + S3072x128.size a ≤ S3072x256.size a)
    (i3 : ∀ a, (![0, 129] : Fin 2 → ℕ) a + S3072x127.size a ≤ S3072x256.size a)
    (i4 : ∀ a, (![0, 128] : Fin 2 → ℕ) a + S3071x128.size a ≤ S3072x256.size a)
    (i5 : ∀ a, (![1, 128] : Fin 2 → ℕ) a + S3071x128.size a ≤ S3072x256.size a)
    (j1 : ∀ a, (![0, 0] : Fin 2 → ℕ) a + S3072x1.size a ≤ S3072x128.size a)
    (j2 : ∀ a, (![7, 2944] : Fin 2 → ℕ) a + S1x128.size a ≤ S8x3072.size a)
    (j3 : ∀ a, (![0, 2944] : Fin 2 → ℕ) a + S1x128.size a ≤ S8x3072.size a)
    (r : Fin 3072) (k : Fin 128) :
    k0_pay39
        ((Memref.whole cc0_scratch5 : Memref sig .tc .vmem S3072x256 .f32).view.readCov L (Rect.unit (s := S3072x256) ![0, 128] S3072x128.size i1).toLoadRect)
        ((Memref.whole cc0_scratch5 : Memref sig .tc .vmem S3072x256 .f32).view.readCov L (Rect.unit (s := S3072x256) ![0, 127] S3072x128.size i2).toLoadRect)
        (k0_pay37
          ((Memref.whole cc0_scratch5 : Memref sig .tc .vmem S3072x256 .f32).view.readCov L (Rect.unit (s := S3072x256) ![0, 129] S3072x127.size i3).toLoadRect)
          (View.readAt (Elt F) (chM : Memref sig .tc .vmem S3072x128 .f32).view (Rect.unit (s := S3072x128) ![0, 0] S3072x1.size j1).toLoadRect
            (View.write (Elt F) (chM : Memref sig .tc .vmem S3072x128 .f32).view cg cs Finset.univ)))
        (k0_pay38
          (View.readAt (Elt F) (rhM : Memref sig .tc .vmem S8x3072 .f32).view (Rect.unit (s := S8x3072) ![7, 2944] S1x128.size j2).toLoadRect
            (View.write (Elt F) (rhM : Memref sig .tc .vmem S8x3072 .f32).view rg rs Finset.univ))
          ((Memref.whole cc0_scratch5 : Memref sig .tc .vmem S3072x256 .f32).view.readCov L (Rect.unit (s := S3072x256) ![0, 128] S3071x128.size i4).toLoadRect))
        ((Memref.whole cc0_scratch5 : Memref sig .tc .vmem S3072x256 .f32).view.readCov L (Rect.unit (s := S3072x256) ![1, 128] S3071x128.size i5).toLoadRect)
        (View.readAt (Elt F) (rhM : Memref sig .tc .vmem S8x3072 .f32).view (Rect.unit (s := S8x3072) ![0, 2944] S1x128.size j3).toLoadRect
          (View.write (Elt F) (rhM : Memref sig .tc .vmem S8x3072 .f32).view rg rs Finset.univ))
        (ix2 r k)
      = stencilEntry x rs cs (ix2 r (⟨2944 + k.val, by have := k.isLt; omega⟩ : Fin 3072)) := by
  have hk := k.isLt
  have hr := r.isLt
  refine strip_base_apply x rs cs _ _ _ _ _ r (⟨2944 + k.val, by omega⟩ : Fin 3072) _ _ (pay39_apply _ _ _ _ _ _ r k) ?_ ?_ ?_ ?_ ?_ ?_
  · rw [readCov_unit_apply _ _ _ _ _ _ (ix2 r (⟨128 + k.val, by omega⟩ : Fin 256)) (by show r.val = 0 + r.val; omega) (by show 128 + k.val = 128 + k.val; omega)]
    exact hL _ _ rfl (by show 2944 + k.val = 2816 + (128 + k.val); omega)
  · unfold k0_pay38
    rw [concat_rows_apply (n1 := 1) (n2 := 3071) (N := 3072) (w := 128) _ _ _ rfl r k]
    by_cases hr0 : r.val = 0
    · rw [dif_pos (show r.val < 1 by omega), if_pos hr0,
        whole_written_load cc0_scratch2 _ _ _ _ _ _ (ix2 (⟨7, by omega⟩ : Fin 8) (⟨2944 + k.val, by omega⟩ : Fin 3072)) (fun a => by
          match a with
          | ⟨0, _⟩ => show 7 = 7 + r.val; omega
          | ⟨1, _⟩ => show 2944 + k.val = 2944 + k.val; omega)]
      exact (entry_eq rs _ 7 (2944 + k.val) _ rfl rfl).symm
    · rw [dif_neg (show ¬ r.val < 1 by omega), if_neg hr0,
        readCov_unit_apply _ _ _ _ _ _ (ix2 (⟨r.val - 1, by omega⟩ : Fin 3072) (⟨128 + k.val, by omega⟩ : Fin 256))
          (by show r.val - 1 = 0 + (r.val - 1); omega) (by show 128 + k.val = 128 + k.val; omega),
        hL _ (ix2 (⟨r.val - 1, by omega⟩ : Fin 3072) (⟨2944 + k.val, by omega⟩ : Fin 3072)) rfl (by show 2944 + k.val = 2816 + (128 + k.val); omega)]
      exact (entry_eq x _ (r.val - 1) (2944 + k.val) _ rfl rfl).symm
  · intro h
    rw [readCov_unit_apply _ _ _ _ _ _ (ix2 (⟨r.val + 1, by omega⟩ : Fin 3072) (⟨128 + k.val, by omega⟩ : Fin 256))
        (by show r.val + 1 = 1 + r.val; omega) (by show 128 + k.val = 128 + k.val; omega),
      hL _ (ix2 (⟨r.val + 1, by omega⟩ : Fin 3072) (⟨2944 + k.val, by omega⟩ : Fin 3072)) rfl (by show 2944 + k.val = 2816 + (128 + k.val); omega)]
    exact (entry_eq x _ (r.val + 1) (2944 + k.val) _ rfl rfl).symm
  · intro h
    rw [whole_written_load cc0_scratch2 _ _ _ _ _ _ (ix2 (⟨0, by omega⟩ : Fin 8) (⟨2944 + k.val, by omega⟩ : Fin 3072)) (fun a => by
      match a with
      | ⟨0, _⟩ => show 0 = 0 + (r.val - 3071); omega
      | ⟨1, _⟩ => show 2944 + k.val = 2944 + k.val; omega)]
    exact (entry_eq rs _ 0 (2944 + k.val) _ rfl rfl).symm
  · rw [if_neg (show ¬ (⟨2944 + k.val, by omega⟩ : Fin 3072).val = 0 by show ¬ 2944 + k.val = 0; omega),
      readCov_unit_apply _ _ _ _ _ _ (ix2 r (⟨127 + k.val, by omega⟩ : Fin 256))
        (by show r.val = 0 + r.val; omega) (by show 127 + k.val = 127 + k.val; omega),
      hL _ (ix2 r (⟨2944 + k.val - 1, by omega⟩ : Fin 3072)) rfl (by show 2944 + k.val - 1 = 2816 + (127 + k.val); omega)]
    exact (entry_eq x _ r.val (2944 + k.val - 1) _ rfl rfl).symm
  · unfold k0_pay37
    rw [concat_cols_apply (w1 := 127) (w2 := 1) (W := 128) (n := 3072) _ _ _ rfl r k]
    by_cases hk7 : k.val < 127
    · rw [dif_pos hk7, if_neg (show ¬ (⟨2944 + k.val, by omega⟩ : Fin 3072).val = 3071 by show ¬ 2944 + k.val = 3071; omega),
        readCov_unit_apply _ _ _ _ _ _ (ix2 r (⟨129 + k.val, by omega⟩ : Fin 256))
          (by show r.val = 0 + r.val; omega) (by show 129 + k.val = 129 + k.val; omega),
        hL _ (ix2 r (⟨2944 + k.val + 1, by omega⟩ : Fin 3072)) rfl (by show 2944 + k.val + 1 = 2816 + (129 + k.val); omega)]
      exact (entry_eq x _ r.val (2944 + k.val + 1) _ rfl rfl).symm
    · rw [dif_neg hk7, if_pos (show (⟨2944 + k.val, by omega⟩ : Fin 3072).val = 3071 by show 2944 + k.val = 3071; omega),
        whole_written_load cc0_scratch3 _ _ _ _ _ _ (ix2 r (⟨0, by omega⟩ : Fin 128)) (fun a => by
          match a with
          | ⟨0, _⟩ => show r.val = 0 + r.val; omega
          | ⟨1, _⟩ => show 0 = 0 + (k.val - 127); omega)]
      exact (entry_eq cs _ r.val 0 _ rfl rfl).symm

end Cert.KernelIdealProof

end
-- ==== Proof.Body00KernelIdeal.lean ====
import proofs.«900195_g7700000000000196_dist_halo2d_stencil_xy_m3072_n3072_v7x_xy2x2_f32_1_alg».proof.Proof.BodyCommonKernelIdeal
import proofs.«900195_g7700000000000196_dist_halo2d_stencil_xy_m3072_n3072_v7x_xy2x2_f32_1_alg».proof.Proof.ValLemAKernelIdeal
import proofs.«900195_g7700000000000196_dist_halo2d_stencil_xy_m3072_n3072_v7x_xy2x2_f32_1_alg».proof.Proof.ValLemBKernelIdeal
import proofs.«900195_g7700000000000196_dist_halo2d_stencil_xy_m3072_n3072_v7x_xy2x2_f32_1_alg».proof.Proof.ValLemCKernelIdeal
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 4000000 in
theorem sound_body_00 (K : Dev nD × Fin 5 → ℕ) (c : Dev nD) (ha : c.val / 2 = 0) (hb : c.val % 2 = 0) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyPre ghost invs locals0 arrays0 scratch
  iintro ⟨⟨⟨⟨⟨#HIbar, #HIrs, #HIrr, #HIcs, #HIcr, #HIbarV, #HIbarH, #HIrrV, #HIcrH⟩, HatB, HatRS, HatRR, HatCS, HatCR,
      #HrBV, #HrBH, #HrRRV, #HrCRH, #HrRS, #HrRR, #HrCS, #HrCR, HtBV, HtBH, HtRRV, HtCRH, HtRS, HtCS⟩, HcB, HcRR, HcCR, #Hlev⟩,
    ⟨HsL0, HsL1, HsS0, HsS1, HsF0, HsF1⟩, ⟨Hx, ⟨%o0, Hout⟩⟩,
    ⟨⟨%f0, H0⟩, ⟨%f1, H1⟩, ⟨%f2, H2⟩, ⟨%f3, H3⟩, ⟨%f4, H4⟩, ⟨%f5, H5⟩, ⟨%f6, H6⟩, ⟨%f7, H7⟩⟩, Ho⟩, Hk⟩
  unfold Dat.owesAt Pipeline.owesWithin
  icases Ho with ⟨%W, %hW, HO⟩
  rw [show (dats m 0 c).owed t₀.castSucc = O₀ c from rfl]
  unfold O₀ O₁ O₂ O₃
  ihave Hb := (body_open m c _ _ _ _ _ _ _ _ _) $$ Hx Hout H0 H1 H2 H3 H4 H5 H6 H7
  icases Hb with ⟨Hout, H0, H1, H2, H3, H4, H5, H6, H7, Hx0, Hx1, HxR, HxC, Haside⟩
  unfold held
  have hmw : (levAts L lv : sProp 𝕄) ⊢ MayWait (c : Thread nD τ) (.reg barS) ()
      (tallyAt (colRecvCell (hn c)) () NC + tallyAt (rowRecvCell (vn c)) () NR) := mayWait_bar c
  sl_exec_parts (disch := first | simp only [dev1_eq, dev2_eq, dev3_eq, dev4_eq] | (clear * - ha hb; decide +kernel +revert))
  ihave Hbp := (Entails.of_eq (bar_round m c)) $$ HatB_pay1
  unfold barPayV barPayH giveV giveH rhPts chPts
  icases Hbp with ⟨⟨⟨%fv, HrhV⟩, #HrV'⟩, ⟨⟨%fh, HchH⟩, #HrH'⟩⟩
  sl_exec_parts (disch := first | simp only [dev1_eq, dev2_eq, dev3_eq, dev4_eq] | (clear * - ha hb; decide +kernel +revert))
  have hcrR : (rowSrc c).view.dmaCredit = 3072 := by rfl
  have hcrC : (colSrc c).view.dmaCredit = 49152 := by rfl
  ihave HxR_cred : cred (tallyAt (rowSendCell c) default ((rowSrc c).view.dmaCredit)) $$ [HxR_cred]
  · rw [hcrR]; iexact HxR_cred
  ihave HxC_cred : cred (tallyAt (colSendCell c) default ((colSrc c).view.dmaCredit)) $$ [HxC_cred]
  · rw [hcrC]; iexact HxC_cred
  sl_exec_parts (disch := first | simp only [dev1_eq, dev2_eq, dev3_eq, dev4_eq] | (clear * - ha hb; decide +kernel +revert))
  imod (Rounds.cell_close ER (sched m) (Set.mem_univ (K (c, 1))) (fun h => h) (R := 0 + 1) (duties_later m (rowSendCell c))) $$ [HatRS] with HzRS
  · isplitr; · iexact HIrs
    iexact HatRS
  imod (Rounds.cell_close ER (sched m) (Set.mem_univ (K (c, 2))) (fun h => h) (R := 0 + 1) (duties_later m (rowRecvCell c))) $$ [HatRR] with HzRR
  · isplitr; · iexact HIrr
    iexact HatRR
  imod (Rounds.cell_close ER (sched m) (Set.mem_univ (K (c, 3))) (fun h => h) (R := 0 + 1) (duties_later m (colSendCell c))) $$ [HatCS] with HzCS
  · isplitr; · iexact HIcs
    iexact HatCS
  imod (Rounds.cell_close ER (sched m) (Set.mem_univ (K (c, 4))) (fun h => h) (R := 0 + 1) (duties_later m (colRecvCell c))) $$ [HatCR] with HzCR
  · isplitr; · iexact HIcr
    iexact HatCR
  rw [wp_ret]; imodintro
  iapply Hk
  unfold bodyPost Φ₁ arrays1 Dat.owesAt Pipeline.owesWithin
  rw [show (dats m 0 c).owed t₀.succ = 0 from rfl]
  have hp0 : ∀ (r : Fin 512) (k : Fin 3072), 0 < k.val → k.val < 3071 → sound_body_00.sl.dma14 m c f0 f1 HatRR_pay1_v (ValueIdx.ix2 r k) = OUT m c (ValueIdx.ix2 (⟨0 + r.val, by have := r.isLt; omega⟩ : Fin 3072) k) := by
    intro r k hk1 hk2
    unfold sound_body_00.sl.dma14 sound_body_00.sl.H1_2 sound_body_00.sl.H1_1
    refine (stage_kept (0 : Fin 2) 0 _ _ _ _ f1 _ [] r k).trans ?_
    by_cases hr : r.val = 0
    · rw [if_pos hr]
      unfold sound_body_00.sl.v469 sound_body_00.sl.v466 sound_body_00.sl.v465
      refine kept_top m c ha _ (0 : Fin 2) 520 ?_ (by norm_num) _ r k hr
      unfold sound_body_00.sl.dma0
      exact slotHolds_other (1 : Fin 2) (0 : Fin 2) (by decide) 528 _ _ _ (X m c) _ 520 0 (slotHolds_loaded (0 : Fin 2) 520 0 _ _ _ (X m c) _)
    · rw [if_neg hr]
      unfold sound_body_00.sl.v65 sound_body_00.sl.v68 sound_body_00.sl.v71
      refine first_chunk_rest m c _ (0 : Fin 2) 520 0 ?_ 0 1 rfl _ _ _ 0 rfl (by norm_num) (by norm_num) _ r k hk1 hk2 (by omega)
      unfold sound_body_00.sl.dma0
      exact slotHolds_other (1 : Fin 2) (0 : Fin 2) (by decide) 528 _ _ _ (X m c) _ 520 0 (slotHolds_loaded (0 : Fin 2) 520 0 _ _ _ (X m c) _)
  have hp1 : ∀ (r : Fin 512) (k : Fin 3072), 0 < k.val → k.val < 3071 → sound_body_00.sl.dma25 m c f0 f1 HatRR_pay1_v (ValueIdx.ix2 r k) = OUT m c (ValueIdx.ix2 (⟨512 + r.val, by have := r.isLt; omega⟩ : Fin 3072) k) := by
    intro r k hk1 hk2
    unfold sound_body_00.sl.dma25 sound_body_00.sl.H1_3
    refine (stage_top (1 : Fin 2) _ _ f1 _ _ r k).trans ?_
    unfold sound_body_00.sl.v118 sound_body_00.sl.v120 sound_body_00.sl.v122
    refine (congrFun (pay5_eq _ _ _) _).trans ?_
    refine plain_chunk m c _ (1 : Fin 2) 528 504 ?_ 8 7 9 rfl rfl _ _ _ 512 rfl (by norm_num) (by norm_num) (by norm_num) r k hk1 hk2
    unfold sound_body_00.sl.dma0_1
    exact slotHolds_other (0 : Fin 2) (1 : Fin 2) (by decide) 528 _ _ _ (X m c) _ 528 504 (slotHolds_loaded (1 : Fin 2) 528 504 _ _ _ (X m c) _)
  have hp2 : ∀ (r : Fin 512) (k : Fin 3072), 0 < k.val → k.val < 3071 → sound_body_00.sl.dma36 m c f0 f1 HatRR_pay1_v (ValueIdx.ix2 r k) = OUT m c (ValueIdx.ix2 (⟨1024 + r.val, by have := r.isLt; omega⟩ : Fin 3072) k) := by
    intro r k hk1 hk2
    unfold sound_body_00.sl.dma36 sound_body_00.sl.H1_4
    refine (stage_top (0 : Fin 2) _ _ f1 _ _ r k).trans ?_
    unfold sound_body_00.sl.v172 sound_body_00.sl.v174 sound_body_00.sl.v171 sound_body_00.sl.v173 sound_body_00.sl.v175
    refine (congrFun (pay10_eq _ _ _) _).trans ?_
    refine plain_chunk m c _ (0 : Fin 2) 528 1016 ?_ 8 7 9 rfl rfl _ _ _ 1024 rfl (by norm_num) (by norm_num) (by norm_num) r k hk1 hk2
    unfold sound_body_00.sl.dma14_1
    exact slotHolds_other (1 : Fin 2) (0 : Fin 2) (by decide) 528 _ _ _ (X m c) _ 528 1016 (slotHolds_loaded (0 : Fin 2) 528 1016 _ _ _ (X m c) _)
  have hp3 : ∀ (r : Fin 512) (k : Fin 3072), 0 < k.val → k.val < 3071 → sound_body_00.sl.dma47 m c f0 f1 HatRR_pay1_v (ValueIdx.ix2 r k) = OUT m c (ValueIdx.ix2 (⟨1536 + r.val, by have := r.isLt; omega⟩ : Fin 3072) k) := by
    intro r k hk1 hk2
    unfold sound_body_00.sl.dma47 sound_body_00.sl.H1_5
    refine (stage_top (1 : Fin 2) _ _ f1 _ _ r k).trans ?_
    unfold sound_body_00.sl.r_1 sound_body_00.sl.r_2 sound_body_00.sl.r_3 sound_body_00.sl.r_4 sound_body_00.sl.r_5
      sound_body_00.sl.v224 sound_body_00.sl.v226 sound_body_00.sl.v228
    refine (congrFun (pay19_eq _ _ _) _).trans ?_
    refine plain_chunk m c _ (1 : Fin 2) 528 1528 ?_ 8 7 9 rfl rfl _ _ _ 1536 rfl (by norm_num) (by norm_num) (by norm_num) r k hk1 hk2
    unfold sound_body_00.sl.dma25_1
    exact slotHolds_other (0 : Fin 2) (1 : Fin 2) (by decide) 528 _ _ _ (X m c) _ 528 1528 (slotHolds_loaded (1 : Fin 2) 528 1528 _ _ _ (X m c) _)
  have hp4 : ∀ (r : Fin 512) (k : Fin 3072), 0 < k.val → k.val < 3071 → sound_body_00.sl.dma58 m c f0 f1 HatRR_pay1_v (ValueIdx.ix2 r k) = OUT m c (ValueIdx.ix2 (⟨2048 + r.val, by have := r.isLt; omega⟩ : Fin 3072) k) := by
    intro r k hk1 hk2
    unfold sound_body_00.sl.dma58 sound_body_00.sl.H1_6
    refine (stage_top (0 : Fin 2) _ _ f1 _ _ r k).trans ?_
    unfold sound_body_00.sl.v299 sound_body_00.sl.r_6 sound_body_00.sl.v277 sound_body_00.sl.v279 sound_body_00.sl.v281
    show k0_pay23 (k0_pay22 _ _ _) (ValueIdx.ix3 (0 : Fin 1) r k) = _
    refine (congrFun (pay23_eq _ _ _) _).trans ?_
    refine plain_chunk m c _ (0 : Fin 2) 528 2040 ?_ 8 7 9 rfl rfl _ _ _ 2048 rfl (by norm_num) (by norm_num) (by norm_num) r k hk1 hk2
    unfold sound_body_00.sl.dma36_1
    exact slotHolds_other (1 : Fin 2) (0 : Fin 2) (by decide) 520 _ _ _ (X m c) _ 528 2040 (slotHolds_loaded (0 : Fin 2) 528 2040 _ _ _ (X m c) _)
  have hp5 : ∀ (r : Fin 512) (k : Fin 3072), 0 < k.val → k.val < 3071 → sound_body_00.sl.dma70 m c f0 f1 HatRR_pay1_v (ValueIdx.ix2 r k) = OUT m c (ValueIdx.ix2 (⟨2560 + r.val, by have := r.isLt; omega⟩ : Fin 3072) k) := by
    intro r k hk1 hk2
    unfold sound_body_00.sl.dma70 sound_body_00.sl.H1_7
    refine (stage_top (1 : Fin 2) _ _ f1 _ _ r k).trans ?_
    unfold sound_body_00.sl.v325 sound_body_00.sl.v327 sound_body_00.sl.v329
    by_cases hr : r.val < 511
    · refine last_chunk_rest m c _ (1 : Fin 2) 520 2552 ?_ 8 7 9 rfl rfl _ _ _ 2560 rfl (by norm_num) (by norm_num) (by norm_num)
        _ r k hk1 hk2 hr
      unfold sound_body_00.sl.dma47_1
      exact slotHolds_loaded (1 : Fin 2) 520 2552 _ _ _ (X m c) _
    · refine last_chunk_halo m c ha _ (1 : Fin 2) 520 2552 ?_ 8 7 9 rfl rfl _ _ _ rfl (by norm_num) _ r k hk1 hk2
        (by have := r.isLt; omega) ?_
      · unfold sound_body_00.sl.dma47_1
        exact slotHolds_loaded (1 : Fin 2) 520 2552 _ _ _ (X m c) _
      · exact rh_at (⟨0, by norm_num⟩ : Fin 8) _ HatRR_pay1_v _ k
  have hpW : ∀ (r : Fin 3072) (k : Fin 128), sound_body_00.sl.dma28 m c f0 f6 HatRR_pay1_v HatCR_pay1_v (ValueIdx.ix2 r k) = OUT m c (ValueIdx.ix2 r (⟨k.val, by have := k.isLt; omega⟩ : Fin 3072)) := by
    intro r k
    have hk := k.isLt
    have hr := r.isLt
    have hws : ∀ (y : S3072x256.Idx) (i : S3072x3072.Idx), (i 0).val = (y 0).val → (i 1).val = 0 + (y 1).val →
        View.canon (sound_body_00.sl.H4_6 m c f0) y = X m c i := by
      intro y i h0 h1
      unfold sound_body_00.sl.H4_6 sound_body_00.sl.H4_5 sound_body_00.sl.H4_4 sound_body_00.sl.H4_3 sound_body_00.sl.H4_2 sound_body_00.sl.H4_1
      refine save_canon (X m c) 0 _ _ _ _ _ _ _ _ _ _ _ _ ?_ ?_ ?_ ?_ ?_ ?_ y i h0 h1
      · intro a b i h0 h1
        unfold sound_body_00.sl.v94 sound_body_00.sl.v91
        refine (cast2_apply _ _ _ a b).trans ?_
        unfold sound_body_00.sl.v90 sound_body_00.sl.dma0
        exact xt_load_miss (X m c) _ _ 1 528 _ _ _ 0 520 0 0 0 512 256 (by omega) _ _ _ _ _ _ a b (by omega) i (by omega) (by omega)
      · intro a b i h0 h1
        unfold k0_pay6
        refine (cast2_apply _ _ _ a b).trans ?_
        unfold sound_body_00.sl.v141 sound_body_00.sl.dma0_1
        exact xt_load_miss (X m c) _ _ 0 528 _ _ _ 1 528 8 0 504 512 256 (by omega) _ _ _ _ _ _ a b (by omega) i (by omega) (by omega)
      · intro a b i h0 h1
        unfold k0_pay11
        refine (cast2_apply _ _ _ a b).trans ?_
        unfold sound_body_00.sl.v194 sound_body_00.sl.dma14_1
        exact xt_load_miss (X m c) _ _ 1 528 _ _ _ 0 528 8 0 1016 512 256 (by omega) _ _ _ _ _ _ a b (by omega) i (by omega) (by omega)
      · intro a b i h0 h1
        unfold k0_pay20
        refine (cast2_apply _ _ _ a b).trans ?_
        unfold sound_body_00.sl.v247 sound_body_00.sl.dma25_1
        exact xt_load_miss (X m c) _ _ 0 528 _ _ _ 1 528 8 0 1528 512 256 (by omega) _ _ _ _ _ _ a b (by omega) i (by omega) (by omega)
      · intro a b i h0 h1
        unfold sound_body_00.sl.v304 sound_body_00.sl.v301
        refine (cast2_apply _ _ _ a b).trans ?_
        unfold sound_body_00.sl.v300 sound_body_00.sl.dma36_1
        exact xt_load_miss (X m c) _ _ 1 520 _ _ _ 0 528 8 0 2040 512 256 (by omega) _ _ _ _ _ _ a b (by omega) i (by omega) (by omega)
      · intro a b i h0 h1
        unfold k0_pay27
        refine (cast2_apply _ _ _ a b).trans ?_
        unfold sound_body_00.sl.v350 sound_body_00.sl.dma47_1
        exact xt_load_hit (X m c) _ 1 520 8 0 2552 512 256 _ _ _ _ _ _ a b (by omega) i (by omega) (by omega)
    unfold sound_body_00.sl.dma28 sound_body_00.sl.H6_3
    rw [ReadAs.apply_same]
    unfold OUT
    rw [outOf_eq]
    by_cases hr0 : r.val = 0
    · rw [if_pos (Or.inl ⟨ha, hr0⟩)]
      refine (View.read_writes_cons_unit_of_mem (Memref.whole cc0_scratch6 : Memref sig .tc .vmem S3072x128 .f32).view f6 (off := ![0, 0]) (off' := ![0, 0]) (size := S1x128.size)
        inb_S3072x128_S1x128_0_0 _ _ (ValueIdx.ix2 r k) (ValueIdx.ix2 (⟨0, Nat.one_pos⟩ : Fin 1) k) rfl ?_).trans ?_
      · intro a
        match a with
        | ⟨0, _⟩ => show r.val = 0 + 0; omega
        | ⟨1, _⟩ => show k.val = 0 + k.val; omega
      · unfold k0_pay35 sound_body_00.sl.v465_2
        rw [shapeCast_self,
          readCov_unit_apply _ _ _ _ _ _ (ValueIdx.ix2 (⟨r.val, hr⟩ : Fin 3072) (⟨k.val, by omega⟩ : Fin 256)) (by show r.val = 0 + 0; omega) (by show k.val = 0 + k.val; omega)]
        exact hws _ _ rfl (by show k.val = 0 + k.val; omega)
    by_cases hk0 : k.val = 0
    · rw [if_pos (Or.inr (Or.inr (Or.inl ⟨hb, hk0⟩)))]
      refine (View.read_writes_cons_unit_of_not_mem (Memref.whole cc0_scratch6 : Memref sig .tc .vmem S3072x128 .f32).view f6 (off := ![0, 0]) (off' := ![0, 0]) (size := S1x128.size)
        inb_S3072x128_S1x128_0_0 _ _ (ValueIdx.ix2 r k) rfl (0 : Fin 2) (Or.inr ?_)).trans ?_
      · show 0 + 1 ≤ r.val; omega
      refine (View.read_writes_cons_unit_of_mem (Memref.whole cc0_scratch6 : Memref sig .tc .vmem S3072x128 .f32).view f6 (off := ![0, 0]) (off' := ![0, 0]) (size := S3072x1.size)
        inb_S3072x128_S3072x1_0_0 _ _ (ValueIdx.ix2 r k) (ValueIdx.ix2 r (⟨0, Nat.one_pos⟩ : Fin 1)) rfl ?_).trans ?_
      · intro a
        match a with
        | ⟨0, _⟩ => show r.val = 0 + r.val; omega
        | ⟨1, _⟩ => show k.val = 0 + 0; omega
      · unfold k0_pay34 sound_body_00.sl.v465_1
        rw [shapeCast_self,
          readCov_unit_apply _ _ _ _ _ _ (ValueIdx.ix2 r (⟨0, by omega⟩ : Fin 256)) (by show r.val = 0 + r.val; omega) (by show 0 = 0 + 0; rfl)]
        exact hws _ _ rfl (by show k.val = 0 + 0; omega)
    rw [if_neg (by
      rintro (⟨_, h⟩ | ⟨h, _⟩ | ⟨_, h⟩ | ⟨h, _⟩)
      · exact hr0 h
      · omega
      · exact hk0 h
      · omega)]
    refine (View.read_writes_cons_unit_of_not_mem (Memref.whole cc0_scratch6 : Memref sig .tc .vmem S3072x128 .f32).view f6 (off := ![0, 0]) (off' := ![0, 0]) (size := S1x128.size)
        inb_S3072x128_S1x128_0_0 _ _ (ValueIdx.ix2 r k) rfl (0 : Fin 2) (Or.inr ?_)).trans ?_
    · show 0 + 1 ≤ r.val; omega
    refine (View.read_writes_cons_unit_of_not_mem (Memref.whole cc0_scratch6 : Memref sig .tc .vmem S3072x128 .f32).view f6 (off := ![0, 0]) (off' := ![0, 0]) (size := S3072x1.size)
        inb_S3072x128_S3072x1_0_0 _ _ (ValueIdx.ix2 r k) rfl (1 : Fin 2) (Or.inr ?_)).trans ?_
    · show 0 + 1 ≤ k.val; omega
    refine (View.read_writes_cons_unit_of_mem (Memref.whole cc0_scratch6 : Memref sig .tc .vmem S3072x128 .f32).view f6 (off := ![0, 0]) (off' := ![0, 0]) (size := S3072x128.size)
        inb_S3072x128_S3072x128_0_0 _ _ (ValueIdx.ix2 r k) (ValueIdx.ix2 r k) rfl ?_).trans ?_
    · intro a
      match a with
      | ⟨0, _⟩ => show r.val = 0 + r.val; omega
      | ⟨1, _⟩ => show k.val = 0 + k.val; omega
    unfold sound_body_00.sl.v375 sound_body_00.sl.v378 sound_body_00.sl.v377 sound_body_00.sl.v379 sound_body_00.sl.v382 sound_body_00.sl.v381 sound_body_00.sl.v383
    exact west_strip (X m c) _ hws _ (rowLanded m c) _ (colLanded m c) _ _ _ _ _ _ _ _ _ _ r k
  have hpE : ∀ (r : Fin 3072) (k : Fin 128), sound_body_00.sl.dma28_1 m c f0 f7 HatRR_pay1_v HatCR_pay1_v (ValueIdx.ix2 r k) = OUT m c (ValueIdx.ix2 r (⟨2944 + k.val, by have := k.isLt; omega⟩ : Fin 3072)) := by
    intro r k
    have hk := k.isLt
    have hr := r.isLt
    have hes : ∀ (y : S3072x256.Idx) (i : S3072x3072.Idx), (i 0).val = (y 0).val → (i 1).val = 2816 + (y 1).val →
        View.canon ((⟨Rect.unit (s := S3072x256) ![2560, 0] S512x256.size inb_S3072x256_S512x256_2560_0, sound_body_00.sl.v359 m c f0⟩
          : View.Piece (Elt F) S3072x256 .f32) :: sound_body_00.sl.H5_5 m c f0) y = X m c i := by
      intro y i h0 h1
      unfold sound_body_00.sl.H5_5 sound_body_00.sl.H5_4 sound_body_00.sl.H5_3 sound_body_00.sl.H5_2 sound_body_00.sl.H5_1
      refine save_canon (X m c) 2816 _ _ _ _ _ _ _ _ _ _ _ _ ?_ ?_ ?_ ?_ ?_ ?_ y i h0 h1
      · intro a b i h0 h1
        unfold sound_body_00.sl.v99 sound_body_00.sl.v96
        refine (cast2_apply _ _ _ a b).trans ?_
        unfold sound_body_00.sl.v95 sound_body_00.sl.dma0
        exact xt_load_miss (X m c) _ _ 1 528 _ _ _ 0 520 0 2816 0 512 256 (by omega) _ _ _ _ _ _ a b (by omega) i (by omega) (by omega)
      · intro a b i h0 h1
        unfold sound_body_00.sl.r k0_pay7
        refine (cast2_apply _ _ _ a b).trans ?_
        unfold sound_body_00.sl.v146 sound_body_00.sl.dma0_1
        exact xt_load_miss (X m c) _ _ 0 528 _ _ _ 1 528 8 2816 504 512 256 (by omega) _ _ _ _ _ _ a b (by omega) i (by omega) (by omega)
      · intro a b i h0 h1
        unfold k0_pay12
        refine (cast2_apply _ _ _ a b).trans ?_
        unfold sound_body_00.sl.v199 sound_body_00.sl.dma14_1
        exact xt_load_miss (X m c) _ _ 1 528 _ _ _ 0 528 8 2816 1016 512 256 (by omega) _ _ _ _ _ _ a b (by omega) i (by omega) (by omega)
      · intro a b i h0 h1
        unfold k0_pay21
        refine (cast2_apply _ _ _ a b).trans ?_
        unfold sound_body_00.sl.v252 sound_body_00.sl.dma25_1
        exact xt_load_miss (X m c) _ _ 0 528 _ _ _ 1 528 8 2816 1528 512 256 (by omega) _ _ _ _ _ _ a b (by omega) i (by omega) (by omega)
      · intro a b i h0 h1
        unfold sound_body_00.sl.v309 sound_body_00.sl.v306
        refine (cast2_apply _ _ _ a b).trans ?_
        unfold sound_body_00.sl.v305 sound_body_00.sl.dma36_1
        exact xt_load_miss (X m c) _ _ 1 520 _ _ _ 0 528 8 2816 2040 512 256 (by omega) _ _ _ _ _ _ a b (by omega) i (by omega) (by omega)
      · intro a b i h0 h1
        unfold sound_body_00.sl.v359 sound_body_00.sl.r_7 k0_pay28
        refine (cast2_apply _ _ _ a b).trans ?_
        unfold sound_body_00.sl.v355 sound_body_00.sl.dma47_1
        exact xt_load_hit (X m c) _ 1 520 8 2816 2552 512 256 _ _ _ _ _ _ a b (by omega) i (by omega) (by omega)
    unfold sound_body_00.sl.dma28_1 sound_body_00.sl.H7_2
    rw [ReadAs.apply_same]
    unfold OUT
    rw [outOf_eq]
    by_cases hr0 : r.val = 0
    · rw [if_pos (Or.inl ⟨ha, hr0⟩)]
      refine (View.read_writes_cons_unit_of_mem (Memref.whole cc0_scratch7 : Memref sig .tc .vmem S3072x128 .f32).view f7 (off := ![0, 0]) (off' := ![0, 0]) (size := S1x128.size) inb_S3072x128_S1x128_0_0 _ _ (ValueIdx.ix2 r k) (ValueIdx.ix2 (⟨0, Nat.one_pos⟩ : Fin 1) k) rfl ?_).trans ?_
      · intro a
        match a with
        | ⟨0, _⟩ => show r.val = 0 + 0; omega
        | ⟨1, _⟩ => show k.val = 0 + k.val; omega
      · unfold k0_pay41 sound_body_00.sl.v465_3
        rw [shapeCast_self,
          readCov_unit_apply _ _ _ _ _ _ (ValueIdx.ix2 (⟨r.val, hr⟩ : Fin 3072) (⟨128 + k.val, by omega⟩ : Fin 256)) (by show r.val = 0 + 0; omega) (by show 128 + k.val = 128 + k.val; omega)]
        exact hes _ _ rfl (by show 2944 + k.val = 2816 + (128 + k.val); omega)
    rw [if_neg (by
      rintro (⟨_, h⟩ | ⟨h, _⟩ | ⟨_, h⟩ | ⟨h, _⟩)
      · exact hr0 h
      · omega
      · have h' : 2944 + k.val = 0 := h
        omega
      · omega)]
    refine (View.read_writes_cons_unit_of_not_mem (Memref.whole cc0_scratch7 : Memref sig .tc .vmem S3072x128 .f32).view f7 (off := ![0, 0]) (off' := ![0, 0]) (size := S1x128.size) inb_S3072x128_S1x128_0_0 _ _ (ValueIdx.ix2 r k) rfl (0 : Fin 2) (Or.inr ?_)).trans ?_
    · show 0 + 1 ≤ r.val; omega
    refine (View.read_writes_cons_unit_of_mem (Memref.whole cc0_scratch7 : Memref sig .tc .vmem S3072x128 .f32).view f7 (off := ![0, 0]) (off' := ![0, 0]) (size := S3072x128.size) inb_S3072x128_S3072x128_0_0 _ _ (ValueIdx.ix2 r k) (ValueIdx.ix2 r k) rfl ?_).trans ?_
    · intro a
      match a with
      | ⟨0, _⟩ => show r.val = 0 + r.val; omega
      | ⟨1, _⟩ => show k.val = 0 + k.val; omega
    unfold sound_body_00.sl.v406 sound_body_00.sl.v407 sound_body_00.sl.r_8 sound_body_00.sl.v408 sound_body_00.sl.r_9 sound_body_00.sl.v412 sound_body_00.sl.v414
    exact east_strip (X m c) _ hes _ (rowLanded m c) _ (colLanded m c) _ _ _ _ _ _ _ _ r k
  have hval := out_assemble c o0 (OUT m c) _ _ _ _ _ _ _ _ hpE hpW hp0 hp1 hp2 hp3 hp4 hp5
  ihave Hout := (close_whole c main_v1 _ (OUT m c) hval) $$ Hout
  isplitr [HO]
  · iapply (body_close m c _ _ _ _ _ _ _ _ _) $$ HatRS_pay1 HatCS_pay1 Hx0 Hx1 Haside Hout H0 H1 HatRR_pay1 HatCR_pay1 H4 H5 H6 H7
      HsL0 HsL1 HsS0 HsS1 HsF0 HsF1 HzRS HzRR HzCS HzCR
  · iexists _
    isplitr; swap
    · iexact HO
    · ipureintro; exact fun _ _ => Or.inl trivial

end Cert.KernelIdealProof

end
-- ==== Proof.Body01KernelIdeal.lean ====
import proofs.«900195_g7700000000000196_dist_halo2d_stencil_xy_m3072_n3072_v7x_xy2x2_f32_1_alg».proof.Proof.BodyCommonKernelIdeal
import proofs.«900195_g7700000000000196_dist_halo2d_stencil_xy_m3072_n3072_v7x_xy2x2_f32_1_alg».proof.Proof.ValLemAKernelIdeal
import proofs.«900195_g7700000000000196_dist_halo2d_stencil_xy_m3072_n3072_v7x_xy2x2_f32_1_alg».proof.Proof.ValLemBKernelIdeal
import proofs.«900195_g7700000000000196_dist_halo2d_stencil_xy_m3072_n3072_v7x_xy2x2_f32_1_alg».proof.Proof.ValLemCKernelIdeal
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 4000000 in
theorem sound_body_01 (K : Dev nD × Fin 5 → ℕ) (c : Dev nD) (ha : c.val / 2 = 0) (hb : c.val % 2 = 1) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyPre ghost invs locals0 arrays0 scratch
  iintro ⟨⟨⟨⟨⟨#HIbar, #HIrs, #HIrr, #HIcs, #HIcr, #HIbarV, #HIbarH, #HIrrV, #HIcrH⟩, HatB, HatRS, HatRR, HatCS, HatCR,
      #HrBV, #HrBH, #HrRRV, #HrCRH, #HrRS, #HrRR, #HrCS, #HrCR, HtBV, HtBH, HtRRV, HtCRH, HtRS, HtCS⟩, HcB, HcRR, HcCR, #Hlev⟩,
    ⟨HsL0, HsL1, HsS0, HsS1, HsF0, HsF1⟩, ⟨Hx, ⟨%o0, Hout⟩⟩,
    ⟨⟨%f0, H0⟩, ⟨%f1, H1⟩, ⟨%f2, H2⟩, ⟨%f3, H3⟩, ⟨%f4, H4⟩, ⟨%f5, H5⟩, ⟨%f6, H6⟩, ⟨%f7, H7⟩⟩, Ho⟩, Hk⟩
  unfold Dat.owesAt Pipeline.owesWithin
  icases Ho with ⟨%W, %hW, HO⟩
  rw [show (dats m 0 c).owed t₀.castSucc = O₀ c from rfl]
  unfold O₀ O₁ O₂ O₃
  ihave Hb := (body_open m c _ _ _ _ _ _ _ _ _) $$ Hx Hout H0 H1 H2 H3 H4 H5 H6 H7
  icases Hb with ⟨Hout, H0, H1, H2, H3, H4, H5, H6, H7, Hx0, Hx1, HxR, HxC, Haside⟩
  unfold held
  have hmw : (levAts L lv : sProp 𝕄) ⊢ MayWait (c : Thread nD τ) (.reg barS) ()
      (tallyAt (colRecvCell (hn c)) () NC + tallyAt (rowRecvCell (vn c)) () NR) := mayWait_bar c
  sl_exec_parts (disch := first | simp only [dev1_eq, dev2_eq, dev3_eq, dev4_eq] | (clear * - ha hb; decide +kernel +revert))
  ihave Hbp := (Entails.of_eq (bar_round m c)) $$ HatB_pay1
  unfold barPayV barPayH giveV giveH rhPts chPts
  icases Hbp with ⟨⟨⟨%fv, HrhV⟩, #HrV'⟩, ⟨⟨%fh, HchH⟩, #HrH'⟩⟩
  sl_exec_parts (disch := first | simp only [dev1_eq, dev2_eq, dev3_eq, dev4_eq] | (clear * - ha hb; decide +kernel +revert))
  have hcrR : (rowSrc c).view.dmaCredit = 3072 := by rfl
  have hcrC : (colSrc c).view.dmaCredit = 49152 := by rfl
  ihave HxR_cred : cred (tallyAt (rowSendCell c) default ((rowSrc c).view.dmaCredit)) $$ [HxR_cred]
  · rw [hcrR]; iexact HxR_cred
  ihave HxC_cred : cred (tallyAt (colSendCell c) default ((colSrc c).view.dmaCredit)) $$ [HxC_cred]
  · rw [hcrC]; iexact HxC_cred
  sl_exec_parts (disch := first | simp only [dev1_eq, dev2_eq, dev3_eq, dev4_eq] | (clear * - ha hb; decide +kernel +revert))
  imod (Rounds.cell_close ER (sched m) (Set.mem_univ (K (c, 1))) (fun h => h) (R := 0 + 1) (duties_later m (rowSendCell c))) $$ [HatRS] with HzRS
  · isplitr; · iexact HIrs
    iexact HatRS
  imod (Rounds.cell_close ER (sched m) (Set.mem_univ (K (c, 2))) (fun h => h) (R := 0 + 1) (duties_later m (rowRecvCell c))) $$ [HatRR] with HzRR
  · isplitr; · iexact HIrr
    iexact HatRR
  imod (Rounds.cell_close ER (sched m) (Set.mem_univ (K (c, 3))) (fun h => h) (R := 0 + 1) (duties_later m (colSendCell c))) $$ [HatCS] with HzCS
  · isplitr; · iexact HIcs
    iexact HatCS
  imod (Rounds.cell_close ER (sched m) (Set.mem_univ (K (c, 4))) (fun h => h) (R := 0 + 1) (duties_later m (colRecvCell c))) $$ [HatCR] with HzCR
  · isplitr; · iexact HIcr
    iexact HatCR
  rw [wp_ret]; imodintro
  iapply Hk
  unfold bodyPost Φ₁ arrays1 Dat.owesAt Pipeline.owesWithin
  rw [show (dats m 0 c).owed t₀.succ = 0 from rfl]
  have hp0 : ∀ (r : Fin 512) (k : Fin 3072), 0 < k.val → k.val < 3071 → sound_body_01.sl.dma14 m c f0 f1 HatRR_pay1_v (ValueIdx.ix2 r k) = OUT m c (ValueIdx.ix2 (⟨0 + r.val, by have := r.isLt; omega⟩ : Fin 3072) k) := by
    intro r k hk1 hk2
    unfold sound_body_01.sl.dma14 sound_body_01.sl.H1_2 sound_body_01.sl.H1_1
    refine (stage_kept (0 : Fin 2) 0 _ _ _ _ f1 _ [] r k).trans ?_
    by_cases hr : r.val = 0
    · rw [if_pos hr]
      unfold sound_body_01.sl.v469 sound_body_01.sl.v466 sound_body_01.sl.v465
      refine kept_top m c ha _ (0 : Fin 2) 520 ?_ (by norm_num) _ r k hr
      unfold sound_body_01.sl.dma0
      exact slotHolds_other (1 : Fin 2) (0 : Fin 2) (by decide) 528 _ _ _ (X m c) _ 520 0 (slotHolds_loaded (0 : Fin 2) 520 0 _ _ _ (X m c) _)
    · rw [if_neg hr]
      unfold sound_body_01.sl.v65 sound_body_01.sl.v68 sound_body_01.sl.v71
      refine first_chunk_rest m c _ (0 : Fin 2) 520 0 ?_ 0 1 rfl _ _ _ 0 rfl (by norm_num) (by norm_num) _ r k hk1 hk2 (by omega)
      unfold sound_body_01.sl.dma0
      exact slotHolds_other (1 : Fin 2) (0 : Fin 2) (by decide) 528 _ _ _ (X m c) _ 520 0 (slotHolds_loaded (0 : Fin 2) 520 0 _ _ _ (X m c) _)
  have hp1 : ∀ (r : Fin 512) (k : Fin 3072), 0 < k.val → k.val < 3071 → sound_body_01.sl.dma25 m c f0 f1 HatRR_pay1_v (ValueIdx.ix2 r k) = OUT m c (ValueIdx.ix2 (⟨512 + r.val, by have := r.isLt; omega⟩ : Fin 3072) k) := by
    intro r k hk1 hk2
    unfold sound_body_01.sl.dma25 sound_body_01.sl.H1_3
    refine (stage_top (1 : Fin 2) _ _ f1 _ _ r k).trans ?_
    unfold sound_body_01.sl.v118 sound_body_01.sl.v120 sound_body_01.sl.v122
    refine (congrFun (pay5_eq _ _ _) _).trans ?_
    refine plain_chunk m c _ (1 : Fin 2) 528 504 ?_ 8 7 9 rfl rfl _ _ _ 512 rfl (by norm_num) (by norm_num) (by norm_num) r k hk1 hk2
    unfold sound_body_01.sl.dma0_1
    exact slotHolds_other (0 : Fin 2) (1 : Fin 2) (by decide) 528 _ _ _ (X m c) _ 528 504 (slotHolds_loaded (1 : Fin 2) 528 504 _ _ _ (X m c) _)
  have hp2 : ∀ (r : Fin 512) (k : Fin 3072), 0 < k.val → k.val < 3071 → sound_body_01.sl.dma36 m c f0 f1 HatRR_pay1_v (ValueIdx.ix2 r k) = OUT m c (ValueIdx.ix2 (⟨1024 + r.val, by have := r.isLt; omega⟩ : Fin 3072) k) := by
    intro r k hk1 hk2
    unfold sound_body_01.sl.dma36 sound_body_01.sl.H1_4
    refine (stage_top (0 : Fin 2) _ _ f1 _ _ r k).trans ?_
    unfold sound_body_01.sl.v172 sound_body_01.sl.v174 sound_body_01.sl.v171 sound_body_01.sl.v173 sound_body_01.sl.v175
    refine (congrFun (pay10_eq _ _ _) _).trans ?_
    refine plain_chunk m c _ (0 : Fin 2) 528 1016 ?_ 8 7 9 rfl rfl _ _ _ 1024 rfl (by norm_num) (by norm_num) (by norm_num) r k hk1 hk2
    unfold sound_body_01.sl.dma14_1
    exact slotHolds_other (1 : Fin 2) (0 : Fin 2) (by decide) 528 _ _ _ (X m c) _ 528 1016 (slotHolds_loaded (0 : Fin 2) 528 1016 _ _ _ (X m c) _)
  have hp3 : ∀ (r : Fin 512) (k : Fin 3072), 0 < k.val → k.val < 3071 → sound_body_01.sl.dma47 m c f0 f1 HatRR_pay1_v (ValueIdx.ix2 r k) = OUT m c (ValueIdx.ix2 (⟨1536 + r.val, by have := r.isLt; omega⟩ : Fin 3072) k) := by
    intro r k hk1 hk2
    unfold sound_body_01.sl.dma47 sound_body_01.sl.H1_5
    refine (stage_top (1 : Fin 2) _ _ f1 _ _ r k).trans ?_
    unfold sound_body_01.sl.r_1 sound_body_01.sl.r_2 sound_body_01.sl.r_3 sound_body_01.sl.r_4 sound_body_01.sl.r_5
      sound_body_01.sl.v224 sound_body_01.sl.v226 sound_body_01.sl.v228
    refine (congrFun (pay19_eq _ _ _) _).trans ?_
    refine plain_chunk m c _ (1 : Fin 2) 528 1528 ?_ 8 7 9 rfl rfl _ _ _ 1536 rfl (by norm_num) (by norm_num) (by norm_num) r k hk1 hk2
    unfold sound_body_01.sl.dma25_1
    exact slotHolds_other (0 : Fin 2) (1 : Fin 2) (by decide) 528 _ _ _ (X m c) _ 528 1528 (slotHolds_loaded (1 : Fin 2) 528 1528 _ _ _ (X m c) _)
  have hp4 : ∀ (r : Fin 512) (k : Fin 3072), 0 < k.val → k.val < 3071 → sound_body_01.sl.dma58 m c f0 f1 HatRR_pay1_v (ValueIdx.ix2 r k) = OUT m c (ValueIdx.ix2 (⟨2048 + r.val, by have := r.isLt; omega⟩ : Fin 3072) k) := by
    intro r k hk1 hk2
    unfold sound_body_01.sl.dma58 sound_body_01.sl.H1_6
    refine (stage_top (0 : Fin 2) _ _ f1 _ _ r k).trans ?_
    unfold sound_body_01.sl.v299 sound_body_01.sl.r_6 sound_body_01.sl.v277 sound_body_01.sl.v279 sound_body_01.sl.v281
    show k0_pay23 (k0_pay22 _ _ _) (ValueIdx.ix3 (0 : Fin 1) r k) = _
    refine (congrFun (pay23_eq _ _ _) _).trans ?_
    refine plain_chunk m c _ (0 : Fin 2) 528 2040 ?_ 8 7 9 rfl rfl _ _ _ 2048 rfl (by norm_num) (by norm_num) (by norm_num) r k hk1 hk2
    unfold sound_body_01.sl.dma36_1
    exact slotHolds_other (1 : Fin 2) (0 : Fin 2) (by decide) 520 _ _ _ (X m c) _ 528 2040 (slotHolds_loaded (0 : Fin 2) 528 2040 _ _ _ (X m c) _)
  have hp5 : ∀ (r : Fin 512) (k : Fin 3072), 0 < k.val → k.val < 3071 → sound_body_01.sl.dma70 m c f0 f1 HatRR_pay1_v (ValueIdx.ix2 r k) = OUT m c (ValueIdx.ix2 (⟨2560 + r.val, by have := r.isLt; omega⟩ : Fin 3072) k) := by
    intro r k hk1 hk2
    unfold sound_body_01.sl.dma70 sound_body_01.sl.H1_7
    refine (stage_top (1 : Fin 2) _ _ f1 _ _ r k).trans ?_
    unfold sound_body_01.sl.v325 sound_body_01.sl.v327 sound_body_01.sl.v329
    by_cases hr : r.val < 511
    · refine last_chunk_rest m c _ (1 : Fin 2) 520 2552 ?_ 8 7 9 rfl rfl _ _ _ 2560 rfl (by norm_num) (by norm_num) (by norm_num)
        _ r k hk1 hk2 hr
      unfold sound_body_01.sl.dma47_1
      exact slotHolds_loaded (1 : Fin 2) 520 2552 _ _ _ (X m c) _
    · refine last_chunk_halo m c ha _ (1 : Fin 2) 520 2552 ?_ 8 7 9 rfl rfl _ _ _ rfl (by norm_num) _ r k hk1 hk2
        (by have := r.isLt; omega) ?_
      · unfold sound_body_01.sl.dma47_1
        exact slotHolds_loaded (1 : Fin 2) 520 2552 _ _ _ (X m c) _
      · exact rh_at (⟨0, by norm_num⟩ : Fin 8) _ HatRR_pay1_v _ k
  have hpW : ∀ (r : Fin 3072) (k : Fin 128), sound_body_01.sl.dma28 m c f0 f6 HatRR_pay1_v HatCR_pay1_v (ValueIdx.ix2 r k) = OUT m c (ValueIdx.ix2 r (⟨k.val, by have := k.isLt; omega⟩ : Fin 3072)) := by
    intro r k
    have hk := k.isLt
    have hr := r.isLt
    have hws : ∀ (y : S3072x256.Idx) (i : S3072x3072.Idx), (i 0).val = (y 0).val → (i 1).val = 0 + (y 1).val →
        View.canon (sound_body_01.sl.H4_6 m c f0) y = X m c i := by
      intro y i h0 h1
      unfold sound_body_01.sl.H4_6 sound_body_01.sl.H4_5 sound_body_01.sl.H4_4 sound_body_01.sl.H4_3 sound_body_01.sl.H4_2
        sound_body_01.sl.H4_1
      refine save_canon (X m c) 0 _ _ _ _ _ _ _ _ _ _ _ _ ?_ ?_ ?_ ?_ ?_ ?_ y i h0 h1
      · intro a b i h0 h1
        unfold sound_body_01.sl.v94 sound_body_01.sl.v91
        refine (cast2_apply _ _ _ a b).trans ?_
        unfold sound_body_01.sl.v90 sound_body_01.sl.dma0
        exact xt_load_miss (X m c) _ _ 1 528 _ _ _ 0 520 0 0 0 512 256 (by omega) _ _ _ _ _ _ a b (by omega) i (by omega) (by omega)
      · intro a b i h0 h1
        unfold k0_pay6
        refine (cast2_apply _ _ _ a b).trans ?_
        unfold sound_body_01.sl.v141 sound_body_01.sl.dma0_1
        exact xt_load_miss (X m c) _ _ 0 528 _ _ _ 1 528 8 0 504 512 256 (by omega) _ _ _ _ _ _ a b (by omega) i (by omega) (by omega)
      · intro a b i h0 h1
        unfold k0_pay11
        refine (cast2_apply _ _ _ a b).trans ?_
        unfold sound_body_01.sl.v194 sound_body_01.sl.dma14_1
        exact xt_load_miss (X m c) _ _ 1 528 _ _ _ 0 528 8 0 1016 512 256 (by omega) _ _ _ _ _ _ a b (by omega) i (by omega) (by omega)
      · intro a b i h0 h1
        unfold k0_pay20
        refine (cast2_apply _ _ _ a b).trans ?_
        unfold sound_body_01.sl.v247 sound_body_01.sl.dma25_1
        exact xt_load_miss (X m c) _ _ 0 528 _ _ _ 1 528 8 0 1528 512 256 (by omega) _ _ _ _ _ _ a b (by omega) i (by omega) (by omega)
      · intro a b i h0 h1
        unfold sound_body_01.sl.v304 sound_body_01.sl.v301
        refine (cast2_apply _ _ _ a b).trans ?_
        unfold sound_body_01.sl.v300 sound_body_01.sl.dma36_1
        exact xt_load_miss (X m c) _ _ 1 520 _ _ _ 0 528 8 0 2040 512 256 (by omega) _ _ _ _ _ _ a b (by omega) i (by omega) (by omega)
      · intro a b i h0 h1
        unfold k0_pay27
        refine (cast2_apply _ _ _ a b).trans ?_
        unfold sound_body_01.sl.v350 sound_body_01.sl.dma47_1
        exact xt_load_hit (X m c) _ 1 520 8 0 2552 512 256 _ _ _ _ _ _ a b (by omega) i (by omega) (by omega)
    unfold sound_body_01.sl.dma28 sound_body_01.sl.H6_2
    rw [ReadAs.apply_same]
    unfold OUT
    rw [outOf_eq]
    by_cases hr0 : r.val = 0
    · rw [if_pos (Or.inl ⟨ha, hr0⟩)]
      refine (View.read_writes_cons_unit_of_mem (Memref.whole cc0_scratch6 : Memref sig .tc .vmem S3072x128 .f32).view f6 (off := ![0, 0]) (off' := ![0, 0]) (size := S1x128.size)
        inb_S3072x128_S1x128_0_0 _ _ (ValueIdx.ix2 r k) (ValueIdx.ix2 (⟨0, Nat.one_pos⟩ : Fin 1) k) rfl ?_).trans ?_
      · intro a
        match a with
        | ⟨0, _⟩ => show r.val = 0 + 0; omega
        | ⟨1, _⟩ => show k.val = 0 + k.val; omega
      · unfold k0_pay35 sound_body_01.sl.v465_1
        rw [shapeCast_self,
          readCov_unit_apply _ _ _ _ _ _ (ValueIdx.ix2 (⟨r.val, hr⟩ : Fin 3072) (⟨k.val, by omega⟩ : Fin 256)) (by show r.val = 0 + 0; omega) (by show k.val = 0 + k.val; omega)]
        exact hws _ _ rfl (by show k.val = 0 + k.val; omega)
    rw [if_neg (by
      rintro (⟨_, h⟩ | ⟨h, _⟩ | ⟨h, _⟩ | ⟨_, h⟩)
      · exact hr0 h
      · omega
      · omega
      · have : k.val = 3071 := h
        omega)]
    refine (View.read_writes_cons_unit_of_not_mem (Memref.whole cc0_scratch6 : Memref sig .tc .vmem S3072x128 .f32).view f6 (off := ![0, 0]) (off' := ![0, 0]) (size := S1x128.size)
        inb_S3072x128_S1x128_0_0 _ _ (ValueIdx.ix2 r k) rfl (0 : Fin 2) (Or.inr ?_)).trans ?_
    · show 0 + 1 ≤ r.val; omega
    refine (View.read_writes_cons_unit_of_mem (Memref.whole cc0_scratch6 : Memref sig .tc .vmem S3072x128 .f32).view f6 (off := ![0, 0]) (off' := ![0, 0]) (size := S3072x128.size)
        inb_S3072x128_S3072x128_0_0 _ _ (ValueIdx.ix2 r k) (ValueIdx.ix2 r k) rfl ?_).trans ?_
    · intro a
      match a with
      | ⟨0, _⟩ => show r.val = 0 + r.val; omega
      | ⟨1, _⟩ => show k.val = 0 + k.val; omega
    unfold sound_body_01.sl.v375 sound_body_01.sl.v378 sound_body_01.sl.v377 sound_body_01.sl.v379 sound_body_01.sl.v382 sound_body_01.sl.v381 sound_body_01.sl.v383
    exact west_strip (X m c) _ hws _ (rowLanded m c) _ (colLanded m c) _ _ _ _ _ _ _ _ _ _ r k
  have hpE : ∀ (r : Fin 3072) (k : Fin 128), sound_body_01.sl.dma28_1 m c f0 f7 HatRR_pay1_v HatCR_pay1_v (ValueIdx.ix2 r k) = OUT m c (ValueIdx.ix2 r (⟨2944 + k.val, by have := k.isLt; omega⟩ : Fin 3072)) := by
    intro r k
    have hk := k.isLt
    have hr := r.isLt
    have hes : ∀ (y : S3072x256.Idx) (i : S3072x3072.Idx), (i 0).val = (y 0).val → (i 1).val = 2816 + (y 1).val →
        View.canon ((⟨Rect.unit (s := S3072x256) ![2560, 0] S512x256.size inb_S3072x256_S512x256_2560_0,
          sound_body_01.sl.v359 m c f0⟩ : View.Piece (Elt F) S3072x256 .f32) :: sound_body_01.sl.H5_5 m c f0) y = X m c i := by
      intro y i h0 h1
      unfold sound_body_01.sl.H5_5 sound_body_01.sl.H5_4 sound_body_01.sl.H5_3 sound_body_01.sl.H5_2 sound_body_01.sl.H5_1
      refine save_canon (X m c) 2816 _ _ _ _ _ _ _ _ _ _ _ _ ?_ ?_ ?_ ?_ ?_ ?_ y i h0 h1
      · intro a b i h0 h1
        unfold sound_body_01.sl.v99 sound_body_01.sl.v96
        refine (cast2_apply _ _ _ a b).trans ?_
        unfold sound_body_01.sl.v95 sound_body_01.sl.dma0
        exact xt_load_miss (X m c) _ _ 1 528 _ _ _ 0 520 0 2816 0 512 256 (by omega) _ _ _ _ _ _ a b (by omega) i (by omega) (by omega)
      · intro a b i h0 h1
        unfold sound_body_01.sl.r k0_pay7
        refine (cast2_apply _ _ _ a b).trans ?_
        unfold sound_body_01.sl.v146 sound_body_01.sl.dma0_1
        exact xt_load_miss (X m c) _ _ 0 528 _ _ _ 1 528 8 2816 504 512 256 (by omega) _ _ _ _ _ _ a b (by omega) i (by omega) (by omega)
      · intro a b i h0 h1
        unfold k0_pay12
        refine (cast2_apply _ _ _ a b).trans ?_
        unfold sound_body_01.sl.v199 sound_body_01.sl.dma14_1
        exact xt_load_miss (X m c) _ _ 1 528 _ _ _ 0 528 8 2816 1016 512 256 (by omega) _ _ _ _ _ _ a b (by omega) i (by omega) (by omega)
      · intro a b i h0 h1
        unfold k0_pay21
        refine (cast2_apply _ _ _ a b).trans ?_
        unfold sound_body_01.sl.v252 sound_body_01.sl.dma25_1
        exact xt_load_miss (X m c) _ _ 0 528 _ _ _ 1 528 8 2816 1528 512 256 (by omega) _ _ _ _ _ _ a b (by omega) i (by omega) (by omega)
      · intro a b i h0 h1
        unfold sound_body_01.sl.v309 sound_body_01.sl.v306
        refine (cast2_apply _ _ _ a b).trans ?_
        unfold sound_body_01.sl.v305 sound_body_01.sl.dma36_1
        exact xt_load_miss (X m c) _ _ 1 520 _ _ _ 0 528 8 2816 2040 512 256 (by omega) _ _ _ _ _ _ a b (by omega) i (by omega) (by omega)
      · intro a b i h0 h1
        unfold sound_body_01.sl.v359 sound_body_01.sl.r_7 k0_pay28
        refine (cast2_apply _ _ _ a b).trans ?_
        unfold sound_body_01.sl.v355 sound_body_01.sl.dma47_1
        exact xt_load_hit (X m c) _ 1 520 8 2816 2552 512 256 _ _ _ _ _ _ a b (by omega) i (by omega) (by omega)
    unfold sound_body_01.sl.dma28_1 sound_body_01.sl.H7_3
    rw [ReadAs.apply_same]
    unfold OUT
    rw [outOf_eq]
    by_cases hr0 : r.val = 0
    · rw [if_pos (Or.inl ⟨ha, hr0⟩)]
      refine (View.read_writes_cons_unit_of_mem (Memref.whole cc0_scratch7 : Memref sig .tc .vmem S3072x128 .f32).view f7 (off := ![0, 0]) (off' := ![0, 0]) (size := S1x128.size)
        inb_S3072x128_S1x128_0_0 _ _ (ValueIdx.ix2 r k) (ValueIdx.ix2 (⟨0, Nat.one_pos⟩ : Fin 1) k) rfl ?_).trans ?_
      · intro a
        match a with
        | ⟨0, _⟩ => show r.val = 0 + 0; omega
        | ⟨1, _⟩ => show k.val = 0 + k.val; omega
      · unfold k0_pay41 sound_body_01.sl.v465_3
        rw [shapeCast_self,
          readCov_unit_apply _ _ _ _ _ _ (ValueIdx.ix2 (⟨r.val, hr⟩ : Fin 3072) (⟨128 + k.val, by omega⟩ : Fin 256)) (by show r.val = 0 + 0; omega) (by show 128 + k.val = 128 + k.val; rfl)]
        exact hes _ _ rfl (by show 2944 + k.val = 2816 + (128 + k.val); omega)
    by_cases hk1 : k.val = 127
    · rw [if_pos (Or.inr (Or.inr (Or.inr ⟨hb, (by show 2944 + k.val = 3071; omega)⟩)))]
      refine (View.read_writes_cons_unit_of_not_mem (Memref.whole cc0_scratch7 : Memref sig .tc .vmem S3072x128 .f32).view f7 (off := ![0, 0]) (off' := ![0, 0]) (size := S1x128.size)
        inb_S3072x128_S1x128_0_0 _ _ (ValueIdx.ix2 r k) rfl (0 : Fin 2) (Or.inr ?_)).trans ?_
      · show 0 + 1 ≤ r.val; omega
      refine (View.read_writes_cons_unit_of_mem (Memref.whole cc0_scratch7 : Memref sig .tc .vmem S3072x128 .f32).view f7 (off := ![0, 127]) (off' := ![0, 127]) (size := S3072x1.size)
        inb_S3072x128_S3072x1_0_127 _ _ (ValueIdx.ix2 r k) (ValueIdx.ix2 r (⟨0, Nat.one_pos⟩ : Fin 1)) rfl ?_).trans ?_
      · intro a
        match a with
        | ⟨0, _⟩ => show r.val = 0 + r.val; omega
        | ⟨1, _⟩ => show k.val = 127 + 0; omega
      · unfold k0_pay40 sound_body_01.sl.v465_2
        rw [shapeCast_self,
          readCov_unit_apply _ _ _ _ _ _ (ValueIdx.ix2 r (⟨255, by omega⟩ : Fin 256)) (by show r.val = 0 + r.val; omega) (by show 255 = 255 + 0; rfl)]
        exact hes _ _ rfl (by show 2944 + k.val = 2816 + 255; omega)
    rw [if_neg (by
      rintro (⟨_, h⟩ | ⟨h, _⟩ | ⟨h, _⟩ | ⟨_, h⟩)
      · exact hr0 h
      · omega
      · omega
      · have : 2944 + k.val = 3071 := h
        omega)]
    refine (View.read_writes_cons_unit_of_not_mem (Memref.whole cc0_scratch7 : Memref sig .tc .vmem S3072x128 .f32).view f7 (off := ![0, 0]) (off' := ![0, 0]) (size := S1x128.size)
        inb_S3072x128_S1x128_0_0 _ _ (ValueIdx.ix2 r k) rfl (0 : Fin 2) (Or.inr ?_)).trans ?_
    · show 0 + 1 ≤ r.val; omega
    refine (View.read_writes_cons_unit_of_not_mem (Memref.whole cc0_scratch7 : Memref sig .tc .vmem S3072x128 .f32).view f7 (off := ![0, 127]) (off' := ![0, 127]) (size := S3072x1.size)
        inb_S3072x128_S3072x1_0_127 _ _ (ValueIdx.ix2 r k) rfl (1 : Fin 2) (Or.inl ?_)).trans ?_
    · show k.val < 127; omega
    refine (View.read_writes_cons_unit_of_mem (Memref.whole cc0_scratch7 : Memref sig .tc .vmem S3072x128 .f32).view f7 (off := ![0, 0]) (off' := ![0, 0]) (size := S3072x128.size)
        inb_S3072x128_S3072x128_0_0 _ _ (ValueIdx.ix2 r k) (ValueIdx.ix2 r k) rfl ?_).trans ?_
    · intro a
      match a with
      | ⟨0, _⟩ => show r.val = 0 + r.val; omega
      | ⟨1, _⟩ => show k.val = 0 + k.val; omega
    unfold sound_body_01.sl.v406 sound_body_01.sl.v407 sound_body_01.sl.r_8 sound_body_01.sl.v408 sound_body_01.sl.r_9 sound_body_01.sl.v412 sound_body_01.sl.v414
    exact east_strip (X m c) _ hes _ (rowLanded m c) _ (colLanded m c) _ _ _ _ _ _ _ _ r k
  have hval := out_assemble c o0 (OUT m c) _ _ _ _ _ _ _ _ hpE hpW hp0 hp1 hp2 hp3 hp4 hp5
  ihave Hout := (close_whole c main_v1 _ (OUT m c) hval) $$ Hout
  isplitr [HO]
  · iapply (body_close m c _ _ _ _ _ _ _ _ _) $$ HatRS_pay1 HatCS_pay1 Hx0 Hx1 Haside Hout H0 H1 HatRR_pay1 HatCR_pay1 H4 H5 H6 H7
      HsL0 HsL1 HsS0 HsS1 HsF0 HsF1 HzRS HzRR HzCS HzCR
  · iexists _
    isplitr; swap
    · iexact HO
    · ipureintro; exact fun _ _ => Or.inl trivial

end Cert.KernelIdealProof

end
-- ==== Proof.Body10KernelIdeal.lean ====
import proofs.«900195_g7700000000000196_dist_halo2d_stencil_xy_m3072_n3072_v7x_xy2x2_f32_1_alg».proof.Proof.BodyCommonKernelIdeal
import proofs.«900195_g7700000000000196_dist_halo2d_stencil_xy_m3072_n3072_v7x_xy2x2_f32_1_alg».proof.Proof.ValLemAKernelIdeal
import proofs.«900195_g7700000000000196_dist_halo2d_stencil_xy_m3072_n3072_v7x_xy2x2_f32_1_alg».proof.Proof.ValLemBKernelIdeal
import proofs.«900195_g7700000000000196_dist_halo2d_stencil_xy_m3072_n3072_v7x_xy2x2_f32_1_alg».proof.Proof.ValLemCKernelIdeal
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 4000000 in
theorem sound_body_10 (K : Dev nD × Fin 5 → ℕ) (c : Dev nD) (ha : c.val / 2 = 1) (hb : c.val % 2 = 0) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyPre ghost invs locals0 arrays0 scratch
  iintro ⟨⟨⟨⟨⟨#HIbar, #HIrs, #HIrr, #HIcs, #HIcr, #HIbarV, #HIbarH, #HIrrV, #HIcrH⟩, HatB, HatRS, HatRR, HatCS, HatCR,
      #HrBV, #HrBH, #HrRRV, #HrCRH, #HrRS, #HrRR, #HrCS, #HrCR, HtBV, HtBH, HtRRV, HtCRH, HtRS, HtCS⟩, HcB, HcRR, HcCR, #Hlev⟩,
    ⟨HsL0, HsL1, HsS0, HsS1, HsF0, HsF1⟩, ⟨Hx, ⟨%o0, Hout⟩⟩,
    ⟨⟨%f0, H0⟩, ⟨%f1, H1⟩, ⟨%f2, H2⟩, ⟨%f3, H3⟩, ⟨%f4, H4⟩, ⟨%f5, H5⟩, ⟨%f6, H6⟩, ⟨%f7, H7⟩⟩, Ho⟩, Hk⟩
  unfold Dat.owesAt Pipeline.owesWithin
  icases Ho with ⟨%W, %hW, HO⟩
  rw [show (dats m 0 c).owed t₀.castSucc = O₀ c from rfl]
  unfold O₀ O₁ O₂ O₃
  ihave Hb := (body_open m c _ _ _ _ _ _ _ _ _) $$ Hx Hout H0 H1 H2 H3 H4 H5 H6 H7
  icases Hb with ⟨Hout, H0, H1, H2, H3, H4, H5, H6, H7, Hx0, Hx1, HxR, HxC, Haside⟩
  unfold held
  have hmw : (levAts L lv : sProp 𝕄) ⊢ MayWait (c : Thread nD τ) (.reg barS) ()
      (tallyAt (colRecvCell (hn c)) () NC + tallyAt (rowRecvCell (vn c)) () NR) := mayWait_bar c
  sl_exec_parts (disch := first | simp only [dev1_eq, dev2_eq, dev3_eq, dev4_eq] | (clear * - ha hb; decide +kernel +revert))
  ihave Hbp := (Entails.of_eq (bar_round m c)) $$ HatB_pay1
  unfold barPayV barPayH giveV giveH rhPts chPts
  icases Hbp with ⟨⟨⟨%fv, HrhV⟩, #HrV'⟩, ⟨⟨%fh, HchH⟩, #HrH'⟩⟩
  sl_exec_parts (disch := first | simp only [dev1_eq, dev2_eq, dev3_eq, dev4_eq] | (clear * - ha hb; decide +kernel +revert))
  have hcrR : (rowSrc c).view.dmaCredit = 3072 := by rfl
  have hcrC : (colSrc c).view.dmaCredit = 49152 := by rfl
  ihave HxR_cred : cred (tallyAt (rowSendCell c) default ((rowSrc c).view.dmaCredit)) $$ [HxR_cred]
  · rw [hcrR]; iexact HxR_cred
  ihave HxC_cred : cred (tallyAt (colSendCell c) default ((colSrc c).view.dmaCredit)) $$ [HxC_cred]
  · rw [hcrC]; iexact HxC_cred
  sl_exec_parts (disch := first | simp only [dev1_eq, dev2_eq, dev3_eq, dev4_eq] | (clear * - ha hb; decide +kernel +revert))
  imod (Rounds.cell_close ER (sched m) (Set.mem_univ (K (c, 1))) (fun h => h) (R := 0 + 1) (duties_later m (rowSendCell c))) $$ [HatRS] with HzRS
  · isplitr; · iexact HIrs
    iexact HatRS
  imod (Rounds.cell_close ER (sched m) (Set.mem_univ (K (c, 2))) (fun h => h) (R := 0 + 1) (duties_later m (rowRecvCell c))) $$ [HatRR] with HzRR
  · isplitr; · iexact HIrr
    iexact HatRR
  imod (Rounds.cell_close ER (sched m) (Set.mem_univ (K (c, 3))) (fun h => h) (R := 0 + 1) (duties_later m (colSendCell c))) $$ [HatCS] with HzCS
  · isplitr; · iexact HIcs
    iexact HatCS
  imod (Rounds.cell_close ER (sched m) (Set.mem_univ (K (c, 4))) (fun h => h) (R := 0 + 1) (duties_later m (colRecvCell c))) $$ [HatCR] with HzCR
  · isplitr; · iexact HIcr
    iexact HatCR
  rw [wp_ret]; imodintro
  iapply Hk
  unfold bodyPost Φ₁ arrays1 Dat.owesAt Pipeline.owesWithin
  rw [show (dats m 0 c).owed t₀.succ = 0 from rfl]
  have hp0 : ∀ (r : Fin 512) (k : Fin 3072), 0 < k.val → k.val < 3071 → sound_body_10.sl.dma11 m c f0 f1 HatRR_pay1_v (ValueIdx.ix2 r k) = OUT m c (ValueIdx.ix2 (⟨0 + r.val, by have := r.isLt; omega⟩ : Fin 3072) k) := by
    intro r k hk1 hk2
    unfold sound_body_10.sl.dma11 sound_body_10.sl.H1_1
    refine (stage_top (0 : Fin 2) _ _ f1 _ _ r k).trans ?_
    unfold sound_body_10.sl.v65 sound_body_10.sl.v68 sound_body_10.sl.v71
    by_cases hr : r.val = 0
    · refine first_chunk_halo m c ha _ (0 : Fin 2) 520 ?_ 1 rfl _ _ _ (by norm_num) _ r k hk1 hk2 hr ?_
      · refine slotHolds_other (1 : Fin 2) (0 : Fin 2) (by decide) 528 _ _ _ (X m c) _ 520 0 ?_
        unfold sound_body_10.sl.dma0
        exact slotHolds_loaded (0 : Fin 2) 520 0 _ _ _ (X m c) _
      · exact rh_at (⟨7, by norm_num⟩ : Fin 8) _ HatRR_pay1_v _ k
    · refine first_chunk_rest m c _ (0 : Fin 2) 520 0 ?_ 0 1 rfl _ _ _ 0 rfl (by norm_num) (by norm_num) _ r k hk1 hk2 (by omega)
      unfold sound_body_10.sl.dma0
      exact slotHolds_other (1 : Fin 2) (0 : Fin 2) (by decide) 528 _ _ _ (X m c) _ 520 0 (slotHolds_loaded (0 : Fin 2) 520 0 _ _ _ (X m c) _)
  have hp1 : ∀ (r : Fin 512) (k : Fin 3072), 0 < k.val → k.val < 3071 → sound_body_10.sl.dma22 m c f0 f1 HatRR_pay1_v (ValueIdx.ix2 r k) = OUT m c (ValueIdx.ix2 (⟨512 + r.val, by have := r.isLt; omega⟩ : Fin 3072) k) := by
    intro r k hk1 hk2
    unfold sound_body_10.sl.dma22 sound_body_10.sl.H1_2
    refine (stage_top (1 : Fin 2) _ _ f1 _ _ r k).trans ?_
    unfold sound_body_10.sl.v118 sound_body_10.sl.v120 sound_body_10.sl.v122
    refine (congrFun (pay5_eq _ _ _) _).trans ?_
    refine plain_chunk m c _ (1 : Fin 2) 528 504 ?_ 8 7 9 rfl rfl _ _ _ 512 rfl (by norm_num) (by norm_num) (by norm_num) r k hk1 hk2
    unfold sound_body_10.sl.dma0_1
    exact slotHolds_other (0 : Fin 2) (1 : Fin 2) (by decide) 528 _ _ _ (X m c) _ 528 504 (slotHolds_loaded (1 : Fin 2) 528 504 _ _ _ (X m c) _)
  have hp2 : ∀ (r : Fin 512) (k : Fin 3072), 0 < k.val → k.val < 3071 → sound_body_10.sl.dma33 m c f0 f1 HatRR_pay1_v (ValueIdx.ix2 r k) = OUT m c (ValueIdx.ix2 (⟨1024 + r.val, by have := r.isLt; omega⟩ : Fin 3072) k) := by
    intro r k hk1 hk2
    unfold sound_body_10.sl.dma33 sound_body_10.sl.H1_3
    refine (stage_top (0 : Fin 2) _ _ f1 _ _ r k).trans ?_
    unfold sound_body_10.sl.v172 sound_body_10.sl.v174 sound_body_10.sl.v171 sound_body_10.sl.v173 sound_body_10.sl.v175
    refine (congrFun (pay10_eq _ _ _) _).trans ?_
    refine plain_chunk m c _ (0 : Fin 2) 528 1016 ?_ 8 7 9 rfl rfl _ _ _ 1024 rfl (by norm_num) (by norm_num) (by norm_num) r k hk1 hk2
    unfold sound_body_10.sl.dma11_1
    exact slotHolds_other (1 : Fin 2) (0 : Fin 2) (by decide) 528 _ _ _ (X m c) _ 528 1016 (slotHolds_loaded (0 : Fin 2) 528 1016 _ _ _ (X m c) _)
  have hp3 : ∀ (r : Fin 512) (k : Fin 3072), 0 < k.val → k.val < 3071 → sound_body_10.sl.dma44 m c f0 f1 HatRR_pay1_v (ValueIdx.ix2 r k) = OUT m c (ValueIdx.ix2 (⟨1536 + r.val, by have := r.isLt; omega⟩ : Fin 3072) k) := by
    intro r k hk1 hk2
    unfold sound_body_10.sl.dma44 sound_body_10.sl.H1_4
    refine (stage_top (1 : Fin 2) _ _ f1 _ _ r k).trans ?_
    unfold sound_body_10.sl.r_1 sound_body_10.sl.r_2 sound_body_10.sl.r_3 sound_body_10.sl.r_4 sound_body_10.sl.r_5
      sound_body_10.sl.v224 sound_body_10.sl.v226 sound_body_10.sl.v228
    refine (congrFun (pay19_eq _ _ _) _).trans ?_
    refine plain_chunk m c _ (1 : Fin 2) 528 1528 ?_ 8 7 9 rfl rfl _ _ _ 1536 rfl (by norm_num) (by norm_num) (by norm_num) r k hk1 hk2
    unfold sound_body_10.sl.dma22_1
    exact slotHolds_other (0 : Fin 2) (1 : Fin 2) (by decide) 528 _ _ _ (X m c) _ 528 1528 (slotHolds_loaded (1 : Fin 2) 528 1528 _ _ _ (X m c) _)
  have hp4 : ∀ (r : Fin 512) (k : Fin 3072), 0 < k.val → k.val < 3071 → sound_body_10.sl.dma55 m c f0 f1 HatRR_pay1_v (ValueIdx.ix2 r k) = OUT m c (ValueIdx.ix2 (⟨2048 + r.val, by have := r.isLt; omega⟩ : Fin 3072) k) := by
    intro r k hk1 hk2
    unfold sound_body_10.sl.dma55 sound_body_10.sl.H1_5
    refine (stage_top (0 : Fin 2) _ _ f1 _ _ r k).trans ?_
    unfold sound_body_10.sl.v299 sound_body_10.sl.r_6 sound_body_10.sl.v277 sound_body_10.sl.v279 sound_body_10.sl.v281
    show k0_pay23 (k0_pay22 _ _ _) (ValueIdx.ix3 (0 : Fin 1) r k) = _
    refine (congrFun (pay23_eq _ _ _) _).trans ?_
    refine plain_chunk m c _ (0 : Fin 2) 528 2040 ?_ 8 7 9 rfl rfl _ _ _ 2048 rfl (by norm_num) (by norm_num) (by norm_num) r k hk1 hk2
    unfold sound_body_10.sl.dma33_1
    exact slotHolds_other (1 : Fin 2) (0 : Fin 2) (by decide) 520 _ _ _ (X m c) _ 528 2040 (slotHolds_loaded (0 : Fin 2) 528 2040 _ _ _ (X m c) _)
  have hp5 : ∀ (r : Fin 512) (k : Fin 3072), 0 < k.val → k.val < 3071 → sound_body_10.sl.dma70 m c f0 f1 HatRR_pay1_v (ValueIdx.ix2 r k) = OUT m c (ValueIdx.ix2 (⟨2560 + r.val, by have := r.isLt; omega⟩ : Fin 3072) k) := by
    intro r k hk1 hk2
    unfold sound_body_10.sl.dma70 sound_body_10.sl.H1_7 sound_body_10.sl.H1_6
    refine (stage_kept (1 : Fin 2) 511 _ _ _ _ f1 _ _ r k).trans ?_
    by_cases hr : r.val = 511
    · rw [if_pos hr]
      unfold sound_body_10.sl.v469 sound_body_10.sl.v466 sound_body_10.sl.v465
      refine kept_bot m c ha _ (1 : Fin 2) 520 2552 519 ?_ (by norm_num) (by norm_num) _ r k hr
      unfold sound_body_10.sl.dma44_1
      exact slotHolds_loaded (1 : Fin 2) 520 2552 _ _ _ (X m c) _
    · rw [if_neg hr]
      unfold sound_body_10.sl.v325 sound_body_10.sl.v327 sound_body_10.sl.v329
      refine last_chunk_rest m c _ (1 : Fin 2) 520 2552 ?_ 8 7 9 rfl rfl _ _ _ 2560 rfl (by norm_num) (by norm_num) (by norm_num)
        _ r k hk1 hk2 (by have := r.isLt; omega)
      unfold sound_body_10.sl.dma44_1
      exact slotHolds_loaded (1 : Fin 2) 520 2552 _ _ _ (X m c) _
  have hpW : ∀ (r : Fin 3072) (k : Fin 128), sound_body_10.sl.dma28 m c f0 f6 HatRR_pay1_v HatCR_pay1_v (ValueIdx.ix2 r k) = OUT m c (ValueIdx.ix2 r (⟨k.val, by have := k.isLt; omega⟩ : Fin 3072)) := by
    intro r k
    have hk := k.isLt
    have hr := r.isLt
    have hws : ∀ (y : S3072x256.Idx) (i : S3072x3072.Idx), (i 0).val = (y 0).val → (i 1).val = 0 + (y 1).val →
        View.canon (sound_body_10.sl.H4_6 m c f0) y = X m c i := by
      intro y i h0 h1
      unfold sound_body_10.sl.H4_6 sound_body_10.sl.H4_5 sound_body_10.sl.H4_4 sound_body_10.sl.H4_3 sound_body_10.sl.H4_2 sound_body_10.sl.H4_1
      refine save_canon (X m c) 0 _ _ _ _ _ _ _ _ _ _ _ _ ?_ ?_ ?_ ?_ ?_ ?_ y i h0 h1
      · intro a b i h0 h1
        unfold sound_body_10.sl.v94 sound_body_10.sl.v91
        refine (cast2_apply _ _ _ a b).trans ?_
        unfold sound_body_10.sl.v90 sound_body_10.sl.dma0
        exact xt_load_miss (X m c) _ _ 1 528 _ _ _ 0 520 0 0 0 512 256 (by omega) _ _ _ _ _ _ a b (by omega) i (by omega) (by omega)
      · intro a b i h0 h1
        unfold k0_pay6
        refine (cast2_apply _ _ _ a b).trans ?_
        unfold sound_body_10.sl.v141 sound_body_10.sl.dma0_1
        exact xt_load_miss (X m c) _ _ 0 528 _ _ _ 1 528 8 0 504 512 256 (by omega) _ _ _ _ _ _ a b (by omega) i (by omega) (by omega)
      · intro a b i h0 h1
        unfold k0_pay11
        refine (cast2_apply _ _ _ a b).trans ?_
        unfold sound_body_10.sl.v194 sound_body_10.sl.dma11_1
        exact xt_load_miss (X m c) _ _ 1 528 _ _ _ 0 528 8 0 1016 512 256 (by omega) _ _ _ _ _ _ a b (by omega) i (by omega) (by omega)
      · intro a b i h0 h1
        unfold k0_pay20
        refine (cast2_apply _ _ _ a b).trans ?_
        unfold sound_body_10.sl.v247 sound_body_10.sl.dma22_1
        exact xt_load_miss (X m c) _ _ 0 528 _ _ _ 1 528 8 0 1528 512 256 (by omega) _ _ _ _ _ _ a b (by omega) i (by omega) (by omega)
      · intro a b i h0 h1
        unfold sound_body_10.sl.v304 sound_body_10.sl.v301
        refine (cast2_apply _ _ _ a b).trans ?_
        unfold sound_body_10.sl.v300 sound_body_10.sl.dma33_1
        exact xt_load_miss (X m c) _ _ 1 520 _ _ _ 0 528 8 0 2040 512 256 (by omega) _ _ _ _ _ _ a b (by omega) i (by omega) (by omega)
      · intro a b i h0 h1
        unfold k0_pay27
        refine (cast2_apply _ _ _ a b).trans ?_
        unfold sound_body_10.sl.v350 sound_body_10.sl.dma44_1
        exact xt_load_hit (X m c) _ 1 520 8 0 2552 512 256 _ _ _ _ _ _ a b (by omega) i (by omega) (by omega)
    unfold sound_body_10.sl.dma28 sound_body_10.sl.H6_3
    rw [ReadAs.apply_same]
    unfold OUT
    rw [outOf_eq]
    by_cases hr71 : r.val = 3071
    · rw [if_pos (Or.inr (Or.inl ⟨ha, hr71⟩))]
      refine (View.read_writes_cons_unit_of_mem (Memref.whole cc0_scratch6 : Memref sig .tc .vmem S3072x128 .f32).view f6 (off := ![3071, 0]) (off' := ![3071, 0]) (size := S1x128.size)
        inb_S3072x128_S1x128_3071_0 _ _ (ValueIdx.ix2 r k) (ValueIdx.ix2 (⟨0, Nat.one_pos⟩ : Fin 1) k) rfl ?_).trans ?_
      · intro a
        match a with
        | ⟨0, _⟩ => show r.val = 3071 + 0; omega
        | ⟨1, _⟩ => show k.val = 0 + k.val; omega
      · unfold k0_pay36 sound_body_10.sl.v465_2
        rw [shapeCast_self,
          readCov_unit_apply _ _ _ _ _ _ (ValueIdx.ix2 (⟨r.val, hr⟩ : Fin 3072) (⟨k.val, by omega⟩ : Fin 256)) (by show r.val = 3071 + 0; omega) (by show k.val = 0 + k.val; omega)]
        exact hws _ _ rfl (by show k.val = 0 + k.val; omega)
    by_cases hk0 : k.val = 0
    · rw [if_pos (Or.inr (Or.inr (Or.inl ⟨hb, hk0⟩)))]
      refine (View.read_writes_cons_unit_of_not_mem (Memref.whole cc0_scratch6 : Memref sig .tc .vmem S3072x128 .f32).view f6 (off := ![3071, 0]) (off' := ![3071, 0]) (size := S1x128.size)
        inb_S3072x128_S1x128_3071_0 _ _ (ValueIdx.ix2 r k) rfl (0 : Fin 2) (Or.inl ?_)).trans ?_
      · show r.val < 3071; omega
      refine (View.read_writes_cons_unit_of_mem (Memref.whole cc0_scratch6 : Memref sig .tc .vmem S3072x128 .f32).view f6 (off := ![0, 0]) (off' := ![0, 0]) (size := S3072x1.size)
        inb_S3072x128_S3072x1_0_0 _ _ (ValueIdx.ix2 r k) (ValueIdx.ix2 r (⟨0, Nat.one_pos⟩ : Fin 1)) rfl ?_).trans ?_
      · intro a
        match a with
        | ⟨0, _⟩ => show r.val = 0 + r.val; omega
        | ⟨1, _⟩ => show k.val = 0 + 0; omega
      · unfold k0_pay34 sound_body_10.sl.v465_1
        rw [shapeCast_self,
          readCov_unit_apply _ _ _ _ _ _ (ValueIdx.ix2 r (⟨0, by omega⟩ : Fin 256)) (by show r.val = 0 + r.val; omega) (by show 0 = 0 + 0; rfl)]
        exact hws _ _ rfl (by show k.val = 0 + 0; omega)
    rw [if_neg (by
      rintro (⟨h, _⟩ | ⟨_, h⟩ | ⟨_, h⟩ | ⟨h, _⟩)
      · omega
      · exact hr71 h
      · exact hk0 h
      · omega)]
    refine (View.read_writes_cons_unit_of_not_mem (Memref.whole cc0_scratch6 : Memref sig .tc .vmem S3072x128 .f32).view f6 (off := ![3071, 0]) (off' := ![3071, 0]) (size := S1x128.size)
        inb_S3072x128_S1x128_3071_0 _ _ (ValueIdx.ix2 r k) rfl (0 : Fin 2) (Or.inl ?_)).trans ?_
    · show r.val < 3071; omega
    refine (View.read_writes_cons_unit_of_not_mem (Memref.whole cc0_scratch6 : Memref sig .tc .vmem S3072x128 .f32).view f6 (off := ![0, 0]) (off' := ![0, 0]) (size := S3072x1.size)
        inb_S3072x128_S3072x1_0_0 _ _ (ValueIdx.ix2 r k) rfl (1 : Fin 2) (Or.inr ?_)).trans ?_
    · show 0 + 1 ≤ k.val; omega
    refine (View.read_writes_cons_unit_of_mem (Memref.whole cc0_scratch6 : Memref sig .tc .vmem S3072x128 .f32).view f6 (off := ![0, 0]) (off' := ![0, 0]) (size := S3072x128.size)
        inb_S3072x128_S3072x128_0_0 _ _ (ValueIdx.ix2 r k) (ValueIdx.ix2 r k) rfl ?_).trans ?_
    · intro a
      match a with
      | ⟨0, _⟩ => show r.val = 0 + r.val; omega
      | ⟨1, _⟩ => show k.val = 0 + k.val; omega
    unfold sound_body_10.sl.v375 sound_body_10.sl.v378 sound_body_10.sl.v377 sound_body_10.sl.v379 sound_body_10.sl.v382 sound_body_10.sl.v381 sound_body_10.sl.v383
    exact west_strip (X m c) _ hws _ (rowLanded m c) _ (colLanded m c) _ _ _ _ _ _ _ _ _ _ r k
  have hpE : ∀ (r : Fin 3072) (k : Fin 128), sound_body_10.sl.dma28_1 m c f0 f7 HatRR_pay1_v HatCR_pay1_v (ValueIdx.ix2 r k) = OUT m c (ValueIdx.ix2 r (⟨2944 + k.val, by have := k.isLt; omega⟩ : Fin 3072)) := by
    intro r k
    have hk := k.isLt
    have hr := r.isLt
    have hes : ∀ (y : S3072x256.Idx) (i : S3072x3072.Idx), (i 0).val = (y 0).val → (i 1).val = 2816 + (y 1).val →
        View.canon ((⟨Rect.unit ![2560, 0] S512x256.size inb_S3072x256_S512x256_2560_0, sound_body_10.sl.v359 m c f0⟩ :
          View.Piece (Elt F) S3072x256 .f32) :: sound_body_10.sl.H5_5 m c f0) y = X m c i := by
      intro y i h0 h1
      unfold sound_body_10.sl.H5_5 sound_body_10.sl.H5_4 sound_body_10.sl.H5_3 sound_body_10.sl.H5_2 sound_body_10.sl.H5_1
      refine save_canon (X m c) 2816 _ _ _ _ _ _ _ _ _ _ _ _ ?_ ?_ ?_ ?_ ?_ ?_ y i h0 h1
      · intro a b i h0 h1
        unfold sound_body_10.sl.v99 sound_body_10.sl.v96
        refine (cast2_apply _ _ _ a b).trans ?_
        unfold sound_body_10.sl.v95 sound_body_10.sl.dma0
        exact xt_load_miss (X m c) _ _ 1 528 _ _ _ 0 520 0 2816 0 512 256 (by omega) _ _ _ _ _ _ a b (by omega) i (by omega) (by omega)
      · intro a b i h0 h1
        unfold sound_body_10.sl.r k0_pay7
        refine (cast2_apply _ _ _ a b).trans ?_
        unfold sound_body_10.sl.v146 sound_body_10.sl.dma0_1
        exact xt_load_miss (X m c) _ _ 0 528 _ _ _ 1 528 8 2816 504 512 256 (by omega) _ _ _ _ _ _ a b (by omega) i (by omega) (by omega)
      · intro a b i h0 h1
        unfold k0_pay12
        refine (cast2_apply _ _ _ a b).trans ?_
        unfold sound_body_10.sl.v199 sound_body_10.sl.dma11_1
        exact xt_load_miss (X m c) _ _ 1 528 _ _ _ 0 528 8 2816 1016 512 256 (by omega) _ _ _ _ _ _ a b (by omega) i (by omega) (by omega)
      · intro a b i h0 h1
        unfold k0_pay21
        refine (cast2_apply _ _ _ a b).trans ?_
        unfold sound_body_10.sl.v252 sound_body_10.sl.dma22_1
        exact xt_load_miss (X m c) _ _ 0 528 _ _ _ 1 528 8 2816 1528 512 256 (by omega) _ _ _ _ _ _ a b (by omega) i (by omega) (by omega)
      · intro a b i h0 h1
        unfold sound_body_10.sl.v309 sound_body_10.sl.v306
        refine (cast2_apply _ _ _ a b).trans ?_
        unfold sound_body_10.sl.v305 sound_body_10.sl.dma33_1
        exact xt_load_miss (X m c) _ _ 1 520 _ _ _ 0 528 8 2816 2040 512 256 (by omega) _ _ _ _ _ _ a b (by omega) i (by omega) (by omega)
      · intro a b i h0 h1
        unfold sound_body_10.sl.v359 sound_body_10.sl.r_7 k0_pay28
        refine (cast2_apply _ _ _ a b).trans ?_
        unfold sound_body_10.sl.v355 sound_body_10.sl.dma44_1
        exact xt_load_hit (X m c) _ 1 520 8 2816 2552 512 256 _ _ _ _ _ _ a b (by omega) i (by omega) (by omega)
    unfold sound_body_10.sl.dma28_1 sound_body_10.sl.H7_2
    rw [ReadAs.apply_same]
    unfold OUT
    rw [outOf_eq]
    by_cases hr71 : r.val = 3071
    · rw [if_pos (Or.inr (Or.inl ⟨ha, hr71⟩))]
      refine (View.read_writes_cons_unit_of_mem (Memref.whole cc0_scratch7 : Memref sig .tc .vmem S3072x128 .f32).view f7 (off := ![3071, 0]) (off' := ![3071, 0]) (size := S1x128.size)
        inb_S3072x128_S1x128_3071_0 _ _ (ValueIdx.ix2 r k) (ValueIdx.ix2 (⟨0, Nat.one_pos⟩ : Fin 1) k) rfl ?_).trans ?_
      · intro a
        match a with
        | ⟨0, _⟩ => show r.val = 3071 + 0; omega
        | ⟨1, _⟩ => show k.val = 0 + k.val; omega
      · unfold k0_pay42 sound_body_10.sl.v465_3
        rw [shapeCast_self,
          readCov_unit_apply _ _ _ _ _ _ (ValueIdx.ix2 (⟨r.val, hr⟩ : Fin 3072) (⟨128 + k.val, by omega⟩ : Fin 256)) (by show r.val = 3071 + 0; omega) (by show 128 + k.val = 128 + k.val; rfl)]
        exact hes _ _ rfl (by show 2944 + k.val = 2816 + (128 + k.val); omega)
    rw [if_neg (by
      rintro (⟨h, _⟩ | ⟨_, h⟩ | ⟨_, h⟩ | ⟨h, _⟩)
      · omega
      · exact hr71 h
      · exact absurd h (by show ¬ 2944 + k.val = 0; omega)
      · omega)]
    refine (View.read_writes_cons_unit_of_not_mem (Memref.whole cc0_scratch7 : Memref sig .tc .vmem S3072x128 .f32).view f7 (off := ![3071, 0]) (off' := ![3071, 0]) (size := S1x128.size)
        inb_S3072x128_S1x128_3071_0 _ _ (ValueIdx.ix2 r k) rfl (0 : Fin 2) (Or.inl ?_)).trans ?_
    · show r.val < 3071; omega
    refine (View.read_writes_cons_unit_of_mem (Memref.whole cc0_scratch7 : Memref sig .tc .vmem S3072x128 .f32).view f7 (off := ![0, 0]) (off' := ![0, 0]) (size := S3072x128.size)
        inb_S3072x128_S3072x128_0_0 _ _ (ValueIdx.ix2 r k) (ValueIdx.ix2 r k) rfl ?_).trans ?_
    · intro a
      match a with
      | ⟨0, _⟩ => show r.val = 0 + r.val; omega
      | ⟨1, _⟩ => show k.val = 0 + k.val; omega
    unfold sound_body_10.sl.v406 sound_body_10.sl.v407 sound_body_10.sl.r_8 sound_body_10.sl.v408 sound_body_10.sl.r_9 sound_body_10.sl.v412 sound_body_10.sl.v414
    exact east_strip (X m c) _ hes _ (rowLanded m c) _ (colLanded m c) _ _ _ _ _ _ _ _ r k
  have hval := out_assemble c o0 (OUT m c) _ _ _ _ _ _ _ _ hpE hpW hp0 hp1 hp2 hp3 hp4 hp5
  ihave Hout := (close_whole c main_v1 _ (OUT m c) hval) $$ Hout
  isplitr [HO]
  · iapply (body_close m c _ _ _ _ _ _ _ _ _) $$ HatRS_pay1 HatCS_pay1 Hx0 Hx1 Haside Hout H0 H1 HatRR_pay1 HatCR_pay1 H4 H5 H6 H7
      HsL0 HsL1 HsS0 HsS1 HsF0 HsF1 HzRS HzRR HzCS HzCR
  · iexists _
    isplitr; swap
    · iexact HO
    · ipureintro; exact fun _ _ => Or.inl trivial

end Cert.KernelIdealProof

end
-- ==== Proof.Body11KernelIdeal.lean ====
import proofs.«900195_g7700000000000196_dist_halo2d_stencil_xy_m3072_n3072_v7x_xy2x2_f32_1_alg».proof.Proof.BodyCommonKernelIdeal
import proofs.«900195_g7700000000000196_dist_halo2d_stencil_xy_m3072_n3072_v7x_xy2x2_f32_1_alg».proof.Proof.ValLemAKernelIdeal
import proofs.«900195_g7700000000000196_dist_halo2d_stencil_xy_m3072_n3072_v7x_xy2x2_f32_1_alg».proof.Proof.ValLemBKernelIdeal
import proofs.«900195_g7700000000000196_dist_halo2d_stencil_xy_m3072_n3072_v7x_xy2x2_f32_1_alg».proof.Proof.ValLemCKernelIdeal
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 4000000 in
theorem sound_body_11 (K : Dev nD × Fin 5 → ℕ) (c : Dev nD) (ha : c.val / 2 = 1) (hb : c.val % 2 = 1) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyPre ghost invs locals0 arrays0 scratch
  iintro ⟨⟨⟨⟨⟨#HIbar, #HIrs, #HIrr, #HIcs, #HIcr, #HIbarV, #HIbarH, #HIrrV, #HIcrH⟩, HatB, HatRS, HatRR, HatCS, HatCR,
      #HrBV, #HrBH, #HrRRV, #HrCRH, #HrRS, #HrRR, #HrCS, #HrCR, HtBV, HtBH, HtRRV, HtCRH, HtRS, HtCS⟩, HcB, HcRR, HcCR, #Hlev⟩,
    ⟨HsL0, HsL1, HsS0, HsS1, HsF0, HsF1⟩, ⟨Hx, ⟨%o0, Hout⟩⟩,
    ⟨⟨%f0, H0⟩, ⟨%f1, H1⟩, ⟨%f2, H2⟩, ⟨%f3, H3⟩, ⟨%f4, H4⟩, ⟨%f5, H5⟩, ⟨%f6, H6⟩, ⟨%f7, H7⟩⟩, Ho⟩, Hk⟩
  unfold Dat.owesAt Pipeline.owesWithin
  icases Ho with ⟨%W, %hW, HO⟩
  rw [show (dats m 0 c).owed t₀.castSucc = O₀ c from rfl]
  unfold O₀ O₁ O₂ O₃
  ihave Hb := (body_open m c _ _ _ _ _ _ _ _ _) $$ Hx Hout H0 H1 H2 H3 H4 H5 H6 H7
  icases Hb with ⟨Hout, H0, H1, H2, H3, H4, H5, H6, H7, Hx0, Hx1, HxR, HxC, Haside⟩
  unfold held
  have hmw : (levAts L lv : sProp 𝕄) ⊢ MayWait (c : Thread nD τ) (.reg barS) ()
      (tallyAt (colRecvCell (hn c)) () NC + tallyAt (rowRecvCell (vn c)) () NR) := mayWait_bar c
  sl_exec_parts (disch := first | simp only [dev1_eq, dev2_eq, dev3_eq, dev4_eq] | (clear * - ha hb; decide +kernel +revert))
  ihave Hbp := (Entails.of_eq (bar_round m c)) $$ HatB_pay1
  unfold barPayV barPayH giveV giveH rhPts chPts
  icases Hbp with ⟨⟨⟨%fv, HrhV⟩, #HrV'⟩, ⟨⟨%fh, HchH⟩, #HrH'⟩⟩
  sl_exec_parts (disch := first | simp only [dev1_eq, dev2_eq, dev3_eq, dev4_eq] | (clear * - ha hb; decide +kernel +revert))
  have hcrR : (rowSrc c).view.dmaCredit = 3072 := by rfl
  have hcrC : (colSrc c).view.dmaCredit = 49152 := by rfl
  ihave HxR_cred : cred (tallyAt (rowSendCell c) default ((rowSrc c).view.dmaCredit)) $$ [HxR_cred]
  · rw [hcrR]; iexact HxR_cred
  ihave HxC_cred : cred (tallyAt (colSendCell c) default ((colSrc c).view.dmaCredit)) $$ [HxC_cred]
  · rw [hcrC]; iexact HxC_cred
  sl_exec_parts (disch := first | simp only [dev1_eq, dev2_eq, dev3_eq, dev4_eq] | (clear * - ha hb; decide +kernel +revert))
  imod (Rounds.cell_close ER (sched m) (Set.mem_univ (K (c, 1))) (fun h => h) (R := 0 + 1) (duties_later m (rowSendCell c))) $$ [HatRS] with HzRS
  · isplitr; · iexact HIrs
    iexact HatRS
  imod (Rounds.cell_close ER (sched m) (Set.mem_univ (K (c, 2))) (fun h => h) (R := 0 + 1) (duties_later m (rowRecvCell c))) $$ [HatRR] with HzRR
  · isplitr; · iexact HIrr
    iexact HatRR
  imod (Rounds.cell_close ER (sched m) (Set.mem_univ (K (c, 3))) (fun h => h) (R := 0 + 1) (duties_later m (colSendCell c))) $$ [HatCS] with HzCS
  · isplitr; · iexact HIcs
    iexact HatCS
  imod (Rounds.cell_close ER (sched m) (Set.mem_univ (K (c, 4))) (fun h => h) (R := 0 + 1) (duties_later m (colRecvCell c))) $$ [HatCR] with HzCR
  · isplitr; · iexact HIcr
    iexact HatCR
  rw [wp_ret]; imodintro
  iapply Hk
  unfold bodyPost Φ₁ arrays1 Dat.owesAt Pipeline.owesWithin
  rw [show (dats m 0 c).owed t₀.succ = 0 from rfl]
  have hp0 : ∀ (r : Fin 512) (k : Fin 3072), 0 < k.val → k.val < 3071 → sound_body_11.sl.dma11 m c f0 f1 HatRR_pay1_v (ValueIdx.ix2 r k) = OUT m c (ValueIdx.ix2 (⟨0 + r.val, by have := r.isLt; omega⟩ : Fin 3072) k) := by
    intro r k hk1 hk2
    unfold sound_body_11.sl.dma11 sound_body_11.sl.H1_1
    refine (stage_top (0 : Fin 2) _ _ f1 _ _ r k).trans ?_
    unfold sound_body_11.sl.v65 sound_body_11.sl.v68 sound_body_11.sl.v71
    by_cases hr : r.val = 0
    · refine first_chunk_halo m c ha _ (0 : Fin 2) 520 ?_ 1 rfl _ _ _ (by norm_num) _ r k hk1 hk2 hr ?_
      · refine slotHolds_other (1 : Fin 2) (0 : Fin 2) (by decide) 528 _ _ _ (X m c) _ 520 0 ?_
        unfold sound_body_11.sl.dma0
        exact slotHolds_loaded (0 : Fin 2) 520 0 _ _ _ (X m c) _
      · exact rh_at (⟨7, by norm_num⟩ : Fin 8) _ HatRR_pay1_v _ k
    · refine first_chunk_rest m c _ (0 : Fin 2) 520 0 ?_ 0 1 rfl _ _ _ 0 rfl (by norm_num) (by norm_num) _ r k hk1 hk2 (by omega)
      unfold sound_body_11.sl.dma0
      exact slotHolds_other (1 : Fin 2) (0 : Fin 2) (by decide) 528 _ _ _ (X m c) _ 520 0 (slotHolds_loaded (0 : Fin 2) 520 0 _ _ _ (X m c) _)
  have hp1 : ∀ (r : Fin 512) (k : Fin 3072), 0 < k.val → k.val < 3071 → sound_body_11.sl.dma22 m c f0 f1 HatRR_pay1_v (ValueIdx.ix2 r k) = OUT m c (ValueIdx.ix2 (⟨512 + r.val, by have := r.isLt; omega⟩ : Fin 3072) k) := by
    intro r k hk1 hk2
    unfold sound_body_11.sl.dma22 sound_body_11.sl.H1_2
    refine (stage_top (1 : Fin 2) _ _ f1 _ _ r k).trans ?_
    unfold sound_body_11.sl.v118 sound_body_11.sl.v120 sound_body_11.sl.v122
    refine (congrFun (pay5_eq _ _ _) _).trans ?_
    refine plain_chunk m c _ (1 : Fin 2) 528 504 ?_ 8 7 9 rfl rfl _ _ _ 512 rfl (by norm_num) (by norm_num) (by norm_num) r k hk1 hk2
    unfold sound_body_11.sl.dma0_1
    exact slotHolds_other (0 : Fin 2) (1 : Fin 2) (by decide) 528 _ _ _ (X m c) _ 528 504 (slotHolds_loaded (1 : Fin 2) 528 504 _ _ _ (X m c) _)
  have hp2 : ∀ (r : Fin 512) (k : Fin 3072), 0 < k.val → k.val < 3071 → sound_body_11.sl.dma33 m c f0 f1 HatRR_pay1_v (ValueIdx.ix2 r k) = OUT m c (ValueIdx.ix2 (⟨1024 + r.val, by have := r.isLt; omega⟩ : Fin 3072) k) := by
    intro r k hk1 hk2
    unfold sound_body_11.sl.dma33 sound_body_11.sl.H1_3
    refine (stage_top (0 : Fin 2) _ _ f1 _ _ r k).trans ?_
    unfold sound_body_11.sl.v172 sound_body_11.sl.v174 sound_body_11.sl.v171 sound_body_11.sl.v173 sound_body_11.sl.v175
    refine (congrFun (pay10_eq _ _ _) _).trans ?_
    refine plain_chunk m c _ (0 : Fin 2) 528 1016 ?_ 8 7 9 rfl rfl _ _ _ 1024 rfl (by norm_num) (by norm_num) (by norm_num) r k hk1 hk2
    unfold sound_body_11.sl.dma11_1
    exact slotHolds_other (1 : Fin 2) (0 : Fin 2) (by decide) 528 _ _ _ (X m c) _ 528 1016 (slotHolds_loaded (0 : Fin 2) 528 1016 _ _ _ (X m c) _)
  have hp3 : ∀ (r : Fin 512) (k : Fin 3072), 0 < k.val → k.val < 3071 → sound_body_11.sl.dma44 m c f0 f1 HatRR_pay1_v (ValueIdx.ix2 r k) = OUT m c (ValueIdx.ix2 (⟨1536 + r.val, by have := r.isLt; omega⟩ : Fin 3072) k) := by
    intro r k hk1 hk2
    unfold sound_body_11.sl.dma44 sound_body_11.sl.H1_4
    refine (stage_top (1 : Fin 2) _ _ f1 _ _ r k).trans ?_
    unfold sound_body_11.sl.r_1 sound_body_11.sl.r_2 sound_body_11.sl.r_3 sound_body_11.sl.r_4 sound_body_11.sl.r_5
      sound_body_11.sl.v224 sound_body_11.sl.v226 sound_body_11.sl.v228
    refine (congrFun (pay19_eq _ _ _) _).trans ?_
    refine plain_chunk m c _ (1 : Fin 2) 528 1528 ?_ 8 7 9 rfl rfl _ _ _ 1536 rfl (by norm_num) (by norm_num) (by norm_num) r k hk1 hk2
    unfold sound_body_11.sl.dma22_1
    exact slotHolds_other (0 : Fin 2) (1 : Fin 2) (by decide) 528 _ _ _ (X m c) _ 528 1528 (slotHolds_loaded (1 : Fin 2) 528 1528 _ _ _ (X m c) _)
  have hp4 : ∀ (r : Fin 512) (k : Fin 3072), 0 < k.val → k.val < 3071 → sound_body_11.sl.dma55 m c f0 f1 HatRR_pay1_v (ValueIdx.ix2 r k) = OUT m c (ValueIdx.ix2 (⟨2048 + r.val, by have := r.isLt; omega⟩ : Fin 3072) k) := by
    intro r k hk1 hk2
    unfold sound_body_11.sl.dma55 sound_body_11.sl.H1_5
    refine (stage_top (0 : Fin 2) _ _ f1 _ _ r k).trans ?_
    unfold sound_body_11.sl.v299 sound_body_11.sl.r_6 sound_body_11.sl.v277 sound_body_11.sl.v279 sound_body_11.sl.v281
    show k0_pay23 (k0_pay22 _ _ _) (ValueIdx.ix3 (0 : Fin 1) r k) = _
    refine (congrFun (pay23_eq _ _ _) _).trans ?_
    refine plain_chunk m c _ (0 : Fin 2) 528 2040 ?_ 8 7 9 rfl rfl _ _ _ 2048 rfl (by norm_num) (by norm_num) (by norm_num) r k hk1 hk2
    unfold sound_body_11.sl.dma33_1
    exact slotHolds_other (1 : Fin 2) (0 : Fin 2) (by decide) 520 _ _ _ (X m c) _ 528 2040 (slotHolds_loaded (0 : Fin 2) 528 2040 _ _ _ (X m c) _)
  have hp5 : ∀ (r : Fin 512) (k : Fin 3072), 0 < k.val → k.val < 3071 → sound_body_11.sl.dma70 m c f0 f1 HatRR_pay1_v (ValueIdx.ix2 r k) = OUT m c (ValueIdx.ix2 (⟨2560 + r.val, by have := r.isLt; omega⟩ : Fin 3072) k) := by
    intro r k hk1 hk2
    unfold sound_body_11.sl.dma70 sound_body_11.sl.H1_7 sound_body_11.sl.H1_6
    refine (stage_kept (1 : Fin 2) 511 _ _ _ _ f1 _ _ r k).trans ?_
    by_cases hr : r.val = 511
    · rw [if_pos hr]
      unfold sound_body_11.sl.v469 sound_body_11.sl.v466 sound_body_11.sl.v465
      refine kept_bot m c ha _ (1 : Fin 2) 520 2552 519 ?_ (by norm_num) (by norm_num) _ r k hr
      unfold sound_body_11.sl.dma44_1
      exact slotHolds_loaded (1 : Fin 2) 520 2552 _ _ _ (X m c) _
    · rw [if_neg hr]
      unfold sound_body_11.sl.v325 sound_body_11.sl.v327 sound_body_11.sl.v329
      refine last_chunk_rest m c _ (1 : Fin 2) 520 2552 ?_ 8 7 9 rfl rfl _ _ _ 2560 rfl (by norm_num) (by norm_num) (by norm_num)
        _ r k hk1 hk2 (by have := r.isLt; omega)
      unfold sound_body_11.sl.dma44_1
      exact slotHolds_loaded (1 : Fin 2) 520 2552 _ _ _ (X m c) _
  have hpW : ∀ (r : Fin 3072) (k : Fin 128), sound_body_11.sl.dma28 m c f0 f6 HatRR_pay1_v HatCR_pay1_v (ValueIdx.ix2 r k) = OUT m c (ValueIdx.ix2 r (⟨k.val, by have := k.isLt; omega⟩ : Fin 3072)) := by
    intro r k
    have hk := k.isLt
    have hr := r.isLt
    have hws : ∀ (y : S3072x256.Idx) (i : S3072x3072.Idx), (i 0).val = (y 0).val → (i 1).val = 0 + (y 1).val →
        View.canon (sound_body_11.sl.H4_6 m c f0) y = X m c i := by
      intro y i h0 h1
      unfold sound_body_11.sl.H4_6 sound_body_11.sl.H4_5 sound_body_11.sl.H4_4 sound_body_11.sl.H4_3 sound_body_11.sl.H4_2 sound_body_11.sl.H4_1
      refine save_canon (X m c) 0 _ _ _ _ _ _ _ _ _ _ _ _ ?_ ?_ ?_ ?_ ?_ ?_ y i h0 h1
      · intro a b i h0 h1
        unfold sound_body_11.sl.v94 sound_body_11.sl.v91
        refine (cast2_apply _ _ _ a b).trans ?_
        unfold sound_body_11.sl.v90 sound_body_11.sl.dma0
        exact xt_load_miss (X m c) _ _ 1 528 _ _ _ 0 520 0 0 0 512 256 (by omega) _ _ _ _ _ _ a b (by omega) i (by omega) (by omega)
      · intro a b i h0 h1
        unfold k0_pay6
        refine (cast2_apply _ _ _ a b).trans ?_
        unfold sound_body_11.sl.v141 sound_body_11.sl.dma0_1
        exact xt_load_miss (X m c) _ _ 0 528 _ _ _ 1 528 8 0 504 512 256 (by omega) _ _ _ _ _ _ a b (by omega) i (by omega) (by omega)
      · intro a b i h0 h1
        unfold k0_pay11
        refine (cast2_apply _ _ _ a b).trans ?_
        unfold sound_body_11.sl.v194 sound_body_11.sl.dma11_1
        exact xt_load_miss (X m c) _ _ 1 528 _ _ _ 0 528 8 0 1016 512 256 (by omega) _ _ _ _ _ _ a b (by omega) i (by omega) (by omega)
      · intro a b i h0 h1
        unfold k0_pay20
        refine (cast2_apply _ _ _ a b).trans ?_
        unfold sound_body_11.sl.v247 sound_body_11.sl.dma22_1
        exact xt_load_miss (X m c) _ _ 0 528 _ _ _ 1 528 8 0 1528 512 256 (by omega) _ _ _ _ _ _ a b (by omega) i (by omega) (by omega)
      · intro a b i h0 h1
        unfold sound_body_11.sl.v304 sound_body_11.sl.v301
        refine (cast2_apply _ _ _ a b).trans ?_
        unfold sound_body_11.sl.v300 sound_body_11.sl.dma33_1
        exact xt_load_miss (X m c) _ _ 1 520 _ _ _ 0 528 8 0 2040 512 256 (by omega) _ _ _ _ _ _ a b (by omega) i (by omega) (by omega)
      · intro a b i h0 h1
        unfold k0_pay27
        refine (cast2_apply _ _ _ a b).trans ?_
        unfold sound_body_11.sl.v350 sound_body_11.sl.dma44_1
        exact xt_load_hit (X m c) _ 1 520 8 0 2552 512 256 _ _ _ _ _ _ a b (by omega) i (by omega) (by omega)
    unfold sound_body_11.sl.dma28 sound_body_11.sl.H6_2
    rw [ReadAs.apply_same]
    unfold OUT
    rw [outOf_eq]
    by_cases hr1 : r.val = 3071
    · rw [if_pos (Or.inr (Or.inl ⟨ha, hr1⟩))]
      refine (View.read_writes_cons_unit_of_mem (Memref.whole cc0_scratch6 : Memref sig .tc .vmem S3072x128 .f32).view f6 (off := ![3071, 0]) (off' := ![3071, 0]) (size := S1x128.size) inb_S3072x128_S1x128_3071_0 _ _ (ValueIdx.ix2 r k) (ValueIdx.ix2 (⟨0, Nat.one_pos⟩ : Fin 1) k) rfl ?_).trans ?_
      · intro a
        match a with
        | ⟨0, _⟩ => show r.val = 3071 + 0; omega
        | ⟨1, _⟩ => show k.val = 0 + k.val; omega
      · unfold k0_pay36 sound_body_11.sl.v465_1
        rw [shapeCast_self,
          readCov_unit_apply _ _ _ _ _ _ (ValueIdx.ix2 (⟨r.val, hr⟩ : Fin 3072) (⟨k.val, by omega⟩ : Fin 256)) (by show r.val = 3071 + 0; omega) (by show k.val = 0 + k.val; omega)]
        exact hws _ _ rfl (by show k.val = 0 + k.val; omega)
    rw [if_neg (by
      rintro (⟨h, _⟩ | ⟨_, h⟩ | ⟨h, _⟩ | ⟨_, h⟩)
      · omega
      · exact hr1 h
      · omega
      · have h' : k.val = 3071 := h
        omega)]
    refine (View.read_writes_cons_unit_of_not_mem (Memref.whole cc0_scratch6 : Memref sig .tc .vmem S3072x128 .f32).view f6 (off := ![3071, 0]) (off' := ![3071, 0]) (size := S1x128.size) inb_S3072x128_S1x128_3071_0 _ _ (ValueIdx.ix2 r k) rfl (0 : Fin 2) (Or.inl ?_)).trans ?_
    · show r.val < 3071; omega
    refine (View.read_writes_cons_unit_of_mem (Memref.whole cc0_scratch6 : Memref sig .tc .vmem S3072x128 .f32).view f6 (off := ![0, 0]) (off' := ![0, 0]) (size := S3072x128.size) inb_S3072x128_S3072x128_0_0 _ _ (ValueIdx.ix2 r k) (ValueIdx.ix2 r k) rfl ?_).trans ?_
    · intro a
      match a with
      | ⟨0, _⟩ => show r.val = 0 + r.val; omega
      | ⟨1, _⟩ => show k.val = 0 + k.val; omega
    unfold sound_body_11.sl.v375 sound_body_11.sl.v378 sound_body_11.sl.v377 sound_body_11.sl.v379 sound_body_11.sl.v382 sound_body_11.sl.v381 sound_body_11.sl.v383
    exact west_strip (X m c) _ hws _ (rowLanded m c) _ (colLanded m c) _ _ _ _ _ _ _ _ _ _ r k
  have hpE : ∀ (r : Fin 3072) (k : Fin 128), sound_body_11.sl.dma28_1 m c f0 f7 HatRR_pay1_v HatCR_pay1_v (ValueIdx.ix2 r k) = OUT m c (ValueIdx.ix2 r (⟨2944 + k.val, by have := k.isLt; omega⟩ : Fin 3072)) := by
    intro r k
    have hk := k.isLt
    have hr := r.isLt
    have hes : ∀ (y : S3072x256.Idx) (i : S3072x3072.Idx), (i 0).val = (y 0).val → (i 1).val = 2816 + (y 1).val →
        View.canon ((⟨Rect.unit (s := S3072x256) ![2560, 0] S512x256.size inb_S3072x256_S512x256_2560_0, sound_body_11.sl.v359 m c f0⟩
          : View.Piece (Elt F) S3072x256 .f32) :: sound_body_11.sl.H5_5 m c f0) y = X m c i := by
      intro y i h0 h1
      unfold sound_body_11.sl.H5_5 sound_body_11.sl.H5_4 sound_body_11.sl.H5_3 sound_body_11.sl.H5_2 sound_body_11.sl.H5_1
      refine save_canon (X m c) 2816 _ _ _ _ _ _ _ _ _ _ _ _ ?_ ?_ ?_ ?_ ?_ ?_ y i h0 h1
      · intro a b i h0 h1
        unfold sound_body_11.sl.v99 sound_body_11.sl.v96
        refine (cast2_apply _ _ _ a b).trans ?_
        unfold sound_body_11.sl.v95 sound_body_11.sl.dma0
        exact xt_load_miss (X m c) _ _ 1 528 _ _ _ 0 520 0 2816 0 512 256 (by omega) _ _ _ _ _ _ a b (by omega) i (by omega) (by omega)
      · intro a b i h0 h1
        unfold sound_body_11.sl.r k0_pay7
        refine (cast2_apply _ _ _ a b).trans ?_
        unfold sound_body_11.sl.v146 sound_body_11.sl.dma0_1
        exact xt_load_miss (X m c) _ _ 0 528 _ _ _ 1 528 8 2816 504 512 256 (by omega) _ _ _ _ _ _ a b (by omega) i (by omega) (by omega)
      · intro a b i h0 h1
        unfold k0_pay12
        refine (cast2_apply _ _ _ a b).trans ?_
        unfold sound_body_11.sl.v199 sound_body_11.sl.dma11_1
        exact xt_load_miss (X m c) _ _ 1 528 _ _ _ 0 528 8 2816 1016 512 256 (by omega) _ _ _ _ _ _ a b (by omega) i (by omega) (by omega)
      · intro a b i h0 h1
        unfold k0_pay21
        refine (cast2_apply _ _ _ a b).trans ?_
        unfold sound_body_11.sl.v252 sound_body_11.sl.dma22_1
        exact xt_load_miss (X m c) _ _ 0 528 _ _ _ 1 528 8 2816 1528 512 256 (by omega) _ _ _ _ _ _ a b (by omega) i (by omega) (by omega)
      · intro a b i h0 h1
        unfold sound_body_11.sl.v309 sound_body_11.sl.v306
        refine (cast2_apply _ _ _ a b).trans ?_
        unfold sound_body_11.sl.v305 sound_body_11.sl.dma33_1
        exact xt_load_miss (X m c) _ _ 1 520 _ _ _ 0 528 8 2816 2040 512 256 (by omega) _ _ _ _ _ _ a b (by omega) i (by omega) (by omega)
      · intro a b i h0 h1
        unfold sound_body_11.sl.v359 sound_body_11.sl.r_7 k0_pay28
        refine (cast2_apply _ _ _ a b).trans ?_
        unfold sound_body_11.sl.v355 sound_body_11.sl.dma44_1
        exact xt_load_hit (X m c) _ 1 520 8 2816 2552 512 256 _ _ _ _ _ _ a b (by omega) i (by omega) (by omega)
    unfold sound_body_11.sl.dma28_1 sound_body_11.sl.H7_3
    rw [ReadAs.apply_same]
    unfold OUT
    rw [outOf_eq]
    by_cases hr1 : r.val = 3071
    · rw [if_pos (Or.inr (Or.inl ⟨ha, hr1⟩))]
      refine (View.read_writes_cons_unit_of_mem (Memref.whole cc0_scratch7 : Memref sig .tc .vmem S3072x128 .f32).view f7 (off := ![3071, 0]) (off' := ![3071, 0]) (size := S1x128.size) inb_S3072x128_S1x128_3071_0 _ _ (ValueIdx.ix2 r k) (ValueIdx.ix2 (⟨0, Nat.one_pos⟩ : Fin 1) k) rfl ?_).trans ?_
      · intro a
        match a with
        | ⟨0, _⟩ => show r.val = 3071 + 0; omega
        | ⟨1, _⟩ => show k.val = 0 + k.val; omega
      · unfold k0_pay42 sound_body_11.sl.v465_3
        rw [shapeCast_self,
          readCov_unit_apply _ _ _ _ _ _ (ValueIdx.ix2 (⟨r.val, hr⟩ : Fin 3072) (⟨128 + k.val, by omega⟩ : Fin 256)) (by show r.val = 3071 + 0; omega) (by show 128 + k.val = 128 + k.val; omega)]
        exact hes _ _ rfl (by show 2944 + k.val = 2816 + (128 + k.val); omega)
    refine (View.read_writes_cons_unit_of_not_mem (Memref.whole cc0_scratch7 : Memref sig .tc .vmem S3072x128 .f32).view f7 (off := ![3071, 0]) (off' := ![3071, 0]) (size := S1x128.size) inb_S3072x128_S1x128_3071_0 _ _ (ValueIdx.ix2 r k) rfl (0 : Fin 2) (Or.inl ?_)).trans ?_
    · show r.val < 3071; omega
    by_cases hk7 : k.val = 127
    · rw [if_pos (Or.inr (Or.inr (Or.inr ⟨hb, by show 2944 + k.val = 3071; omega⟩)))]
      refine (View.read_writes_cons_unit_of_mem (Memref.whole cc0_scratch7 : Memref sig .tc .vmem S3072x128 .f32).view f7 (off := ![0, 127]) (off' := ![0, 127]) (size := S3072x1.size) inb_S3072x128_S3072x1_0_127 _ _ (ValueIdx.ix2 r k) (ValueIdx.ix2 r (⟨0, Nat.one_pos⟩ : Fin 1)) rfl ?_).trans ?_
      · intro a
        match a with
        | ⟨0, _⟩ => show r.val = 0 + r.val; omega
        | ⟨1, _⟩ => show k.val = 127 + 0; omega
      · unfold k0_pay40 sound_body_11.sl.v465_2
        rw [shapeCast_self,
          readCov_unit_apply _ _ _ _ _ _ (ValueIdx.ix2 r (⟨255, by omega⟩ : Fin 256)) (by show r.val = 0 + r.val; omega) (by show 255 = 255 + 0; rfl)]
        exact hes _ _ rfl (by show 2944 + k.val = 2816 + 255; omega)
    have hkE : ¬ (2944 + k.val = 3071) := by omega
    rw [if_neg (by
      rintro (⟨h, _⟩ | ⟨_, h⟩ | ⟨h, _⟩ | ⟨_, h⟩)
      · omega
      · exact hr1 h
      · omega
      · exact hkE h)]
    refine (View.read_writes_cons_unit_of_not_mem (Memref.whole cc0_scratch7 : Memref sig .tc .vmem S3072x128 .f32).view f7 (off := ![0, 127]) (off' := ![0, 127]) (size := S3072x1.size) inb_S3072x128_S3072x1_0_127 _ _ (ValueIdx.ix2 r k) rfl (1 : Fin 2) (Or.inl ?_)).trans ?_
    · show k.val < 127; omega
    refine (View.read_writes_cons_unit_of_mem (Memref.whole cc0_scratch7 : Memref sig .tc .vmem S3072x128 .f32).view f7 (off := ![0, 0]) (off' := ![0, 0]) (size := S3072x128.size) inb_S3072x128_S3072x128_0_0 _ _ (ValueIdx.ix2 r k) (ValueIdx.ix2 r k) rfl ?_).trans ?_
    · intro a
      match a with
      | ⟨0, _⟩ => show r.val = 0 + r.val; omega
      | ⟨1, _⟩ => show k.val = 0 + k.val; omega
    unfold sound_body_11.sl.v406 sound_body_11.sl.v407 sound_body_11.sl.r_8 sound_body_11.sl.v408 sound_body_11.sl.r_9 sound_body_11.sl.v412 sound_body_11.sl.v414
    exact east_strip (X m c) _ hes _ (rowLanded m c) _ (colLanded m c) _ _ _ _ _ _ _ _ r k
  have hval := out_assemble c o0 (OUT m c) _ _ _ _ _ _ _ _ hpE hpW hp0 hp1 hp2 hp3 hp4 hp5
  ihave Hout := (close_whole c main_v1 _ (OUT m c) hval) $$ Hout
  isplitr [HO]
  · iapply (body_close m c _ _ _ _ _ _ _ _ _) $$ HatRS_pay1 HatCS_pay1 Hx0 Hx1 Haside Hout H0 H1 HatRR_pay1 HatCR_pay1 H4 H5 H6 H7
      HsL0 HsL1 HsS0 HsS1 HsF0 HsF1 HzRS HzRR HzCS HzCR
  · iexists _
    isplitr; swap
    · iexact HO
    · ipureintro; exact fun _ _ => Or.inl trivial

end Cert.KernelIdealProof

end
-- ==== Proof.BodyAllKernelIdeal.lean ====
import proofs.«900195_g7700000000000196_dist_halo2d_stencil_xy_m3072_n3072_v7x_xy2x2_f32_1_alg».proof.Proof.Body00KernelIdeal
import proofs.«900195_g7700000000000196_dist_halo2d_stencil_xy_m3072_n3072_v7x_xy2x2_f32_1_alg».proof.Proof.Body01KernelIdeal
import proofs.«900195_g7700000000000196_dist_halo2d_stencil_xy_m3072_n3072_v7x_xy2x2_f32_1_alg».proof.Proof.Body10KernelIdeal
import proofs.«900195_g7700000000000196_dist_halo2d_stencil_xy_m3072_n3072_v7x_xy2x2_f32_1_alg».proof.Proof.Body11KernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem sound_body (K : Dev nD × Fin 5 → ℕ) (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  have hc : c.val < 4 := c.isLt
  have h1 : c.val / 2 = 0 ∨ c.val / 2 = 1 := by omega
  have h2 : c.val % 2 = 0 ∨ c.val % 2 = 1 := by omega
  rcases h1 with ha | ha <;> rcases h2 with hb | hb
  · exact sound_body_00 m K c ha hb Kt
  · exact sound_body_01 m K c ha hb Kt
  · exact sound_body_10 m K c ha hb Kt
  · exact sound_body_11 m K c ha hb Kt

end Cert.KernelIdealProof

end
-- ==== Proof.LaunchKernelIdeal.lean ====
import proofs.«900195_g7700000000000196_dist_halo2d_stencil_xy_m3072_n3072_v7x_xy2x2_f32_1_alg».proof.Proof.StateKernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def QC : PUnit × MemSt nD τ sig (Elt F) → Prop := fun r =>
  ∀ c : Dev nD, r.2.mem ((c : Thread nD τ).loc main_v1) = OUT m c
    ∧ r.2.mem ((c : Thread nD τ).loc main_arg0) = m ((c : Thread nD τ).loc main_arg0)

theorem bigSep_W0 (Φ : Fin cfg0.W → sProp 𝕄) : bigSep Finset.univ Φ = iprop(emp) := by
  show bigSep (Finset.univ : Finset (Fin 0)) Φ = _
  rw [Finset.univ_eq_empty]; rfl

theorem body_obligation
    (hbody : ∀ (K : Dev nD × Fin 5 → ℕ) (c : Dev nD) (Kt : PUnit → sProp 𝕄),
      iprop(bodyPre m K c ∗ (bodyPost m c -∗ Kt ⟨⟩))
        ⊢ wp frame (wpE (defs₀ (F := F)) 𝒱₀ c none) Set.univ (bodyAt0 (F := F) t₀) Kt)
    (c : Dev nD) : BodyObligation (dats (F := F) m 0 c) (defs₀ (F := F)) 𝒱₀ () Set.univ := fun t => by
  rw [fin_N t]
  rw [bigSep_W0, bigSep_W0]
  show iprop(Φ₀ m c ∗ (dats m 0 c).owesAt () t₀.castSucc ∗ emp)
    ⊢ wp frame (wpE (defs₀ (F := F)) 𝒱₀ c none) Set.univ (bodyAt0 (F := F) t₀)
        (fun _ => iprop(Φ₁ m c ∗ (dats m 0 c).owesAt () t₀.succ ∗ emp))
  unfold Φ₀ start
  iintro ⟨⟨⟨⟨%K, Hg⟩, Hrest⟩, Hloc, Harr, Hscr⟩, Ho, -⟩
  iapply (hbody K c fun _ => iprop(Φ₁ m c ∗ (dats m 0 c).owesAt () t₀.succ ∗ emp))
  unfold bodyPre bodyPost
  isplitr []
  · isplitl [Hg Hrest]
    · isplitl [Hg]; · iexact Hg
      iexact Hrest
    isplitl [Hloc]; · iexact Hloc
    isplitl [Harr]; · iexact Harr
    isplitl [Hscr]; · iexact Hscr
    iexact Ho
  · iintro ⟨H1, H2⟩
    isplitl [H1]; · iexact H1
    isplitl [H2]; · iexact H2
    iempintro

theorem ownSemFacts : Pipeline.OwnSemFacts cfg0.spec osem := by decide

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

abbrev tokOf (cj : Dev nD × Fin 6) : GSem nD τ sig × ℕ × Bool := match cj.2 with
  | 0 => (barCell cj.1, 0, false) | 1 => (barCell cj.1, 0, true) | 2 => (rowSendCell cj.1, 0, false)
  | 3 => (rowRecvCell cj.1, 0, false) | 4 => (colSendCell cj.1, 0, false) | 5 => (colRecvCell cj.1, 0, false)
theorem tokOf_injective : Function.Injective (tokOf : Dev nD × Fin 6 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have key : ∀ (j j' : Fin 6) (c : Dev nD),
      ((tokOf (c, j)).1.2, (tokOf (c, j)).2.2) = ((tokOf (c, j')).1.2, (tokOf (c, j')).2.2) → j = j' := by decide
  have : j = j' := key j j' c (by rw [h])
  subst this; rfl
def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop(dutyTok ER (barCell c) 0 false ∗ dutyTok ER (barCell c) 0 true ∗ dutyTok ER (rowSendCell c) 0 false
    ∗ dutyTok ER (rowRecvCell c) 0 false ∗ dutyTok ER (colSendCell c) 0 false ∗ dutyTok ER (colRecvCell c) 0 false)

def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

def G' (c : Dev nD) : sProp 𝕄 := iprop((∃ K, ghost m K c) ∗ locals0 c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 5 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin6]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), .dma loadS0) 0 ∗ semVal ((c : Thread nD τ), .dma loadS1) 0
        ∗ semVal ((c : Thread nD τ), .dma storeS0) 0 ∗ semVal ((c : Thread nD τ), .dma storeS1) 0
        ∗ semVal (rowSendCell c) 0 ∗ semVal (rowRecvCell c) 0 ∗ semVal (colSendCell c) 0 ∗ semVal (colRecvCell c) 0
        ∗ semVal ((c : Thread nD τ), .dma fixS0) 0 ∗ semVal ((c : Thread nD τ), .dma fixS1) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) ∗ locals0 c) := by
  unfold G
  rw [ownSems0_eq, unscopedSems0_eq]
  iintro ⟨⟨Hl0, Hl1, Hs0, Hs1, HvRS, HvRR, HvCS, HvCR, Hf0, Hf1⟩, HvB, Hst, Hat, Htok⟩
  ihave Hv := (show iprop(semVal (barCell c) 0 ∗ semVal (rowSendCell c) 0 ∗ semVal (rowRecvCell c) 0 ∗ semVal (colSendCell c) 0 ∗ semVal (colRecvCell c) 0)
      ⊢ (bigSep Finset.univ fun k : Fin 5 => semVal (kcell (c, k)) 0 : sProp 𝕄) from by rw [bigSep_fin5]) $$ [HvB HvRS HvRR HvCS HvCR]
  · isplitl [HvB]; · iexact HvB
    isplitl [HvRS]; · iexact HvRS
    isplitl [HvRR]; · iexact HvRR
    isplitl [HvCS]; · iexact HvCS
    iexact HvCR
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  unfold locals0
  isplitr [Hl0 Hl1 Hs0 Hs1 Hf0 Hf1]
  · isplitl [Hinv]; · iexact Hinv
    isplitl [Hat]; · iexact Hat
    iexact Htok
  · isplitl [Hl0]; · iexact Hl0
    isplitl [Hl1]; · iexact Hl1
    isplitl [Hs0]; · iexact Hs0
    isplitl [Hs1]; · iexact Hs1
    isplitl [Hf0]; · iexact Hf0
    iexact Hf1

def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

def payToks (c : Dev nD) : sProp 𝕄 :=
  iprop(dutyTok ER (barCell (vn c)) 0 false ∗ dutyTok ER (barCell (hn c)) 0 true
    ∗ dutyTok ER (rowRecvCell (vn c)) 0 false ∗ dutyTok ER (colRecvCell (hn c)) 0 false
    ∗ dutyTok ER (rowSendCell c) 0 false ∗ dutyTok ER (colSendCell c) 0 false)
def linear (c : Dev nD) : sProp 𝕄 :=
  iprop((atPos ER (barCell c) 0 ∅ 0 ∗ atPos ER (rowSendCell c) 0 ∅ 0 ∗ atPos ER (rowRecvCell c) 0 ∅ 0
      ∗ atPos ER (colSendCell c) 0 ∅ 0 ∗ atPos ER (colRecvCell c) 0 ∅ 0) ∗ payToks c)

theorem ghost_intro (K : Dev nD × Fin 5 → ℕ) (c : Dev nD) : iprop(records m K ∗ linear c) ⊢ iprop(∃ K, ghost m K c) := by
  unfold records linear payToks ghost invs
  iintro ⟨⟨#HI, #HR⟩, ⟨HaB, HaRS, HaRR, HaCS, HaCR⟩, HtBV, HtBH, HtRR, HtCR, HtRS, HtCS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (vn c, 0)); iexact HI
    isplitr; · iapply (inv_at m K (hn c, 0)); iexact HI
    isplitr; · iapply (inv_at m K (vn c, 2)); iexact HI
    iapply (inv_at m K (hn c, 4)); iexact HI
  isplitl [HaB]; · iexact HaB
  isplitl [HaRS]; · iexact HaRS
  isplitl [HaRR]; · iexact HaRR
  isplitl [HaCS]; · iexact HaCS
  isplitl [HaCR]; · iexact HaCR
  isplitr; · iapply (reached_at (F := F) (vn c, 0)); iexact HR
  isplitr; · iapply (reached_at (F := F) (hn c, 0)); iexact HR
  isplitr; · iapply (reached_at (F := F) (vn c, 2)); iexact HR
  isplitr; · iapply (reached_at (F := F) (hn c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtBV]; · iexact HtBV
  isplitl [HtBH]; · iexact HtBH
  isplitl [HtRR]; · iexact HtRR
  isplitl [HtCR]; · iexact HtCR
  isplitl [HtRS]; · iexact HtRS
  iexact HtCS

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv vring (fun c : Dev nD => (dutyTok ER (barCell c) 0 false : sProp 𝕄)),
    bigSep_univ_equiv hring (fun c : Dev nD => (dutyTok ER (barCell c) 0 true : sProp 𝕄)),
    bigSep_univ_equiv vring (fun c : Dev nD => (dutyTok ER (rowRecvCell c) 0 false : sProp 𝕄)),
    bigSep_univ_equiv hring (fun c : Dev nD => (dutyTok ER (colRecvCell c) 0 false : sProp 𝕄))]
  iintro ⟨H1, H2, H3, H4, H5, H6⟩
  isplitl [H1]; · iexact H1
  isplitl [H2]; · iexact H2
  isplitl [H4]; · iexact H4
  isplitl [H6]; · iexact H6
  isplitl [H3]; · iexact H3
  iexact H5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ fun c : Dev nD => iprop(∃ K, ghost m K c) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

theorem regroup_locals :
    (bigSep Finset.univ fun c : Dev nD => iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) ∗ locals0 c) : sProp 𝕄)
      ⊢ bigSep Finset.univ (G' m) := by
  rw [bigSep_sep']
  refine (sep_mono_left (regroup m)).trans ?_
  exact Entails.of_eq (bigSep_sep' Finset.univ (fun c : Dev nD => iprop(∃ K, ghost m K c)) (fun c : Dev nD => locals0 c)).symm

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup_locals m))

theorem bar_eq_iff {a b : Dev nD} : Iff (barCell a = barCell b) (a = b) :=
  ⟨fun h => Fin.ext (congrArg (fun g : GSem nD τ sig => g.1.1.val) h), fun h => h ▸ rfl⟩
theorem rr_eq_iff {a b : Dev nD} : Iff (rowRecvCell a = rowRecvCell b) (a = b) :=
  ⟨fun h => Fin.ext (congrArg (fun g : GSem nD τ sig => g.1.1.val) h), fun h => h ▸ rfl⟩
theorem cr_eq_iff {a b : Dev nD} : Iff (colRecvCell a = colRecvCell b) (a = b) :=
  ⟨fun h => Fin.ext (congrArg (fun g : GSem nD τ sig => g.1.1.val) h), fun h => h ▸ rfl⟩

theorem owed_bar (d c : Dev nD) : O₀ d (barCell c) () = (if d = hn c then 1 else 0) + (if d = vn c then 1 else 0) := by
  unfold O₀ O₁ O₂ O₃
  rw [Pi.add_apply, Finsupp.add_apply, Pi.add_apply, Finsupp.add_apply, Pi.add_apply, Finsupp.add_apply,
    tallyAt_ne_cell (g := colRecvCell (hn d)) (g' := barCell c) (fun h => cr_ne_bar (congrArg Prod.snd h).symm),
    tallyAt_ne_cell (g := rowRecvCell (vn d)) (g' := barCell c) (fun h => rr_ne_bar (congrArg Prod.snd h).symm),
    tallyAt_apply, tallyAt_apply, Finsupp.zero_apply, Nat.zero_add, Nat.zero_add]
  congr 1
  · by_cases h : d = hn c
    · subst h; rw [hn_hn, if_pos ⟨rfl, rfl⟩, if_pos rfl]
    · rw [if_neg (fun ⟨h1, _⟩ => h (by rw [← hn_hn d]; exact congrArg hn (bar_eq_iff.mp h1).symm)), if_neg h]
  · by_cases h : d = vn c
    · subst h; rw [vn_vn, if_pos ⟨rfl, rfl⟩, if_pos rfl]
    · rw [if_neg (fun ⟨h1, _⟩ => h (by rw [← vn_vn d]; exact congrArg vn (bar_eq_iff.mp h1).symm)), if_neg h]

theorem owed_rr (d c : Dev nD) : O₀ d (rowRecvCell c) () = if d = vn c then NR else 0 := by
  unfold O₀ O₁ O₂ O₃
  rw [Pi.add_apply, Finsupp.add_apply, Pi.add_apply, Finsupp.add_apply, Pi.add_apply, Finsupp.add_apply,
    tallyAt_ne_cell (g := colRecvCell (hn d)) (g' := rowRecvCell c) (fun h => cr_ne_rr (congrArg Prod.snd h).symm),
    tallyAt_apply,
    tallyAt_ne_cell (g := barCell (hn d)) (g' := rowRecvCell c) (fun h => rr_ne_bar (congrArg Prod.snd h)),
    tallyAt_ne_cell (g := barCell (vn d)) (g' := rowRecvCell c) (fun h => rr_ne_bar (congrArg Prod.snd h)),
    Finsupp.zero_apply, Nat.zero_add, Nat.add_zero, Nat.add_zero]
  by_cases h : d = vn c
  · subst h; rw [vn_vn, if_pos ⟨rfl, rfl⟩, if_pos rfl]
  · rw [if_neg (fun ⟨h1, _⟩ => h (by rw [← vn_vn d]; exact congrArg vn (rr_eq_iff.mp h1).symm)), if_neg h]

theorem owed_cr (d c : Dev nD) : O₀ d (colRecvCell c) () = if d = hn c then NC else 0 := by
  unfold O₀ O₁ O₂ O₃
  rw [Pi.add_apply, Finsupp.add_apply, Pi.add_apply, Finsupp.add_apply, Pi.add_apply, Finsupp.add_apply,
    tallyAt_apply,
    tallyAt_ne_cell (g := rowRecvCell (vn d)) (g' := colRecvCell c) (fun h => cr_ne_rr (congrArg Prod.snd h)),
    tallyAt_ne_cell (g := barCell (hn d)) (g' := colRecvCell c) (fun h => cr_ne_bar (congrArg Prod.snd h)),
    tallyAt_ne_cell (g := barCell (vn d)) (g' := colRecvCell c) (fun h => cr_ne_bar (congrArg Prod.snd h)),
    Finsupp.zero_apply, Nat.add_zero, Nat.add_zero, Nat.add_zero]
  by_cases h : d = hn c
  · subst h; rw [hn_hn, if_pos ⟨rfl, rfl⟩, if_pos rfl]
  · rw [if_neg (fun ⟨h1, _⟩ => h (by rw [← hn_hn d]; exact congrArg hn (cr_eq_iff.mp h1).symm)), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (hn c) fun _ => 1, Finset.sum_ite_eq' Finset.univ (vn c) fun _ => 1, if_pos (Finset.mem_univ _), if_pos (Finset.mem_univ _)]

theorem launch_rr (c : Dev nD) :
    tallyOn (rowRecvCell c) (launchCredit (Pipeline.owing O₀) 0 (rowRecvCell c)) = (tallyAt (rowRecvCell c) () NR : CellTallies nD τ sig Unit) := by
  unfold tallyAt; refine congrArg _ (Finsupp.ext fun u => ?_); cases u
  rw [Pipeline.launchCredit_owing, Finsupp.single_eq_same, Finset.sum_congr rfl fun d _ => owed_rr d c, Finset.sum_ite_eq' Finset.univ (vn c) fun _ => NR,
    if_pos (Finset.mem_univ _)]

theorem launch_cr (c : Dev nD) :
    tallyOn (colRecvCell c) (launchCredit (Pipeline.owing O₀) 0 (colRecvCell c)) = (tallyAt (colRecvCell c) () NC : CellTallies nD τ sig Unit) := by
  unfold tallyAt; refine congrArg _ (Finsupp.ext fun u => ?_); cases u
  rw [Pipeline.launchCredit_owing, Finsupp.single_eq_same, Finset.sum_congr rfl fun d _ => owed_cr d c, Finset.sum_ite_eq' Finset.univ (hn c) fun _ => NC,
    if_pos (Finset.mem_univ _)]

theorem creds (c : Dev nD) :
    (Pipeline.launchCred O₀ c : sProp 𝕄)
      ⊢ iprop(cred (tallyAt (barCell c) () 2) ∗ cred (tallyAt (rowRecvCell c) () NR) ∗ cred (tallyAt (colRecvCell c) () NC)) := by
  unfold Pipeline.launchCred
  rw [bigSep_univ_at _ (SemLoc.reg barS), launch_bar]
  refine sep_mono_right ?_
  rw [bigSep_erase (i := SemLoc.dma rowRecvS) (Finset.mem_erase.mpr ⟨rr_ne_bar, Finset.mem_univ _⟩), launch_rr]
  refine sep_mono_right ?_
  rw [← launch_cr]
  exact bigSep_elim (Finset.mem_erase.mpr ⟨cr_ne_rr, Finset.mem_erase.mpr ⟨cr_ne_bar, Finset.mem_univ _⟩⟩)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ locals0 c ∗ arrays0 m c) ∗ emp) := by
  rw [Pipeline.unscopedRestP_none, unscopedRest0_eq]
  iintro ⟨⟨Harg, Hout⟩, Hlev, Hcr, -, HG⟩
  ihave Hc := (creds (F := F) c) $$ Hcr
  icases Hc with ⟨H1, HR, HC⟩
  imodintro
  unfold start G' arrays0 X
  icases HG with ⟨HG, Hloc⟩
  isplitl
  · isplitl [HG H1 HR HC Hlev]
    · isplitl [HG]; · iexact HG
      isplitl [H1]; · iexact H1
      isplitl [HR]; · iexact HR
      isplitl [HC]; · iexact HC
      iexact Hlev
    isplitl [Hloc]; · iexact Hloc
    isplitl [Harg]; · iexact Harg
    iexists _; iexact Hout
  · iempintro

theorem phi0_intro (c : Dev nD) :
    iprop((start m c ∗ locals0 c ∗ arrays0 m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, Hl, Ha⟩, -, Hr⟩
  isplitl [Hs]; · iexact Hs
  isplitl [Hl]; · iexact Hl
  isplitl [Ha]; · iexact Ha
  iexact Hr

theorem phi1_exit (c : Dev nD) :
    (dats m 0 c).Φ (Fin.last cfg0.N) ⊢ iprop(arrays1 m c ∗ Pipeline.ownSems0 osem c ∗ Pipeline.scopedRest cfg0.spec c) := by
  rw [show (dats m 0 c).Φ (Fin.last cfg0.N) = Φ₁ m c from rfl, scopedRest0_eq, ownSems0_eq]
  unfold Φ₁ scratch locals0
  iintro ⟨Ha, Hscr, ⟨Hl0, Hl1, Hs0, Hs1, Hf0, Hf1⟩, HvRS, HvRR, HvCS, HvCR⟩
  isplitl [Ha]; · iexact Ha
  isplitr [Hscr]
  · isplitl [Hl0]; · iexact Hl0
    isplitl [Hl1]; · iexact Hl1
    isplitl [Hs0]; · iexact Hs0
    isplitl [Hs1]; · iexact Hs1
    isplitl [HvRS]; · iexact HvRS
    isplitl [HvRR]; · iexact HvRR
    isplitl [HvCS]; · iexact HvCS
    isplitl [HvCR]; · iexact HvCR
    isplitl [Hf0]; · iexact Hf0
    iexact Hf1
  · iexact Hscr

theorem waits (c : Dev nD) : (levAts L lv : sProp 𝕄) ⊢ Pipeline.cellsWaits cfgs (dats m) () 0 c :=
  Pipeline.cellsWaits_intro cfgs (dats m) () 0 c fun w => w.elim0

theorem final_read (c : Dev nD) (s' : Phys nD τ sig (Elt F)) :
    iprop(arrays1 m c ∗ emp ∗ SI s')
      ⊢ (|={Set.univ}=> iprop(⌜s'.mem.mem ((c : Thread nD τ).loc main_v1) = OUT m c
          ∧ s'.mem.mem ((c : Thread nD τ).loc main_arg0) = m ((c : Thread nD τ).loc main_arg0)⌝ ∗ SI s') : sProp 𝕄) := by
  unfold arrays1
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

-- From the body's proof: every fair interleaving of the four devices ends, each result array at `OUT`, each argument block unchanged.
set_option maxRecDepth 8000 in
theorem run_main_of
    (hbody : ∀ (K : Dev nD × Fin 5 → ℕ) (c : Dev nD) (Kt : PUnit → sProp 𝕄),
      iprop(bodyPre m K c ∗ (bodyPost m c -∗ Kt ⟨⟩))
        ⊢ wp frame (wpE (defs₀ (F := F)) 𝒱₀ c none) Set.univ (bodyAt0 (F := F) t₀) Kt) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m hbody) (hne := fun w => w.elim0) (harr := arr_whole0) (hstage := stage_whole0) (hshare := fun _ w => w.elim0)
    (hdistinct := fun w => w.elim0)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_proto m) $$ HR with HG
      imodintro
      isplitl [HP] <;> iassumption)
    (hglob := glob m)
    (hA := fun _ w => w.elim0) (hpf := fun _ k => k.elim0)
    (X := fun c => iprop(start m c ∗ locals0 c ∗ arrays0 m c)) (Y := arrays1 m) (Z := fun _ => iprop(emp))
    (hX := start_intro m ρ) (hin := phi0_intro m) (hout := phi1_exit m)
    (QY := fun c s => s.mem ((c : Thread nD τ).loc main_v1) = OUT m c
      ∧ s.mem ((c : Thread nD τ).loc main_arg0) = m ((c : Thread nD τ).loc main_arg0))
    (hY := final_read m)
    (hQ := fun _ h c => (h c).2.2)

/-- info: 'Cert.KernelIdealProof.run_main_of' depends on axioms: [propext, Classical.choice, Quot.sound] -/
#guard_msgs in #print axioms run_main_of

end Cert.KernelIdealProof

end
-- ==== Proof.Spec.lean ====
import Idealize.ShloMosaic.Lib.Layout
import Idealize.ShloMosaic.Lib.ValueIdx
import Idealize.ShloMosaic.PureOps.Ideal

noncomputable section

namespace Cert.Stencil

open Idealize.ShloMosaic

abbrev SW : Shape := ⟨2, ![6144, 6144]⟩
abbrev SB : Shape := ⟨2, ![3072, 3072]⟩
abbrev SR : Shape := ⟨2, ![8, 3072]⟩
abbrev SC : Shape := ⟨2, ![3072, 128]⟩

def h : EReal := Ideal.ofBits .f32 0x3F000000#32
def q : EReal := Ideal.ofBits .f32 0x3E000000#32

def get {n0 n1 : ℕ} (X : (⟨2, ![n0, n1]⟩ : Shape).Idx → EReal) (r c : ℕ) : EReal :=
  if hb : r < n0 ∧ c < n1 then X (ValueIdx.ix2 ⟨r, hb.1⟩ ⟨c, hb.2⟩) else 0

-- An entry on the array's edge is kept; any other is half itself plus an eighth of each of its four neighbours.
def stencil (X : SW.Idx → EReal) : SW.Idx → EReal := fun i =>
  let r := (i 0).val
  let c := (i 1).val
  if r = 0 ∨ r = 6143 ∨ c = 0 ∨ c = 6143 then X i
  else h * X i + q * get X (r - 1) c + q * get X (r + 1) c + q * get X r (c - 1) + q * get X r (c + 1)

-- The same on one block of the 2 × 2 cut, the neighbours beyond the block read from the row strip and the column strip.
def blockResult (a b : ℕ) (Xc : SB.Idx → EReal) (RH : SR.Idx → EReal) (CH : SC.Idx → EReal) : SB.Idx → EReal := fun i =>
  let r := (i 0).val
  let c := (i 1).val
  if (a = 0 ∧ r = 0) ∨ (a = 1 ∧ r = 3071) ∨ (b = 0 ∧ c = 0) ∨ (b = 1 ∧ c = 3071) then Xc i
  else
    h * Xc i + q * ((((if r = 0 then get RH 7 c else get Xc (r - 1) c)
        + (if r = 3071 then get RH 0 c else get Xc (r + 1) c))
        + (if c = 0 then get CH r 127 else get Xc r (c - 1)))
        + (if c = 3071 then get CH r 0 else get Xc r (c + 1)))

def rowsOf (B : SB.Idx → EReal) (r0 : ℕ) : SR.Idx → EReal := fun i => get B (r0 + (i 0).val) (i 1).val
def colsOf (B : SB.Idx → EReal) (c0 : ℕ) : SC.Idx → EReal := fun i => get B (i 0).val (c0 + (i 1).val)

def vnb (d : Fin 4) : Fin 4 := ⟨(1 - d.val / 2) * 2 + d.val % 2, by omega⟩
def hnb (d : Fin 4) : Fin 4 := ⟨(d.val / 2) * 2 + (1 - d.val % 2), by omega⟩
def roff (d : Fin 4) : ℕ := if d.val / 2 = 0 then 3064 else 0
def coff (d : Fin 4) : ℕ := if d.val % 2 = 0 then 2944 else 0

def blk {α : Type} (X : SW.Idx → α) (d : Fin 4) : SB.Idx → α :=
  Layout.blockN ⟨2, ![3072, 3072]⟩ ⟨2, ![6144, 6144]⟩ (Layout.meshBlock [2, 2] ![[0], [1]] d) X

end Cert.Stencil

end
-- ==== Proof.RefSide.lean ====
import proofs.«900195_g7700000000000196_dist_halo2d_stencil_xy_m3072_n3072_v7x_xy2x2_f32_1_alg».proof.Defs
import proofs.«900195_g7700000000000196_dist_halo2d_stencil_xy_m3072_n3072_v7x_xy2x2_f32_1_alg».proof.Proof.Gen.ReferenceIdeal
import proofs.«900195_g7700000000000196_dist_halo2d_stencil_xy_m3072_n3072_v7x_xy2x2_f32_1_alg».proof.Proof.Gen.ReferenceIdeal.Run
import proofs.«900195_g7700000000000196_dist_halo2d_stencil_xy_m3072_n3072_v7x_xy2x2_f32_1_alg».proof.Proof.Gen.ReferenceIdeal.Read
import proofs.«900195_g7700000000000196_dist_halo2d_stencil_xy_m3072_n3072_v7x_xy2x2_f32_1_alg».proof.Proof.Gen.Pre_finite_inputs_Kernel
import proofs.«900195_g7700000000000196_dist_halo2d_stencil_xy_m3072_n3072_v7x_xy2x2_f32_1_alg».proof.Proof.Spec
import Idealize.ShloMosaic.Lib.ValueIdx
import Idealize.ShloMosaic.Lib.ReduceAll
import Idealize.ShloMosaic.Lib.StableHlo.Run
import Idealize.ShloMosaic.PureOps.Ideal.Laws

noncomputable section

namespace Cert.RefSide

open Idealize.ShloMosaic Idealize.SL.Sem Cert.Stencil

section Auxiliary

open Cert.ReferenceIdeal ValueIdx

section Fold

variable {β ι α : Type} (g : β → Option ι) (v : β → α) (step : (ι → α) → β → ι → α)

theorem foldl_miss (hmiss : ∀ r n i', g n ≠ some i' → step r n i' = r i') (i' : ι) :
    ∀ (L : List β) (x : ι → α), (∀ n ∈ L, g n ≠ some i') → L.foldl step x i' = x i'
  | [], _, _ => rfl
  | n :: L, x, hL => by
    rw [List.foldl_cons, foldl_miss hmiss i' L (step x n) (fun n' hn' => hL n' (List.mem_cons_of_mem _ hn'))]
    exact hmiss x n i' (hL n (List.mem_cons.2 (Or.inl rfl)))

theorem foldl_hit (hhit : ∀ r n i, g n = some i → step r n i = v n)
    (hmiss : ∀ r n i', g n ≠ some i' → step r n i' = r i') (i' : ι) (n₀ : β) (h₀ : g n₀ = some i') :
    ∀ (L : List β) (x : ι → α), n₀ ∈ L → (∀ n ∈ L, g n = some i' → n = n₀) → L.foldl step x i' = v n₀
  | [], _, hm, _ => nomatch hm
  | n :: L, x, hm, hu => by
    rw [List.foldl_cons]
    by_cases hL : n₀ ∈ L
    · exact foldl_hit hhit hmiss i' n₀ h₀ L (step x n) hL (fun n' hn' => hu n' (List.mem_cons_of_mem _ hn'))
    · have hn : n₀ = n := by
        rcases List.mem_cons.1 hm with e | e
        · exact e
        · exact absurd e hL
      subst hn
      rw [foldl_miss g step hmiss i' L (step x n₀)
        (fun n' hn' hg => hL ((hu n' (List.mem_cons_of_mem _ hn') hg) ▸ hn'))]
      exact hhit x n₀ i' h₀

end Fold

theorem concatenate_const {α : Type} (t : Shape) (a : Fin t.rank) (xs : List ((s : Shape) × (s.Idx → α)))
    (hcat : Shape.Concatenates (xs.map (·.1)) t a) (c : α) (hc : ∀ p ∈ xs, ∀ i, p.2 i = c) (j : t.Idx) :
    concatenate t a xs hcat j = c := by
  unfold concatenate
  exact hc _ (List.getElem_mem _) _

abbrev refScatter : ScatterDims S6144x6144 S2 S6142x6142 := Cert.ReferenceIdeal.scatter_S6144x6144_S2_S6142x6142_01_n_01_0

def landing (j : S6142x6142.Idx) : S6144x6144.Idx :=
  ix2 ⟨(j 0).val + 1, by have := idx2_lt0 j; omega⟩ ⟨(j 1).val + 1, by have := idx2_lt1 j; omega⟩

theorem landing_injective {j j' : S6142x6142.Idx} (e : landing j = landing j') : j = j' := by
  have e0 : (j 0).val + 1 = (j' 0).val + 1 := congrArg (fun i : S6144x6144.Idx => (i 0).val) e
  have e1 : (j 1).val + 1 = (j' 1).val + 1 := congrArg (fun i : S6144x6144.Idx => (i 1).val) e
  rw [eq_ix2 j, eq_ix2 j']
  have h0 : j 0 = j' 0 := Fin.ext (by omega)
  have h1 : j 1 = j' 1 := Fin.ext (by omega)
  rw [h0, h1]

theorem start_eq (idx : IVec S2 32) (hidx : ∀ k, idx k = 1#32) (j : S6142x6142.Idx) (a : Fin 2) :
    refScatter.start j idx a = 1 := by
  have ha : a ∈ refScatter.scatterDimsToOperandDims := by
    show a ∈ ([0, 1] : List (Fin 2))
    revert a; decide
  unfold ScatterDims.start
  rw [dif_pos ha, hidx]
  rfl

theorem window_eq0 (j : S6142x6142.Idx) : refScatter.window j 0 = (j 0).val := by
  have ha : (0 : Fin 2) ∈ refScatter.sKept := by decide
  unfold ScatterDims.window
  rw [dif_pos ha]
  rfl

theorem window_eq1 (j : S6142x6142.Idx) : refScatter.window j 1 = (j 1).val := by
  have ha : (1 : Fin 2) ∈ refScatter.sKept := by decide
  unfold ScatterDims.window
  rw [dif_pos ha]
  rfl

theorem resultIdx_eq (idx : IVec S2 32) (hidx : ∀ k, idx k = 1#32) (j : S6142x6142.Idx) :
    refScatter.resultIdx? j idx = some (landing j) := by
  have hs := start_eq idx hidx j
  have w0 := window_eq0 j
  have w1 := window_eq1 j
  have b0 := idx2_lt0 j
  have b1 := idx2_lt1 j
  have H : ∀ a, 0 ≤ refScatter.start j idx a + refScatter.window j a ∧ refScatter.start j idx a + refScatter.window j a < S6144x6144.size a := by
    refine Fin.forall_fin_two.2 ⟨?_, ?_⟩
    · rw [hs, w0]
      show (0 : Int) ≤ 1 + ((j 0).val : Int) ∧ 1 + ((j 0).val : Int) < ((6144 : ℕ) : Int)
      omega
    · rw [hs, w1]
      show (0 : Int) ≤ 1 + ((j 1).val : Int) ∧ 1 + ((j 1).val : Int) < ((6144 : ℕ) : Int)
      omega
  unfold ScatterDims.resultIdx?
  rw [dif_pos H]
  refine congrArg some (funext ?_)
  refine Fin.forall_fin_two.2 ⟨?_, ?_⟩
  · apply Fin.ext
    show (refScatter.start j idx 0 + refScatter.window j 0).toNat = (j 0).val + 1
    rw [hs, w0]; omega
  · apply Fin.ext
    show (refScatter.start j idx 1 + refScatter.window j 1).toNat = (j 1).val + 1
    rw [hs, w1]; omega

theorem scatter_hit (x0 : S6144x6144.Idx → EReal) (idx : IVec S2 32) (hidx : ∀ k, idx k = 1#32)
    (upd : S6142x6142.Idx → EReal) (j : S6142x6142.Idx) :
    Host.scatter refScatter (fun _ b => b) x0 idx upd (landing j) = upd j := by
  unfold Host.scatter
  refine (foldl_hit (fun n => refScatter.resultIdx? (S6142x6142.rowMajor.symm n) idx) (fun n => upd (S6142x6142.rowMajor.symm n)) _
    ?_ ?_ (landing j) (S6142x6142.rowMajor j) ?_ _ x0 (List.mem_finRange _) ?_).trans
    (congrArg upd (Equiv.symm_apply_apply _ _))
  · intro r n i hn
    dsimp only at hn ⊢
    rw [hn]
    exact if_pos rfl
  · intro r n i' hn
    dsimp only at hn ⊢
    generalize refScatter.resultIdx? (S6142x6142.rowMajor.symm n) idx = o at hn ⊢
    cases o with
    | none => rfl
    | some i₁ => exact if_neg (fun e => hn (congrArg some e.symm))
  · show refScatter.resultIdx? (S6142x6142.rowMajor.symm (S6142x6142.rowMajor j)) idx = some (landing j)
    rw [Equiv.symm_apply_apply]
    exact resultIdx_eq idx hidx j
  · intro n _ hn
    have hn' : refScatter.resultIdx? (S6142x6142.rowMajor.symm n) idx = some (landing j) := hn
    rw [resultIdx_eq idx hidx] at hn'
    have e := landing_injective (Option.some.inj hn')
    rw [← e, Equiv.apply_symm_apply]

theorem scatter_miss (x0 : S6144x6144.Idx → EReal) (idx : IVec S2 32) (hidx : ∀ k, idx k = 1#32)
    (upd : S6142x6142.Idx → EReal) (i : S6144x6144.Idx) (hi : ∀ j, landing j ≠ i) :
    Host.scatter refScatter (fun _ b => b) x0 idx upd i = x0 i := by
  unfold Host.scatter
  refine foldl_miss (fun n => refScatter.resultIdx? (S6142x6142.rowMajor.symm n) idx) _ ?_ i _ x0 ?_
  · intro r n i' hn
    dsimp only at hn ⊢
    generalize refScatter.resultIdx? (S6142x6142.rowMajor.symm n) idx = o at hn ⊢
    cases o with
    | none => rfl
    | some i₁ => exact if_neg (fun e => hn (congrArg some e.symm))
  · intro n _ hn
    have hn' : refScatter.resultIdx? (S6142x6142.rowMajor.symm n) idx = some i := hn
    rw [resultIdx_eq idx hidx] at hn'
    exact hi _ (Option.some.inj hn')

theorem indexVector_eq (k : S2.Idx) : Read.val_main_v21 (F := Ideal) k = 1#32 := by
  unfold Read.val_main_v21
  refine concatenate_const S2 0 _ _ 1#32 ?_ k
  intro p hp i
  simp only [List.mem_cons, List.not_mem_nil, or_false] at hp
  rcases hp with rfl | rfl
  · exact (Read.val_main_v19_apply (F := Ideal) i).trans (Read.val_main_c_apply (F := Ideal) _)
  · exact (Read.val_main_v20_apply (F := Ideal) i).trans (Read.val_main_c_4_apply (F := Ideal) _)

theorem get_at {n0 n1 : ℕ} (X : (⟨2, ![n0, n1]⟩ : Shape).Idx → EReal) (i : (⟨2, ![n0, n1]⟩ : Shape).Idx) (r c : ℕ)
    (hr : (i 0).val = r) (hc : (i 1).val = c) : Cert.Stencil.get X r c = X i := by
  subst hr hc
  unfold Cert.Stencil.get
  rw [dif_pos ⟨idx2_lt0 i, idx2_lt1 i⟩]
  exact congrArg X (eq_ix2 i).symm

theorem stencil_inner (X : SW.Idx → EReal) (a b : Fin 6144)
    (hin : ¬(a.val = 0 ∨ a.val = 6143 ∨ b.val = 0 ∨ b.val = 6143)) :
    stencil X (ix2 a b) = Cert.Stencil.h * X (ix2 a b) + Cert.Stencil.q * Cert.Stencil.get X (a.val - 1) b.val
      + Cert.Stencil.q * Cert.Stencil.get X (a.val + 1) b.val + Cert.Stencil.q * Cert.Stencil.get X a.val (b.val - 1)
      + Cert.Stencil.q * Cert.Stencil.get X a.val (b.val + 1) := by
  unfold stencil
  exact if_neg hin

theorem stencil_edge (X : SW.Idx → EReal) (a b : Fin 6144)
    (hed : a.val = 0 ∨ a.val = 6143 ∨ b.val = 0 ∨ b.val = 6143) : stencil X (ix2 a b) = X (ix2 a b) := by
  unfold stencil
  exact if_pos hed

theorem sum_at (x0 : S6144x6144.Idx → EReal) (j : S6142x6142.Idx) :
    Read.val_main_v18 (F := Ideal) x0 j
      = Cert.Stencil.h * x0 (Read.idx_main_v0 j) + Cert.Stencil.q * x0 (Read.idx_main_v3 j)
        + Cert.Stencil.q * x0 (Read.idx_main_v7 j) + Cert.Stencil.q * x0 (Read.idx_main_v11 j)
        + Cert.Stencil.q * x0 (Read.idx_main_v15 j) := by
  rw [Read.val_main_v18_apply, Read.val_main_v14_apply, Read.val_main_v10_apply, Read.val_main_v6_apply,
    Read.val_main_v2_apply, Read.val_main_v1_apply, Read.val_main_cst_apply, Read.val_main_v0_apply,
    Read.val_main_v5_apply, Read.val_main_v4_apply, Read.val_main_cst_0_apply, Read.val_main_v3_apply,
    Read.val_main_v9_apply, Read.val_main_v8_apply, Read.val_main_cst_1_apply, Read.val_main_v7_apply,
    Read.val_main_v13_apply, Read.val_main_v12_apply, Read.val_main_cst_2_apply, Read.val_main_v11_apply,
    Read.val_main_v17_apply, Read.val_main_v16_apply, Read.val_main_cst_3_apply, Read.val_main_v15_apply]
  rfl

-- The reference scatters the weighted sum of five shifted slices into the interior and keeps the edge: the stencil.
theorem ref_value (x0 : S6144x6144.Idx → EReal) : Read.val_main_v22 (F := Ideal) x0 = stencil x0 := by
  funext i
  obtain ⟨a, b, rfl⟩ : ∃ (a b : Fin 6144), i = ix2 a b := ⟨i 0, i 1, eq_ix2 i⟩
  unfold Read.val_main_v22
  have ha := a.isLt
  have hb := b.isLt
  by_cases hed : a.val = 0 ∨ a.val = 6143 ∨ b.val = 0 ∨ b.val = 6143
  · rw [stencil_edge x0 a b hed]
    refine scatter_miss x0 _ indexVector_eq _ (ix2 a b) (fun j e => ?_)
    have e0 : (j 0).val + 1 = a.val := congrArg (fun i : S6144x6144.Idx => (i 0).val) e
    have e1 : (j 1).val + 1 = b.val := congrArg (fun i : S6144x6144.Idx => (i 1).val) e
    have b0 := idx2_lt0 j
    have b1 := idx2_lt1 j
    omega
  · have hj : ∃ j : S6142x6142.Idx, (j 0).val + 1 = a.val ∧ (j 1).val + 1 = b.val :=
      ⟨ix2 ⟨a.val - 1, by omega⟩ ⟨b.val - 1, by omega⟩, by show a.val - 1 + 1 = a.val; omega, by show b.val - 1 + 1 = b.val; omega⟩
    obtain ⟨j, j0, j1⟩ := hj
    have hs : landing j = ix2 a b := by
      refine funext (Fin.forall_fin_two.2 ⟨Fin.ext ?_, Fin.ext ?_⟩)
      · exact j0
      · exact j1
    have hc : Read.idx_main_v0 j = ix2 a b := by
      refine funext (Fin.forall_fin_two.2 ⟨Fin.ext ?_, Fin.ext ?_⟩)
      · show 1 + (j 0).val = a.val; omega
      · show 1 + (j 1).val = b.val; omega
    rw [← hs, scatter_hit x0 _ indexVector_eq _ j, hs, sum_at, hc, stencil_inner x0 a b hed,
      get_at x0 (Read.idx_main_v3 j) (a.val - 1) b.val (by show (j 0).val = a.val - 1; omega) (by show 1 + (j 1).val = b.val; omega),
      get_at x0 (Read.idx_main_v7 j) (a.val + 1) b.val (by show 2 + (j 0).val = a.val + 1; omega) (by show 1 + (j 1).val = b.val; omega),
      get_at x0 (Read.idx_main_v11 j) a.val (b.val - 1) (by show 1 + (j 0).val = a.val; omega) (by show (j 1).val = b.val - 1; omega),
      get_at x0 (Read.idx_main_v15 j) a.val (b.val + 1) (by show 1 + (j 0).val = a.val; omega) (by show 2 + (j 1).val = b.val + 1; omega)]

end Auxiliary

theorem ofBits_inf : Ideal.ofBits .f32 0x7F800000#32 = (⊤ : EReal) := by
  simp [Ideal.ofBits, Ideal.ieee]

theorem real_of_abs_lt_top (x : EReal) (hx : max x (-x) < ⊤) : ∃ y : ℝ, x = (y : EReal) := by
  induction x using EReal.rec with
  | bot => simp at hx
  | coe y => exact ⟨y, rfl⟩
  | top => simp at hx

theorem ref_run
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v22)
          = stencil (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) := by
  exact (θ_run (Cert.ReferenceIdeal.defs (F := Ideal)) _ _).mono
    (fun _ hr => ⟨((hr 0).1.trans (Cert.ReferenceIdeal.Read.val_main_v22_eq (F := Ideal) _)).trans (ref_value _), (hr 0).2⟩)
    (Cert.ReferenceIdeal.Value.run (F := Ideal) m' g')

theorem pre_finite [Cert.Pre_finite_inputs_Kernel.Facts] (B : SB.Idx → EReal)
    (hB : Cert.Pre_finite_inputs_Kernel.fn (F := Ideal) B = fun _ => 1#1) : ∀ i, ∃ x : ℝ, B i = (x : EReal) := by
  intro i
  haveI : Subsingleton Cert.Pre_finite_inputs_Kernel.S_.Idx := ⟨fun _ _ => funext fun d => d.elim0⟩
  have h0 := congrFun hB ValueIdx.ix0
  dsimp only [Cert.Pre_finite_inputs_Kernel.fn] at h0
  have h1 := Host.reduce_andi_all _ _ _ _ _ h0 i
  have h2 : Ideal.cmp .olt (max (B i) (-(B i))) (Ideal.ofBits .f32 0x7F800000#32) = 1#1 := h1
  rw [ofBits_inf] at h2
  refine real_of_abs_lt_top (B i) ?_
  by_contra hn
  have h3 : Ideal.cmp .olt (max (B i) (-(B i))) ⊤ = 0#1 := by simp [Ideal.cmp, hn]
  rw [h3] at h2
  exact absurd h2 (by decide)

end Cert.RefSide

end
-- ==== Proof.BlockAlg.lean ====
import proofs.«900195_g7700000000000196_dist_halo2d_stencil_xy_m3072_n3072_v7x_xy2x2_f32_1_alg».proof.Proof.Spec

noncomputable section

namespace Cert.Stencil

open Idealize.ShloMosaic

theorem get_of_lt {n0 n1 : ℕ} (X : (⟨2, ![n0, n1]⟩ : Shape).Idx → EReal) (r c : ℕ) (hr : r < n0) (hc : c < n1) :
    get X r c = X (ValueIdx.ix2 ⟨r, hr⟩ ⟨c, hc⟩) := dif_pos ⟨hr, hc⟩

theorem get_self {n0 n1 : ℕ} (X : (⟨2, ![n0, n1]⟩ : Shape).Idx → EReal) (i : (⟨2, ![n0, n1]⟩ : Shape).Idx) :
    get X (i 0).val (i 1).val = X i := by
  rw [get_of_lt X _ _ (ValueIdx.idx2_lt0 i) (ValueIdx.idx2_lt1 i)]
  exact congrArg X (ValueIdx.eq_ix2 i).symm

theorem get_real {n0 n1 : ℕ} (X : (⟨2, ![n0, n1]⟩ : Shape).Idx → EReal) (hfin : ∀ i, ∃ x : ℝ, X i = (x : EReal))
    (r c : ℕ) : ∃ x : ℝ, get X r c = (x : EReal) := by
  unfold get
  split
  · exact hfin _
  · exact ⟨0, EReal.coe_zero.symm⟩

theorem meshBlock_row (d : Fin 4) : ((Layout.meshBlock [2, 2] ![[0], [1]] d) 0).val = d.val / 2 := by
  revert d; decide

theorem meshBlock_col (d : Fin 4) : ((Layout.meshBlock [2, 2] ![[0], [1]] d) 1).val = d.val % 2 := by
  revert d; decide

theorem blk_apply (X : SW.Idx → EReal) (d : Fin 4) (i : SB.Idx) :
    blk X d i = get X (3072 * (d.val / 2) + (i 0).val) (3072 * (d.val % 2) + (i 1).val) := by
  have h0 : (i 0).val < 3072 := ValueIdx.idx2_lt0 i
  have h1 : (i 1).val < 3072 := ValueIdx.idx2_lt1 i
  have hd : d.val < 4 := d.isLt
  have hR : 3072 * (d.val / 2) + (i 0).val < 6144 := by omega
  have hC : 3072 * (d.val % 2) + (i 1).val < 6144 := by omega
  rw [get_of_lt X _ _ hR hC]
  unfold blk
  rw [Layout.blockN_apply]
  refine congrArg X (funext fun a => Fin.ext ?_)
  match a with
  | ⟨0, _⟩ =>
    show ((Layout.meshBlock [2, 2] ![[0], [1]] d) 0).val * 3072 + (i 0).val = 3072 * (d.val / 2) + (i 0).val
    rw [meshBlock_row]; omega
  | ⟨1, _⟩ =>
    show ((Layout.meshBlock [2, 2] ![[0], [1]] d) 1).val * 3072 + (i 1).val = 3072 * (d.val % 2) + (i 1).val
    rw [meshBlock_col]; omega

theorem get_blk (X : SW.Idx → EReal) (d : Fin 4) (r c : ℕ) (hr : r < 3072) (hc : c < 3072) :
    get (blk X d) r c = get X (3072 * (d.val / 2) + r) (3072 * (d.val % 2) + c) := by
  rw [get_of_lt (blk X d) r c hr hc, blk_apply]

theorem get_rowsOf (B : SB.Idx → EReal) (r0 k c : ℕ) (hk : k < 8) (hc : c < 3072) :
    get (rowsOf B r0) k c = get B (r0 + k) c := by
  rw [get_of_lt (rowsOf B r0) k c hk hc]; rfl

theorem get_colsOf (B : SB.Idx → EReal) (c0 r k : ℕ) (hr : r < 3072) (hk : k < 128) :
    get (colsOf B c0) r k = get B r (c0 + k) := by
  rw [get_of_lt (colsOf B c0) r k hr hk]; rfl

theorem get_stencil (X : SW.Idx → EReal) (R C : ℕ) (hR : R < 6144) (hC : C < 6144) :
    get (stencil X) R C =
      if R = 0 ∨ R = 6143 ∨ C = 0 ∨ C = 6143 then get X R C
      else h * get X R C + q * get X (R - 1) C + q * get X (R + 1) C + q * get X R (C - 1) + q * get X R (C + 1) := by
  rw [get_of_lt (stencil X) R C hR hC, get_of_lt X R C hR hC]; rfl

theorem vnb_div (d : Fin 4) : (vnb d).val / 2 = 1 - d.val / 2 := by
  have hd : d.val < 4 := d.isLt
  show ((1 - d.val / 2) * 2 + d.val % 2) / 2 = 1 - d.val / 2
  omega

theorem vnb_mod (d : Fin 4) : (vnb d).val % 2 = d.val % 2 := by
  have hd : d.val < 4 := d.isLt
  show ((1 - d.val / 2) * 2 + d.val % 2) % 2 = d.val % 2
  omega

theorem hnb_div (d : Fin 4) : (hnb d).val / 2 = d.val / 2 := by
  have hd : d.val < 4 := d.isLt
  show ((d.val / 2) * 2 + (1 - d.val % 2)) / 2 = d.val / 2
  omega

theorem hnb_mod (d : Fin 4) : (hnb d).val % 2 = 1 - d.val % 2 := by
  have hd : d.val < 4 := d.isLt
  show ((d.val / 2) * 2 + (1 - d.val % 2)) % 2 = 1 - d.val % 2
  omega

theorem roff_vnb_low (d : Fin 4) (hd1 : d.val / 2 = 1) : roff (vnb d) = 3064 := by
  unfold roff; rw [if_pos (by rw [vnb_div]; omega)]

theorem roff_vnb_up (d : Fin 4) (hd0 : d.val / 2 = 0) : roff (vnb d) = 0 := by
  unfold roff; rw [if_neg (by rw [vnb_div]; omega)]

theorem coff_hnb_right (d : Fin 4) (hd1 : d.val % 2 = 1) : coff (hnb d) = 2944 := by
  unfold coff; rw [if_pos (by rw [hnb_mod]; omega)]

theorem coff_hnb_left (d : Fin 4) (hd0 : d.val % 2 = 0) : coff (hnb d) = 0 := by
  unfold coff; rw [if_neg (by rw [hnb_mod]; omega)]

theorem north_eq (X : SW.Idx → EReal) (d : Fin 4) (r c : ℕ) (hr : r < 3072) (hc : c < 3072)
    (hne : ¬(d.val / 2 = 0 ∧ r = 0)) :
    (if r = 0 then get (rowsOf (blk X (vnb d)) (roff (vnb d))) 7 c else get (blk X d) (r - 1) c)
      = get X (3072 * (d.val / 2) + r - 1) (3072 * (d.val % 2) + c) := by
  have hd : d.val < 4 := d.isLt
  by_cases hr0 : r = 0
  · have hd1 : d.val / 2 = 1 := by omega
    rw [if_pos hr0, get_rowsOf _ _ 7 c (by norm_num) hc, roff_vnb_low d hd1,
      get_blk X (vnb d) (3064 + 7) c (by norm_num) hc, vnb_div, vnb_mod]
    congr 1 <;> omega
  · rw [if_neg hr0, get_blk X d (r - 1) c (by omega) hc]
    congr 1 <;> omega

theorem south_eq (X : SW.Idx → EReal) (d : Fin 4) (r c : ℕ) (hr : r < 3072) (hc : c < 3072)
    (hne : ¬(d.val / 2 = 1 ∧ r = 3071)) :
    (if r = 3071 then get (rowsOf (blk X (vnb d)) (roff (vnb d))) 0 c else get (blk X d) (r + 1) c)
      = get X (3072 * (d.val / 2) + r + 1) (3072 * (d.val % 2) + c) := by
  have hd : d.val < 4 := d.isLt
  by_cases hr1 : r = 3071
  · have hd0 : d.val / 2 = 0 := by omega
    rw [if_pos hr1, get_rowsOf _ _ 0 c (by norm_num) hc, roff_vnb_up d hd0,
      get_blk X (vnb d) (0 + 0) c (by norm_num) hc, vnb_div, vnb_mod]
    congr 1 <;> omega
  · rw [if_neg hr1, get_blk X d (r + 1) c (by omega) hc]
    congr 1 <;> omega

theorem west_eq (X : SW.Idx → EReal) (d : Fin 4) (r c : ℕ) (hr : r < 3072) (hc : c < 3072)
    (hne : ¬(d.val % 2 = 0 ∧ c = 0)) :
    (if c = 0 then get (colsOf (blk X (hnb d)) (coff (hnb d))) r 127 else get (blk X d) r (c - 1))
      = get X (3072 * (d.val / 2) + r) (3072 * (d.val % 2) + c - 1) := by
  have hd : d.val < 4 := d.isLt
  by_cases hc0 : c = 0
  · have hd1 : d.val % 2 = 1 := by omega
    rw [if_pos hc0, get_colsOf _ _ r 127 hr (by norm_num), coff_hnb_right d hd1,
      get_blk X (hnb d) r (2944 + 127) hr (by norm_num), hnb_div, hnb_mod]
    congr 1 <;> omega
  · rw [if_neg hc0, get_blk X d r (c - 1) hr (by omega)]
    congr 1 <;> omega

theorem east_eq (X : SW.Idx → EReal) (d : Fin 4) (r c : ℕ) (hr : r < 3072) (hc : c < 3072)
    (hne : ¬(d.val % 2 = 1 ∧ c = 3071)) :
    (if c = 3071 then get (colsOf (blk X (hnb d)) (coff (hnb d))) r 0 else get (blk X d) r (c + 1))
      = get X (3072 * (d.val / 2) + r) (3072 * (d.val % 2) + c + 1) := by
  have hd : d.val < 4 := d.isLt
  by_cases hc1 : c = 3071
  · have hd0 : d.val % 2 = 0 := by omega
    rw [if_pos hc1, get_colsOf _ _ r 0 hr (by norm_num), coff_hnb_left d hd0,
      get_blk X (hnb d) r (0 + 0) hr (by norm_num), hnb_div, hnb_mod]
    congr 1 <;> omega
  · rw [if_neg hc1, get_blk X d r (c + 1) hr (by omega)]
    congr 1 <;> omega

theorem h_real : ∃ x : ℝ, h = (x : EReal) := by
  unfold h; simp [Ideal.ofBits, Ideal.ieee, -EReal.coe_mul]

theorem q_real : ∃ x : ℝ, q = (x : EReal) := by
  unfold q; simp [Ideal.ofBits, Ideal.ieee, -EReal.coe_mul]

-- On real numbers, weighting the sum of the four neighbours once is weighting each and adding.
theorem weigh_once (x n s w e : EReal) (hx : ∃ t : ℝ, x = (t : EReal)) (hn : ∃ t : ℝ, n = (t : EReal))
    (hs : ∃ t : ℝ, s = (t : EReal)) (hw : ∃ t : ℝ, w = (t : EReal)) (he : ∃ t : ℝ, e = (t : EReal)) :
    h * x + q * ((((n + s) + w) + e)) = h * x + q * n + q * s + q * w + q * e := by
  obtain ⟨a, ha⟩ := h_real
  obtain ⟨b, hb⟩ := q_real
  obtain ⟨x, rfl⟩ := hx
  obtain ⟨n, rfl⟩ := hn
  obtain ⟨s, rfl⟩ := hs
  obtain ⟨w, rfl⟩ := hw
  obtain ⟨e, rfl⟩ := he
  rw [ha, hb]
  norm_cast
  ring

theorem blockResult_apply (a b : ℕ) (Xc : SB.Idx → EReal) (RH : SR.Idx → EReal) (CH : SC.Idx → EReal) (i : SB.Idx) :
    blockResult a b Xc RH CH i =
      if (a = 0 ∧ (i 0).val = 0) ∨ (a = 1 ∧ (i 0).val = 3071) ∨ (b = 0 ∧ (i 1).val = 0) ∨ (b = 1 ∧ (i 1).val = 3071)
      then Xc i
      else
        h * Xc i + q * ((((if (i 0).val = 0 then get RH 7 (i 1).val else get Xc ((i 0).val - 1) (i 1).val)
          + (if (i 0).val = 3071 then get RH 0 (i 1).val else get Xc ((i 0).val + 1) (i 1).val))
          + (if (i 1).val = 0 then get CH (i 0).val 127 else get Xc (i 0).val ((i 1).val - 1)))
          + (if (i 1).val = 3071 then get CH (i 0).val 0 else get Xc (i 0).val ((i 1).val + 1))) := rfl

theorem fin_of_blocks (X : SW.Idx → EReal) (hb : ∀ (d : Fin 4) (i : SB.Idx), ∃ x : ℝ, blk X d i = (x : EReal)) :
    ∀ i, ∃ x : ℝ, X i = (x : EReal) := by
  intro i
  have hR : (i 0).val < 6144 := ValueIdx.idx2_lt0 i
  have hC : (i 1).val < 6144 := ValueIdx.idx2_lt1 i
  obtain ⟨x, hx⟩ := hb ⟨2 * ((i 0).val / 3072) + (i 1).val / 3072, by omega⟩
    (ValueIdx.ix2 ⟨(i 0).val % 3072, Nat.mod_lt _ (by norm_num)⟩ ⟨(i 1).val % 3072, Nat.mod_lt _ (by norm_num)⟩)
  refine ⟨x, ?_⟩
  rw [← hx, blk_apply, ← get_self X i]
  show get X (i 0).val (i 1).val
    = get X (3072 * ((2 * ((i 0).val / 3072) + (i 1).val / 3072) / 2) + (i 0).val % 3072)
        (3072 * ((2 * ((i 0).val / 3072) + (i 1).val / 3072) % 2) + (i 1).val % 3072)
  congr 1 <;> omega

-- Fed its block and its neighbours' strips, the per-block form is the block of the whole-array stencil.
theorem blockResult_eq_block (X : SW.Idx → EReal) (hfin : ∀ i, ∃ x : ℝ, X i = (x : EReal)) (d : Fin 4) :
    blockResult (d.val / 2) (d.val % 2) (blk X d) (rowsOf (blk X (vnb d)) (roff (vnb d))) (colsOf (blk X (hnb d)) (coff (hnb d)))
      = blk (stencil X) d := by
  funext i
  have hr : (i 0).val < 3072 := ValueIdx.idx2_lt0 i
  have hc : (i 1).val < 3072 := ValueIdx.idx2_lt1 i
  have hd : d.val < 4 := d.isLt
  have hR : 3072 * (d.val / 2) + (i 0).val < 6144 := by omega
  have hC : 3072 * (d.val % 2) + (i 1).val < 6144 := by omega
  rw [blockResult_apply, blk_apply (stencil X) d i, get_stencil X _ _ hR hC]
  by_cases hE : (d.val / 2 = 0 ∧ (i 0).val = 0) ∨ (d.val / 2 = 1 ∧ (i 0).val = 3071)
      ∨ (d.val % 2 = 0 ∧ (i 1).val = 0) ∨ (d.val % 2 = 1 ∧ (i 1).val = 3071)
  · have hE' : 3072 * (d.val / 2) + (i 0).val = 0 ∨ 3072 * (d.val / 2) + (i 0).val = 6143
        ∨ 3072 * (d.val % 2) + (i 1).val = 0 ∨ 3072 * (d.val % 2) + (i 1).val = 6143 := by omega
    rw [if_pos hE, if_pos hE', blk_apply X d i]
  · have hE' : ¬(3072 * (d.val / 2) + (i 0).val = 0 ∨ 3072 * (d.val / 2) + (i 0).val = 6143
        ∨ 3072 * (d.val % 2) + (i 1).val = 0 ∨ 3072 * (d.val % 2) + (i 1).val = 6143) := by omega
    rw [if_neg hE, if_neg hE', north_eq X d _ _ hr hc (by omega), south_eq X d _ _ hr hc (by omega),
      west_eq X d _ _ hr hc (by omega), east_eq X d _ _ hr hc (by omega), blk_apply X d i]
    exact weigh_once _ _ _ _ _ (get_real X hfin _ _) (get_real X hfin _ _) (get_real X hfin _ _)
      (get_real X hfin _ _) (get_real X hfin _ _)

end Cert.Stencil

end
-- ==== Proof.Bridge.lean ====
import proofs.«900195_g7700000000000196_dist_halo2d_stencil_xy_m3072_n3072_v7x_xy2x2_f32_1_alg».proof.Proof.StateKernelIdeal
import proofs.«900195_g7700000000000196_dist_halo2d_stencil_xy_m3072_n3072_v7x_xy2x2_f32_1_alg».proof.Proof.BlockAlg

noncomputable section

namespace Cert.KernelIdealProof

open Cert.KernelIdeal Cert.KernelIdeal.Gen
open Idealize.ShloMosaic Idealize.ShloMosaic.TcCoe
open Cert.Stencil

variable (m : (ℓ : Loc nD τ sig) → Buf (Elt Ideal) ℓ)

theorem vn_vnb (c : Dev nD) : vn c = vnb c := by
  revert c; decide
theorem hn_hnb (c : Dev nD) : hn c = hnb c := by
  revert c; decide

theorem sentRows_rows (d : Dev nD) : sentRows m d = rowsOf (X m d) (roff d) := by
  refine funext fun (i : SR.Idx) => ?_
  have h0 : (i 0).val < 8 := ValueIdx.idx2_lt0 i
  have h1 : (i 1).val < 3072 := ValueIdx.idx2_lt1 i
  have hoff : roff d + (i 0).val < 3072 := by unfold roff; split <;> omega
  show X m d ((Rect.unit (s := S3072x3072) (k0_off1 d) S8x3072.size (k0_off1_inb d)).emb i)
    = get (X m d) (roff d + (i 0).val) (i 1).val
  rw [get_of_lt (X m d) _ _ hoff h1]
  refine congrArg (X m d) (funext (Fin.forall_fin_two.2 ⟨Fin.ext ?_, Fin.ext ?_⟩))
  · show (k0_off1 d) 0 + 1 * (i 0).val = roff d + (i 0).val
    rw [k0_off1_eq]
    show (if d.val / 2 = 0 then 3064 else 0) + 1 * (i 0).val = (if d.val / 2 = 0 then 3064 else 0) + (i 0).val
    omega
  · show (k0_off1 d) 1 + 1 * (i 1).val = (i 1).val
    rw [k0_off1_eq]
    show 0 + 1 * (i 1).val = (i 1).val
    omega
theorem sentCols_cols (d : Dev nD) : sentCols m d = colsOf (X m d) (coff d) := by
  refine funext fun (i : SC.Idx) => ?_
  have h0 : (i 0).val < 3072 := ValueIdx.idx2_lt0 i
  have h1 : (i 1).val < 128 := ValueIdx.idx2_lt1 i
  have hoff : coff d + (i 1).val < 3072 := by unfold coff; split <;> omega
  show X m d ((Rect.unit (s := S3072x3072) (k0_off2 d) S3072x128.size (k0_off2_inb d)).emb i)
    = get (X m d) (i 0).val (coff d + (i 1).val)
  rw [get_of_lt (X m d) _ _ h0 hoff]
  refine congrArg (X m d) (funext (Fin.forall_fin_two.2 ⟨Fin.ext ?_, Fin.ext ?_⟩))
  · show (k0_off2 d) 0 + 1 * (i 0).val = (i 0).val
    rw [k0_off2_eq]
    show 0 + 1 * (i 0).val = (i 0).val
    omega
  · show (k0_off2 d) 1 + 1 * (i 1).val = coff d + (i 1).val
    rw [k0_off2_eq]
    show (if d.val % 2 = 0 then 2944 else 0) + 1 * (i 1).val = (if d.val % 2 = 0 then 2944 else 0) + (i 1).val
    omega

theorem kernel_value (Xw : SW.Idx → EReal)
    (hagree : ∀ c : Dev nD, m ((c : Thread nD τ).loc main_arg0) = blk Xw c)
    (hfin : ∀ (c : Dev nD) (i : SB.Idx), ∃ x : ℝ, m ((c : Thread nD τ).loc main_arg0) i = (x : EReal))
    (hout : ∀ (c : Dev nD) (x : Buf (Elt Ideal) ((c : Thread nD τ).loc main_arg0))
        (rh : Buf (Elt Ideal) ((c : Thread nD τ).loc cc0_scratch2)) (ch : Buf (Elt Ideal) ((c : Thread nD τ).loc cc0_scratch3)),
        outOf (F := Ideal) c x rh ch = blockResult (c.val / 2) (c.val % 2) x rh ch)
    (c : Dev nD) : OUT (F := Ideal) m c = blk (stencil Xw) c := by
  have hX : ∀ d : Dev nD, X m d = blk Xw d := fun d => hagree d
  have hreal : ∀ (d : Fin 4) (i : SB.Idx), ∃ x : ℝ, blk Xw d i = (x : EReal) := fun d i => by
    rw [← hagree d]; exact hfin d i
  show outOf c (X m c) (sentRows m (vn c)) (sentCols m (hn c)) = blk (stencil Xw) c
  rw [hout, sentRows_rows, sentCols_cols, vn_vnb, hn_hnb, hX c, hX (vnb c), hX (hnb c)]
  exact blockResult_eq_block Xw (fin_of_blocks Xw hreal) c

end Cert.KernelIdealProof

end
-- ==== Proof.OutIdeal.lean ====
import proofs.«900195_g7700000000000196_dist_halo2d_stencil_xy_m3072_n3072_v7x_xy2x2_f32_1_alg».proof.Proof.StateKernelIdeal
import proofs.«900195_g7700000000000196_dist_halo2d_stencil_xy_m3072_n3072_v7x_xy2x2_f32_1_alg».proof.Proof.BlockAlg

noncomputable section

namespace Cert.KernelIdealProof

open Cert.KernelIdeal Cert.KernelIdeal.Gen
open Idealize.ShloMosaic Idealize.ShloMosaic.TcCoe
open Cert.Stencil

theorem entry_eq_get {n0 n1 : ℕ} (A : (⟨2, ![n0, n1]⟩ : Shape).Idx → EReal) (d : EReal) (r k : ℕ)
    (hr : r < n0) (hk : k < n1) : entry (F := Ideal) A d r k = Cert.Stencil.get A r k := by
  unfold entry Cert.Stencil.get
  rw [dif_pos ⟨hr, hk⟩, dif_pos ⟨hr, hk⟩]

theorem outOf_ideal (c : Dev nD) (x : Buf (Elt Ideal) ((c : Thread nD τ).loc main_arg0))
    (rh : Buf (Elt Ideal) ((c : Thread nD τ).loc cc0_scratch2)) (ch : Buf (Elt Ideal) ((c : Thread nD τ).loc cc0_scratch3)) :
    outOf (F := Ideal) c x rh ch = Cert.Stencil.blockResult (c.val / 2) (c.val % 2) x rh ch := by
  refine funext fun (i : SB.Idx) => ?_
  have hr : (i 0).val < 3072 := ValueIdx.idx2_lt0 i
  have hk : (i 1).val < 3072 := ValueIdx.idx2_lt1 i
  rw [blockResult_apply]
  unfold outOf
  refine ite_congr rfl (fun _ => rfl) (fun hE => ?_)
  refine congrArg₂ (· + ·) rfl (congrArg₂ (· * ·) rfl
    (congrArg₂ (· + ·) (congrArg₂ (· + ·) (congrArg₂ (· + ·) ?_ ?_) ?_) ?_))
  · exact ite_congr rfl (fun _ => entry_eq_get _ _ _ _ (by norm_num) hk) (fun _ => entry_eq_get _ _ _ _ (by omega) hk)
  · exact ite_congr rfl (fun _ => entry_eq_get _ _ _ _ (by norm_num) hk) (fun hne => entry_eq_get _ _ _ _ (by omega) hk)
  · exact ite_congr rfl (fun _ => entry_eq_get _ _ _ _ hr (by norm_num)) (fun _ => entry_eq_get _ _ _ _ hr (by omega))
  · exact ite_congr rfl (fun _ => entry_eq_get _ _ _ _ hr (by norm_num)) (fun hne => entry_eq_get _ _ _ _ hr (by omega))

end Cert.KernelIdealProof

end
-- ==== Proof.lean ====
import proofs.«900195_g7700000000000196_dist_halo2d_stencil_xy_m3072_n3072_v7x_xy2x2_f32_1_alg».proof.Defs
import proofs.«900195_g7700000000000196_dist_halo2d_stencil_xy_m3072_n3072_v7x_xy2x2_f32_1_alg».proof.Proof.Gen.Kernel
import proofs.«900195_g7700000000000196_dist_halo2d_stencil_xy_m3072_n3072_v7x_xy2x2_f32_1_alg».proof.Proof.Gen.Kernel.Skeleton
import proofs.«900195_g7700000000000196_dist_halo2d_stencil_xy_m3072_n3072_v7x_xy2x2_f32_1_alg».proof.Proof.Gen.Kernel.Launch
import proofs.«900195_g7700000000000196_dist_halo2d_stencil_xy_m3072_n3072_v7x_xy2x2_f32_1_alg».proof.Proof.Gen.Kernel.Points
import proofs.«900195_g7700000000000196_dist_halo2d_stencil_xy_m3072_n3072_v7x_xy2x2_f32_1_alg».proof.Proof.Gen.Kernel.Frame
import proofs.«900195_g7700000000000196_dist_halo2d_stencil_xy_m3072_n3072_v7x_xy2x2_f32_1_alg».proof.Proof.Gen.KernelIdeal
import proofs.«900195_g7700000000000196_dist_halo2d_stencil_xy_m3072_n3072_v7x_xy2x2_f32_1_alg».proof.Proof.Gen.KernelIdeal.Skeleton
import proofs.«900195_g7700000000000196_dist_halo2d_stencil_xy_m3072_n3072_v7x_xy2x2_f32_1_alg».proof.Proof.Gen.KernelIdeal.Launch
import proofs.«900195_g7700000000000196_dist_halo2d_stencil_xy_m3072_n3072_v7x_xy2x2_f32_1_alg».proof.Proof.Gen.KernelIdeal.Points
import proofs.«900195_g7700000000000196_dist_halo2d_stencil_xy_m3072_n3072_v7x_xy2x2_f32_1_alg».proof.Proof.Gen.KernelIdeal.Frame
import proofs.«900195_g7700000000000196_dist_halo2d_stencil_xy_m3072_n3072_v7x_xy2x2_f32_1_alg».proof.Proof.Gen.ReferenceIdeal
import proofs.«900195_g7700000000000196_dist_halo2d_stencil_xy_m3072_n3072_v7x_xy2x2_f32_1_alg».proof.Proof.Gen.Pre_finite_inputs_Kernel
import proofs.«900195_g7700000000000196_dist_halo2d_stencil_xy_m3072_n3072_v7x_xy2x2_f32_1_alg».proof.Proof.Gen.Pre_finite_inputs_ReferenceIdeal
import proofs.«900195_g7700000000000196_dist_halo2d_stencil_xy_m3072_n3072_v7x_xy2x2_f32_1_alg».proof.Proof.BodyAllKernel
import proofs.«900195_g7700000000000196_dist_halo2d_stencil_xy_m3072_n3072_v7x_xy2x2_f32_1_alg».proof.Proof.LaunchKernel
import proofs.«900195_g7700000000000196_dist_halo2d_stencil_xy_m3072_n3072_v7x_xy2x2_f32_1_alg».proof.Proof.BodyAllKernelIdeal
import proofs.«900195_g7700000000000196_dist_halo2d_stencil_xy_m3072_n3072_v7x_xy2x2_f32_1_alg».proof.Proof.LaunchKernelIdeal
import proofs.«900195_g7700000000000196_dist_halo2d_stencil_xy_m3072_n3072_v7x_xy2x2_f32_1_alg».proof.Proof.RefSide
import proofs.«900195_g7700000000000196_dist_halo2d_stencil_xy_m3072_n3072_v7x_xy2x2_f32_1_alg».proof.Proof.Bridge
import proofs.«900195_g7700000000000196_dist_halo2d_stencil_xy_m3072_n3072_v7x_xy2x2_f32_1_alg».proof.Proof.OutIdeal
import Idealize.ShloMosaic.Adequacy
import Idealize.ShloMosaic.Init

noncomputable section

namespace Cert.Proof

open Idealize.ShloMosaic Idealize.SL.Sem

theorem frame_k : Cert.frame_Kernel := fun m ρ _ =>
  Cert.KernelProof.run_main_of m ρ (Cert.KernelProof.sound_body m)

theorem frame_ki : Cert.frame_KernelIdeal := fun m ρ _ =>
  (θ_run _ _ _).mono (fun _ h c => (h c).2) (Cert.KernelIdealProof.run_main_of m ρ (Cert.KernelIdealProof.sound_body m))

theorem frame_ri : Cert.frame_ReferenceIdeal := fun m' g' _ =>
  (θ_run _ _ _).mono (fun _ h c => by rw [Subsingleton.elim c 0]; exact h.2) (Cert.RefSide.ref_run m' g')

theorem algebraic : Cert.algebraic_KernelIdeal_ReferenceIdeal := by
  intro m g m' g' hpre hagree
  refine ⟨Cert.Stencil.stencil (m' (((0 : Dev Cert.ReferenceIdeal.nD).tc : Thread Cert.ReferenceIdeal.nD Cert.ReferenceIdeal.τ).loc Cert.ReferenceIdeal.main_arg0)), ?_,
    Cert.RefSide.ref_run m' g'⟩
  refine (θ_run _ _ _).mono (fun r h c => ⟨(h c).1.trans ?_, (h c).2⟩)
    (Cert.KernelIdealProof.run_main_of m g (Cert.KernelIdealProof.sound_body m))
  exact Cert.KernelIdealProof.kernel_value m _ hagree (fun d i => Cert.RefSide.pre_finite _ (hpre d) i)
    Cert.KernelIdealProof.outOf_ideal c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
